-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part6 {F : FTy → Type} [FloatOps F] (main_arg21 : FVec F S2048 .f32) (main_v98 : IVec S_ 1) (main_v101 : IVec S2048x2048 1) (main_c_39 : IVec S_ 1) : IVec S_ 1 :=
  let main_v102 : IVec S_ 1 := (fun x v => Host.reduce IntOp.andi x v reducesTo_S2048x2048_S_d0_1 h_S_) main_v101 main_c_39
  let main_v103 : IVec S_ 1 := andi main_v98 main_v102
  let main_v104 : FVec F S2048 .f32 := Host.absf main_arg21
  let main_cst_40 : FVec F S_ .f32 := constant S_ .f32 0x7F800000#32
  let main_v105 : FVec F S2048 .f32 := broadcastInDim S2048 ![] bcast_S_S2048 main_cst_40
  let main_v106 : IVec S2048 1 := cmpf .olt main_v104 main_v105
  let main_c_41 : IVec S_ 1 := constantI S_ 1 1#1
  let main_v107 : IVec S_ 1 := (fun x v => Host.reduce IntOp.andi x v reducesTo_S2048_S_d0 h_S_) main_v106 main_c_41
  let main_v108 : IVec S_ 1 := andi main_v103 main_v107
  main_v108

def fn_part5 {F : FTy → Type} [FloatOps F] (main_arg18 : FVec F S2048x2048 .f32) (main_arg19 : FVec F S2048 .f32) (main_arg20 : FVec F S2048x2048 .f32) (main_arg21 : FVec F S2048 .f32) (main_v83 : IVec S_ 1) (main_v84 : FVec F S2048 .f32) (main_cst_32 : FVec F S_ .f32) : IVec S_ 1 :=
  let main_v85 : FVec F S2048 .f32 := broadcastInDim S2048 ![] bcast_S_S2048 main_cst_32
  let main_v86 : IVec S2048 1 := cmpf .olt main_v84 main_v85
  let main_c_33 : IVec S_ 1 := constantI S_ 1 1#1
  let main_v87 : IVec S_ 1 := (fun x v => Host.reduce IntOp.andi x v reducesTo_S2048_S_d0 h_S_) main_v86 main_c_33
  let main_v88 : IVec S_ 1 := andi main_v83 main_v87
  let main_v89 : FVec F S2048x2048 .f32 := Host.absf main_arg18
  let main_cst_34 : FVec F S_ .f32 := constant S_ .f32 0x7F800000#32
  let main_v90 : FVec F S2048x2048 .f32 := broadcastInDim S2048x2048 ![] bcast_S_S2048x2048 main_cst_34
  let main_v91 : IVec S2048x2048 1 := cmpf .olt main_v89 main_v90
  let main_c_35 : IVec S_ 1 := constantI S_ 1 1#1
  let main_v92 : IVec S_ 1 := (fun x v => Host.reduce IntOp.andi x v reducesTo_S2048x2048_S_d0_1 h_S_) main_v91 main_c_35
  let main_v93 : IVec S_ 1 := andi main_v88 main_v92
  let main_v94 : FVec F S2048 .f32 := Host.absf main_arg19
  let main_cst_36 : FVec F S_ .f32 := constant S_ .f32 0x7F800000#32
  let main_v95 : FVec F S2048 .f32 := broadcastInDim S2048 ![] bcast_S_S2048 main_cst_36
  let main_v96 : IVec S2048 1 := cmpf .olt main_v94 main_v95
  let main_c_37 : IVec S_ 1 := constantI S_ 1 1#1
  let main_v97 : IVec S_ 1 := (fun x v => Host.reduce IntOp.andi x v reducesTo_S2048_S_d0 h_S_) main_v96 main_c_37
  let main_v98 : IVec S_ 1 := andi main_v93 main_v97
  let main_v99 : FVec F S2048x2048 .f32 := Host.absf main_arg20
  let main_cst_38 : FVec F S_ .f32 := constant S_ .f32 0x7F800000#32
  let main_v100 : FVec F S2048x2048 .f32 := broadcastInDim S2048x2048 ![] bcast_S_S2048x2048 main_cst_38
  let main_v101 : IVec S2048x2048 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S2048x2048 .f32) (main_arg15 : FVec F S2048 .f32) (main_arg16 : FVec F S2048 .f32) (main_arg17 : FVec F S2048 .f32) (main_arg18 : FVec F S2048x2048 .f32) (main_arg19 : FVec F S2048 .f32) (main_arg20 : FVec F S2048x2048 .f32) (main_arg21 : FVec F S2048 .f32) (main_v63 : IVec S_ 1) (main_v67 : IVec S_ 1) : IVec S_ 1 :=
  let main_v68 : IVec S_ 1 := andi main_v63 main_v67
  let main_v69 : FVec F S2048x2048 .f32 := Host.absf main_arg14
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  let main_v74 : FVec F S2048 .f32 := Host.absf main_arg15
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S2048 .f32) (main_arg12 : FVec F S2048x2048 .f32) (main_arg13 : FVec F S2048 .f32) (main_arg14 : FVec F S2048x2048 .f32) (main_arg15 : FVec F S2048 .f32) (main_arg16 : FVec F S2048 .f32) (main_arg17 : FVec F S2048 .f32) (main_arg18 : FVec F S2048x2048 .f32) (main_arg19 : FVec F S2048 .f32) (main_arg20 : FVec F S2048x2048 .f32) (main_arg21 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_arg14 : FVec F S2048x2048 .f32) (main_arg15 : FVec F S2048 .f32) (main_arg16 : FVec F S2048 .f32) (main_arg17 : FVec F S2048 .f32) (main_arg18 : FVec F S2048x2048 .f32) (main_arg19 : FVec F S2048 .f32) (main_arg20 : FVec F S2048x2048 .f32) (main_arg21 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_arg14 : FVec F S2048x2048 .f32) (main_arg15 : FVec F S2048 .f32) (main_arg16 : FVec F S2048 .f32) (main_arg17 : FVec F S2048 .f32) (main_arg18 : FVec F S2048x2048 .f32) (main_arg19 : FVec F S2048 .f32) (main_arg20 : FVec F S2048x2048 .f32) (main_arg21 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S4096x2048 .f32) (main_arg1 : FVec F S4096x2048 .f32) (main_arg2 : FVec F S2048x2048 .f32) (main_arg3 : FVec F S2048 .f32) (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_arg14 : FVec F S2048x2048 .f32) (main_arg15 : FVec F S2048 .f32) (main_arg16 : FVec F S2048 .f32) (main_arg17 : FVec F S2048 .f32) (main_arg18 : FVec F S2048x2048 .f32) (main_arg19 : FVec F S2048 .f32) (main_arg20 : FVec F S2048x2048 .f32) (main_arg21 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S128x2048 : Shape := ⟨2, ![128, 2048]⟩
abbrev S2048x1 : Shape := ⟨2, ![2048, 1]⟩
abbrev S8x2048 : Shape := ⟨2, ![8, 2048]⟩
abbrev S4x2048 : Shape := ⟨2, ![4, 2048]⟩
abbrev S_ : Shape := ⟨0, ![]⟩

abbrev nBuf : Space → Nat
  | .hbm => 81
  | .vmem => 71
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S2048x2048, .f32⟩
  | .hbm, ⟨15, _⟩ => ⟨S2048, .f32⟩
  | .hbm, ⟨16, _⟩ => ⟨S2048, .f32⟩
  | .hbm, ⟨17, _⟩ => ⟨S2048, .f32⟩
  | .hbm, ⟨18, _⟩ => ⟨S2048x2048, .f32⟩
  | .hbm, ⟨19, _⟩ => ⟨S2048, .f32⟩
  | .hbm, ⟨20, _⟩ => ⟨S2048x2048, .f32⟩
  | .hbm, ⟨21, _⟩ => ⟨S2048, .f32⟩
  | .hbm, ⟨22, _⟩ => ⟨S2048x2048, .bf16⟩
  | .hbm, ⟨23, _⟩ => ⟨S1x2048, .f32⟩
  | .hbm, ⟨24, _⟩ => ⟨S2048x2048, .bf16⟩
  | .hbm, ⟨25, _⟩ => ⟨S1x2048, .f32⟩
  | .hbm, ⟨26, _⟩ => ⟨S2048x2048, .bf16⟩
  | .hbm, ⟨27, _⟩ => ⟨S1x2048, .f32⟩
  | .hbm, ⟨28, _⟩ => ⟨S2048x2048, .bf16⟩
  | .hbm, ⟨29, _⟩ => ⟨S1x2048, .f32⟩
  | .hbm, ⟨30, _⟩ => ⟨S2048x2048, .bf16⟩
  | .hbm, ⟨31, _⟩ => ⟨S1x2048, .f32⟩
  | .hbm, ⟨32, _⟩ => ⟨S2048x2048, .bf16⟩
  | .hbm, ⟨33, _⟩ => ⟨S1x2048, .f32⟩
  | .hbm, ⟨34, _⟩ => ⟨S2048x2048, .bf16⟩
  | .hbm, ⟨35, _⟩ => ⟨S1x2048, .f32⟩
  | .hbm, ⟨36, _⟩ => ⟨S2048x2048, .bf16⟩
  | .hbm, ⟨37, _⟩ => ⟨S1x2048, .f32⟩
  | .hbm, ⟨38, _⟩ => ⟨S2048x2048, .bf16⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S2048x2048, .bf16⟩
  | .hbm, ⟨48, _⟩ => ⟨S4096x2048, .f32⟩
  | .hbm, ⟨49, _⟩ => ⟨S4096x2048, .f32⟩
  | .hbm, ⟨50, _⟩ => ⟨S8x2048, .f32⟩
  | .hbm, ⟨51, _⟩ => ⟨S1x2048, .f32⟩
  | .hbm, ⟨52, _⟩ => ⟨S_, .f32⟩
  | .hbm, ⟨53, _⟩ => ⟨S1x2048, .f32⟩
  | .hbm, ⟨54, _⟩ => ⟨S1x2048, .f32⟩
  | .hbm, ⟨55, _⟩ => ⟨S1x2048, .f32⟩
  | .hbm, ⟨56, _⟩ => ⟨S_, .f32⟩
  | .hbm, ⟨57, _⟩ => ⟨S1x2048, .f32⟩
  | .hbm, ⟨58, _⟩ => ⟨S1x2048, .f32⟩
  | .hbm, ⟨59, _⟩ => ⟨S1x2048, .f32⟩
  | .hbm, ⟨60, _⟩ => ⟨S1x2048, .f32⟩
  | .hbm, ⟨61, _⟩ => ⟨S_, .f32⟩
  | .hbm, ⟨62, _⟩ => ⟨S1x2048, .f32⟩
  | .hbm, ⟨63, _⟩ => ⟨S1x2048, .f32⟩
  | .hbm, ⟨64, _⟩ => ⟨S1x2048, .f32⟩
  | .hbm, ⟨65, _⟩ => ⟨S1x2048, .f32⟩
  | .hbm, ⟨66, _⟩ => ⟨S_, .f32⟩
  | .hbm, ⟨67, _⟩ => ⟨S1x2048, .f32⟩
  | .hbm, ⟨68, _⟩ => ⟨S1x2048, .f32⟩
  | .hbm, ⟨69, _⟩ => ⟨S1x2048, .f32⟩
  | .hbm, ⟨70, _⟩ => ⟨S_, .f32⟩
  | .hbm, ⟨71, _⟩ => ⟨S1x2048, .f32⟩
  | .hbm, ⟨72, _⟩ => ⟨S1x2048, .f32⟩
  | .hbm, ⟨73, _⟩ => ⟨S1x2048, .f32⟩
  | .hbm, ⟨74, _⟩ => ⟨S1x2048, .f32⟩
  | .hbm, ⟨75, _⟩ => ⟨S_, .f32⟩
  | .hbm, ⟨76, _⟩ => ⟨S1x2048, .f32⟩
  | .hbm, ⟨77, _⟩ => ⟨S1x2048, .f32⟩
  | .hbm, ⟨78, _⟩ => ⟨S1x2048, .f32⟩
  | .hbm, ⟨79, _⟩ => ⟨S4096x2048, .f32⟩
  | .hbm, ⟨80, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S2048x2048, .bf16⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S2048x2048, .bf16⟩
  | .local _ .vmem, ⟨9, _⟩ => ⟨S1x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S2048x2048, .bf16⟩
  | .local _ .vmem, ⟨21, _⟩ => ⟨S1x2048, .f32⟩
  | .local _ .vmem, ⟨22, _⟩ => ⟨S2048x2048, .bf16⟩
  | .local _ .vmem, ⟨23, _⟩ => ⟨S1x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | .local _ .vmem, ⟨30, _⟩ => ⟨S128x2048, .f32⟩
  | .local _ .vmem, ⟨31, _⟩ => ⟨S128x2048, .f32⟩
  | .local _ .vmem, ⟨32, _⟩ => ⟨S2048x2048, .bf16⟩
  | .local _ .vmem, ⟨33, _⟩ => ⟨S2048x2048, .f32⟩
  | .local _ .vmem, ⟨34, _⟩ => ⟨S128x2048, .f32⟩
  | .local _ .vmem, ⟨35, _⟩ => ⟨S128x2048, .f32⟩
  | .local _ .vmem, ⟨36, _⟩ => ⟨S128x2048, .f32⟩
  | .local _ .vmem, ⟨37, _⟩ => ⟨S128x2048, .f32⟩
  | .local _ .vmem, ⟨38, _⟩ => ⟨S128x2048, .f32⟩
  | .local _ .vmem, ⟨39, _⟩ => ⟨S128x2048, .f32⟩
  | .local _ .vmem, ⟨40, _⟩ => ⟨S128x2048, .f32⟩
  | .local _ .vmem, ⟨41, _⟩ => ⟨S128x2048, .f32⟩
  | .local _ .vmem, ⟨42, _⟩ => ⟨S2048x2048, .bf16⟩
  | .local _ .vmem, ⟨43, _⟩ => ⟨S2048x2048, .bf16⟩
  | .local _ .vmem, ⟨44, _⟩ => ⟨S1x2048, .f32⟩
  | .local _ .vmem, ⟨45, _⟩ => ⟨S2048x2048, .bf16⟩
  | .local _ .vmem, ⟨46, _⟩ => ⟨S1x2048, .f32⟩
  | .local _ .vmem, ⟨47, _⟩ => ⟨S128x2048, .f32⟩
  | .local _ .vmem, ⟨48, _⟩ => ⟨S128x2048, .f32⟩
  | .local _ .vmem, ⟨49, _⟩ => ⟨S128x2048, .f32⟩
  | .local _ .vmem, ⟨50, _⟩ => ⟨S128x2048, .f32⟩
  | .local _ .vmem, ⟨51, _⟩ => ⟨S8x2048, .f32⟩
  | .local _ .vmem, ⟨52, _⟩ => ⟨S8x2048, .f32⟩
  | .local _ .vmem, ⟨53, _⟩ => ⟨S128x2048, .f32⟩
  | .local _ .vmem, ⟨54, _⟩ => ⟨S128x2048, .f32⟩
  | .local _ .vmem, ⟨55, _⟩ => ⟨S128x2048, .f32⟩
  | .local _ .vmem, ⟨56, _⟩ => ⟨S128x2048, .f32⟩
  | .local _ .vmem, ⟨57, _⟩ => ⟨S1x2048, .f32⟩
  | .local _ .vmem, ⟨58, _⟩ => ⟨S1x2048, .f32⟩
  | .local _ .vmem, ⟨59, _⟩ => ⟨S1x2048, .f32⟩
  | .local _ .vmem, ⟨60, _⟩ => ⟨S1x2048, .f32⟩
  | .local _ .vmem, ⟨61, _⟩ => ⟨S1x2048, .f32⟩
  | .local _ .vmem, ⟨62, _⟩ => ⟨S1x2048, .f32⟩
  | .local _ .vmem, ⟨63, _⟩ => ⟨S2048x2048, .bf16⟩
  | .local _ .vmem, ⟨64, _⟩ => ⟨S1x2048, .f32⟩
  | .local _ .vmem, ⟨65, _⟩ => ⟨S2048x2048, .bf16⟩
  | .local _ .vmem, ⟨66, _⟩ => ⟨S1x2048, .f32⟩
  | .local _ .vmem, ⟨67, _⟩ => ⟨S128x2048, .f32⟩
  | .local _ .vmem, ⟨68, _⟩ => ⟨S128x2048, .f32⟩
  | .local _ .vmem, ⟨69, _⟩ => ⟨S128x2048, .f32⟩
  | .local _ .vmem, ⟨70, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20_0 : Ref sig .tc := ⟨.hbm, 42, rfl⟩
abbrev main_v20_1 : Ref sig .tc := ⟨.hbm, 43, rfl⟩
abbrev main_v20_2 : Ref sig .tc := ⟨.hbm, 44, rfl⟩
abbrev main_v21_0 : Ref sig .tc := ⟨.hbm, 45, rfl⟩
abbrev main_v21_1 : Ref sig .tc := ⟨.hbm, 46, rfl⟩
abbrev main_v22 : Ref sig .tc := ⟨.hbm, 47, rfl⟩
abbrev main_v23_0 : Ref sig .tc := ⟨.hbm, 48, rfl⟩
abbrev main_v23_1 : Ref sig .tc := ⟨.hbm, 49, rfl⟩
abbrev main_v23_2 : Ref sig .tc := ⟨.hbm, 50, rfl⟩
abbrev main_v24 : Ref sig .tc := ⟨.hbm, 51, rfl⟩
abbrev main_cst : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_0 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_1 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_2 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_3 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_4 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46_0 : Ref sig .tc := ⟨.hbm, 79, rfl⟩
abbrev main_v46_1 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_scratch0 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg9_0 : Ref sig .tc := ⟨.vmem, 47, rfl⟩
abbrev cc3_stg9_1 : Ref sig .tc := ⟨.vmem, 48, rfl⟩
abbrev cc3_stg10_0 : Ref sig .tc := ⟨.vmem, 49, rfl⟩
abbrev cc3_stg10_1 : Ref sig .tc := ⟨.vmem, 50, rfl⟩
abbrev cc3_stg11_0 : Ref sig .tc := ⟨.vmem, 51, rfl⟩
abbrev cc3_scratch0 : Ref sig .tc := ⟨.vmem, 52, rfl⟩
abbrev cc4_stg0_0 : Ref sig .tc := ⟨.vmem, 53, rfl⟩
abbrev cc4_stg0_1 : Ref sig .tc := ⟨.vmem, 54, rfl⟩
abbrev cc4_stg1_0 : Ref sig .tc := ⟨.vmem, 55, rfl⟩
abbrev cc4_stg1_1 : Ref sig .tc := ⟨.vmem, 56, rfl⟩
abbrev cc4_stg2_0 : Ref sig .tc := ⟨.vmem, 57, rfl⟩
abbrev cc4_stg3_0 : Ref sig .tc := ⟨.vmem, 58, rfl⟩
abbrev cc4_stg4_0 : Ref sig .tc := ⟨.vmem, 59, rfl⟩
abbrev cc4_stg5_0 : Ref sig .tc := ⟨.vmem, 60, rfl⟩
abbrev cc4_stg6_0 : Ref sig .tc := ⟨.vmem, 61, rfl⟩
abbrev cc4_stg7_0 : Ref sig .tc := ⟨.vmem, 62, rfl⟩
abbrev cc4_stg8_0 : Ref sig .tc := ⟨.vmem, 63, rfl⟩
abbrev cc4_stg9_0 : Ref sig .tc := ⟨.vmem, 64, rfl⟩
abbrev cc4_stg10_0 : Ref sig .tc := ⟨.vmem, 65, rfl⟩
abbrev cc4_stg11_0 : Ref sig .tc := ⟨.vmem, 66, rfl⟩
abbrev cc4_stg12_0 : Ref sig .tc := ⟨.vmem, 67, rfl⟩
abbrev cc4_stg12_1 : Ref sig .tc := ⟨.vmem, 68, rfl⟩
abbrev cc4_stg13_0 : Ref sig .tc := ⟨.vmem, 69, rfl⟩
abbrev cc4_stg13_1 : Ref sig .tc := ⟨.vmem, 70, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45
abbrev cc3_sem9_0 : DmaSem sig := 46
abbrev cc3_sem9_1 : DmaSem sig := 47
abbrev cc3_sem10_0 : DmaSem sig := 48
abbrev cc3_sem10_1 : DmaSem sig := 49
abbrev cc3_sem11_0 : DmaSem sig := 50
abbrev cc4_sem0_0 : DmaSem sig := 51
abbrev cc4_sem0_1 : DmaSem sig := 52
abbrev cc4_sem1_0 : DmaSem sig := 53
abbrev cc4_sem1_1 : DmaSem sig := 54
abbrev cc4_sem2_0 : DmaSem sig := 55
abbrev cc4_sem3_0 : DmaSem sig := 56
abbrev cc4_sem4_0 : DmaSem sig := 57
abbrev cc4_sem5_0 : DmaSem sig := 58
abbrev cc4_sem6_0 : DmaSem sig := 59
abbrev cc4_sem7_0 : DmaSem sig := 60
abbrev cc4_sem8_0 : DmaSem sig := 61
abbrev cc4_sem9_0 : DmaSem sig := 62
abbrev cc4_sem10_0 : DmaSem sig := 63
abbrev cc4_sem11_0 : DmaSem sig := 64
abbrev cc4_sem12_0 : DmaSem sig := 65
abbrev cc4_sem12_1 : DmaSem sig := 66
abbrev cc4_sem13_0 : DmaSem sig := 67
abbrev cc4_sem13_1 : DmaSem sig := 68

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![32], ![false]⟩

def k2_cond2 (i : grid2.Coords) : BitVec 1 :=
  let arg0 : BitVec 32 := BitVec.ofNat 32 (i 0).val
  let c31_i32 : BitVec 32 := 31#32
  let v15 : BitVec 1 := Scalar.cmpi .eq arg0 c31_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S128x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![32], ![false]⟩

def k3_cond2 (i : grid3.Coords) : BitVec 1 :=
  let arg0 : BitVec 32 := BitVec.ofNat 32 (i 0).val
  let c31_i32 : BitVec 32 := 31#32
  let v53 : BitVec 1 := Scalar.cmpi .eq arg0 c31_i32
  let v54 : BitVec 32 := Scalar.extui v53
  let c0_i32_33 : BitVec 32 := 0#32
  let v55 : BitVec 1 := Scalar.cmpi .ne v54 c0_i32_33
  v55

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S128x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S2048x2048 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S2048x2048 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x2048 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S2048x2048 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x2048 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S128x2048 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S128x2048 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 1 → Memref sig .tc .vmem S8x2048 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S128x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x2048 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2048 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x2048 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x2048 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x2048 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S2048x2048 .bf16 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x2048 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S2048x2048 .bf16 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x2048 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 2 → Memref sig .tc .vmem S128x2048 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev stage4_13 : Fin 2 → Memref sig .tc .vmem S128x2048 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

class Facts₀ : Prop where
  bitsLt_bf16_f32 : FTy.bits .bf16 < FTy.bits .f32
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  shapeCasts_S128x2048_S128x2048 : S128x2048.ShapeCasts S128x2048
  reduces_S2048x2048_S2048 : S2048x2048.Reduces [1] S2048
  shapeCasts_S2048_S2048x1 : S2048.ShapeCasts S2048x1
  broadcasts_S2048x1_S2048x2048 : S2048x1.Broadcasts S2048x2048
  packedbf16_S2048x2048_S2048x2048_0_0 : (Rect.unit (s := S2048x2048) ![0, 0] S2048x2048.size inb_S2048x2048_S2048x2048_0_0).PackedRows (EltTy.packing .bf16)
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  reduces_S128x2048_S2048 : S128x2048.Reduces [0] S2048
  concatenates_S1x2048_S1x2048_S1x2048_S1x2048_S4x2048_d0 : Shape.Concatenates [S1x2048, S1x2048, S1x2048, S1x2048] S4x2048 0
  inb_S8x2048_S4x2048_0_0 : ∀ a, (![0, 0] : Fin 2 → Nat) a + S4x2048.size a ≤ S8x2048.size a
  h_S4x2048 : 0 < S4x2048.numel
  shapeCasts_S4x2048_S4x2048 : S4x2048.ShapeCasts S4x2048
  slices_S8x2048_S1x2048_0_0 : S8x2048.Slices ![0, 0] S1x2048
  bcast_S_S1x2048 : S_.BroadcastsInDim S1x2048 (![] : Fin 0 → Fin S1x2048.rank)
  slices_S8x2048_S1x2048_1_0 : S8x2048.Slices ![1, 0] S1x2048
  slices_S8x2048_S1x2048_2_0 : S8x2048.Slices ![2, 0] S1x2048
  slices_S8x2048_S1x2048_3_0 : S8x2048.Slices ![3, 0] S1x2048
  dot_S128x2048_S2048x2048_S128x2048_1_1_0_0_n_n_wf : DotDims.WF S128x2048 S2048x2048 S128x2048 [1] [1] [0] [0] [] []
  dot_S128x2048_S128x2048_S2048x2048_0_0_1_1_n_n_wf : DotDims.WF S128x2048 S128x2048 S2048x2048 [0] [0] [1] [1] [] []
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .f32 = 32 ∨ (Rect.block (s := S4096x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .f32 = 32 ∨ (Rect.block (s := S4096x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S2048x2048.size a
  hwx0_6 : ∀ i : grid0.Coords, EltTy.bits .bf16 = 32 ∨ (Rect.block (s := S2048x2048) S2048x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S4096x2048.size a
  hwx0_8 : ∀ i : grid0.Coords, EltTy.bits .f32 = 32 ∨ (Rect.block (s := S4096x2048) S128x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S4096x2048.size a
  hwx0_9 : ∀ i : grid0.Coords, EltTy.bits .f32 = 32 ∨ (Rect.block (s := S4096x2048) S128x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S4096x2048.size a
  hwx0_10 : ∀ i : grid0.Coords, EltTy.bits .f32 = 32 ∨ (Rect.block (s := S4096x2048) S128x2048.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S4096x2048.size a
  hwx1_0 : ∀ i : grid1.Coords, EltTy.bits .f32 = 32 ∨ (Rect.block (s := S4096x2048) S128x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S4096x2048.size a
  hwx1_1 : ∀ i : grid1.Coords, EltTy.bits .f32 = 32 ∨ (Rect.block (s := S4096x2048) S128x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x2048.size a ≤ S2048x2048.size a
  hwx1_4 : ∀ i : grid1.Coords, EltTy.bits .bf16 = 32 ∨ (Rect.block (s := S2048x2048) S2048x2048.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2048.size a ≤ S1x2048.size a
  hwx1_5 : ∀ i : grid1.Coords, EltTy.bits .f32 = 32 ∨ (Rect.block (s := S1x2048) S1x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x2048.size a ≤ S4096x2048.size a
  hwx1_6 : ∀ i : grid1.Coords, EltTy.bits .f32 = 32 ∨ (Rect.block (s := S4096x2048) S128x2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x2048.size a ≤ S4096x2048.size a
  hwx1_7 : ∀ i : grid1.Coords, EltTy.bits .f32 = 32 ∨ (Rect.block (s := S4096x2048) S128x2048.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x2048.size a ≤ S4096x2048.size a
  hwx2_0 : ∀ i : grid2.Coords, EltTy.bits .f32 = 32 ∨ (Rect.block (s := S4096x2048) S128x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x2048.size a ≤ S4096x2048.size a
  hwx2_1 : ∀ i : grid2.Coords, EltTy.bits .f32 = 32 ∨ (Rect.block (s := S4096x2048) S128x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x2048.size a ≤ S2048x2048.size a
  hwx2_2 : ∀ i : grid2.Coords, EltTy.bits .bf16 = 32 ∨ (Rect.block (s := S2048x2048) S2048x2048.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x2048.size a ≤ S4096x2048.size a
  hwx3_0 : ∀ i : grid3.Coords, EltTy.bits .f32 = 32 ∨ (Rect.block (s := S4096x2048) S128x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x2048.size a ≤ S4096x2048.size a
  hwx3_1 : ∀ i : grid3.Coords, EltTy.bits .f32 = 32 ∨ (Rect.block (s := S4096x2048) S128x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S128x2048.size a ≤ S4096x2048.size a
  hwx3_2 : ∀ i : grid3.Coords, EltTy.bits .f32 = 32 ∨ (Rect.block (s := S4096x2048) S128x2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S128x2048.size a ≤ S4096x2048.size a
  hwx3_3 : ∀ i : grid3.Coords, EltTy.bits .f32 = 32 ∨ (Rect.block (s := S4096x2048) S128x2048.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2048x2048.size a ≤ S2048x2048.size a
  hwx3_4 : ∀ i : grid3.Coords, EltTy.bits .bf16 = 32 ∨ (Rect.block (s := S2048x2048) S2048x2048.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S2048x2048.size a ≤ S2048x2048.size a
  hwx3_5 : ∀ i : grid3.Coords, EltTy.bits .bf16 = 32 ∨ (Rect.block (s := S2048x2048) S2048x2048.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x2048.size a ≤ S1x2048.size a
  hwx3_6 : ∀ i : grid3.Coords, EltTy.bits .f32 = 32 ∨ (Rect.block (s := S1x2048) S1x2048.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S2048x2048.size a ≤ S2048x2048.size a
  hwx3_7 : ∀ i : grid3.Coords, EltTy.bits .bf16 = 32 ∨ (Rect.block (s := S2048x2048) S2048x2048.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x2048.size a ≤ S1x2048.size a
  hwx3_8 : ∀ i : grid3.Coords, EltTy.bits .f32 = 32 ∨ (Rect.block (s := S1x2048) S1x2048.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S128x2048.size a ≤ S4096x2048.size a
  hwx3_9 : ∀ i : grid3.Coords, EltTy.bits .f32 = 32 ∨ (Rect.block (s := S4096x2048) S128x2048.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S128x2048.size a ≤ S4096x2048.size a
  hwx3_10 : ∀ i : grid3.Coords, EltTy.bits .f32 = 32 ∨ (Rect.block (s := S4096x2048) S128x2048.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S8x2048.size a ≤ S8x2048.size a
  hwx3_11 : ∀ i : grid3.Coords, EltTy.bits .f32 = 32 ∨ (Rect.block (s := S8x2048) S8x2048.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S128x2048.size a ≤ S4096x2048.size a
  hwx4_0 : ∀ i : grid4.Coords, EltTy.bits .f32 = 32 ∨ (Rect.block (s := S4096x2048) S128x2048.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S128x2048.size a ≤ S4096x2048.size a
  hwx4_1 : ∀ i : grid4.Coords, EltTy.bits .f32 = 32 ∨ (Rect.block (s := S4096x2048) S128x2048.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x2048.size a
  hwx4_2 : ∀ i : grid4.Coords, EltTy.bits .f32 = 32 ∨ (Rect.block (s := S1x2048) S1x2048.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x2048.size a ≤ S1x2048.size a
  hwx4_3 : ∀ i : grid4.Coords, EltTy.bits .f32 = 32 ∨ (Rect.block (s := S1x2048) S1x2048.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2048.size a ≤ S1x2048.size a
  hwx4_4 : ∀ i : grid4.Coords, EltTy.bits .f32 = 32 ∨ (Rect.block (s := S1x2048) S1x2048.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x2048.size a ≤ S1x2048.size a
  hwx4_5 : ∀ i : grid4.Coords, EltTy.bits .f32 = 32 ∨ (Rect.block (s := S1x2048) S1x2048.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x2048.size a ≤ S1x2048.size a
  hwx4_6 : ∀ i : grid4.Coords, EltTy.bits .f32 = 32 ∨ (Rect.block (s := S1x2048) S1x2048.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x2048.size a ≤ S1x2048.size a
  hwx4_7 : ∀ i : grid4.Coords, EltTy.bits .f32 = 32 ∨ (Rect.block (s := S1x2048) S1x2048.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S2048x2048.size a ≤ S2048x2048.size a
  hwx4_8 : ∀ i : grid4.Coords, EltTy.bits .bf16 = 32 ∨ (Rect.block (s := S2048x2048) S2048x2048.size (cc4_transform_8 i) (hinb4_8 i)).WholeWords (EltTy.packing .bf16)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x2048.size a ≤ S1x2048.size a
  hwx4_9 : ∀ i : grid4.Coords, EltTy.bits .f32 = 32 ∨ (Rect.block (s := S1x2048) S1x2048.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S2048x2048.size a ≤ S2048x2048.size a
  hwx4_10 : ∀ i : grid4.Coords, EltTy.bits .bf16 = 32 ∨ (Rect.block (s := S2048x2048) S2048x2048.size (cc4_transform_10 i) (hinb4_10 i)).WholeWords (EltTy.packing .bf16)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x2048.size a ≤ S1x2048.size a
  hwx4_11 : ∀ i : grid4.Coords, EltTy.bits .f32 = 32 ∨ (Rect.block (s := S1x2048) S1x2048.size (cc4_transform_11 i) (hinb4_11 i)).WholeWords (EltTy.packing .f32)
  hstage4_12 : ∀ j, (stage4_12 j).IsWhole
  nbuf4_12 : grid4.bufCount reads4_12 false = 2
  hreads4_12 : ∀ i i' : grid4.Coords, (∀ a, reads4_12 a = true → i a = i' a) → cc4_transform_12 i = cc4_transform_12 i'
  hinb4_12 : ∀ (i : grid4.Coords) a, (cc4_transform_12 i a + 1) * S128x2048.size a ≤ S4096x2048.size a
  hwx4_12 : ∀ i : grid4.Coords, EltTy.bits .f32 = 32 ∨ (Rect.block (s := S4096x2048) S128x2048.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S128x2048.size a ≤ S4096x2048.size a
  hwx4_13 : ∀ i : grid4.Coords, EltTy.bits .f32 = 32 ∨ (Rect.block (s := S4096x2048) S128x2048.size (cc4_transform_13 i) (hinb4_13 i)).WholeWords (EltTy.packing .f32)

variable [Facts₀]

def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf
def dot_S128x2048_S128x2048_S2048x2048_0_0_1_1_n_n : DotDims S128x2048 S128x2048 S2048x2048 where
  lhsContracting := [0]
  rhsContracting := [0]
  lhsNonContracting := [1]
  rhsNonContracting := [1]
  lhsBatch := []
  rhsBatch := []
  wf := dot_S128x2048_S128x2048_S2048x2048_0_0_1_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S2048x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20_0) S128x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v20_1) S128x2048.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v20_2) S128x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v20_0) S128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20_1) S128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S2048x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21_0) S128x2048.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v21_1) S128x2048.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v21_0) S128x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21_1) S128x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S2048x2048.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v21_0) S128x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21_1) S128x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20_0) S128x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v20_1) S128x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v22) S2048x2048.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v10) S2048x2048.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v11) S1x2048.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v12) S2048x2048.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v13) S1x2048.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v23_0) S128x2048.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v23_1) S128x2048.size cc3_transform_10 reads3_10 true false 2 stage3_10 sem3_10
    hrank3 hreads3_10 hinb3_10 nbuf3_10 (Memref.isWhole_whole _) hwx3_10 hstage3_10

abbrev win3_11 : Pipeline.Window sig grid3 :=
  Pipeline.Window.ofSpec (Memref.whole main_v23_2) S8x2048.size cc3_transform_11 reads3_11 true true 1 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev idle3 : Fin 12 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k3_cond2 i == 1#1) | ⟨_ + 12, h⟩ => absurd h (Nat.not_lt.2 (Nat.le_add_left _ _))

abbrev win4_0 : Pipeline.Window sig grid4 :=
  Pipeline.Window.ofSpec (Memref.whole main_v23_0) S128x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23_1) S128x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v26) S1x2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v34) S1x2048.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v37) S1x2048.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v45) S1x2048.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v18) S1x2048.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v19) S1x2048.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v14) S2048x2048.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v15) S1x2048.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v16) S2048x2048.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v17) S1x2048.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v46_0) S128x2048.size cc4_transform_12 reads4_12 true false 2 stage4_12 sem4_12
    hrank4 hreads4_12 hinb4_12 nbuf4_12 (Memref.isWhole_whole _) hwx4_12 hstage4_12

abbrev win4_13 : Pipeline.Window sig grid4 :=
  Pipeline.Window.ofSpec (Memref.whole main_v46_1) S128x2048.size cc4_transform_13 reads4_13 true false 2 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S2048x4096 : Shape := ⟨2, ![2048, 4096]⟩
abbrev S2048x1 : Shape := ⟨2, ![2048, 1]⟩

abbrev nBuf : Space → Nat
  | .hbm => 221
  | .vmem => 0
  | .smem => 0
  | _ => 0

abbrev hbmTy0_0 (i : Nat) : BufTy := match i % 128 with
  | 0 => ⟨S4096x2048, .f32⟩
  | 1 => ⟨S4096x2048, .f32⟩
  | 2 => ⟨S2048x2048, .f32⟩
  | 3 => ⟨S2048, .f32⟩
  | 4 => ⟨S2048x2048, .f32⟩
  | 5 => ⟨S2048, .f32⟩
  | 6 => ⟨S2048x2048, .f32⟩
  | 7 => ⟨S2048, .f32⟩
  | 8 => ⟨S2048x2048, .f32⟩
  | 9 => ⟨S2048, .f32⟩
  | 10 => ⟨S2048x2048, .f32⟩
  | 11 => ⟨S2048, .f32⟩
  | 12 => ⟨S2048x2048, .f32⟩
  | 13 => ⟨S2048, .f32⟩
  | 14 => ⟨S2048x2048, .f32⟩
  | 15 => ⟨S2048, .f32⟩
  | 16 => ⟨S2048, .f32⟩
  | 17 => ⟨S2048, .f32⟩
  | 18 => ⟨S2048x2048, .f32⟩
  | 19 => ⟨S2048, .f32⟩
  | 20 => ⟨S2048x2048, .f32⟩
  | 21 => ⟨S2048, .f32⟩
  | 22 => ⟨S2048x2048, .f32⟩
  | 23 => ⟨S4096x2048, .f32⟩
  | 24 => ⟨S1x2048, .f32⟩
  | 25 => ⟨S4096x2048, .f32⟩
  | 26 => ⟨S4096x2048, .f32⟩
  | 27 => ⟨S_, .f32⟩
  | 28 => ⟨S4096x2048, .f32⟩
  | 29 => ⟨S4096x2048, .f32⟩
  | 30 => ⟨S4096x2048, .f32⟩
  | 31 => ⟨S4096x2048, .f32⟩
  | 32 => ⟨S4096x2048, .f32⟩
  | 33 => ⟨S_, .f32⟩
  | 34 => ⟨S4096x2048, .f32⟩
  | 35 => ⟨S4096x2048, .f32⟩
  | 36 => ⟨S_, .f32⟩
  | 37 => ⟨S4096x2048, .f32⟩
  | 38 => ⟨S4096x2048, .f32⟩
  | 39 => ⟨S2048x2048, .f32⟩
  | 40 => ⟨S4096x2048, .f32⟩
  | 41 => ⟨S1x2048, .f32⟩
  | 42 => ⟨S4096x2048, .f32⟩
  | 43 => ⟨S4096x2048, .f32⟩
  | 44 => ⟨S_, .f32⟩
  | 45 => ⟨S4096x2048, .f32⟩
  | 46 => ⟨S4096x2048, .f32⟩
  | 47 => ⟨S_, .f32⟩
  | 48 => ⟨S4096x2048, .f32⟩
  | 49 => ⟨S4096x2048, .i1⟩
  | 50 => ⟨S4096x2048, .f32⟩
  | 51 => ⟨S4096x2048, .f32⟩
  | 52 => ⟨S_, .f32⟩
  | 53 => ⟨S4096x2048, .f32⟩
  | 54 => ⟨S4096x2048, .f32⟩
  | 55 => ⟨S_, .f32⟩
  | 56 => ⟨S4096x2048, .f32⟩
  | 57 => ⟨S4096x2048, .f32⟩
  | 58 => ⟨S_, .f32⟩
  | 59 => ⟨S_, .f32⟩
  | 60 => ⟨S4096x2048, .f32⟩
  | 61 => ⟨S4096x2048, .f32⟩
  | 62 => ⟨S4096x2048, .f32⟩
  | 63 => ⟨S4096x2048, .f32⟩
  | 64 => ⟨S4096x2048, .f32⟩
  | 65 => ⟨S4096x2048, .f32⟩
  | 66 => ⟨S2048x2048, .f32⟩
  | 67 => ⟨S4096x2048, .f32⟩
  | 68 => ⟨S1x2048, .f32⟩
  | 69 => ⟨S4096x2048, .f32⟩
  | 70 => ⟨S4096x2048, .f32⟩
  | 71 => ⟨S_, .f32⟩
  | 72 => ⟨S4096x2048, .f32⟩
  | 73 => ⟨S4096x2048, .f32⟩
  | 74 => ⟨S4096x2048, .f32⟩
  | 75 => ⟨S2048x2048, .f32⟩
  | 76 => ⟨S4096x2048, .f32⟩
  | 77 => ⟨S1x2048, .f32⟩
  | 78 => ⟨S4096x2048, .f32⟩
  | 79 => ⟨S4096x2048, .f32⟩
  | 80 => ⟨S2048x2048, .f32⟩
  | 81 => ⟨S4096x2048, .f32⟩
  | 82 => ⟨S1x2048, .f32⟩
  | 83 => ⟨S4096x2048, .f32⟩
  | 84 => ⟨S4096x2048, .f32⟩
  | 85 => ⟨S2048x4096, .f32⟩
  | 86 => ⟨S2048x2048, .f32⟩
  | 87 => ⟨S_, .f32⟩
  | 88 => ⟨S2048, .f32⟩
  | 89 => ⟨S_, .f32⟩
  | 90 => ⟨S2048, .f32⟩
  | 91 => ⟨S2048, .f32⟩
  | 92 => ⟨S2048x1, .f32⟩
  | 93 => ⟨S2048x2048, .f32⟩
  | 94 => ⟨S2048x2048, .f32⟩
  | 95 => ⟨S2048x2048, .f32⟩
  | 96 => ⟨S_, .f32⟩
  | 97 => ⟨S2048, .f32⟩
  | 98 => ⟨S2048x1, .f32⟩
  | 99 => ⟨S2048x2048, .f32⟩
  | 100 => ⟨S2048x2048, .f32⟩
  | 101 => ⟨S4096x2048, .f32⟩
  | 102 => ⟨S2048x2048, .f32⟩
  | 103 => ⟨S4096x2048, .f32⟩
  | 104 => ⟨S1x2048, .f32⟩
  | 105 => ⟨S4096x2048, .f32⟩
  | 106 => ⟨S4096x2048, .f32⟩
  | 107 => ⟨S4096x2048, .f32⟩
  | 108 => ⟨S2048x2048, .f32⟩
  | 109 => ⟨S4096x2048, .f32⟩
  | 110 => ⟨S1x2048, .f32⟩
  | 111 => ⟨S4096x2048, .f32⟩
  | 112 => ⟨S4096x2048, .f32⟩
  | 113 => ⟨S4096x2048, .f32⟩
  | 114 => ⟨S_, .f32⟩
  | 115 => ⟨S2048, .f32⟩
  | 116 => ⟨S1x2048, .f32⟩
  | 117 => ⟨S_, .f32⟩
  | 118 => ⟨S1x2048, .f32⟩
  | 119 => ⟨S1x2048, .f32⟩
  | 120 => ⟨S_, .i32⟩
  | 121 => ⟨S_, .f32⟩
  | 122 => ⟨S2048, .f32⟩
  | 123 => ⟨S1x2048, .f32⟩
  | 124 => ⟨S_, .f32⟩
  | 125 => ⟨S1x2048, .f32⟩
  | 126 => ⟨S1x2048, .f32⟩
  | 127 => ⟨S4096x2048, .f32⟩
  | _ => ⟨S4096x2048, .f32⟩

abbrev hbmTy0_1 (i : Nat) : BufTy := match i % 128 with
  | 0 => ⟨S4096x2048, .f32⟩
  | 1 => ⟨S4096x2048, .f32⟩
  | 2 => ⟨S_, .f32⟩
  | 3 => ⟨S_, .f32⟩
  | 4 => ⟨S_, .f32⟩
  | 5 => ⟨S_, .f32⟩
  | 6 => ⟨S2048, .f32⟩
  | 7 => ⟨S1x2048, .f32⟩
  | 8 => ⟨S1x2048, .f32⟩
  | 9 => ⟨S1x2048, .f32⟩
  | 10 => ⟨S_, .f32⟩
  | 11 => ⟨S_, .i1⟩
  | 12 => ⟨S_, .f32⟩
  | 13 => ⟨S_, .f32⟩
  | 14 => ⟨S1x2048, .f32⟩
  | 15 => ⟨S1x2048, .f32⟩
  | 16 => ⟨S4096x2048, .f32⟩
  | 17 => ⟨S4096x2048, .f32⟩
  | 18 => ⟨S_, .f32⟩
  | 19 => ⟨S1x2048, .f32⟩
  | 20 => ⟨S1x2048, .f32⟩
  | 21 => ⟨S1x2048, .f32⟩
  | 22 => ⟨S4096x2048, .f32⟩
  | 23 => ⟨S4096x2048, .f32⟩
  | 24 => ⟨S1x2048, .f32⟩
  | 25 => ⟨S4096x2048, .f32⟩
  | 26 => ⟨S4096x2048, .f32⟩
  | 27 => ⟨S1x2048, .f32⟩
  | 28 => ⟨S4096x2048, .f32⟩
  | 29 => ⟨S4096x2048, .f32⟩
  | 30 => ⟨S4096x2048, .f32⟩
  | 31 => ⟨S_, .f32⟩
  | 32 => ⟨S2048, .f32⟩
  | 33 => ⟨S1x2048, .f32⟩
  | 34 => ⟨S_, .f32⟩
  | 35 => ⟨S1x2048, .f32⟩
  | 36 => ⟨S1x2048, .f32⟩
  | 37 => ⟨S_, .i32⟩
  | 38 => ⟨S_, .f32⟩
  | 39 => ⟨S2048, .f32⟩
  | 40 => ⟨S1x2048, .f32⟩
  | 41 => ⟨S_, .f32⟩
  | 42 => ⟨S1x2048, .f32⟩
  | 43 => ⟨S1x2048, .f32⟩
  | 44 => ⟨S4096x2048, .f32⟩
  | 45 => ⟨S4096x2048, .f32⟩
  | 46 => ⟨S4096x2048, .f32⟩
  | 47 => ⟨S_, .f32⟩
  | 48 => ⟨S_, .f32⟩
  | 49 => ⟨S_, .f32⟩
  | 50 => ⟨S_, .f32⟩
  | 51 => ⟨S2048, .f32⟩
  | 52 => ⟨S1x2048, .f32⟩
  | 53 => ⟨S1x2048, .f32⟩
  | 54 => ⟨S1x2048, .f32⟩
  | 55 => ⟨S_, .f32⟩
  | 56 => ⟨S_, .i1⟩
  | 57 => ⟨S_, .f32⟩
  | 58 => ⟨S_, .f32⟩
  | 59 => ⟨S1x2048, .f32⟩
  | 60 => ⟨S1x2048, .f32⟩
  | 61 => ⟨S4096x2048, .f32⟩
  | 62 => ⟨S4096x2048, .f32⟩
  | 63 => ⟨S_, .f32⟩
  | 64 => ⟨S1x2048, .f32⟩
  | 65 => ⟨S1x2048, .f32⟩
  | 66 => ⟨S1x2048, .f32⟩
  | 67 => ⟨S4096x2048, .f32⟩
  | 68 => ⟨S4096x2048, .f32⟩
  | 69 => ⟨S1x2048, .f32⟩
  | 70 => ⟨S4096x2048, .f32⟩
  | 71 => ⟨S4096x2048, .f32⟩
  | 72 => ⟨S1x2048, .f32⟩
  | 73 => ⟨S4096x2048, .f32⟩
  | 74 => ⟨S4096x2048, .f32⟩
  | 75 => ⟨S2048x2048, .f32⟩
  | 76 => ⟨S4096x2048, .f32⟩
  | 77 => ⟨S1x2048, .f32⟩
  | 78 => ⟨S4096x2048, .f32⟩
  | 79 => ⟨S4096x2048, .f32⟩
  | 80 => ⟨S_, .f32⟩
  | 81 => ⟨S4096x2048, .f32⟩
  | 82 => ⟨S4096x2048, .f32⟩
  | 83 => ⟨S4096x2048, .f32⟩
  | 84 => ⟨S2048x2048, .f32⟩
  | 85 => ⟨S4096x2048, .f32⟩
  | 86 => ⟨S1x2048, .f32⟩
  | 87 => ⟨S4096x2048, .f32⟩
  | 88 => ⟨S4096x2048, .f32⟩
  | 89 => ⟨S_, .f32⟩
  | 90 => ⟨S4096x2048, .f32⟩
  | 91 => ⟨S4096x2048, .f32⟩
  | 92 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_call0_cst : Ref sig .tc := ⟨.hbm, 27, rfl⟩
abbrev main_call0_v0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_v10 : Ref sig .tc := ⟨.hbm, 35, rfl⟩
abbrev main_cst_0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_call1_cst : Ref sig .tc := ⟨.hbm, 44, rfl⟩
abbrev main_call1_v0 : Ref sig .tc := ⟨.hbm, 45, rfl⟩
abbrev main_v18 : Ref sig .tc := ⟨.hbm, 46, rfl⟩
abbrev main_cst_1 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_2 : Ref sig .tc := ⟨.hbm, 52, rfl⟩
abbrev main_v23 : Ref sig .tc := ⟨.hbm, 53, rfl⟩
abbrev main_v24 : Ref sig .tc := ⟨.hbm, 54, rfl⟩
abbrev main_cst_3 : Ref sig .tc := ⟨.hbm, 55, rfl⟩
abbrev main_v25 : Ref sig .tc := ⟨.hbm, 56, rfl⟩
abbrev main_v26 : Ref sig .tc := ⟨.hbm, 57, rfl⟩
abbrev main_cst_4 : Ref sig .tc := ⟨.hbm, 58, rfl⟩
abbrev main_call2_v0 : Ref sig .tc := ⟨.hbm, 59, rfl⟩
abbrev main_call2_v1 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_call3_cst : Ref sig .tc := ⟨.hbm, 71, rfl⟩
abbrev main_call3_v0 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_5 : Ref sig .tc := ⟨.hbm, 87, rfl⟩
abbrev main_v51 : Ref sig .tc := ⟨.hbm, 88, rfl⟩
abbrev main_cst_6 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_7 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_8 : Ref sig .tc := ⟨.hbm, 114, rfl⟩
abbrev main_v75 : Ref sig .tc := ⟨.hbm, 115, rfl⟩
abbrev main_v76 : Ref sig .tc := ⟨.hbm, 116, rfl⟩
abbrev main_cst_9 : Ref sig .tc := ⟨.hbm, 117, rfl⟩
abbrev main_v77 : Ref sig .tc := ⟨.hbm, 118, rfl⟩
abbrev main_v78 : Ref sig .tc := ⟨.hbm, 119, rfl⟩
abbrev main_c : Ref sig .tc := ⟨.hbm, 120, rfl⟩
abbrev main_call4_cst : Ref sig .tc := ⟨.hbm, 121, rfl⟩
abbrev main_call4_v0 : Ref sig .tc := ⟨.hbm, 122, rfl⟩
abbrev main_call4_v1 : Ref sig .tc := ⟨.hbm, 123, rfl⟩
abbrev main_call4_cst_0 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_v5 : Ref sig .tc := ⟨.hbm, 128, rfl⟩
abbrev main_call4_v6 : Ref sig .tc := ⟨.hbm, 129, rfl⟩
abbrev main_call4_v7 : Ref sig .tc := ⟨.hbm, 130, rfl⟩
abbrev main_call4_cst_1 : Ref sig .tc := ⟨.hbm, 131, rfl⟩
abbrev main_call4_v8 : Ref sig .tc := ⟨.hbm, 132, rfl⟩
abbrev main_call4_cst_2 : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_v12 : Ref sig .tc := ⟨.hbm, 137, rfl⟩
abbrev main_call4_cst_3 : Ref sig .tc := ⟨.hbm, 138, rfl⟩
abbrev main_call4_v13 : Ref sig .tc := ⟨.hbm, 139, rfl⟩
abbrev main_call4_cst_4 : Ref sig .tc := ⟨.hbm, 140, rfl⟩
abbrev main_call4_call0_v0 : Ref sig .tc := ⟨.hbm, 141, rfl⟩
abbrev main_call4_call0_v1 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_cst_10 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_cst_11 : Ref sig .tc := ⟨.hbm, 159, rfl⟩
abbrev main_v94 : Ref sig .tc := ⟨.hbm, 160, rfl⟩
abbrev main_v95 : Ref sig .tc := ⟨.hbm, 161, rfl⟩
abbrev main_cst_12 : Ref sig .tc := ⟨.hbm, 162, rfl⟩
abbrev main_v96 : Ref sig .tc := ⟨.hbm, 163, rfl⟩
abbrev main_v97 : Ref sig .tc := ⟨.hbm, 164, rfl⟩
abbrev main_c_13 : Ref sig .tc := ⟨.hbm, 165, rfl⟩
abbrev main_call5_cst : Ref sig .tc := ⟨.hbm, 166, rfl⟩
abbrev main_call5_v0 : Ref sig .tc := ⟨.hbm, 167, rfl⟩
abbrev main_call5_v1 : Ref sig .tc := ⟨.hbm, 168, rfl⟩
abbrev main_call5_cst_0 : Ref sig .tc := ⟨.hbm, 169, rfl⟩
abbrev main_call5_v2 : Ref sig .tc := ⟨.hbm, 170, rfl⟩
abbrev main_call5_v3 : Ref sig .tc := ⟨.hbm, 171, rfl⟩
abbrev main_call5_v4 : Ref sig .tc := ⟨.hbm, 172, rfl⟩
abbrev main_call5_v5 : Ref sig .tc := ⟨.hbm, 173, rfl⟩
abbrev main_call5_v6 : Ref sig .tc := ⟨.hbm, 174, rfl⟩
abbrev main_call5_v7 : Ref sig .tc := ⟨.hbm, 175, rfl⟩
abbrev main_call5_cst_1 : Ref sig .tc := ⟨.hbm, 176, rfl⟩
abbrev main_call5_v8 : Ref sig .tc := ⟨.hbm, 177, rfl⟩
abbrev main_call5_cst_2 : Ref sig .tc := ⟨.hbm, 178, rfl⟩
abbrev main_call5_v9 : Ref sig .tc := ⟨.hbm, 179, rfl⟩
abbrev main_call5_v10 : Ref sig .tc := ⟨.hbm, 180, rfl⟩
abbrev main_call5_v11 : Ref sig .tc := ⟨.hbm, 181, rfl⟩
abbrev main_call5_v12 : Ref sig .tc := ⟨.hbm, 182, rfl⟩
abbrev main_call5_cst_3 : Ref sig .tc := ⟨.hbm, 183, rfl⟩
abbrev main_call5_v13 : Ref sig .tc := ⟨.hbm, 184, rfl⟩
abbrev main_call5_cst_4 : Ref sig .tc := ⟨.hbm, 185, rfl⟩
abbrev main_call5_call0_v0 : Ref sig .tc := ⟨.hbm, 186, rfl⟩
abbrev main_call5_call0_v1 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_cst_14 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_call6_cst : Ref sig .tc := ⟨.hbm, 208, rfl⟩
abbrev main_call6_v0 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_call7_cst : Ref sig .tc := ⟨.hbm, 217, rfl⟩
abbrev main_call7_v0 : Ref sig .tc := ⟨.hbm, 218, rfl⟩
abbrev main_v124 : Ref sig .tc := ⟨.hbm, 219, rfl⟩
abbrev main_v125 : Ref sig .tc := ⟨.hbm, 220, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  transposes_S4096x2048_S2048x4096_1_0 : S4096x2048.Transposes [1, 0] S2048x4096
  reducesTo_S2048x2048_S2048_d1 : S2048x2048.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  reducesTo_S4096x2048_S2048_d0 : S4096x2048.ReducesTo [0] S2048
  bcast_S_S1x2048 : S_.BroadcastsInDim S1x2048 (![] : Fin 0 → Fin S1x2048.rank)
  dot_S4096x2048_S2048x2048_S4096x2048_1_0_0_1_n_n_wf : DotDims.WF S4096x2048 S2048x2048 S4096x2048 [1] [0] [0] [1] [] []
  dot_S2048x4096_S4096x2048_S2048x2048_1_0_0_1_n_n_wf : DotDims.WF S2048x4096 S4096x2048 S2048x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S2048x4096_S4096x2048_S2048x2048_1_0_0_1_n_n : DotDims S2048x4096 S4096x2048 S2048x2048 where
  lhsContracting := [1]
  rhsContracting := [0]
  lhsNonContracting := [0]
  rhsNonContracting := [1]
  lhsBatch := []
  rhsBatch := []
  wf := dot_S2048x4096_S4096x2048_S2048x2048_1_0_0_1_n_n_wf

class Facts : Prop extends Facts₀ where

variable [Facts]
-- ==== Proof.K.Reg0.lean ====
import proofs.«137432_j14851996910240_2_alg».proof.Proof.Gen.Kernel.Launch
import proofs.«137432_j14851996910240_2_alg».proof.Proof.Gen.Kernel.Skeleton
import proofs.«137432_j14851996910240_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S128x2048 := Rect.unit (s := S128x2048) ![0, 0] S128x2048.size inb_S128x2048_S128x2048_0_0
abbrev r0_1 : Rect S2048x2048 := Rect.unit (s := S2048x2048) ![0, 0] S2048x2048.size inb_S2048x2048_S2048x2048_0_0
abbrev r0_2 : Rect S1x2048 := Rect.unit (s := S1x2048) ![0, 0] S1x2048.size inb_S1x2048_S1x2048_0_0

abbrev p0_12 (x1 : Vec F S128x2048 .f32) (x2 : Vec F S2048x2048 .bf16) (x3 : Vec F S1x2048 .f32) : FVec F S128x2048 .f32 :=
  k0_pay2 (View.ld x1 r0_0) (View.ld x2 r0_1) (View.ld x3 r0_2)
abbrev p0_31 (x0 : Vec F S128x2048 .f32) (x1 : Vec F S128x2048 .f32) (x2 : Vec F S2048x2048 .bf16) (x3 : Vec F S1x2048 .f32) (x4 : Vec F S2048x2048 .bf16) (x5 : Vec F S1x2048 .f32) : FVec F S128x2048 .f32 :=
  k0_pay4 (View.ld x1 r0_0) (View.ld x2 r0_1) (View.ld x3 r0_2) (View.ld x0 r0_0) (View.ld x4 r0_1) (View.ld x5 r0_2)
abbrev p0_32 (x0 : Vec F S128x2048 .f32) (x1 : Vec F S128x2048 .f32) (x2 : Vec F S2048x2048 .bf16) (x3 : Vec F S1x2048 .f32) (x4 : Vec F S2048x2048 .bf16) (x5 : Vec F S1x2048 .f32) : FVec F S128x2048 .f32 :=
  k0_pay5 (View.ld x1 r0_0) (View.ld x2 r0_1) (View.ld x3 r0_2) (View.ld x0 r0_0) (View.ld x4 r0_1) (View.ld x5 r0_2)
abbrev p0_36 (x0 : Vec F S128x2048 .f32) (x1 : Vec F S128x2048 .f32) (x2 : Vec F S2048x2048 .bf16) (x3 : Vec F S1x2048 .f32) (x4 : Vec F S2048x2048 .bf16) (x5 : Vec F S1x2048 .f32) (x6 : Vec F S2048x2048 .bf16) : FVec F S128x2048 .f32 :=
  k0_pay6 (View.ld x1 r0_0) (View.ld x2 r0_1) (View.ld x3 r0_2) (View.ld x0 r0_0) (View.ld x4 r0_1) (View.ld x5 r0_2) (View.ld x6 r0_1)

def out0_8 (x0 : Vec F S128x2048 .f32) (x1 : Vec F S128x2048 .f32) (x2 : Vec F S2048x2048 .bf16) (x3 : Vec F S1x2048 .f32) (x4 : Vec F S2048x2048 .bf16) (x5 : Vec F S1x2048 .f32) (x6 : Vec F S2048x2048 .bf16) (x7 : Vec F S1x2048 .f32) : Vec F S128x2048 .f32 :=
  View.canon [⟨r0_0, k0_pay1 (p0_31 x0 x1 x2 x3 x4 x5) (p0_36 x0 x1 x2 x3 x4 x5 x6) (View.ld x7 r0_2)⟩]

def out0_9 (x1 : Vec F S128x2048 .f32) (x2 : Vec F S2048x2048 .bf16) (x3 : Vec F S1x2048 .f32) : Vec F S128x2048 .f32 :=
  View.canon [⟨r0_0, p0_12 x1 x2 x3⟩]

def out0_10 (x0 : Vec F S128x2048 .f32) (x1 : Vec F S128x2048 .f32) (x2 : Vec F S2048x2048 .bf16) (x3 : Vec F S1x2048 .f32) (x4 : Vec F S2048x2048 .bf16) (x5 : Vec F S1x2048 .f32) : Vec F S128x2048 .f32 :=
  View.canon [⟨r0_0, p0_32 x0 x1 x2 x3 x4 x5⟩]

/-- One store of the whole block covers it. -/
theorem cover0 (p0 : Vec F S128x2048 .f32) (y : S128x2048.Idx) :
    ∃ pc ∈ ([⟨r0_0, p0⟩] : List (View.Piece (Elt F) S128x2048 .f32)), y ∈ pc.1.set :=
  View.cover_of_tiled [⟨r0_0, p0⟩] S128x2048.size (by rfl) y

abbrev own0 (c : Dev nD) {s : Shape} {e : EltTy} (a : Memref sig .tc .vmem s e) (x : Vec F s e) : sProp 𝕄 :=
  owns (c : Thread nD τ) a fullShare x

set_option maxHeartbeats 4000000 in
/-- The body on whole buffers: the inputs stay as read, each output ends at its one store laid over the block. -/
theorem sound_kernel0 {c : Dev nD} {E : Set ℕ} {i : grid0.Coords}
    {a1 a2 a9 a10 a11 : Memref sig .tc .vmem S128x2048 .f32} {a3 a5 a7 : Memref sig .tc .vmem S2048x2048 .bf16} {a4 a6 a8 : Memref sig .tc .vmem S1x2048 .f32}
    {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole}
    (x0 x1 y8 y9 y10 : Vec F S128x2048 .f32) (x2 x4 x6 : Vec F S2048x2048 .bf16) (x3 x5 x7 : Vec F S1x2048 .f32) (K : PUnit → sProp 𝕄) :
    iprop(own0 c a1 x0 ∗ own0 c a2 x1 ∗ own0 c a3 x2 ∗ own0 c a4 x3 ∗ own0 c a5 x4 ∗ own0 c a6 x5 ∗ own0 c a7 x6 ∗ own0 c a8 x7 ∗ own0 c a9 y8 ∗ own0 c a10 y9 ∗ own0 c a11 y10
        ∗ (iprop(own0 c a1 x0 ∗ own0 c a2 x1 ∗ own0 c a3 x2 ∗ own0 c a4 x3 ∗ own0 c a5 x4 ∗ own0 c a6 x5 ∗ own0 c a7 x6 ∗ own0 c a8 x7
            ∗ own0 c a9 (out0_8 x0 x1 x2 x3 x4 x5 x6 x7) ∗ own0 c a10 (out0_9 x1 x2 x3) ∗ own0 c a11 (out0_10 x0 x1 x2 x3 x4 x5)) -∗ K ⟨⟩))
      ⊢ wp frame (wpE (defs₀ (F := F)) Variants.none c none) E (cc0_k1_kernel i a1 h1 a2 h2 a3 h3 a4 h4 a5 h5 a6 h6 a7 h7 a8 h8 a9 h9 a10 h10 a11 h11) K := by
  simp only [cc0_k1_kernel_eq_skeleton]; unfold cc0_k1_kernel_skel
  simp only [k0_part1_eq_skeleton]; unfold k0_part1_skel own0 owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, -, H8⟩, ⟨%f9, -, H9⟩, ⟨%f10, -, H10⟩, Hk⟩
  subst hf0 hf1 hf2 hf3 hf4 hf5 hf6 hf7
  sl_exec
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [H9]; swap
  all_goals (iexists _; isplitr; swap; iassumption; ipureintro; first | exact View.read_writes_eq_canon _ _ _ (cover0 _) | rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
    | ⟨9, _⟩ => out0_9 (iblk0 V c 1 t) (iblk0 V c 2 t) (iblk0 V c 3 t)
    | ⟨10, _⟩ => out0_10 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]
theorem after0_9 (c : Dev nD) (t : Fin cfg0.N) : (dat0 V c).after 9 t = out0_9 (iblk0 V c 1 t) (iblk0 V c 2 t) (iblk0 V c 3 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) := by dsimp only [dat0]

/-- Window by window: the body leaves each input's block as it found it. -/
theorem before0 (c : Dev nD) : ∀ w : Fin cfg0.W, w.val < 8 → ∀ t d, (dat0 V c).before w t d = (dat0 V c).after w t := by
  intro w; fin_cases w <;> intro hw t d <;> first
    | exact absurd hw (by decide)
    | exact ((dat0 V c).before_in_eq_fetched _ rfl (fun _ => rfl) (fun _ _ _ => rfl) (fun _ => rfl) t d).trans rfl

/-- The body at a point: the inputs hold their blocks, so the body's triple applies; the invariant and what is owed pass through. -/
theorem sound_body0 (c : Dev nD) (t : Fin cfg0.N) :
    iprop((dat0 V c).Φ t.castSucc ∗ (dat0 V c).owesAt () t.castSucc
        ∗ bigSep Finset.univ fun w => iprop(∃ d, owns (c : Thread nD τ) ((cfg0.win w).stage (cfg0.slots t w)) fullShare ((dat0 V c).before w t d)))
      ⊢ wp frame (wpE (defs₀ (F := F)) Variants.none c none) Set.univ (bodyAt0 t) fun _ =>
          iprop((dat0 V c).Φ t.castSucc ∗ (dat0 V c).owesAt () t.castSucc
            ∗ bigSep Finset.univ fun w => owns (c : Thread nD τ) ((cfg0.win w).stage (cfg0.slots t w)) fullShare ((dat0 V c).after w t)) := by
  rw [bigSep_W0, bigSep_W0]
  simp +decide only [before0 V c]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 (iblk0 V c 0 t) (iblk0 V c 1 t) _ _ _ (iblk0 V c 2 t) (iblk0 V c 4 t) (iblk0 V c 6 t) (iblk0 V c 3 t) (iblk0 V c 5 t) (iblk0 V c 7 t) _)
  iframe H0 H1 H2 H3 H4 H5 H6 H7
  isplitl [H8]; · iexact H8
  isplitl [H9]; · iexact H9
  isplitl [H10]; · iexact H10
  iintro H
  iframe

theorem body_obligation0 (c : Dev nD) : BodyObligation (dat0 (F := F) V c) (defs₀ (F := F)) Variants.none () Set.univ :=
  fun t => sound_body0 V c t

theorem Φ_first0 (c : Dev nD) : (iprop((∃ r, prngReg c r) ∗ Pipeline.scopedRest (Ix := Unit) (Name := ℕ) (U := UR sig nD τ) (Lvl := ℕ) (Val := Elt F) spec0 c) : sProp 𝕄) ⊢ (dat0 V c).Φ 0 := sep_symm

theorem Φ_last0 (c : Dev nD) : (dat0 V c).Φ (Fin.last cfg0.N) ⊢ (iprop((∃ r, prngReg c r) ∗ Pipeline.scopedRest (Ix := Unit) (Name := ℕ) (U := UR sig nD τ) (Lvl := ℕ) (Val := Elt F) spec0 c) : sProp 𝕄) := sep_symm

end Cert.Kernel.Hand

end
-- ==== Proof.K.Reg1.lean ====
import proofs.«137432_j14851996910240_2_alg».proof.Proof.Gen.Kernel.Launch
import proofs.«137432_j14851996910240_2_alg».proof.Proof.Gen.Kernel.Skeleton
import proofs.«137432_j14851996910240_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S128x2048 := Rect.unit (s := S128x2048) ![0, 0] S128x2048.size inb_S128x2048_S128x2048_0_0
abbrev r1_w : Rect S2048x2048 := Rect.unit (s := S2048x2048) ![0, 0] S2048x2048.size inb_S2048x2048_S2048x2048_0_0
abbrev r1_b : Rect S1x2048 := Rect.unit (s := S1x2048) ![0, 0] S1x2048.size inb_S1x2048_S1x2048_0_0

def out1_6 (x0 : Vec F S128x2048 .f32) (x2 : Vec F S2048x2048 .bf16) (x3 : Vec F S1x2048 .f32) : Vec F S128x2048 .f32 :=
  View.canon [⟨r1_a, k1_pay1 (View.ld x0 r1_a) (View.ld x2 r1_w) (View.ld x3 r1_b)⟩]

def out1_7 (x1 : Vec F S128x2048 .f32) (x4 : Vec F S2048x2048 .bf16) (x5 : Vec F S1x2048 .f32) : Vec F S128x2048 .f32 :=
  View.canon [⟨r1_a, k1_pay2 (View.ld x1 r1_a) (View.ld x4 r1_w) (View.ld x5 r1_b)⟩]

/-- One store of the whole block covers it. -/
theorem cover1_a (p0 : Vec F S128x2048 .f32) (y : S128x2048.Idx) :
    ∃ pc ∈ ([⟨r1_a, p0⟩] : List (View.Piece (Elt F) S128x2048 .f32)), y ∈ pc.1.set :=
  View.cover_of_tiled [⟨r1_a, p0⟩] S128x2048.size (by rfl) y

abbrev own1 (c : Dev nD) {s : Shape} {e : EltTy} (a : Memref sig .tc .vmem s e) (x : Vec F s e) : sProp 𝕄 :=
  owns (c : Thread nD τ) a fullShare x

set_option maxHeartbeats 1000000 in
/-- The body on whole buffers: the inputs stay as read, each output ends at its one store laid over the block. -/
theorem sound_kernel1 {c : Dev nD} {E : Set ℕ} {i : grid1.Coords}
    {a1 a2 a7 a8 : Memref sig .tc .vmem S128x2048 .f32} {a3 a5 : Memref sig .tc .vmem S2048x2048 .bf16} {a4 a6 : Memref sig .tc .vmem S1x2048 .f32}
    {h1 : a1.IsWhole} {h2 : a2.IsWhole} {h3 : a3.IsWhole} {h4 : a4.IsWhole} {h5 : a5.IsWhole} {h6 : a6.IsWhole} {h7 : a7.IsWhole} {h8 : a8.IsWhole}
    (x0 x1 y6 y7 : Vec F S128x2048 .f32) (x2 x4 : Vec F S2048x2048 .bf16) (x3 x5 : Vec F S1x2048 .f32) (K : PUnit → sProp 𝕄) :
    iprop(own1 c a1 x0 ∗ own1 c a2 x1 ∗ own1 c a3 x2 ∗ own1 c a4 x3 ∗ own1 c a5 x4 ∗ own1 c a6 x5 ∗ own1 c a7 y6 ∗ own1 c a8 y7
        ∗ (iprop(own1 c a1 x0 ∗ own1 c a2 x1 ∗ own1 c a3 x2 ∗ own1 c a4 x3 ∗ own1 c a5 x4 ∗ own1 c a6 x5
            ∗ own1 c a7 (out1_6 x0 x2 x3) ∗ own1 c a8 (out1_7 x1 x4 x5)) -∗ K ⟨⟩))
      ⊢ wp frame (wpE (defs₀ (F := F)) Variants.none c none) E (cc1_k2_kernel i a1 h1 a2 h2 a3 h3 a4 h4 a5 h5 a6 h6 a7 h7 a8 h8) K := by
  simp only [cc1_k2_kernel_eq_skeleton]; unfold cc1_k2_kernel_skel own1 owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, -, H7⟩, Hk⟩
  subst hf0 hf1 hf2 hf3 hf4 hf5
  sl_exec
  sl_step
  iapply Hk
  isplitl [H0]; swap; isplitl [H1]; swap; isplitl [H2]; swap; isplitl [H3]; swap; isplitl [H4]; swap; isplitl [H5]; swap; isplitl [H6]; swap
  all_goals (iexists _; isplitr; swap; iassumption; ipureintro; first | exact View.read_writes_eq_canon _ _ _ (cover1_a _) | rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 2 t) (iblk1 V c 3 t)
    | ⟨7, _⟩ => out1_7 (iblk1 V c 1 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = out1_6 (iblk1 V c 0 t) (iblk1 V c 2 t) (iblk1 V c 3 t) := by dsimp only [dat1]
theorem after1_7 (c : Dev nD) (t : Fin cfg1.N) : (dat1 V c).after 7 t = out1_7 (iblk1 V c 1 t) (iblk1 V c 4 t) (iblk1 V c 5 t) := by dsimp only [dat1]

/-- Window by window: the body leaves each input's block as it found it. -/
theorem before1 (c : Dev nD) : ∀ w : Fin cfg1.W, w.val < 6 → ∀ t d, (dat1 V c).before w t d = (dat1 V c).after w t := by
  intro w; fin_cases w <;> intro hw t d <;> first
    | exact absurd hw (by decide)
    | exact ((dat1 V c).before_in_eq_fetched _ rfl (fun _ => rfl) (fun _ _ _ => rfl) (fun _ => rfl) t d).trans rfl

/-- The body at a point: the inputs hold their blocks, so the body's triple applies; the invariant and what is owed pass through. -/
theorem sound_body1 (c : Dev nD) (t : Fin cfg1.N) :
    iprop((dat1 V c).Φ t.castSucc ∗ (dat1 V c).owesAt () t.castSucc
        ∗ bigSep Finset.univ fun w => iprop(∃ d, owns (c : Thread nD τ) ((cfg1.win w).stage (cfg1.slots t w)) fullShare ((dat1 V c).before w t d)))
      ⊢ wp frame (wpE (defs₀ (F := F)) Variants.none c none) Set.univ (bodyAt1 t) fun _ =>
          iprop((dat1 V c).Φ t.castSucc ∗ (dat1 V c).owesAt () t.castSucc
            ∗ bigSep Finset.univ fun w => owns (c : Thread nD τ) ((cfg1.win w).stage (cfg1.slots t w)) fullShare ((dat1 V c).after w t)) := by
  rw [bigSep_W1, bigSep_W1]
  simp +decide only [before1 V c]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 (iblk1 V c 0 t) (iblk1 V c 1 t) _ _ (iblk1 V c 2 t) (iblk1 V c 4 t) (iblk1 V c 3 t) (iblk1 V c 5 t) _)
  iframe H0 H1 H2 H3 H4 H5
  isplitl [H6]; · iexact H6
  isplitl [H7]; · iexact H7
  iintro H
  iframe

theorem body_obligation1 (c : Dev nD) : BodyObligation (dat1 (F := F) V c) (defs₀ (F := F)) Variants.none () Set.univ :=
  fun t => sound_body1 V c t

theorem Φ_first1 (c : Dev nD) : (iprop((∃ r, prngReg c r) ∗ Pipeline.scopedRest (Ix := Unit) (Name := ℕ) (U := UR sig nD τ) (Lvl := ℕ) (Val := Elt F) spec1 c) : sProp 𝕄) ⊢ (dat1 V c).Φ 0 := sep_symm

theorem Φ_last1 (c : Dev nD) : (dat1 V c).Φ (Fin.last cfg1.N) ⊢ (iprop((∃ r, prngReg c r) ∗ Pipeline.scopedRest (Ix := Unit) (Name := ℕ) (U := UR sig nD τ) (Lvl := ℕ) (Val := Elt F) spec1 c) : sProp 𝕄) := sep_symm

end Cert.Kernel.Hand

end
-- ==== Proof.K.Reg2.lean ====
import proofs.«137432_j14851996910240_2_alg».proof.Proof.Gen.Kernel.Launch
import proofs.«137432_j14851996910240_2_alg».proof.Proof.Gen.Kernel.Skeleton
import proofs.«137432_j14851996910240_2_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 32 = 0 := by decide +kernel

abbrev cond2_1 (i : grid2.Coords) : Prop := k2_cond2 i = 1#1

theorem hcond2_1 : ∀ t : Fin cfg2.N, cond2_1 (grid2.coords t) ↔ t.val % 32 = 31 := by decide +kernel

theorem idleAt2_2 : ∀ t : Fin cfg2.N, ¬cond2_1 (grid2.coords t) → idle2 2 (grid2.coords t) = true ∧ (win2 2).flush t = false := by decide +kernel
theorem liveAt2_2 : ∀ t : Fin cfg2.N, cond2_1 (grid2.coords t) → idle2 2 (grid2.coords t) = false := by decide +kernel

abbrev VO2_2 : View sig .tc .vmem S2048x2048 .bf16 := (Memref.whole cc2_stg2_0 : Memref sig .tc .vmem S2048x2048 .bf16).view

abbrev ms2_0 (t : Fin cfg2.N) : Memref sig .tc .vmem S128x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x2048 .bf16 := win2_2.stage (cfg2.slots t 2)
abbrev hs2_2 (t : Fin cfg2.N) : (ms2_2 t).IsWhole := hstage2_2 ((cfg2.slots t 2).cast nbuf2_2)

abbrev scM2_0 : Memref sig .tc .vmem S2048x2048 .f32 := Memref.whole cc2_scratch0

abbrev VS2_0 : View sig .tc .vmem S2048x2048 .f32 := scM2_0.view

section Args

variable (c : Dev nD) (i : grid2.Coords) (arg1 : Memref sig .tc .vmem S128x2048 .f32) (harg1 : arg1.IsWhole) (arg2 : Memref sig .tc .vmem S128x2048 .f32) (harg2 : arg2.IsWhole) (arg3 : Memref sig .tc .vmem S2048x2048 .bf16) (harg3 : arg3.IsWhole) (arg4 : Memref sig .tc .vmem S2048x2048 .f32) (harg4 : arg4.IsWhole)

section A

variable (hc0 : cond2_0 i) (hc1 : ¬cond2_1 i) (x0 x1 : Vec F S128x2048 .f32)

def kernelRun2_A :
    Σ' (L2 : List (View.Piece (Elt F) S2048x2048 .bf16)), { LS0 : List (View.Piece (Elt F) S2048x2048 .f32) //
      ∀ (xi2 : Vec F S2048x2048 .bf16) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2_k3_kernel i arg1 harg1 arg2 harg2 arg3 harg3 arg4 harg4) K } := by
  refine ⟨[], ?_, fun xi2 E K => ?run⟩
  case run =>
    simp only [cc2_k3_kernel_eq_skeleton]; unfold cc2_k3_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

def out2_A_2 : Vec F S2048x2048 .bf16 :=
  VO2_2.read (Elt F) (VO2_2.writes (Elt F) VO2_2.junk (kernelRun2_A c i arg1 harg1 arg2 harg2 arg3 harg3 arg4 harg4 hc0 hc1 x0 x1).1)

theorem scover2_A_0 (y : S2048x2048.Idx) :
    ∃ pc ∈ (kernelRun2_A c i arg1 harg1 arg2 harg2 arg3 harg3 arg4 harg4 hc0 hc1 x0 x1).2.1, y ∈ pc.1.set :=
  View.cover_of_tiledL _ S2048x2048.size (by sl_kernel_rfl) y

def sout2_A_0 : Vec F S2048x2048 .f32 :=
  VS2_0.read (Elt F) (VS2_0.writes (Elt F) VS2_0.junk (kernelRun2_A c i arg1 harg1 arg2 harg2 arg3 harg3 arg4 harg4 hc0 hc1 x0 x1).2.1)

end A

section B

variable (hc0 : ¬cond2_0 i) (hc1 : ¬cond2_1 i) (x0 x1 : Vec F S128x2048 .f32) (xs0 : Vec F S2048x2048 .f32)

def kernelRun2_B :
    Σ' (L2 : List (View.Piece (Elt F) S2048x2048 .bf16)), { LS0 : List (View.Piece (Elt F) S2048x2048 .f32) //
      ∀ (xi2 : Vec F S2048x2048 .bf16) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2_k3_kernel i arg1 harg1 arg2 harg2 arg3 harg3 arg4 harg4) K } := by
  refine ⟨[], ?_, fun xi2 E K => ?run⟩
  case run =>
    simp only [cc2_k3_kernel_eq_skeleton]; unfold cc2_k3_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

def out2_B_2 : Vec F S2048x2048 .bf16 :=
  VO2_2.read (Elt F) (VO2_2.writes (Elt F) VO2_2.junk (kernelRun2_B c i arg1 harg1 arg2 harg2 arg3 harg3 arg4 harg4 hc0 hc1 x0 x1 xs0).1)

theorem scover2_B_0 (y : S2048x2048.Idx) :
    ∃ pc ∈ (kernelRun2_B c i arg1 harg1 arg2 harg2 arg3 harg3 arg4 harg4 hc0 hc1 x0 x1 xs0).2.1, y ∈ pc.1.set :=
  View.cover_of_tiledL _ S2048x2048.size (by sl_kernel_rfl) y

def sout2_B_0 : Vec F S2048x2048 .f32 :=
  VS2_0.read (Elt F) (VS2_0.writes (Elt F) VS2_0.junk (kernelRun2_B c i arg1 harg1 arg2 harg2 arg3 harg3 arg4 harg4 hc0 hc1 x0 x1 xs0).2.1)

end B

section C

variable (hc0 : ¬cond2_0 i) (hc1 : cond2_1 i) (x0 x1 : Vec F S128x2048 .f32) (xs0 : Vec F S2048x2048 .f32)

def kernelRun2_C :
    Σ' (L2 : List (View.Piece (Elt F) S2048x2048 .bf16)), { LS0 : List (View.Piece (Elt F) S2048x2048 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2_k3_kernel i arg1 harg1 arg2 harg2 arg3 harg3 arg4 harg4) K } := by
  refine ⟨?_, ?_, fun E K => ?run⟩
  case run =>
    simp only [cc2_k3_kernel_eq_skeleton]; unfold cc2_k3_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

theorem cover2_C_2 (y : S2048x2048.Idx) :
    ∃ pc ∈ (kernelRun2_C c i arg1 harg1 arg2 harg2 arg3 harg3 arg4 harg4 hc0 hc1 x0 x1 xs0).1, y ∈ pc.1.set :=
  View.cover_of_tiledL _ S2048x2048.size (by sl_kernel_rfl) y

def out2_C_2 : Vec F S2048x2048 .bf16 :=
  VO2_2.read (Elt F) (VO2_2.writes (Elt F) VO2_2.junk (kernelRun2_C c i arg1 harg1 arg2 harg2 arg3 harg3 arg4 harg4 hc0 hc1 x0 x1 xs0).1)

theorem scover2_C_0 (y : S2048x2048.Idx) :
    ∃ pc ∈ (kernelRun2_C c i arg1 harg1 arg2 harg2 arg3 harg3 arg4 harg4 hc0 hc1 x0 x1 xs0).2.1, y ∈ pc.1.set :=
  View.cover_of_tiledL _ S2048x2048.size (by sl_kernel_rfl) y

def sout2_C_0 : Vec F S2048x2048 .f32 :=
  VS2_0.read (Elt F) (VS2_0.writes (Elt F) VS2_0.junk (kernelRun2_C c i arg1 harg1 arg2 harg2 arg3 harg3 arg4 harg4 hc0 hc1 x0 x1 xs0).2.1)

end C

end Args

/-- A buffer left at stores that cover its view is owned at what they read back, whatever it held before. -/
theorem owns_of_cover (c : Dev nD) {s e} (m : Memref sig .tc .vmem s e) (v' : View sig .tc .vmem s e) {f} {L : List (View.Piece (Elt F) s e)}
    (h : ∀ y, ∃ pc ∈ L, y ∈ pc.1.set) :
    (m.view.loc (c : Thread nD τ) ↦[m.view.set]{fullShare} m.view.writes (Elt F) f L : sProp 𝕄)
      ⊢ owns (c : Thread nD τ) m fullShare (v'.read (Elt F) (v'.writes (Elt F) v'.junk L)) := by
  iintro H; unfold owns; iexists m.view.writes (Elt F) f L; isplitr
  · ipureintro; exact View.read_writes_of_cover _ _ _ _ _ h
  · iexact H

section Region

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def outsAt2 (c : Dev nD) : (n : ℕ) → n < cfg2.N → Vec F S2048x2048 .bf16 × Vec F S2048x2048 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 32 = 0 then
      if h1 : (n + 1) % 32 = 31 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 32 = 31 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 32 = 0) (h1 : ¬t.val % 32 = 31) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 32 = 0) (h1 : ¬t.val % 32 = 31) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 32 = 0) (h1 : t.val % 32 = 31) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

abbrev restBut2 (c : Dev nD) : sProp 𝕄 :=
  Pipeline.scopedRestBut spec2 c [cc2_scratch0]

def PhiS2 (c : Dev nD) : (n : ℕ) → n ≤ cfg2.N → sProp 𝕄
  | 0, _ => iprop(iprop(∃ d, owns (c : Thread nD τ) scM2_0 fullShare d) ∗ restBut2 c ∗ (∃ r, prngReg c r))
  | n + 1, hn => iprop(iprop(owns (c : Thread nD τ) scM2_0 fullShare ((outsAt2 V c n hn).2)) ∗ restBut2 c ∗ (∃ r, prngReg c r))

theorem PhiS2_zero (c : Dev nD) (n : ℕ) (h : n ≤ cfg2.N) (hz : n = 0) :
    PhiS2 V c n h = iprop(iprop(∃ d, owns (c : Thread nD τ) scM2_0 fullShare d) ∗ restBut2 c ∗ (∃ r, prngReg c r)) := by
  subst hz; rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)) ∗ restBut2 c ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = (outsAt2 V c t.val t.isLt).1 := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

/-- The body obligation at any point: the point's case runs; the accumulator is taken back at what the case's covering stores read. -/
theorem body_obligation2 (c : Dev nD) : BodyObligation (dat2 (F := F) V c) (defs₀ (F := F)) Variants.none () Set.univ := fun t => by
  rw [bigSep_W2, bigSep_W2]
  change _ ⊢ wp frame _ _ (bodyAt2 t) _
  unfold bodyAt2
  simp only [before2_0, before2_1, after2_0, after2_1]
  rw [show (dat2 V c).owesAt () t.succ = (dat2 V c).owesAt () t.castSucc from rfl,
    show (dat2 V c).Φ t.succ = iprop(iprop(owns (c : Thread nD τ) scM2_0 fullShare ((outsAt2 V c t.val t.isLt).2)) ∗ restBut2 c ∗ (∃ r, prngReg c r)) from rfl,
    show (dat2 V c).Φ t.castSucc = PhiS2 V c t.val t.isLt.le from rfl]
  have hN : t.val < 32 := t.isLt
  by_cases h1 : t.val % 32 = 31
  · have h0 : ¬t.val % 32 = 0 := by omega
    have hc0 := mt (hcond2_0 t).mp h0
    have hc1 := (hcond2_1 t).mpr h1
    rw [liveAt2_2 t hc1, after2_2, outsAt2_C V c t h0 h1, PhiS2_pos V c _ _ (by omega)]
    unfold out2_C_2 sout2_C_0; dsimp only
    iintro ⟨⟨HS0, Hrest, Hg⟩, Ho, ⟨%d0, H0⟩, ⟨%d1, H1⟩, ⟨%d2, H2⟩⟩
    iapply ((kernelRun2_C c (grid2.coords t) _ _ _ _ _ _ _ _ hc0 hc1 (iblk2 V c 0 t) (iblk2 V c 1 t) _).2.2 Set.univ _)
    iframe H0 H1 HS0
    isplitl [H2]; · iexists _; iexact H2
    iintro ⟨H0, H1, ⟨%e2, H2⟩, ⟨%es0, HS0⟩⟩
    iframe Hrest Hg Ho H0 H1
    isplitl [HS0]
    · iapply owns_of_cover c _ _ (scover2_C_0 c _ _ _ _ _ _ _ _ _ hc0 hc1 _ _ _); iexact HS0
    · iapply owns_of_cover c _ _ (cover2_C_2 c _ _ _ _ _ _ _ _ _ hc0 hc1 _ _ _); iexact H2
  · have hc1 := mt (hcond2_1 t).mp h1
    rw [(idleAt2_2 t hc1).1, (idleAt2_2 t hc1).2]
    by_cases h0 : t.val % 32 = 0
    · have hc0 := (hcond2_0 t).mpr h0
      rw [outsAt2_A V c t h0 h1, PhiS2_zero V c _ _ (by omega)]
      unfold sout2_A_0; dsimp only
      iintro ⟨⟨HS0, Hrest, Hg⟩, Ho, ⟨%d0, H0⟩, ⟨%d1, H1⟩, ⟨%d2, H2⟩⟩
      iapply ((kernelRun2_A c (grid2.coords t) _ _ _ _ _ _ _ _ hc0 hc1 (iblk2 V c 0 t) (iblk2 V c 1 t)).2.2 ((dat2 V c).before 2 t d2) Set.univ _)
      iframe H0 H1 H2 HS0
      iintro ⟨H0, H1, H2, ⟨%es0, HS0⟩⟩
      iframe Hrest Hg Ho H0 H1
      isplitl [HS0]
      · iapply owns_of_cover c _ _ (scover2_A_0 c _ _ _ _ _ _ _ _ _ hc0 hc1 _ _); iexact HS0
      · iexists _; iexact H2
    · have hc0 := mt (hcond2_0 t).mp h0
      rw [outsAt2_B V c t h0 h1, PhiS2_pos V c _ _ (by omega)]
      unfold sout2_B_0; dsimp only
      iintro ⟨⟨HS0, Hrest, Hg⟩, Ho, ⟨%d0, H0⟩, ⟨%d1, H1⟩, ⟨%d2, H2⟩⟩
      iapply ((kernelRun2_B c (grid2.coords t) _ _ _ _ _ _ _ _ hc0 hc1 (iblk2 V c 0 t) (iblk2 V c 1 t) _).2.2 ((dat2 V c).before 2 t d2) Set.univ _)
      iframe H0 H1 H2 HS0
      iintro ⟨H0, H1, H2, ⟨%es0, HS0⟩⟩
      iframe Hrest Hg Ho H0 H1
      isplitl [HS0]
      · iapply owns_of_cover c _ _ (scover2_B_0 c _ _ _ _ _ _ _ _ _ hc0 hc1 _ _ _); iexact HS0
      · iexists _; iexact H2

theorem Φ_first2 (c : Dev nD) :
    (iprop((∃ r, prngReg c r) ∗ Pipeline.scopedRest (Ix := Unit) (Name := ℕ) (U := UR sig nD τ) (Lvl := ℕ) (Val := Elt F) spec2 c) : sProp 𝕄)
      ⊢ (dat2 V c).Φ 0 := by
  rw [show (dat2 V c).Φ 0 = _ from PhiS2_zero V c 0 (Nat.zero_le _) rfl, scopedRest2_split]
  simp only [scM2_0, owns_whole]
  iintro ⟨Hg, HS0, Hrest⟩
  iframe

theorem Φ_last2 (c : Dev nD) :
    (dat2 V c).Φ (Fin.last cfg2.N)
      ⊢ (iprop((∃ r, prngReg c r) ∗ Pipeline.scopedRest (Ix := Unit) (Name := ℕ) (U := UR sig nD τ) (Lvl := ℕ) (Val := Elt F) spec2 c) : sProp 𝕄) := by
  rw [show (dat2 V c).Φ (Fin.last cfg2.N) = _ from PhiS2_pos V c (Fin.last cfg2.N).val (Nat.le_of_lt_succ (Fin.last cfg2.N).isLt) (by decide), scopedRest2_split]
  simp only [scM2_0, owns_whole]
  iintro ⟨HS0, Hrest, Hg⟩
  iframe Hg Hrest
  iexists _; iexact HS0

end Region

end Cert.Kernel.Hand

end
-- ==== Proof.K.Reg3.lean ====
import proofs.«137432_j14851996910240_2_alg».proof.Proof.Gen.Kernel.Launch
import proofs.«137432_j14851996910240_2_alg».proof.Proof.Gen.Kernel.Skeleton
import proofs.«137432_j14851996910240_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S128x2048 := Rect.unit (s := S128x2048) ![0, 0] S128x2048.size inb_S128x2048_S128x2048_0_0
abbrev r3_w : Rect S2048x2048 := Rect.unit (s := S2048x2048) ![0, 0] S2048x2048.size inb_S2048x2048_S2048x2048_0_0
abbrev r3_b : Rect S1x2048 := Rect.unit (s := S1x2048) ![0, 0] S1x2048.size inb_S1x2048_S1x2048_0_0

abbrev r3_s : Rect S8x2048 := Rect.unit (s := S8x2048) ![0, 0] S8x2048.size inb_S8x2048_S8x2048_0_0

abbrev r3_h : Rect S8x2048 := Rect.unit (s := S8x2048) ![0, 0] S4x2048.size inb_S8x2048_S4x2048_0_0

def y1At3 (x0 x2 : Vec F S128x2048 .f32) (x4 x5 : Vec F S2048x2048 .bf16) (x6 : Vec F S1x2048 .f32) : Vec F S128x2048 .f32 :=
  k3_pay6 (View.ld x4 r3_w) (View.ld x0 r3_a) (View.ld x5 r3_w) (View.ld x6 r3_b) (View.ld x2 r3_a)

def v2At3 (x1 : Vec F S128x2048 .f32) (x4 x7 : Vec F S2048x2048 .bf16) (x8 : Vec F S1x2048 .f32) : Vec F S128x2048 .f32 :=
  k3_pay5 (View.ld x4 r3_w) (View.ld x1 r3_a) (View.ld x7 r3_w) (View.ld x8 r3_b)

def y2At3 (x1 x3 : Vec F S128x2048 .f32) (x4 x7 : Vec F S2048x2048 .bf16) (x8 : Vec F S1x2048 .f32) : Vec F S128x2048 .f32 :=
  k3_pay1 (v2At3 x1 x4 x7 x8) (k3_pay7 (View.ld x3 r3_a))

def out3_9 (x0 x2 : Vec F S128x2048 .f32) (x4 x5 : Vec F S2048x2048 .bf16) (x6 : Vec F S1x2048 .f32) : Vec F S128x2048 .f32 :=
  View.canon [⟨r3_a, y1At3 x0 x2 x4 x5 x6⟩]

def out3_10 (x1 x3 : Vec F S128x2048 .f32) (x4 x7 : Vec F S2048x2048 .bf16) (x8 : Vec F S1x2048 .f32) : Vec F S128x2048 .f32 :=
  View.canon [⟨r3_a, y2At3 x1 x3 x4 x7 x8⟩]

def zero3 : Vec F S8x2048 .f32 := k3_pay3 (F := F)

def stk3 (x0 x1 x2 x3 : Vec F S128x2048 .f32) (x4 x5 : Vec F S2048x2048 .bf16) (x6 : Vec F S1x2048 .f32) (x7 : Vec F S2048x2048 .bf16)
    (x8 : Vec F S1x2048 .f32) (s : Vec F S8x2048 .f32) : Vec F S4x2048 .f32 :=
  k3_pay2 (v2At3 x1 x4 x7 x8) (y1At3 x0 x2 x4 x5 x6) (k3_pay7 (View.ld x3 r3_a)) (View.ld s r3_h)

def scr3 (x0 x1 x2 x3 : Vec F S128x2048 .f32) (x4 x5 : Vec F S2048x2048 .bf16) (x6 : Vec F S1x2048 .f32) (x7 : Vec F S2048x2048 .bf16)
    (x8 : Vec F S1x2048 .f32) (s : Vec F S8x2048 .f32) : Vec F S8x2048 .f32 :=
  r3_h.overlay s (stk3 x0 x1 x2 x3 x4 x5 x6 x7 x8 s)

theorem cover3_a (p0 : Vec F S128x2048 .f32) (y : S128x2048.Idx) :
    ∃ pc ∈ ([⟨r3_a, p0⟩] : List (View.Piece (Elt F) S128x2048 .f32)), y ∈ pc.1.set :=
  View.cover_of_tiled [⟨r3_a, p0⟩] S128x2048.size (by rfl) y

theorem cover3_s (p0 : Vec F S8x2048 .f32) (y : S8x2048.Idx) :
    ∃ pc ∈ ([⟨r3_s, p0⟩] : List (View.Piece (Elt F) S8x2048 .f32)), y ∈ pc.1.set :=
  View.cover_of_tiled [⟨r3_s, p0⟩] S8x2048.size (by rfl) y

theorem hz3 : (![0, 0] : Fin 2 → Nat) = fun _ => 0 := funext fun a => by fin_cases a <;> rfl

section Reads

variable {sg : RefSig} {κ : Kind} {sp : Space} {s : Shape} {e : EltTy} {Val : EltTy → Type}

theorem read_writes_overlay3 (v : View sg κ sp s e) (f : v.ty.Contents Val) (r : Rect s) (w : r.shape.Idx → Val e)
    (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons]
    exact View.read_slice_write_of_not_mem r _ _ _ (by rwa [Rect.map_emb_univ])

end Reads

theorem read_zeroed_overlay3 {sg : RefSig} {κ : Kind} {sp : Space} (v : View sg κ sp S8x2048 .f32) (f : v.ty.Contents (Elt F))
    (a b cc : FVec F S128x2048 .f32) (z : Vec F S8x2048 .f32) :
    v.read (Elt F) (v.writes (Elt F) f [⟨r3_h, k3_pay2 a b cc (v.readCov [⟨r3_s, z⟩] r3_h.toLoadRect)⟩, ⟨r3_s, z⟩])
      = r3_h.overlay z (k3_pay2 a b cc (View.ld z r3_h)) := by
  have h1 : v.read (Elt F) (v.writes (Elt F) f [⟨r3_s, z⟩]) = z := by
    rw [View.read_writes_eq_canon _ _ _ (cover3_s z)]; exact View.canon_unit_zero hz3 _ z
  have h2 : v.readCov [⟨r3_s, z⟩] r3_h.toLoadRect = View.ld z r3_h := by
    rw [View.readCov_eq_canon_ld _ _ _ (cover3_s z)]; exact congrArg (fun X => View.ld X r3_h) (View.canon_unit_zero hz3 _ z)
  exact (read_writes_overlay3 v f r3_h _ [⟨r3_s, z⟩]).trans
    (congrArg₂ (fun (s : Vec F S8x2048 .f32) (p : Vec F S4x2048 .f32) => r3_h.overlay s (k3_pay2 a b cc p)) h1 h2)

theorem read_copy_overlay3 {sg sg' : RefSig} {κ κ' : Kind} {sp sp' : Space} (v : View sg κ sp S8x2048 .f32) (v' : View sg' κ' sp' S8x2048 .f32)
    (f : v.ty.Contents (Elt F)) (f' : v'.ty.Contents (Elt F)) (w : Vec F S4x2048 .f32) :
    v.read (Elt F) (v.writes (Elt F) f [⟨r3_s, v'.readAt (Elt F) r3_s.toLoadRect (v'.writes (Elt F) f' [⟨r3_h, w⟩])⟩])
      = r3_h.overlay (v'.read (Elt F) f') w := by
  rw [View.read_writes_eq_canon _ _ _ (cover3_s _)]
  refine (View.canon_unit_zero hz3 _ _).trans ?_
  rw [View.readAt_eq_ld, View.ld_unit_zero hz3]
  exact read_writes_overlay3 v' f' r3_h w []

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val = 0 :=
  (by decide +kernel : ∀ t : Fin grid3.N, cond3_0 (grid3.coords t) ↔ t.val = 0)

abbrev cond3_1 (i : grid3.Coords) : Prop := k3_cond2 i = 1#1

theorem hcond3_1 : ∀ t : Fin cfg3.N, cond3_1 (grid3.coords t) ↔ t.val = 31 :=
  (by decide +kernel : ∀ t : Fin grid3.N, cond3_1 (grid3.coords t) ↔ t.val = 31)

theorem idleAt3_11 : ∀ t : Fin cfg3.N, t.val ≠ 31 → cfg3.idle 11 (grid3.coords t) = true := by decide +kernel
theorem noFlush3_11 : ∀ t : Fin cfg3.N, t.val ≠ 31 → (cfg3.win 11).flush t = false := by decide +kernel
theorem liveAt3_11 : ∀ t : Fin cfg3.N, t.val = 31 → cfg3.idle 11 (grid3.coords t) = false := by decide +kernel

section Body

variable (c : Dev nD) (E : Set ℕ) (i : grid3.Coords)
  (arg1 arg2 arg3 arg4 : Memref sig .tc .vmem S128x2048 .f32) (arg5 arg6 : Memref sig .tc .vmem S2048x2048 .bf16)
  (arg7 : Memref sig .tc .vmem S1x2048 .f32) (arg8 : Memref sig .tc .vmem S2048x2048 .bf16) (arg9 : Memref sig .tc .vmem S1x2048 .f32)
  (arg10 arg11 : Memref sig .tc .vmem S128x2048 .f32) (arg12 arg13 : Memref sig .tc .vmem S8x2048 .f32)
  (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole)
  (x0 x1 x2 x3 : Vec F S128x2048 .f32) (x4 x5 : Vec F S2048x2048 .bf16) (x6 : Vec F S1x2048 .f32) (x7 : Vec F S2048x2048 .bf16)
  (x8 : Vec F S1x2048 .f32) (xi11 xs : Vec F S8x2048 .f32)

-- Ownership of the nine inputs at `x0 … x8`, then `R`.
abbrev ins3 (R : sProp 𝕄) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ R)

-- The body's triple: the inputs come back as they came and the two row tiles are written; `P` is what the statistics window and the scratch come in at, `Q` what they go out at.
abbrev Triple3 (K : PUnit → sProp 𝕄) (P Q : sProp 𝕄) : Prop :=
  ins3 c arg1 arg2 arg3 arg4 arg5 arg6 arg7 arg8 arg9 x0 x1 x2 x3 x4 x5 x6 x7 x8 iprop((∃ d, owns (c : Thread nD τ) arg10 fullShare d) ∗ (∃ d, owns (c : Thread nD τ) arg11 fullShare d) ∗ P
      ∗ (ins3 c arg1 arg2 arg3 arg4 arg5 arg6 arg7 arg8 arg9 x0 x1 x2 x3 x4 x5 x6 x7 x8 iprop(owns (c : Thread nD τ) arg10 fullShare (out3_9 x0 x2 x4 x5 x6) ∗ owns (c : Thread nD τ) arg11 fullShare (out3_10 x1 x3 x4 x7 x8) ∗ Q) -∗ K ⟨⟩))
    ⊢ wp frame (wpE (defs₀ (F := F)) Variants.none c none) E (cc3_k4_kernel i arg1 harg1 arg2 harg2 arg3 harg3 arg4 harg4 arg5 harg5 arg6 harg6 arg7 harg7 arg8 harg8 arg9 harg9 arg10 harg10 arg11 harg11 arg12 harg12 arg13 harg13) K

variable {arg1 arg2 arg3 arg4 arg5 arg6 arg7 arg8 arg9 arg10 arg11 arg12 arg13} {harg1 harg2 harg3 harg4 harg5 harg6 harg7 harg8 harg9 harg10 harg11 harg12 harg13}

set_option maxHeartbeats 4000000 in
-- The first point: the scratch comes in at anything and is zeroed before the accumulation.
theorem sound_kernel3_A (K : PUnit → sProp 𝕄) (hc0 : cond3_0 i) (hc1 : ¬cond3_1 i) :
    Triple3 c E i arg1 arg2 arg3 arg4 arg5 arg6 arg7 arg8 arg9 arg10 arg11 arg12 arg13 harg1 harg2 harg3 harg4 harg5 harg6 harg7 harg8 harg9 harg10 harg11 harg12 harg13 x0 x1 x2 x3 x4 x5 x6 x7 x8 K iprop(owns (c : Thread nD τ) arg12 fullShare xi11 ∗ ∃ d, owns (c : Thread nD τ) arg13 fullShare d)
      iprop(owns (c : Thread nD τ) arg12 fullShare xi11 ∗ owns (c : Thread nD τ) arg13 fullShare (scr3 x0 x1 x2 x3 x4 x5 x6 x7 x8 (zero3 (F := F)))) := by
  unfold Triple3 ins3
  simp only [cc3_k4_kernel_eq_skeleton]; unfold cc3_k4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨⟨%f11, %hf11, H11⟩, ⟨%ds, %fs, -, HS⟩⟩, Hk⟩
  subst_vars
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap
  iexists _; isplitr
  swap; · iexact HS
  ipureintro
  exact read_zeroed_overlay3 _ _ _ _ _ _
  all_goals (iexists _; isplitr; swap; iassumption; ipureintro; first | exact View.read_writes_eq_canon _ _ _ (cover3_a _) | rfl)

set_option maxHeartbeats 4000000 in
-- A middle point: the scratch steps from what the point before left.
theorem sound_kernel3_B (K : PUnit → sProp 𝕄) (hc0 : ¬cond3_0 i) (hc1 : ¬cond3_1 i) :
    Triple3 c E i arg1 arg2 arg3 arg4 arg5 arg6 arg7 arg8 arg9 arg10 arg11 arg12 arg13 harg1 harg2 harg3 harg4 harg5 harg6 harg7 harg8 harg9 harg10 harg11 harg12 harg13 x0 x1 x2 x3 x4 x5 x6 x7 x8 K iprop(owns (c : Thread nD τ) arg12 fullShare xi11 ∗ owns (c : Thread nD τ) arg13 fullShare xs)
      iprop(owns (c : Thread nD τ) arg12 fullShare xi11 ∗ owns (c : Thread nD τ) arg13 fullShare (scr3 x0 x1 x2 x3 x4 x5 x6 x7 x8 xs)) := by
  unfold Triple3 ins3
  simp only [cc3_k4_kernel_eq_skeleton]; unfold cc3_k4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨⟨%f11, %hf11, H11⟩, ⟨%fs, %hfs, HS⟩⟩, Hk⟩
  subst_vars
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap
  iexists _; isplitr
  swap; · iexact HS
  ipureintro
  exact read_writes_overlay3 _ _ _ _ _
  all_goals (iexists _; isplitr; swap; iassumption; ipureintro; first | exact View.read_writes_eq_canon _ _ _ (cover3_a _) | rfl)

set_option maxHeartbeats 4000000 in
-- The last point: as a middle point, then the scratch is copied into the statistics window.
theorem sound_kernel3_C (K : PUnit → sProp 𝕄) (hc0 : ¬cond3_0 i) (hc1 : cond3_1 i) :
    Triple3 c E i arg1 arg2 arg3 arg4 arg5 arg6 arg7 arg8 arg9 arg10 arg11 arg12 arg13 harg1 harg2 harg3 harg4 harg5 harg6 harg7 harg8 harg9 harg10 harg11 harg12 harg13 x0 x1 x2 x3 x4 x5 x6 x7 x8 K iprop((∃ d, owns (c : Thread nD τ) arg12 fullShare d) ∗ owns (c : Thread nD τ) arg13 fullShare xs)
      iprop(owns (c : Thread nD τ) arg12 fullShare (scr3 x0 x1 x2 x3 x4 x5 x6 x7 x8 xs) ∗ owns (c : Thread nD τ) arg13 fullShare (scr3 x0 x1 x2 x3 x4 x5 x6 x7 x8 xs)) := by
  unfold Triple3 ins3
  simp only [cc3_k4_kernel_eq_skeleton]; unfold cc3_k4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨⟨%d11, %f11, -, H11⟩, ⟨%fs, %hfs, HS⟩⟩, Hk⟩
  subst_vars
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]
  · iexists _; isplitr
    swap; · iexact H11
    ipureintro
    exact read_copy_overlay3 _ _ _ _ _
  iexists _; isplitr
  swap; · iexact HS
  ipureintro
  exact read_writes_overlay3 _ _ _ _ _
  all_goals (iexists _; isplitr; swap; iassumption; ipureintro; first | exact View.read_writes_eq_canon _ _ _ (cover3_a _) | rfl)

end Body

def stepAt3 (c : Dev nD) (t : Fin cfg3.N) (s : Vec F S8x2048 .f32) : Vec F S8x2048 .f32 :=
  scr3 (iblk3 V c 0 t) (iblk3 V c 1 t) (iblk3 V c 2 t) (iblk3 V c 3 t) (iblk3 V c 4 t) (iblk3 V c 5 t) (iblk3 V c 6 t) (iblk3 V c 7 t) (iblk3 V c 8 t) s

def scrAt3 (c : Dev nD) : (n : ℕ) → n < cfg3.N → Vec F S8x2048 .f32
  | 0, hn => stepAt3 V c ⟨0, hn⟩ (zero3 (F := F))
  | n + 1, hn => stepAt3 V c ⟨n + 1, hn⟩ (scrAt3 c n (Nat.lt_of_succ_lt hn))

theorem scrAt3_zero (c : Dev nD) (t : Fin cfg3.N) (h : t.val = 0) :
    scrAt3 V c t.val t.isLt = stepAt3 V c t (zero3 (F := F)) := by
  obtain ⟨n, hn⟩ := t
  cases n with
  | zero => rfl
  | succ n => exact absurd h (Nat.succ_ne_zero n)

theorem scrAt3_pos (c : Dev nD) (t : Fin cfg3.N) (h : t.val ≠ 0) :
    scrAt3 V c t.val t.isLt = stepAt3 V c t (scrAt3 V c (t.val - 1) (Nat.lt_of_le_of_lt (Nat.sub_le _ _) t.isLt)) := by
  obtain ⟨n, hn⟩ := t
  cases n with
  | zero => exact absurd rfl h
  | succ n => rfl

abbrev scM3 : Memref sig .tc .vmem S8x2048 .f32 := Memref.whole cc3_scratch0

theorem rest3_eq (c : Dev nD) :
    (iprop((∃ r, prngReg c r) ∗ Pipeline.scopedRest (Ix := Unit) (Name := ℕ) (U := UR sig nD τ) (Lvl := ℕ) (Val := Elt F) spec3 c) : sProp 𝕄)
      = iprop((∃ r, prngReg c r) ∗ iprop((∃ d, owns (c : Thread nD τ) scM3 fullShare d)) ∗ Pipeline.scopedRestBut (Ix := Unit) (Name := ℕ) (U := UR sig nD τ) (Lvl := ℕ) (Val := Elt F) spec3 c [cc3_scratch0]) := by
  rw [scopedRest3_split]; simp only [scM3, owns_whole]; try rfl

def Phi3 (c : Dev nD) : (n : ℕ) → n ≤ cfg3.N → sProp 𝕄
  | 0, _ => iprop((∃ r, prngReg c r) ∗ Pipeline.scopedRest (Ix := Unit) (Name := ℕ) (U := UR sig nD τ) (Lvl := ℕ) (Val := Elt F) spec3 c)
  | n + 1, hn => iprop(owns (c : Thread nD τ) scM3 fullShare (scrAt3 V c n hn) ∗ Pipeline.scopedRestBut (Ix := Unit) (Name := ℕ) (U := UR sig nD τ) (Lvl := ℕ) (Val := Elt F) spec3 c [cc3_scratch0] ∗ (∃ r, prngReg c r))

theorem Phi3_zero (c : Dev nD) (n : ℕ) (h : n ≤ cfg3.N) (hz : n = 0) :
    Phi3 V c n h = iprop((∃ r, prngReg c r) ∗ Pipeline.scopedRest (Ix := Unit) (Name := ℕ) (U := UR sig nD τ) (Lvl := ℕ) (Val := Elt F) spec3 c) := by
  subst hz; rfl

theorem Phi3_succ (c : Dev nD) (n : ℕ) (hn : n < cfg3.N) :
    Phi3 V c (n + 1) hn = iprop(owns (c : Thread nD τ) scM3 fullShare (scrAt3 V c n hn) ∗ Pipeline.scopedRestBut (Ix := Unit) (Name := ℕ) (U := UR sig nD τ) (Lvl := ℕ) (Val := Elt F) spec3 c [cc3_scratch0] ∗ (∃ r, prngReg c r)) := rfl

theorem Phi3_pos (c : Dev nD) (n : ℕ) (h : n ≤ cfg3.N) (hz : n ≠ 0) :
    Phi3 V c n h = iprop(owns (c : Thread nD τ) scM3 fullShare (scrAt3 V c (n - 1) (by omega)) ∗ Pipeline.scopedRestBut (Ix := Unit) (Name := ℕ) (U := UR sig nD τ) (Lvl := ℕ) (Val := Elt F) spec3 c [cc3_scratch0] ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 2 t) (iblk3 V c 4 t) (iblk3 V c 5 t) (iblk3 V c 6 t)
    | ⟨10, _⟩ => out3_10 (iblk3 V c 1 t) (iblk3 V c 3 t) (iblk3 V c 4 t) (iblk3 V c 7 t) (iblk3 V c 8 t)
    | ⟨11, _⟩ => scrAt3 V c t.val t.isLt
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_9 (c : Dev nD) (t : Fin cfg3.N) : (dat3 V c).after 9 t = out3_9 (iblk3 V c 0 t) (iblk3 V c 2 t) (iblk3 V c 4 t) (iblk3 V c 5 t) (iblk3 V c 6 t) := by dsimp only [dat3]
theorem after3_10 (c : Dev nD) (t : Fin cfg3.N) : (dat3 V c).after 10 t = out3_10 (iblk3 V c 1 t) (iblk3 V c 3 t) (iblk3 V c 4 t) (iblk3 V c 7 t) (iblk3 V c 8 t) := by dsimp only [dat3]
theorem after3_11 (c : Dev nD) (t : Fin cfg3.N) : (dat3 V c).after 11 t = scrAt3 V c t.val t.isLt := by dsimp only [dat3]

-- What the body finds in an input window is the window's block of `V`.
theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) ∧ (∀ d, (dat3 V c).before 3 t d = iblk3 V c 3 t) ∧ (∀ d, (dat3 V c).before 4 t d = iblk3 V c 4 t) ∧ (∀ d, (dat3 V c).before 5 t d = iblk3 V c 5 t) ∧ (∀ d, (dat3 V c).before 6 t d = iblk3 V c 6 t) ∧ (∀ d, (dat3 V c).before 7 t d = iblk3 V c 7 t) ∧ (∀ d, (dat3 V c).before 8 t d = iblk3 V c 8 t) := by
  refine ⟨?_, ?_, ?_, ?_, ?_, ?_, ?_, ?_, ?_⟩ <;>
    exact fun d => ((dat3 V c).before_in_eq_fetched _ rfl (fun _ => rfl) (fun _ _ _ => rfl) (fun _ => rfl) t d).trans rfl

theorem leaves3 (c : Dev nD) (t : Fin cfg3.N) : ∀ w : Fin cfg3.W, w.val < 11 →
    (dat3 V c).leavesExact w t = owns (c : Thread nD τ) ((cfg3.win w).stage (cfg3.slots t w)) fullShare ((dat3 V c).after w t)
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ | ⟨10, _⟩, _ => rfl
  | ⟨_ + 11, _⟩, h => absurd h (Nat.not_lt.2 (Nat.le_add_left _ _))

theorem after3_in (c : Dev nD) (t : Fin cfg3.N) :
    (dat3 V c).after 0 t = iblk3 V c 0 t ∧ (dat3 V c).after 1 t = iblk3 V c 1 t ∧ (dat3 V c).after 2 t = iblk3 V c 2 t ∧ (dat3 V c).after 3 t = iblk3 V c 3 t ∧ (dat3 V c).after 4 t = iblk3 V c 4 t ∧ (dat3 V c).after 5 t = iblk3 V c 5 t ∧ (dat3 V c).after 6 t = iblk3 V c 6 t ∧ (dat3 V c).after 7 t = iblk3 V c 7 t ∧ (dat3 V c).after 8 t = iblk3 V c 8 t :=
  ⟨rfl, rfl, rfl, rfl, rfl, rfl, rfl, rfl, rfl⟩

-- The body at any point: the first, a middle or the last one; that case's triple applies and everything else is framed.
theorem sound_body3 (c : Dev nD) (t : Fin cfg3.N) :
    iprop((dat3 V c).Φ t.castSucc ∗ (dat3 V c).owesAt () t.castSucc
        ∗ bigSep Finset.univ fun w : Fin cfg3.W => iprop(∃ d, owns (c : Thread nD τ) ((cfg3.win w).stage (cfg3.slots t w)) fullShare ((dat3 V c).before w t d)))
      ⊢ wp frame (wpE (defs₀ (F := F)) Variants.none c none) Set.univ (bodyAt3 t) fun _ =>
        iprop((dat3 V c).Φ t.succ ∗ (dat3 V c).owesAt () t.succ ∗ bigSep Finset.univ fun w : Fin cfg3.W => (dat3 V c).leavesExact w t) := by
  unfold bodyAt3
  rw [bigSep_W3, bigSep_W3,
    show (dat3 V c).owesAt () t.succ = (dat3 V c).owesAt () t.castSucc from rfl,
    show (dat3 V c).Φ t.succ = iprop(owns (c : Thread nD τ) scM3 fullShare (scrAt3 V c t.val t.isLt) ∗ Pipeline.scopedRestBut (Ix := Unit) (Name := ℕ) (U := UR sig nD τ) (Lvl := ℕ) (Val := Elt F) spec3 c [cc3_scratch0] ∗ (∃ r, prngReg c r)) from rfl,
    show (dat3 V c).Φ t.castSucc = Phi3 V c t.val (Nat.le_of_lt t.isLt) from rfl]
  simp (disch := decide) only [leaves3 V c t, before3 V c t, after3_in V c t, after3_9, after3_10]
  have hN : t.val < 32 := lt_of_lt_of_eq t.isLt (show cfg3.N = 32 from N_3)
  by_cases h0 : t.val = 0
  · have h1 : t.val ≠ 31 := by omega
    rw [Dat.leavesExact_idle (dat3 V c) 11 t (idleAt3_11 t h1) (noFlush3_11 t h1), scrAt3_zero V c t h0, Phi3_zero V c _ _ h0, rest3_eq]
    unfold stepAt3
    iintro ⟨⟨Hg, ⟨%ds, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel3_A c Set.univ (grid3.coords t) _ _ _ _ _ _ _ _ _ _ _ ((hcond3_0 t).mpr h0) (fun h => h1 ((hcond3_1 t).mp h)))
    unfold ins3
    iframe H0 H1 H2 H3 H4 H5 H6 H7 H8 H11
    isplitl [H9]; · iexists _; iexact H9
    isplitl [H10]; · iexists _; iexact H10
    isplitl [HS]; · iexists _; iexact HS
    iintro ⟨H0, H1, H2, H3, H4, H5, H6, H7, H8, H9, H10, H11, HS⟩
    iframe
    iexists _; iexact H11
  · rw [scrAt3_pos V c t h0, Phi3_pos V c _ _ h0]
    unfold stepAt3
    by_cases h1 : t.val = 31
    · rw [show (dat3 V c).leavesExact 11 t = owns (c : Thread nD τ) (st3_11 t) fullShare ((dat3 V c).after 11 t) from by
        unfold Dat.leavesExact; rw [liveAt3_11 t h1], after3_11, scrAt3_pos V c t h0]
      unfold stepAt3
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (sound_kernel3_C c Set.univ (grid3.coords t) _ _ _ _ _ _ _ _ _ _ _ (fun h => h0 ((hcond3_0 t).mp h)) ((hcond3_1 t).mpr h1))
      unfold ins3
      iframe H0 H1 H2 H3 H4 H5 H6 H7 H8 HS
      isplitl [H9]; · iexists _; iexact H9
      isplitl [H10]; · iexists _; iexact H10
      isplitl [H11]; · iexists _; iexact H11
      iintro ⟨H0, H1, H2, H3, H4, H5, H6, H7, H8, H9, H10, H11, HS⟩
      iframe
    · rw [Dat.leavesExact_idle (dat3 V c) 11 t (idleAt3_11 t h1) (noFlush3_11 t h1)]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (sound_kernel3_B c Set.univ (grid3.coords t) _ _ _ _ _ _ _ _ _ _ _ _ (fun h => h0 ((hcond3_0 t).mp h)) (fun h => h1 ((hcond3_1 t).mp h)))
      unfold ins3
      iframe H0 H1 H2 H3 H4 H5 H6 H7 H8 H11 HS
      isplitl [H9]; · iexists _; iexact H9
      isplitl [H10]; · iexists _; iexact H10
      iintro ⟨H0, H1, H2, H3, H4, H5, H6, H7, H8, H9, H10, H11, HS⟩
      iframe
      iexists _; iexact H11

theorem body_obligation3 (c : Dev nD) : BodyObligation (dat3 (F := F) V c) (defs₀ (F := F)) Variants.none () Set.univ :=
  fun t => sound_body3 V c t

theorem Φ_first3 (c : Dev nD) :
    (iprop((∃ r, prngReg c r) ∗ Pipeline.scopedRest (Ix := Unit) (Name := ℕ) (U := UR sig nD τ) (Lvl := ℕ) (Val := Elt F) spec3 c) : sProp 𝕄) ⊢ (dat3 V c).Φ 0 := by
  rw [show (dat3 V c).Φ 0 = Phi3 V c 0 (Nat.zero_le _) from rfl, Phi3_zero V c 0 _ rfl]
  try exact Idealize.SL.BI.Entails.refl _

theorem Φ_last3 (c : Dev nD) :
    (dat3 V c).Φ (Fin.last cfg3.N) ⊢ (iprop((∃ r, prngReg c r) ∗ Pipeline.scopedRest (Ix := Unit) (Name := ℕ) (U := UR sig nD τ) (Lvl := ℕ) (Val := Elt F) spec3 c) : sProp 𝕄) := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 32 := N_3; omega), rest3_eq]
  iintro ⟨HS, HR, Hg⟩
  isplitl [Hg]; · iexact Hg
  isplitl [HS]; · iexists _; iexact HS
  iexact HR

end Cert.Kernel.Hand

end
-- ==== Proof.K.Reg4.lean ====
import proofs.«137432_j14851996910240_2_alg».proof.Proof.Gen.Kernel.Launch
import proofs.«137432_j14851996910240_2_alg».proof.Proof.Gen.Kernel.Skeleton
import proofs.«137432_j14851996910240_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S128x2048 := Rect.unit (s := S128x2048) ![0, 0] S128x2048.size inb_S128x2048_S128x2048_0_0
abbrev r4_1 : Rect S1x2048 := Rect.unit (s := S1x2048) ![0, 0] S1x2048.size inb_S1x2048_S1x2048_0_0
abbrev r4_2 : Rect S2048x2048 := Rect.unit (s := S2048x2048) ![0, 0] S2048x2048.size inb_S2048x2048_S2048x2048_0_0

def out4_12 (x0 : Vec F S128x2048 .f32) (x1 : Vec F S128x2048 .f32) (x2 : Vec F S1x2048 .f32) (x3 : Vec F S1x2048 .f32) (x4 : Vec F S1x2048 .f32) (x5 : Vec F S1x2048 .f32) (x6 : Vec F S1x2048 .f32) (x7 : Vec F S1x2048 .f32) (x8 : Vec F S2048x2048 .bf16) (x9 : Vec F S1x2048 .f32) (x10 : Vec F S2048x2048 .bf16) (x11 : Vec F S1x2048 .f32) : Vec F S128x2048 .f32 :=
  View.canon [⟨r4_0, k4_pay1 (k4_pay2 (View.ld x0 r4_0) (View.ld x2 r4_1) (View.ld x3 r4_1) (View.ld x6 r4_1) (View.ld x7 r4_1)) (k4_pay4 (View.ld x0 r4_0) (View.ld x2 r4_1) (View.ld x3 r4_1) (View.ld x6 r4_1) (View.ld x7 r4_1)) (View.ld x8 r4_2) (View.ld x9 r4_1) (View.ld x10 r4_2) (View.ld x11 r4_1)⟩]

def out4_13 (x0 : Vec F S128x2048 .f32) (x1 : Vec F S128x2048 .f32) (x2 : Vec F S1x2048 .f32) (x3 : Vec F S1x2048 .f32) (x4 : Vec F S1x2048 .f32) (x5 : Vec F S1x2048 .f32) (x6 : Vec F S1x2048 .f32) (x7 : Vec F S1x2048 .f32) (x8 : Vec F S2048x2048 .bf16) (x9 : Vec F S1x2048 .f32) (x10 : Vec F S2048x2048 .bf16) (x11 : Vec F S1x2048 .f32) : Vec F S128x2048 .f32 :=
  View.canon [⟨r4_0, k4_pay3 (View.ld x1 r4_0) (View.ld x4 r4_1) (View.ld x5 r4_1) (View.ld x6 r4_1) (View.ld x7 r4_1)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t)
    | ⟨13, _⟩ => out4_13 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_12 (c : Dev nD) (t : Fin cfg4.N) : (dat4 V c).after 12 t = out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) := by dsimp only [dat4]
theorem after4_13 (c : Dev nD) (t : Fin cfg4.N) : (dat4 V c).after 13 t = out4_13 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) := by dsimp only [dat4]

theorem before4_in (c : Dev nD) (t : Fin cfg4.N) (w : Fin cfg4.W) (hw : w.val < 12 := by decide) (d) :
    (dat4 V c).before w t d = (dat4 V c).after w t :=
  match w, hw, d with
  | ⟨0, h⟩, _, d | ⟨1, h⟩, _, d | ⟨2, h⟩, _, d | ⟨3, h⟩, _, d | ⟨4, h⟩, _, d | ⟨5, h⟩, _, d | ⟨6, h⟩, _, d | ⟨7, h⟩, _, d | ⟨8, h⟩, _, d | ⟨9, h⟩, _, d | ⟨10, h⟩, _, d | ⟨11, h⟩, _, d =>
    ((dat4 V c).before_in_eq_fetched ⟨_, h⟩ rfl (fun _ => rfl) (fun _ _ _ => rfl) (fun _ => by dsimp only [dat4, Dat.blockOf, iblk4]) t d).trans
      (by dsimp only [dat4, Dat.fetched, Dat.blockOf, iblk4]; rfl)
  | ⟨n + 12, _⟩, hw, _ => absurd hw (Nat.not_lt.mpr (Nat.le_add_left 12 n))

theorem cover4_out (p : Vec F S128x2048 .f32) (y : S128x2048.Idx) :
    ∃ pc ∈ ([⟨r4_0, p⟩] : List (View.Piece (Elt F) S128x2048 .f32)), y ∈ pc.1.set :=
  View.cover_of_tiled [⟨r4_0, p⟩] S128x2048.size (by rfl) y

set_option maxHeartbeats 1000000 in
theorem sound_kernel4 (c : Dev nD) (E : Set ℕ) (i : grid4.Coords) (arg1 arg2 arg13 arg14 : Memref sig .tc .vmem S128x2048 .f32) (arg3 arg4 arg5 arg6 arg7 arg8 arg10 arg12 : Memref sig .tc .vmem S1x2048 .f32) (arg9 arg11 : Memref sig .tc .vmem S2048x2048 .bf16)
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole)
    (x0 x1 : Vec F S128x2048 .f32) (x2 x3 x4 x5 x6 x7 x9 x11 : Vec F S1x2048 .f32) (x8 x10 : Vec F S2048x2048 .bf16) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ owns c.tc arg12 fullShare x11 ∗ (∃ d, owns c.tc arg13 fullShare d) ∗ (∃ d, owns c.tc arg14 fullShare d)
        ∗ ((owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ owns c.tc arg12 fullShare x11 ∗ owns c.tc arg13 fullShare (out4_12 x0 x1 x2 x3 x4 x5 x6 x7 x8 x9 x10 x11) ∗ owns c.tc arg14 fullShare (out4_13 x0 x1 x2 x3 x4 x5 x6 x7 x8 x9 x10 x11)) -∗ K ⟨⟩))
      ⊢ wp frame (wpE (defs₀ (F := F)) Variants.none c none) E (cc4_k6_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc4_k6_kernel_eq_skeleton]; unfold cc4_k6_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [H12]; swap
  all_goals (iexists _; isplitr; swap; iassumption; ipureintro; first | exact View.read_writes_eq_canon _ _ _ (cover4_out _) | rfl)

theorem body_obligation4 (c : Dev nD) : BodyObligation (dat4 (F := F) V c) (defs₀ (F := F)) Variants.none () Set.univ := fun t => by
  rw [bigSep_W4, bigSep_W4, show (dat4 V c).owesAt () t.succ = (dat4 V c).owesAt () t.castSucc from rfl]
  simp only [before4_in V c t 0, before4_in V c t 1, before4_in V c t 2, before4_in V c t 3, before4_in V c t 4, before4_in V c t 5, before4_in V c t 6, before4_in V c t 7, before4_in V c t 8, before4_in V c t 9, before4_in V c t 10, before4_in V c t 11]
  dsimp only [dat4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel4 c Set.univ _ _ _ _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 9 t) (iblk4 V c 11 t) (iblk4 V c 8 t) (iblk4 V c 10 t) _)
  iframe H0 H1 H2 H3 H4 H5 H6 H7 H8 H9 H10 H11
  isplitl [H12]; · iexists _; iexact H12
  isplitl [H13]; · iexists _; iexact H13
  iintro ⟨H0, H1, H2, H3, H4, H5, H6, H7, H8, H9, H10, H11, H12, H13⟩
  iframe

theorem Φ_first4 (c : Dev nD) : (iprop((∃ r, prngReg c r) ∗ Pipeline.scopedRest (Ix := Unit) (Name := ℕ) (U := UR sig nD τ) (Lvl := ℕ) (Val := Elt F) spec4 c) : sProp 𝕄) ⊢ (dat4 V c).Φ 0 :=
  sep_comm

theorem Φ_last4 (c : Dev nD) : (dat4 V c).Φ (Fin.last cfg4.N) ⊢ (iprop((∃ r, prngReg c r) ∗ Pipeline.scopedRest (Ix := Unit) (Name := ℕ) (U := UR sig nD τ) (Lvl := ℕ) (Val := Elt F) spec4 c) : sProp 𝕄) :=
  sep_comm

end Cert.Kernel.Hand

end
-- ==== Proof.K.Run.lean ====
import proofs.«137432_j14851996910240_2_alg».proof.Proof.K.Reg0
import proofs.«137432_j14851996910240_2_alg».proof.Proof.K.Reg1
import proofs.«137432_j14851996910240_2_alg».proof.Proof.K.Reg2
import proofs.«137432_j14851996910240_2_alg».proof.Proof.K.Reg3
import proofs.«137432_j14851996910240_2_alg».proof.Proof.K.Reg4
import proofs.«137432_j14851996910240_2_alg».proof.Proof.Gen.Kernel.Launch
import proofs.«137432_j14851996910240_2_alg».proof.Proof.Gen.Kernel.Regions
import Idealize.ShloMosaic.Lib.Pipeline.RegionsLoop
import Idealize.ShloMosaic.Lib.Pipeline.FrameSuffix
import Idealize.ShloMosaic.Lib.Pipeline.Cells
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
omit m ρ in
-- the contents after a region: each of its arrays at what its write-backs leave, every other buffer as before
def stepW {p : Fin 5} (dat : (c : Dev nD) → Dat τ (Elt F) Unit ℕ (UR sig nD τ) ℕ (cfgs p) c) (Win : Dev nD → Valuation τ sig (Elt F))
    (c : Dev nD) : Valuation τ sig (Elt F) :=
  Pipeline.withArrays (cfgs p).spec c (Win c) fun w => (dat c).arrAt w (cfgs p).N
omit m ρ in
theorem stepW_arr {p : Fin 5} (ln : Pipeline.LaunchFacts (nD := nD) (τ := τ) cfgs p)
    (dat : (c : Dev nD) → Dat τ (Elt F) Unit ℕ (UR sig nD τ) ℕ (cfgs p) c) (Win : Dev nD → Valuation τ sig (Elt F)) (c : Dev nD) (w : Fin (cfgs p).W) :
    stepW dat Win c (Proc.devRef .tc (Pipeline.arrRef (cfgs p).spec w)) = (dat c).arrAt w (cfgs p).N :=
  Pipeline.withArrays_arr (cfgs p).spec ln.win.arr_inj c _ _ w
omit m ρ in
theorem stepW_of_ne {p : Fin 5} (dat : (c : Dev nD) → Dat τ (Elt F) Unit ℕ (UR sig nD τ) ℕ (cfgs p) c) (Win : Dev nD → Valuation τ sig (Elt F))
    (c : Dev nD) (b : Ref sig .tc) (hb : ∀ w, Pipeline.arrRef (cfgs p).spec w ≠ b) :
    stepW dat Win c (Proc.devRef .tc b) = Win c (Proc.devRef .tc b) :=
  Pipeline.withArrays_of_ne (cfgs p).spec c _ _ b hb
def W2 : Dev nD → Valuation τ sig (Elt F) := stepW (p := 0) (dat0 (V1 m ρ)) (W1 m ρ)
theorem W2_arr (c : Dev nD) (w : Fin cfg0.W) :
    W2 m ρ c (Proc.devRef .tc (Pipeline.arrRef spec0 w)) = (dat0 (V1 m ρ) c).arrAt w cfg0.N := stepW_arr launch0 _ _ c w
theorem W2_of_ne (c : Dev nD) (b : Ref sig .tc) (hb : ∀ w, Pipeline.arrRef spec0 w ≠ b) :
    W2 m ρ c (Proc.devRef .tc b) = W1 m ρ c (Proc.devRef .tc b) := stepW_of_ne _ _ c b hb
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
abbrev V2 : (c : Dev nD) → (b : Ref sig .tc) → Buf (Elt F) ((c : Thread nD τ).loc b) := fun c b => W2 m ρ c b
def W3 : Dev nD → Valuation τ sig (Elt F) := stepW (p := 1) (dat1 (V2 m ρ)) (W2 m ρ)
theorem W3_arr (c : Dev nD) (w : Fin cfg1.W) :
    W3 m ρ c (Proc.devRef .tc (Pipeline.arrRef spec1 w)) = (dat1 (V2 m ρ) c).arrAt w cfg1.N := stepW_arr launch1 _ _ c w
theorem W3_of_ne (c : Dev nD) (b : Ref sig .tc) (hb : ∀ w, Pipeline.arrRef spec1 w ≠ b) :
    W3 m ρ c (Proc.devRef .tc b) = W2 m ρ c (Proc.devRef .tc b) := stepW_of_ne _ _ c b hb
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
abbrev V3 : (c : Dev nD) → (b : Ref sig .tc) → Buf (Elt F) ((c : Thread nD τ).loc b) := fun c b => W3 m ρ c b
def W4 : Dev nD → Valuation τ sig (Elt F) := stepW (p := 2) (dat2 (V3 m ρ)) (W3 m ρ)
theorem W4_arr (c : Dev nD) (w : Fin cfg2.W) :
    W4 m ρ c (Proc.devRef .tc (Pipeline.arrRef spec2 w)) = (dat2 (V3 m ρ) c).arrAt w cfg2.N := stepW_arr launch2 _ _ c w
theorem W4_of_ne (c : Dev nD) (b : Ref sig .tc) (hb : ∀ w, Pipeline.arrRef spec2 w ≠ b) :
    W4 m ρ c (Proc.devRef .tc b) = W3 m ρ c (Proc.devRef .tc b) := stepW_of_ne _ _ c b hb
theorem W4_in (c : Dev nD) (w : Fin cfg2.W) (hin : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hin _).trans (A_eq2 (V3 m ρ) c w))
abbrev V4 : (c : Dev nD) → (b : Ref sig .tc) → Buf (Elt F) ((c : Thread nD τ).loc b) := fun c b => W4 m ρ c b
def W5 : Dev nD → Valuation τ sig (Elt F) := stepW (p := 3) (dat3 (V4 m ρ)) (W4 m ρ)
theorem W5_arr (c : Dev nD) (w : Fin cfg3.W) :
    W5 m ρ c (Proc.devRef .tc (Pipeline.arrRef spec3 w)) = (dat3 (V4 m ρ) c).arrAt w cfg3.N := stepW_arr launch3 _ _ c w
theorem W5_of_ne (c : Dev nD) (b : Ref sig .tc) (hb : ∀ w, Pipeline.arrRef spec3 w ≠ b) :
    W5 m ρ c (Proc.devRef .tc b) = W4 m ρ c (Proc.devRef .tc b) := stepW_of_ne _ _ c b hb
theorem W5_in (c : Dev nD) (w : Fin cfg3.W) (hin : (cfg3.win w).isOut = false) :
    W5 m ρ c (Proc.devRef .tc (Pipeline.arrRef spec3 w)) = W4 m ρ c (Proc.devRef .tc (Pipeline.arrRef spec3 w)) :=
  (W5_arr m ρ c w).trans (((dat3 (V4 m ρ) c).arrAt_in w hin _).trans (A_eq3 (V4 m ρ) c w))
abbrev V5 : (c : Dev nD) → (b : Ref sig .tc) → Buf (Elt F) ((c : Thread nD τ).loc b) := fun c b => W5 m ρ c b
abbrev W6 : Dev nD → Valuation τ sig (Elt F) := fun c => StableHlo.after hostOps4 (W5 m ρ c)
abbrev V6 : (c : Dev nD) → (b : Ref sig .tc) → Buf (Elt F) ((c : Thread nD τ).loc b) := fun c b => W6 m ρ c b
theorem W6_of (c : Dev nD) (r : Ref sig .tc) (h : r ∉ hostOps4_W) :
    W6 m ρ c (Proc.devRef .tc r) = W5 m ρ c (Proc.devRef .tc r) :=
  StableHlo.after_of_writes_sub hostOps4 _ hostOps4_writes h
def W7 : Dev nD → Valuation τ sig (Elt F) := stepW (p := 4) (dat4 (V6 m ρ)) (W6 m ρ)
theorem W7_arr (c : Dev nD) (w : Fin cfg4.W) :
    W7 m ρ c (Proc.devRef .tc (Pipeline.arrRef spec4 w)) = (dat4 (V6 m ρ) c).arrAt w cfg4.N := stepW_arr launch4 _ _ c w
theorem W7_of_ne (c : Dev nD) (b : Ref sig .tc) (hb : ∀ w, Pipeline.arrRef spec4 w ≠ b) :
    W7 m ρ c (Proc.devRef .tc b) = W6 m ρ c (Proc.devRef .tc b) := stepW_of_ne _ _ c b hb
theorem W7_in (c : Dev nD) (w : Fin cfg4.W) (hin : (cfg4.win w).isOut = false) :
    W7 m ρ c (Proc.devRef .tc (Pipeline.arrRef spec4 w)) = W6 m ρ c (Proc.devRef .tc (Pipeline.arrRef spec4 w)) :=
  (W7_arr m ρ c w).trans (((dat4 (V6 m ρ) c).arrAt_in w hin _).trans (A_eq4 (V6 m ρ) c w))
abbrev V7 : (c : Dev nD) → (b : Ref sig .tc) → Buf (Elt F) ((c : Thread nD τ).loc b) := fun c b => W7 m ρ c b
theorem W7_of_untouched (c : Dev nD) (r : Ref sig .tc) (h0 : r ∉ hostOps0_W)
    (hr0 : ∀ w, Pipeline.arrRef spec0 w ≠ r) (hr1 : ∀ w, Pipeline.arrRef spec1 w ≠ r) (hr2 : ∀ w, Pipeline.arrRef spec2 w ≠ r)
    (hr3 : ∀ w, Pipeline.arrRef spec3 w ≠ r) (h4 : r ∉ hostOps4_W) (hr4 : ∀ w, Pipeline.arrRef spec4 w ≠ r) :
    W7 m ρ c (Proc.devRef .tc r) = m ((c : Thread nD τ).loc r) :=
  calc W7 m ρ c (Proc.devRef .tc r)
    _ = W6 m ρ c (Proc.devRef .tc r) := W7_of_ne m ρ c r hr4
    _ = W5 m ρ c (Proc.devRef .tc r) := W6_of m ρ c r h4
    _ = W4 m ρ c (Proc.devRef .tc r) := W5_of_ne m ρ c r hr3
    _ = W3 m ρ c (Proc.devRef .tc r) := W4_of_ne m ρ c r hr2
    _ = W2 m ρ c (Proc.devRef .tc r) := W3_of_ne m ρ c r hr1
    _ = W1 m ρ c (Proc.devRef .tc r) := W2_of_ne m ρ c r hr0
    _ = W0 m ρ c (Proc.devRef .tc r) := W1_of m ρ c r h0
    _ = m ((c : Thread nD τ).loc r) := rfl
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_in m ρ c 0 rfl
    _ = W0 m ρ c (Proc.devRef .tc main_arg0) := W1_of m ρ c main_arg0 (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_in m ρ c 1 rfl
    _ = W0 m ρ c (Proc.devRef .tc main_arg1) := W1_of m ρ c main_arg1 (by decide)
    _ = m ((c : Thread nD τ).loc main_arg1) := rfl
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V6 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)
abbrev toV (W : Dev nD → Valuation τ sig (Elt F)) : (c : Dev nD) → (b : Ref sig .tc) → Buf (Elt F) ((c : Thread nD τ).loc b) :=
  fun c b => W c b
set_option backward.isDefEq.respectTransparency.types false in
-- one region of @main as a segment between the contents at its two boundaries; the five regions are its instances
def mkReg (p : Fin 5) (ln : Pipeline.LaunchFacts (nD := nD) (τ := τ) cfgs p) (Win : Dev nD → Valuation τ sig (Elt F))
    (hbody : ∀ c, BodyObligation (pdats m ρ p c) (defs₀ (F := F)) 𝒱₀ () Set.univ)
    (hA : ∀ c w, (pdats m ρ p c).A w = toV Win c (Pipeline.arrRef (cfgs p).spec w))
    (hfirst : ∀ c, (iprop((∃ r, prngReg c r) ∗ Pipeline.scopedRest (Ix := Unit) (Name := ℕ) (U := UR sig nD τ) (Lvl := ℕ) (Val := Elt F) (cfgs p).spec c) : sProp 𝕄) ⊢ (pdats m ρ p c).Φ 0)
    (hlast : ∀ c, (pdats m ρ p c).Φ (Fin.last (cfgs p).N) ⊢ (iprop((∃ r, prngReg c r) ∗ Pipeline.scopedRest (Ix := Unit) (Name := ℕ) (U := UR sig nD τ) (Lvl := ℕ) (Val := Elt F) (cfgs p).spec c) : sProp 𝕄))
    (hq : ∀ c w, (pdats m ρ p c).q w = fullShare) (howed : ∀ c n, (pdats m ρ p c).owed n = 0)
    (hrec : ∀ c n, (pdats m ρ p c).recorded n = Set.univ) :
    Pipeline.RegionSeg (pcfgs (F := F)) adm (pdats m ρ) () defs₀ 𝒱₀ L lv p where
  win := ln.win.to₀
  block_pos := ln.block_pos
  stage_whole := ln.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (stepW (pdats m ρ p) Win c) ∗ R c)
  X c := iprop(∃ r, prngReg c r)
  Y c := iprop(∃ r, prngReg c r)
  Z c := Pipeline.unscopedRest (Ix := Unit) (Name := ℕ) (U := UR sig nD τ) (Lvl := ℕ) (cfgs p).spec c (toV Win c)
  hentry c := by
    rw [Pipeline.ownSems0_none]
    have hsplit := Pipeline.arrays_of_unscopedBufs (p := p) (pcfgs (F := F)) adm (pdats m ρ) ln.win ln.arr_whole c
      ((pdats m ρ p c).share_full (hq c)) (toV Win c) fun w => hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c 0]; exact Set.mem_univ _)
      iexact HO
    isplitl [Hp]; · iexact Hp
    iexact Hrest
  hin c := by
    have hΦ := hfirst c
    iintro ⟨Hp, -, Hr⟩
    iapply hΦ
    isplitl [Hp]; · iexact Hp
    iexact Hr
  hout c := by
    rw [Pipeline.ownSems0_none]
    have hΦ := hlast c
    iintro HΦ
    ihave H := hΦ $$ HΦ
    icases H with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      ln.win ln.arr_whole c (pdats m ρ) ((pdats m ρ p c).share_full (hq c))
      (toV Win c) (toV (stepW (pdats m ρ p) Win) c) ((pdats m ρ p c).arrAt · (cfgs p).N)
      (fun w => (stepW_arr ln _ _ c w).symm)
      (fun b hb => stepW_of_ne _ _ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO
theorem last_link (c : Dev nD) : iprop(StableHlo.held (c : Thread nD τ) (Pipeline.ucRefs τ sig) (W7 m ρ c) ∗ R c)
    ⊢ iprop(Tₙ m ρ c ∗ ∃ W, owes (c : Thread nD τ) (0 : CellTallies nD τ sig Unit) W) := sep_assoc'
abbrev segs : List (Pipeline.Seg (pcfgs (F := F)) adm (pdats m ρ) () defs₀ 𝒱₀ L lv) :=
  [ .host (hseg hostOps0 hostOps0_sub hostOps0_fresh (W0 m ρ)),
    .region (mkReg m ρ 0 launch0 (W1 m ρ) (body_obligation0 (V1 m ρ)) (A_eq0 (V1 m ρ)) (Φ_first0 (V1 m ρ)) (Φ_last0 (V1 m ρ)) (fun _ _ => rfl) (fun _ _ => rfl) (fun _ _ => rfl)),
    .region (mkReg m ρ 1 launch1 (W2 m ρ) (body_obligation1 (V2 m ρ)) (A_eq1 (V2 m ρ)) (Φ_first1 (V2 m ρ)) (Φ_last1 (V2 m ρ)) (fun _ _ => rfl) (fun _ _ => rfl) (fun _ _ => rfl)),
    .region (mkReg m ρ 2 launch2 (W3 m ρ) (body_obligation2 (V3 m ρ)) (A_eq2 (V3 m ρ)) (Φ_first2 (V3 m ρ)) (Φ_last2 (V3 m ρ)) (fun _ _ => rfl) (fun _ _ => rfl) (fun _ _ => rfl)),
    .region (mkReg m ρ 3 launch3 (W4 m ρ) (body_obligation3 (V4 m ρ)) (A_eq3 (V4 m ρ)) (Φ_first3 (V4 m ρ)) (Φ_last3 (V4 m ρ)) (fun _ _ => rfl) (fun _ _ => rfl) (fun _ _ => rfl)),
    .host (hseg hostOps4 hostOps4_sub hostOps4_fresh (W5 m ρ)),
    .region (mkReg m ρ 4 launch4 (W6 m ρ) (body_obligation4 (V6 m ρ)) (A_eq4 (V6 m ρ)) (Φ_first4 (V6 m ρ)) (Φ_last4 (V6 m ρ)) (fun _ _ => rfl) (fun _ _ => rfl) (fun _ _ => rfl)) ]
theorem main_run (c : Dev nD) : main (F := F) c = Pipeline.Seg.run (segs m ρ) := (main_chain c).trans (by chain_rfl)
set_option backward.isDefEq.respectTransparency.types false in
theorem run_gen {Q : PUnit × MemSt nD τ sig (Elt F) → Prop}
    (hQ : ∀ s : MemSt nD τ sig (Elt F), (∀ c : Dev nD, ∀ b ∈ Pipeline.ucRefs τ sig, s.mem (((c : Thread nD τ)).1, b) = W7 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q' => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := hQ)
abbrev ArgsKept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)
  ∧ mem ((c.tc : Thread nD τ).loc main_arg14) = m ((c.tc : Thread nD τ).loc main_arg14)
  ∧ mem ((c.tc : Thread nD τ).loc main_arg15) = m ((c.tc : Thread nD τ).loc main_arg15)
  ∧ mem ((c.tc : Thread nD τ).loc main_arg16) = m ((c.tc : Thread nD τ).loc main_arg16)
  ∧ mem ((c.tc : Thread nD τ).loc main_arg17) = m ((c.tc : Thread nD τ).loc main_arg17)
  ∧ mem ((c.tc : Thread nD τ).loc main_arg18) = m ((c.tc : Thread nD τ).loc main_arg18)
  ∧ mem ((c.tc : Thread nD τ).loc main_arg19) = m ((c.tc : Thread nD τ).loc main_arg19)
  ∧ mem ((c.tc : Thread nD τ).loc main_arg20) = m ((c.tc : Thread nD τ).loc main_arg20)
  ∧ mem ((c.tc : Thread nD τ).loc main_arg21) = m ((c.tc : Thread nD τ).loc main_arg21)
-- every argument is an input window of region 0 or no region's window, and no host stretch writes it
theorem args_kept {s : MemSt nD τ sig (Elt F)}
    (h : ∀ c : Dev nD, ∀ b ∈ Pipeline.ucRefs τ sig, s.mem (((c : Thread nD τ)).1, b) = W7 m ρ c b) (c : Dev nD) : ArgsKept m s.mem c :=
  ⟨(h c _ (mem_uc main_arg0 (by decide))).trans (W7_main_arg0 m ρ c),
   (h c _ (mem_uc main_arg1 (by decide))).trans (W7_main_arg1 m ρ c),
   (h c _ (mem_uc main_arg2 (by decide))).trans (W7_of_untouched m ρ c main_arg2 (by decide) (by decide) (by decide) (by decide) (by decide) (by decide) (by decide)),
   (h c _ (mem_uc main_arg3 (by decide))).trans (W7_of_untouched m ρ c main_arg3 (by decide) (by decide) (by decide) (by decide) (by decide) (by decide) (by decide)),
   (h c _ (mem_uc main_arg4 (by decide))).trans (W7_of_untouched m ρ c main_arg4 (by decide) (by decide) (by decide) (by decide) (by decide) (by decide) (by decide)),
   (h c _ (mem_uc main_arg5 (by decide))).trans (W7_of_untouched m ρ c main_arg5 (by decide) (by decide) (by decide) (by decide) (by decide) (by decide) (by decide)),
   (h c _ (mem_uc main_arg6 (by decide))).trans (W7_of_untouched m ρ c main_arg6 (by decide) (by decide) (by decide) (by decide) (by decide) (by decide) (by decide)),
   (h c _ (mem_uc main_arg7 (by decide))).trans (W7_of_untouched m ρ c main_arg7 (by decide) (by decide) (by decide) (by decide) (by decide) (by decide) (by decide)),
   (h c _ (mem_uc main_arg8 (by decide))).trans (W7_of_untouched m ρ c main_arg8 (by decide) (by decide) (by decide) (by decide) (by decide) (by decide) (by decide)),
   (h c _ (mem_uc main_arg9 (by decide))).trans (W7_of_untouched m ρ c main_arg9 (by decide) (by decide) (by decide) (by decide) (by decide) (by decide) (by decide)),
   (h c _ (mem_uc main_arg10 (by decide))).trans (W7_of_untouched m ρ c main_arg10 (by decide) (by decide) (by decide) (by decide) (by decide) (by decide) (by decide)),
   (h c _ (mem_uc main_arg11 (by decide))).trans (W7_of_untouched m ρ c main_arg11 (by decide) (by decide) (by decide) (by decide) (by decide) (by decide) (by decide)),
   (h c _ (mem_uc main_arg12 (by decide))).trans (W7_of_untouched m ρ c main_arg12 (by decide) (by decide) (by decide) (by decide) (by decide) (by decide) (by decide)),
   (h c _ (mem_uc main_arg13 (by decide))).trans (W7_of_untouched m ρ c main_arg13 (by decide) (by decide) (by decide) (by decide) (by decide) (by decide) (by decide)),
   (h c _ (mem_uc main_arg14 (by decide))).trans (W7_of_untouched m ρ c main_arg14 (by decide) (by decide) (by decide) (by decide) (by decide) (by decide) (by decide)),
   (h c _ (mem_uc main_arg15 (by decide))).trans (W7_of_untouched m ρ c main_arg15 (by decide) (by decide) (by decide) (by decide) (by decide) (by decide) (by decide)),
   (h c _ (mem_uc main_arg16 (by decide))).trans (W7_of_untouched m ρ c main_arg16 (by decide) (by decide) (by decide) (by decide) (by decide) (by decide) (by decide)),
   (h c _ (mem_uc main_arg17 (by decide))).trans (W7_of_untouched m ρ c main_arg17 (by decide) (by decide) (by decide) (by decide) (by decide) (by decide) (by decide)),
   (h c _ (mem_uc main_arg18 (by decide))).trans (W7_of_untouched m ρ c main_arg18 (by decide) (by decide) (by decide) (by decide) (by decide) (by decide) (by decide)),
   (h c _ (mem_uc main_arg19 (by decide))).trans (W7_of_untouched m ρ c main_arg19 (by decide) (by decide) (by decide) (by decide) (by decide) (by decide) (by decide)),
   (h c _ (mem_uc main_arg20 (by decide))).trans (W7_of_untouched m ρ c main_arg20 (by decide) (by decide) (by decide) (by decide) (by decide) (by decide) (by decide)),
   (h c _ (mem_uc main_arg21 (by decide))).trans (W7_of_untouched m ρ c main_arg21 (by decide) (by decide) (by decide) (by decide) (by decide) (by decide) (by decide))⟩
theorem frame : θ_run defs (onTc (τ := τ) (main (F := F))) ⟨m, fun _ => 0, ρ⟩ (fun r => ∀ c : Dev nD, ArgsKept m r.2.mem c) :=
  run_gen m ρ fun s h c => args_kept m ρ h c
end Cert.Kernel.Hand
end
-- ==== Proof.KI.Reg0.lean ====
import proofs.«137432_j14851996910240_2_alg».proof.Proof.Gen.KernelIdeal.Launch
import proofs.«137432_j14851996910240_2_alg».proof.Proof.Gen.KernelIdeal.Skeleton
import proofs.«137432_j14851996910240_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S128x2048 := Rect.unit (s := S128x2048) ![0, 0] S128x2048.size inb_S128x2048_S128x2048_0_0
abbrev r0_1 : Rect S2048x2048 := Rect.unit (s := S2048x2048) ![0, 0] S2048x2048.size inb_S2048x2048_S2048x2048_0_0
abbrev r0_2 : Rect S1x2048 := Rect.unit (s := S1x2048) ![0, 0] S1x2048.size inb_S1x2048_S1x2048_0_0

abbrev p0_12 (x1 : Vec F S128x2048 .f32) (x2 : Vec F S2048x2048 .bf16) (x3 : Vec F S1x2048 .f32) : FVec F S128x2048 .f32 :=
  k0_pay2 (View.ld x1 r0_0) (View.ld x2 r0_1) (View.ld x3 r0_2)
abbrev p0_31 (x0 : Vec F S128x2048 .f32) (x1 : Vec F S128x2048 .f32) (x2 : Vec F S2048x2048 .bf16) (x3 : Vec F S1x2048 .f32) (x4 : Vec F S2048x2048 .bf16) (x5 : Vec F S1x2048 .f32) : FVec F S128x2048 .f32 :=
  k0_pay4 (View.ld x1 r0_0) (View.ld x2 r0_1) (View.ld x3 r0_2) (View.ld x0 r0_0) (View.ld x4 r0_1) (View.ld x5 r0_2)
abbrev p0_32 (x0 : Vec F S128x2048 .f32) (x1 : Vec F S128x2048 .f32) (x2 : Vec F S2048x2048 .bf16) (x3 : Vec F S1x2048 .f32) (x4 : Vec F S2048x2048 .bf16) (x5 : Vec F S1x2048 .f32) : FVec F S128x2048 .f32 :=
  k0_pay5 (View.ld x1 r0_0) (View.ld x2 r0_1) (View.ld x3 r0_2) (View.ld x0 r0_0) (View.ld x4 r0_1) (View.ld x5 r0_2)
abbrev p0_36 (x0 : Vec F S128x2048 .f32) (x1 : Vec F S128x2048 .f32) (x2 : Vec F S2048x2048 .bf16) (x3 : Vec F S1x2048 .f32) (x4 : Vec F S2048x2048 .bf16) (x5 : Vec F S1x2048 .f32) (x6 : Vec F S2048x2048 .bf16) : FVec F S128x2048 .f32 :=
  k0_pay6 (View.ld x1 r0_0) (View.ld x2 r0_1) (View.ld x3 r0_2) (View.ld x0 r0_0) (View.ld x4 r0_1) (View.ld x5 r0_2) (View.ld x6 r0_1)

def out0_8 (x0 : Vec F S128x2048 .f32) (x1 : Vec F S128x2048 .f32) (x2 : Vec F S2048x2048 .bf16) (x3 : Vec F S1x2048 .f32) (x4 : Vec F S2048x2048 .bf16) (x5 : Vec F S1x2048 .f32) (x6 : Vec F S2048x2048 .bf16) (x7 : Vec F S1x2048 .f32) : Vec F S128x2048 .f32 :=
  View.canon [⟨r0_0, k0_pay1 (p0_31 x0 x1 x2 x3 x4 x5) (p0_36 x0 x1 x2 x3 x4 x5 x6) (View.ld x7 r0_2)⟩]

def out0_9 (x1 : Vec F S128x2048 .f32) (x2 : Vec F S2048x2048 .bf16) (x3 : Vec F S1x2048 .f32) : Vec F S128x2048 .f32 :=
  View.canon [⟨r0_0, p0_12 x1 x2 x3⟩]

def out0_10 (x0 : Vec F S128x2048 .f32) (x1 : Vec F S128x2048 .f32) (x2 : Vec F S2048x2048 .bf16) (x3 : Vec F S1x2048 .f32) (x4 : Vec F S2048x2048 .bf16) (x5 : Vec F S1x2048 .f32) : Vec F S128x2048 .f32 :=
  View.canon [⟨r0_0, p0_32 x0 x1 x2 x3 x4 x5⟩]

/-- One store of the whole block covers it. -/
theorem cover0 (p0 : Vec F S128x2048 .f32) (y : S128x2048.Idx) :
    ∃ pc ∈ ([⟨r0_0, p0⟩] : List (View.Piece (Elt F) S128x2048 .f32)), y ∈ pc.1.set :=
  View.cover_of_tiled [⟨r0_0, p0⟩] S128x2048.size (by rfl) y

abbrev own0 (c : Dev nD) {s : Shape} {e : EltTy} (a : Memref sig .tc .vmem s e) (x : Vec F s e) : sProp 𝕄 :=
  owns (c : Thread nD τ) a fullShare x

set_option maxHeartbeats 4000000 in
/-- The body on whole buffers: the inputs stay as read, each output ends at its one store laid over the block. -/
theorem sound_kernel0 {c : Dev nD} {E : Set ℕ} {i : grid0.Coords}
    {a1 a2 a9 a10 a11 : Memref sig .tc .vmem S128x2048 .f32} {a3 a5 a7 : Memref sig .tc .vmem S2048x2048 .bf16} {a4 a6 a8 : Memref sig .tc .vmem S1x2048 .f32}
    {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole}
    (x0 x1 y8 y9 y10 : Vec F S128x2048 .f32) (x2 x4 x6 : Vec F S2048x2048 .bf16) (x3 x5 x7 : Vec F S1x2048 .f32) (K : PUnit → sProp 𝕄) :
    iprop(own0 c a1 x0 ∗ own0 c a2 x1 ∗ own0 c a3 x2 ∗ own0 c a4 x3 ∗ own0 c a5 x4 ∗ own0 c a6 x5 ∗ own0 c a7 x6 ∗ own0 c a8 x7 ∗ own0 c a9 y8 ∗ own0 c a10 y9 ∗ own0 c a11 y10
        ∗ (iprop(own0 c a1 x0 ∗ own0 c a2 x1 ∗ own0 c a3 x2 ∗ own0 c a4 x3 ∗ own0 c a5 x4 ∗ own0 c a6 x5 ∗ own0 c a7 x6 ∗ own0 c a8 x7
            ∗ own0 c a9 (out0_8 x0 x1 x2 x3 x4 x5 x6 x7) ∗ own0 c a10 (out0_9 x1 x2 x3) ∗ own0 c a11 (out0_10 x0 x1 x2 x3 x4 x5)) -∗ K ⟨⟩))
      ⊢ wp frame (wpE (defs₀ (F := F)) Variants.none c none) E (cc0_k1_kernel i a1 h1 a2 h2 a3 h3 a4 h4 a5 h5 a6 h6 a7 h7 a8 h8 a9 h9 a10 h10 a11 h11) K := by
  simp only [cc0_k1_kernel_eq_skeleton]; unfold cc0_k1_kernel_skel
  simp only [k0_part1_eq_skeleton]; unfold k0_part1_skel own0 owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, -, H8⟩, ⟨%f9, -, H9⟩, ⟨%f10, -, H10⟩, Hk⟩
  subst hf0 hf1 hf2 hf3 hf4 hf5 hf6 hf7
  sl_exec
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [H9]; swap
  all_goals (iexists _; isplitr; swap; iassumption; ipureintro; first | exact View.read_writes_eq_canon _ _ _ (cover0 _) | rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
    | ⟨9, _⟩ => out0_9 (iblk0 V c 1 t) (iblk0 V c 2 t) (iblk0 V c 3 t)
    | ⟨10, _⟩ => out0_10 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]
theorem after0_9 (c : Dev nD) (t : Fin cfg0.N) : (dat0 V c).after 9 t = out0_9 (iblk0 V c 1 t) (iblk0 V c 2 t) (iblk0 V c 3 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) := by dsimp only [dat0]

/-- Window by window: the body leaves each input's block as it found it. -/
theorem before0 (c : Dev nD) : ∀ w : Fin cfg0.W, w.val < 8 → ∀ t d, (dat0 V c).before w t d = (dat0 V c).after w t := by
  intro w; fin_cases w <;> intro hw t d <;> first
    | exact absurd hw (by decide)
    | exact ((dat0 V c).before_in_eq_fetched _ rfl (fun _ => rfl) (fun _ _ _ => rfl) (fun _ => rfl) t d).trans rfl

/-- The body at a point: the inputs hold their blocks, so the body's triple applies; the invariant and what is owed pass through. -/
theorem sound_body0 (c : Dev nD) (t : Fin cfg0.N) :
    iprop((dat0 V c).Φ t.castSucc ∗ (dat0 V c).owesAt () t.castSucc
        ∗ bigSep Finset.univ fun w => iprop(∃ d, owns (c : Thread nD τ) ((cfg0.win w).stage (cfg0.slots t w)) fullShare ((dat0 V c).before w t d)))
      ⊢ wp frame (wpE (defs₀ (F := F)) Variants.none c none) Set.univ (bodyAt0 t) fun _ =>
          iprop((dat0 V c).Φ t.castSucc ∗ (dat0 V c).owesAt () t.castSucc
            ∗ bigSep Finset.univ fun w => owns (c : Thread nD τ) ((cfg0.win w).stage (cfg0.slots t w)) fullShare ((dat0 V c).after w t)) := by
  rw [bigSep_W0, bigSep_W0]
  simp +decide only [before0 V c]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 (iblk0 V c 0 t) (iblk0 V c 1 t) _ _ _ (iblk0 V c 2 t) (iblk0 V c 4 t) (iblk0 V c 6 t) (iblk0 V c 3 t) (iblk0 V c 5 t) (iblk0 V c 7 t) _)
  iframe H0 H1 H2 H3 H4 H5 H6 H7
  isplitl [H8]; · iexact H8
  isplitl [H9]; · iexact H9
  isplitl [H10]; · iexact H10
  iintro H
  iframe

theorem body_obligation0 (c : Dev nD) : BodyObligation (dat0 (F := F) V c) (defs₀ (F := F)) Variants.none () Set.univ :=
  fun t => sound_body0 V c t

theorem Φ_first0 (c : Dev nD) : (iprop((∃ r, prngReg c r) ∗ Pipeline.scopedRest (Ix := Unit) (Name := ℕ) (U := UR sig nD τ) (Lvl := ℕ) (Val := Elt F) spec0 c) : sProp 𝕄) ⊢ (dat0 V c).Φ 0 := sep_symm

theorem Φ_last0 (c : Dev nD) : (dat0 V c).Φ (Fin.last cfg0.N) ⊢ (iprop((∃ r, prngReg c r) ∗ Pipeline.scopedRest (Ix := Unit) (Name := ℕ) (U := UR sig nD τ) (Lvl := ℕ) (Val := Elt F) spec0 c) : sProp 𝕄) := sep_symm

end Cert.KernelIdeal.Hand

end
-- ==== Proof.KI.Reg1.lean ====
import proofs.«137432_j14851996910240_2_alg».proof.Proof.Gen.KernelIdeal.Launch
import proofs.«137432_j14851996910240_2_alg».proof.Proof.Gen.KernelIdeal.Skeleton
import proofs.«137432_j14851996910240_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S128x2048 := Rect.unit (s := S128x2048) ![0, 0] S128x2048.size inb_S128x2048_S128x2048_0_0
abbrev r1_w : Rect S2048x2048 := Rect.unit (s := S2048x2048) ![0, 0] S2048x2048.size inb_S2048x2048_S2048x2048_0_0
abbrev r1_b : Rect S1x2048 := Rect.unit (s := S1x2048) ![0, 0] S1x2048.size inb_S1x2048_S1x2048_0_0

def out1_6 (x0 : Vec F S128x2048 .f32) (x2 : Vec F S2048x2048 .bf16) (x3 : Vec F S1x2048 .f32) : Vec F S128x2048 .f32 :=
  View.canon [⟨r1_a, k1_pay1 (View.ld x0 r1_a) (View.ld x2 r1_w) (View.ld x3 r1_b)⟩]

def out1_7 (x1 : Vec F S128x2048 .f32) (x4 : Vec F S2048x2048 .bf16) (x5 : Vec F S1x2048 .f32) : Vec F S128x2048 .f32 :=
  View.canon [⟨r1_a, k1_pay2 (View.ld x1 r1_a) (View.ld x4 r1_w) (View.ld x5 r1_b)⟩]

/-- One store of the whole block covers it. -/
theorem cover1_a (p0 : Vec F S128x2048 .f32) (y : S128x2048.Idx) :
    ∃ pc ∈ ([⟨r1_a, p0⟩] : List (View.Piece (Elt F) S128x2048 .f32)), y ∈ pc.1.set :=
  View.cover_of_tiled [⟨r1_a, p0⟩] S128x2048.size (by rfl) y

abbrev own1 (c : Dev nD) {s : Shape} {e : EltTy} (a : Memref sig .tc .vmem s e) (x : Vec F s e) : sProp 𝕄 :=
  owns (c : Thread nD τ) a fullShare x

set_option maxHeartbeats 1000000 in
/-- The body on whole buffers: the inputs stay as read, each output ends at its one store laid over the block. -/
theorem sound_kernel1 {c : Dev nD} {E : Set ℕ} {i : grid1.Coords}
    {a1 a2 a7 a8 : Memref sig .tc .vmem S128x2048 .f32} {a3 a5 : Memref sig .tc .vmem S2048x2048 .bf16} {a4 a6 : Memref sig .tc .vmem S1x2048 .f32}
    {h1 : a1.IsWhole} {h2 : a2.IsWhole} {h3 : a3.IsWhole} {h4 : a4.IsWhole} {h5 : a5.IsWhole} {h6 : a6.IsWhole} {h7 : a7.IsWhole} {h8 : a8.IsWhole}
    (x0 x1 y6 y7 : Vec F S128x2048 .f32) (x2 x4 : Vec F S2048x2048 .bf16) (x3 x5 : Vec F S1x2048 .f32) (K : PUnit → sProp 𝕄) :
    iprop(own1 c a1 x0 ∗ own1 c a2 x1 ∗ own1 c a3 x2 ∗ own1 c a4 x3 ∗ own1 c a5 x4 ∗ own1 c a6 x5 ∗ own1 c a7 y6 ∗ own1 c a8 y7
        ∗ (iprop(own1 c a1 x0 ∗ own1 c a2 x1 ∗ own1 c a3 x2 ∗ own1 c a4 x3 ∗ own1 c a5 x4 ∗ own1 c a6 x5
            ∗ own1 c a7 (out1_6 x0 x2 x3) ∗ own1 c a8 (out1_7 x1 x4 x5)) -∗ K ⟨⟩))
      ⊢ wp frame (wpE (defs₀ (F := F)) Variants.none c none) E (cc1_k2_kernel i a1 h1 a2 h2 a3 h3 a4 h4 a5 h5 a6 h6 a7 h7 a8 h8) K := by
  simp only [cc1_k2_kernel_eq_skeleton]; unfold cc1_k2_kernel_skel own1 owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, -, H7⟩, Hk⟩
  subst hf0 hf1 hf2 hf3 hf4 hf5
  sl_exec
  sl_step
  iapply Hk
  isplitl [H0]; swap; isplitl [H1]; swap; isplitl [H2]; swap; isplitl [H3]; swap; isplitl [H4]; swap; isplitl [H5]; swap; isplitl [H6]; swap
  all_goals (iexists _; isplitr; swap; iassumption; ipureintro; first | exact View.read_writes_eq_canon _ _ _ (cover1_a _) | rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 2 t) (iblk1 V c 3 t)
    | ⟨7, _⟩ => out1_7 (iblk1 V c 1 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = out1_6 (iblk1 V c 0 t) (iblk1 V c 2 t) (iblk1 V c 3 t) := by dsimp only [dat1]
theorem after1_7 (c : Dev nD) (t : Fin cfg1.N) : (dat1 V c).after 7 t = out1_7 (iblk1 V c 1 t) (iblk1 V c 4 t) (iblk1 V c 5 t) := by dsimp only [dat1]

/-- Window by window: the body leaves each input's block as it found it. -/
theorem before1 (c : Dev nD) : ∀ w : Fin cfg1.W, w.val < 6 → ∀ t d, (dat1 V c).before w t d = (dat1 V c).after w t := by
  intro w; fin_cases w <;> intro hw t d <;> first
    | exact absurd hw (by decide)
    | exact ((dat1 V c).before_in_eq_fetched _ rfl (fun _ => rfl) (fun _ _ _ => rfl) (fun _ => rfl) t d).trans rfl

/-- The body at a point: the inputs hold their blocks, so the body's triple applies; the invariant and what is owed pass through. -/
theorem sound_body1 (c : Dev nD) (t : Fin cfg1.N) :
    iprop((dat1 V c).Φ t.castSucc ∗ (dat1 V c).owesAt () t.castSucc
        ∗ bigSep Finset.univ fun w => iprop(∃ d, owns (c : Thread nD τ) ((cfg1.win w).stage (cfg1.slots t w)) fullShare ((dat1 V c).before w t d)))
      ⊢ wp frame (wpE (defs₀ (F := F)) Variants.none c none) Set.univ (bodyAt1 t) fun _ =>
          iprop((dat1 V c).Φ t.castSucc ∗ (dat1 V c).owesAt () t.castSucc
            ∗ bigSep Finset.univ fun w => owns (c : Thread nD τ) ((cfg1.win w).stage (cfg1.slots t w)) fullShare ((dat1 V c).after w t)) := by
  rw [bigSep_W1, bigSep_W1]
  simp +decide only [before1 V c]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 (iblk1 V c 0 t) (iblk1 V c 1 t) _ _ (iblk1 V c 2 t) (iblk1 V c 4 t) (iblk1 V c 3 t) (iblk1 V c 5 t) _)
  iframe H0 H1 H2 H3 H4 H5
  isplitl [H6]; · iexact H6
  isplitl [H7]; · iexact H7
  iintro H
  iframe

theorem body_obligation1 (c : Dev nD) : BodyObligation (dat1 (F := F) V c) (defs₀ (F := F)) Variants.none () Set.univ :=
  fun t => sound_body1 V c t

theorem Φ_first1 (c : Dev nD) : (iprop((∃ r, prngReg c r) ∗ Pipeline.scopedRest (Ix := Unit) (Name := ℕ) (U := UR sig nD τ) (Lvl := ℕ) (Val := Elt F) spec1 c) : sProp 𝕄) ⊢ (dat1 V c).Φ 0 := sep_symm

theorem Φ_last1 (c : Dev nD) : (dat1 V c).Φ (Fin.last cfg1.N) ⊢ (iprop((∃ r, prngReg c r) ∗ Pipeline.scopedRest (Ix := Unit) (Name := ℕ) (U := UR sig nD τ) (Lvl := ℕ) (Val := Elt F) spec1 c) : sProp 𝕄) := sep_symm

end Cert.KernelIdeal.Hand

end
-- ==== Proof.KI.Reg2.lean ====
import proofs.«137432_j14851996910240_2_alg».proof.Proof.Gen.KernelIdeal.Launch
import proofs.«137432_j14851996910240_2_alg».proof.Proof.Gen.KernelIdeal.Skeleton
import proofs.«137432_j14851996910240_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 32 = 0 := by decide +kernel

abbrev cond2_1 (i : grid2.Coords) : Prop := k2_cond2 i = 1#1

theorem hcond2_1 : ∀ t : Fin cfg2.N, cond2_1 (grid2.coords t) ↔ t.val % 32 = 31 := by decide +kernel

theorem idleAt2_2 : ∀ t : Fin cfg2.N, ¬cond2_1 (grid2.coords t) → idle2 2 (grid2.coords t) = true ∧ (win2 2).flush t = false := by decide +kernel
theorem liveAt2_2 : ∀ t : Fin cfg2.N, cond2_1 (grid2.coords t) → idle2 2 (grid2.coords t) = false := by decide +kernel

abbrev VO2_2 : View sig .tc .vmem S2048x2048 .bf16 := (Memref.whole cc2_stg2_0 : Memref sig .tc .vmem S2048x2048 .bf16).view

abbrev ms2_0 (t : Fin cfg2.N) : Memref sig .tc .vmem S128x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x2048 .bf16 := win2_2.stage (cfg2.slots t 2)
abbrev hs2_2 (t : Fin cfg2.N) : (ms2_2 t).IsWhole := hstage2_2 ((cfg2.slots t 2).cast nbuf2_2)

abbrev scM2_0 : Memref sig .tc .vmem S2048x2048 .f32 := Memref.whole cc2_scratch0

abbrev VS2_0 : View sig .tc .vmem S2048x2048 .f32 := scM2_0.view

section Args

variable (c : Dev nD) (i : grid2.Coords) (arg1 : Memref sig .tc .vmem S128x2048 .f32) (harg1 : arg1.IsWhole) (arg2 : Memref sig .tc .vmem S128x2048 .f32) (harg2 : arg2.IsWhole) (arg3 : Memref sig .tc .vmem S2048x2048 .bf16) (harg3 : arg3.IsWhole) (arg4 : Memref sig .tc .vmem S2048x2048 .f32) (harg4 : arg4.IsWhole)

section A

variable (hc0 : cond2_0 i) (hc1 : ¬cond2_1 i) (x0 x1 : Vec F S128x2048 .f32)

def kernelRun2_A :
    Σ' (L2 : List (View.Piece (Elt F) S2048x2048 .bf16)), { LS0 : List (View.Piece (Elt F) S2048x2048 .f32) //
      ∀ (xi2 : Vec F S2048x2048 .bf16) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2_k3_kernel i arg1 harg1 arg2 harg2 arg3 harg3 arg4 harg4) K } := by
  refine ⟨[], ?_, fun xi2 E K => ?run⟩
  case run =>
    simp only [cc2_k3_kernel_eq_skeleton]; unfold cc2_k3_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

def out2_A_2 : Vec F S2048x2048 .bf16 :=
  VO2_2.read (Elt F) (VO2_2.writes (Elt F) VO2_2.junk (kernelRun2_A c i arg1 harg1 arg2 harg2 arg3 harg3 arg4 harg4 hc0 hc1 x0 x1).1)

theorem scover2_A_0 (y : S2048x2048.Idx) :
    ∃ pc ∈ (kernelRun2_A c i arg1 harg1 arg2 harg2 arg3 harg3 arg4 harg4 hc0 hc1 x0 x1).2.1, y ∈ pc.1.set :=
  View.cover_of_tiledL _ S2048x2048.size (by sl_kernel_rfl) y

def sout2_A_0 : Vec F S2048x2048 .f32 :=
  VS2_0.read (Elt F) (VS2_0.writes (Elt F) VS2_0.junk (kernelRun2_A c i arg1 harg1 arg2 harg2 arg3 harg3 arg4 harg4 hc0 hc1 x0 x1).2.1)

end A

section B

variable (hc0 : ¬cond2_0 i) (hc1 : ¬cond2_1 i) (x0 x1 : Vec F S128x2048 .f32) (xs0 : Vec F S2048x2048 .f32)

def kernelRun2_B :
    Σ' (L2 : List (View.Piece (Elt F) S2048x2048 .bf16)), { LS0 : List (View.Piece (Elt F) S2048x2048 .f32) //
      ∀ (xi2 : Vec F S2048x2048 .bf16) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2_k3_kernel i arg1 harg1 arg2 harg2 arg3 harg3 arg4 harg4) K } := by
  refine ⟨[], ?_, fun xi2 E K => ?run⟩
  case run =>
    simp only [cc2_k3_kernel_eq_skeleton]; unfold cc2_k3_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

def out2_B_2 : Vec F S2048x2048 .bf16 :=
  VO2_2.read (Elt F) (VO2_2.writes (Elt F) VO2_2.junk (kernelRun2_B c i arg1 harg1 arg2 harg2 arg3 harg3 arg4 harg4 hc0 hc1 x0 x1 xs0).1)

theorem scover2_B_0 (y : S2048x2048.Idx) :
    ∃ pc ∈ (kernelRun2_B c i arg1 harg1 arg2 harg2 arg3 harg3 arg4 harg4 hc0 hc1 x0 x1 xs0).2.1, y ∈ pc.1.set :=
  View.cover_of_tiledL _ S2048x2048.size (by sl_kernel_rfl) y

def sout2_B_0 : Vec F S2048x2048 .f32 :=
  VS2_0.read (Elt F) (VS2_0.writes (Elt F) VS2_0.junk (kernelRun2_B c i arg1 harg1 arg2 harg2 arg3 harg3 arg4 harg4 hc0 hc1 x0 x1 xs0).2.1)

end B

section C

variable (hc0 : ¬cond2_0 i) (hc1 : cond2_1 i) (x0 x1 : Vec F S128x2048 .f32) (xs0 : Vec F S2048x2048 .f32)

def kernelRun2_C :
    Σ' (L2 : List (View.Piece (Elt F) S2048x2048 .bf16)), { LS0 : List (View.Piece (Elt F) S2048x2048 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2_k3_kernel i arg1 harg1 arg2 harg2 arg3 harg3 arg4 harg4) K } := by
  refine ⟨?_, ?_, fun E K => ?run⟩
  case run =>
    simp only [cc2_k3_kernel_eq_skeleton]; unfold cc2_k3_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

theorem cover2_C_2 (y : S2048x2048.Idx) :
    ∃ pc ∈ (kernelRun2_C c i arg1 harg1 arg2 harg2 arg3 harg3 arg4 harg4 hc0 hc1 x0 x1 xs0).1, y ∈ pc.1.set :=
  View.cover_of_tiledL _ S2048x2048.size (by sl_kernel_rfl) y

def out2_C_2 : Vec F S2048x2048 .bf16 :=
  VO2_2.read (Elt F) (VO2_2.writes (Elt F) VO2_2.junk (kernelRun2_C c i arg1 harg1 arg2 harg2 arg3 harg3 arg4 harg4 hc0 hc1 x0 x1 xs0).1)

theorem scover2_C_0 (y : S2048x2048.Idx) :
    ∃ pc ∈ (kernelRun2_C c i arg1 harg1 arg2 harg2 arg3 harg3 arg4 harg4 hc0 hc1 x0 x1 xs0).2.1, y ∈ pc.1.set :=
  View.cover_of_tiledL _ S2048x2048.size (by sl_kernel_rfl) y

def sout2_C_0 : Vec F S2048x2048 .f32 :=
  VS2_0.read (Elt F) (VS2_0.writes (Elt F) VS2_0.junk (kernelRun2_C c i arg1 harg1 arg2 harg2 arg3 harg3 arg4 harg4 hc0 hc1 x0 x1 xs0).2.1)

end C

end Args

/-- A buffer left at stores that cover its view is owned at what they read back, whatever it held before. -/
theorem owns_of_cover (c : Dev nD) {s e} (m : Memref sig .tc .vmem s e) (v' : View sig .tc .vmem s e) {f} {L : List (View.Piece (Elt F) s e)}
    (h : ∀ y, ∃ pc ∈ L, y ∈ pc.1.set) :
    (m.view.loc (c : Thread nD τ) ↦[m.view.set]{fullShare} m.view.writes (Elt F) f L : sProp 𝕄)
      ⊢ owns (c : Thread nD τ) m fullShare (v'.read (Elt F) (v'.writes (Elt F) v'.junk L)) := by
  iintro H; unfold owns; iexists m.view.writes (Elt F) f L; isplitr
  · ipureintro; exact View.read_writes_of_cover _ _ _ _ _ h
  · iexact H

section Region

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def outsAt2 (c : Dev nD) : (n : ℕ) → n < cfg2.N → Vec F S2048x2048 .bf16 × Vec F S2048x2048 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 32 = 0 then
      if h1 : (n + 1) % 32 = 31 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 32 = 31 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 32 = 0) (h1 : ¬t.val % 32 = 31) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 32 = 0) (h1 : ¬t.val % 32 = 31) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 32 = 0) (h1 : t.val % 32 = 31) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

abbrev restBut2 (c : Dev nD) : sProp 𝕄 :=
  Pipeline.scopedRestBut spec2 c [cc2_scratch0]

def PhiS2 (c : Dev nD) : (n : ℕ) → n ≤ cfg2.N → sProp 𝕄
  | 0, _ => iprop(iprop(∃ d, owns (c : Thread nD τ) scM2_0 fullShare d) ∗ restBut2 c ∗ (∃ r, prngReg c r))
  | n + 1, hn => iprop(iprop(owns (c : Thread nD τ) scM2_0 fullShare ((outsAt2 V c n hn).2)) ∗ restBut2 c ∗ (∃ r, prngReg c r))

theorem PhiS2_zero (c : Dev nD) (n : ℕ) (h : n ≤ cfg2.N) (hz : n = 0) :
    PhiS2 V c n h = iprop(iprop(∃ d, owns (c : Thread nD τ) scM2_0 fullShare d) ∗ restBut2 c ∗ (∃ r, prngReg c r)) := by
  subst hz; rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)) ∗ restBut2 c ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = (outsAt2 V c t.val t.isLt).1 := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

/-- The body obligation at any point: the point's case runs; the accumulator is taken back at what the case's covering stores read. -/
theorem body_obligation2 (c : Dev nD) : BodyObligation (dat2 (F := F) V c) (defs₀ (F := F)) Variants.none () Set.univ := fun t => by
  rw [bigSep_W2, bigSep_W2]
  change _ ⊢ wp frame _ _ (bodyAt2 t) _
  unfold bodyAt2
  simp only [before2_0, before2_1, after2_0, after2_1]
  rw [show (dat2 V c).owesAt () t.succ = (dat2 V c).owesAt () t.castSucc from rfl,
    show (dat2 V c).Φ t.succ = iprop(iprop(owns (c : Thread nD τ) scM2_0 fullShare ((outsAt2 V c t.val t.isLt).2)) ∗ restBut2 c ∗ (∃ r, prngReg c r)) from rfl,
    show (dat2 V c).Φ t.castSucc = PhiS2 V c t.val t.isLt.le from rfl]
  have hN : t.val < 32 := t.isLt
  by_cases h1 : t.val % 32 = 31
  · have h0 : ¬t.val % 32 = 0 := by omega
    have hc0 := mt (hcond2_0 t).mp h0
    have hc1 := (hcond2_1 t).mpr h1
    rw [liveAt2_2 t hc1, after2_2, outsAt2_C V c t h0 h1, PhiS2_pos V c _ _ (by omega)]
    unfold out2_C_2 sout2_C_0; dsimp only
    iintro ⟨⟨HS0, Hrest, Hg⟩, Ho, ⟨%d0, H0⟩, ⟨%d1, H1⟩, ⟨%d2, H2⟩⟩
    iapply ((kernelRun2_C c (grid2.coords t) _ _ _ _ _ _ _ _ hc0 hc1 (iblk2 V c 0 t) (iblk2 V c 1 t) _).2.2 Set.univ _)
    iframe H0 H1 HS0
    isplitl [H2]; · iexists _; iexact H2
    iintro ⟨H0, H1, ⟨%e2, H2⟩, ⟨%es0, HS0⟩⟩
    iframe Hrest Hg Ho H0 H1
    isplitl [HS0]
    · iapply owns_of_cover c _ _ (scover2_C_0 c _ _ _ _ _ _ _ _ _ hc0 hc1 _ _ _); iexact HS0
    · iapply owns_of_cover c _ _ (cover2_C_2 c _ _ _ _ _ _ _ _ _ hc0 hc1 _ _ _); iexact H2
  · have hc1 := mt (hcond2_1 t).mp h1
    rw [(idleAt2_2 t hc1).1, (idleAt2_2 t hc1).2]
    by_cases h0 : t.val % 32 = 0
    · have hc0 := (hcond2_0 t).mpr h0
      rw [outsAt2_A V c t h0 h1, PhiS2_zero V c _ _ (by omega)]
      unfold sout2_A_0; dsimp only
      iintro ⟨⟨HS0, Hrest, Hg⟩, Ho, ⟨%d0, H0⟩, ⟨%d1, H1⟩, ⟨%d2, H2⟩⟩
      iapply ((kernelRun2_A c (grid2.coords t) _ _ _ _ _ _ _ _ hc0 hc1 (iblk2 V c 0 t) (iblk2 V c 1 t)).2.2 ((dat2 V c).before 2 t d2) Set.univ _)
      iframe H0 H1 H2 HS0
      iintro ⟨H0, H1, H2, ⟨%es0, HS0⟩⟩
      iframe Hrest Hg Ho H0 H1
      isplitl [HS0]
      · iapply owns_of_cover c _ _ (scover2_A_0 c _ _ _ _ _ _ _ _ _ hc0 hc1 _ _); iexact HS0
      · iexists _; iexact H2
    · have hc0 := mt (hcond2_0 t).mp h0
      rw [outsAt2_B V c t h0 h1, PhiS2_pos V c _ _ (by omega)]
      unfold sout2_B_0; dsimp only
      iintro ⟨⟨HS0, Hrest, Hg⟩, Ho, ⟨%d0, H0⟩, ⟨%d1, H1⟩, ⟨%d2, H2⟩⟩
      iapply ((kernelRun2_B c (grid2.coords t) _ _ _ _ _ _ _ _ hc0 hc1 (iblk2 V c 0 t) (iblk2 V c 1 t) _).2.2 ((dat2 V c).before 2 t d2) Set.univ _)
      iframe H0 H1 H2 HS0
      iintro ⟨H0, H1, H2, ⟨%es0, HS0⟩⟩
      iframe Hrest Hg Ho H0 H1
      isplitl [HS0]
      · iapply owns_of_cover c _ _ (scover2_B_0 c _ _ _ _ _ _ _ _ _ hc0 hc1 _ _ _); iexact HS0
      · iexists _; iexact H2

theorem Φ_first2 (c : Dev nD) :
    (iprop((∃ r, prngReg c r) ∗ Pipeline.scopedRest (Ix := Unit) (Name := ℕ) (U := UR sig nD τ) (Lvl := ℕ) (Val := Elt F) spec2 c) : sProp 𝕄)
      ⊢ (dat2 V c).Φ 0 := by
  rw [show (dat2 V c).Φ 0 = _ from PhiS2_zero V c 0 (Nat.zero_le _) rfl, scopedRest2_split]
  simp only [scM2_0, owns_whole]
  iintro ⟨Hg, HS0, Hrest⟩
  iframe

theorem Φ_last2 (c : Dev nD) :
    (dat2 V c).Φ (Fin.last cfg2.N)
      ⊢ (iprop((∃ r, prngReg c r) ∗ Pipeline.scopedRest (Ix := Unit) (Name := ℕ) (U := UR sig nD τ) (Lvl := ℕ) (Val := Elt F) spec2 c) : sProp 𝕄) := by
  rw [show (dat2 V c).Φ (Fin.last cfg2.N) = _ from PhiS2_pos V c (Fin.last cfg2.N).val (Nat.le_of_lt_succ (Fin.last cfg2.N).isLt) (by decide), scopedRest2_split]
  simp only [scM2_0, owns_whole]
  iintro ⟨HS0, Hrest, Hg⟩
  iframe Hg Hrest
  iexists _; iexact HS0

end Region

end Cert.KernelIdeal.Hand

end
-- ==== Proof.KI.Reg3.lean ====
import proofs.«137432_j14851996910240_2_alg».proof.Proof.Gen.KernelIdeal.Launch
import proofs.«137432_j14851996910240_2_alg».proof.Proof.Gen.KernelIdeal.Skeleton
import proofs.«137432_j14851996910240_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S128x2048 := Rect.unit (s := S128x2048) ![0, 0] S128x2048.size inb_S128x2048_S128x2048_0_0
abbrev r3_w : Rect S2048x2048 := Rect.unit (s := S2048x2048) ![0, 0] S2048x2048.size inb_S2048x2048_S2048x2048_0_0
abbrev r3_b : Rect S1x2048 := Rect.unit (s := S1x2048) ![0, 0] S1x2048.size inb_S1x2048_S1x2048_0_0

abbrev r3_s : Rect S8x2048 := Rect.unit (s := S8x2048) ![0, 0] S8x2048.size inb_S8x2048_S8x2048_0_0

abbrev r3_h : Rect S8x2048 := Rect.unit (s := S8x2048) ![0, 0] S4x2048.size inb_S8x2048_S4x2048_0_0

def y1At3 (x0 x2 : Vec F S128x2048 .f32) (x4 x5 : Vec F S2048x2048 .bf16) (x6 : Vec F S1x2048 .f32) : Vec F S128x2048 .f32 :=
  k3_pay6 (View.ld x4 r3_w) (View.ld x0 r3_a) (View.ld x5 r3_w) (View.ld x6 r3_b) (View.ld x2 r3_a)

def v2At3 (x1 : Vec F S128x2048 .f32) (x4 x7 : Vec F S2048x2048 .bf16) (x8 : Vec F S1x2048 .f32) : Vec F S128x2048 .f32 :=
  k3_pay5 (View.ld x4 r3_w) (View.ld x1 r3_a) (View.ld x7 r3_w) (View.ld x8 r3_b)

def y2At3 (x1 x3 : Vec F S128x2048 .f32) (x4 x7 : Vec F S2048x2048 .bf16) (x8 : Vec F S1x2048 .f32) : Vec F S128x2048 .f32 :=
  k3_pay1 (v2At3 x1 x4 x7 x8) (k3_pay7 (View.ld x3 r3_a))

def out3_9 (x0 x2 : Vec F S128x2048 .f32) (x4 x5 : Vec F S2048x2048 .bf16) (x6 : Vec F S1x2048 .f32) : Vec F S128x2048 .f32 :=
  View.canon [⟨r3_a, y1At3 x0 x2 x4 x5 x6⟩]

def out3_10 (x1 x3 : Vec F S128x2048 .f32) (x4 x7 : Vec F S2048x2048 .bf16) (x8 : Vec F S1x2048 .f32) : Vec F S128x2048 .f32 :=
  View.canon [⟨r3_a, y2At3 x1 x3 x4 x7 x8⟩]

def zero3 : Vec F S8x2048 .f32 := k3_pay3 (F := F)

def stk3 (x0 x1 x2 x3 : Vec F S128x2048 .f32) (x4 x5 : Vec F S2048x2048 .bf16) (x6 : Vec F S1x2048 .f32) (x7 : Vec F S2048x2048 .bf16)
    (x8 : Vec F S1x2048 .f32) (s : Vec F S8x2048 .f32) : Vec F S4x2048 .f32 :=
  k3_pay2 (v2At3 x1 x4 x7 x8) (y1At3 x0 x2 x4 x5 x6) (k3_pay7 (View.ld x3 r3_a)) (View.ld s r3_h)

def scr3 (x0 x1 x2 x3 : Vec F S128x2048 .f32) (x4 x5 : Vec F S2048x2048 .bf16) (x6 : Vec F S1x2048 .f32) (x7 : Vec F S2048x2048 .bf16)
    (x8 : Vec F S1x2048 .f32) (s : Vec F S8x2048 .f32) : Vec F S8x2048 .f32 :=
  r3_h.overlay s (stk3 x0 x1 x2 x3 x4 x5 x6 x7 x8 s)

theorem cover3_a (p0 : Vec F S128x2048 .f32) (y : S128x2048.Idx) :
    ∃ pc ∈ ([⟨r3_a, p0⟩] : List (View.Piece (Elt F) S128x2048 .f32)), y ∈ pc.1.set :=
  View.cover_of_tiled [⟨r3_a, p0⟩] S128x2048.size (by rfl) y

theorem cover3_s (p0 : Vec F S8x2048 .f32) (y : S8x2048.Idx) :
    ∃ pc ∈ ([⟨r3_s, p0⟩] : List (View.Piece (Elt F) S8x2048 .f32)), y ∈ pc.1.set :=
  View.cover_of_tiled [⟨r3_s, p0⟩] S8x2048.size (by rfl) y

theorem hz3 : (![0, 0] : Fin 2 → Nat) = fun _ => 0 := funext fun a => by fin_cases a <;> rfl

section Reads

variable {sg : RefSig} {κ : Kind} {sp : Space} {s : Shape} {e : EltTy} {Val : EltTy → Type}

theorem read_writes_overlay3 (v : View sg κ sp s e) (f : v.ty.Contents Val) (r : Rect s) (w : r.shape.Idx → Val e)
    (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons]
    exact View.read_slice_write_of_not_mem r _ _ _ (by rwa [Rect.map_emb_univ])

end Reads

theorem read_zeroed_overlay3 {sg : RefSig} {κ : Kind} {sp : Space} (v : View sg κ sp S8x2048 .f32) (f : v.ty.Contents (Elt F))
    (a b cc : FVec F S128x2048 .f32) (z : Vec F S8x2048 .f32) :
    v.read (Elt F) (v.writes (Elt F) f [⟨r3_h, k3_pay2 a b cc (v.readCov [⟨r3_s, z⟩] r3_h.toLoadRect)⟩, ⟨r3_s, z⟩])
      = r3_h.overlay z (k3_pay2 a b cc (View.ld z r3_h)) := by
  have h1 : v.read (Elt F) (v.writes (Elt F) f [⟨r3_s, z⟩]) = z := by
    rw [View.read_writes_eq_canon _ _ _ (cover3_s z)]; exact View.canon_unit_zero hz3 _ z
  have h2 : v.readCov [⟨r3_s, z⟩] r3_h.toLoadRect = View.ld z r3_h := by
    rw [View.readCov_eq_canon_ld _ _ _ (cover3_s z)]; exact congrArg (fun X => View.ld X r3_h) (View.canon_unit_zero hz3 _ z)
  exact (read_writes_overlay3 v f r3_h _ [⟨r3_s, z⟩]).trans
    (congrArg₂ (fun (s : Vec F S8x2048 .f32) (p : Vec F S4x2048 .f32) => r3_h.overlay s (k3_pay2 a b cc p)) h1 h2)

theorem read_copy_overlay3 {sg sg' : RefSig} {κ κ' : Kind} {sp sp' : Space} (v : View sg κ sp S8x2048 .f32) (v' : View sg' κ' sp' S8x2048 .f32)
    (f : v.ty.Contents (Elt F)) (f' : v'.ty.Contents (Elt F)) (w : Vec F S4x2048 .f32) :
    v.read (Elt F) (v.writes (Elt F) f [⟨r3_s, v'.readAt (Elt F) r3_s.toLoadRect (v'.writes (Elt F) f' [⟨r3_h, w⟩])⟩])
      = r3_h.overlay (v'.read (Elt F) f') w := by
  rw [View.read_writes_eq_canon _ _ _ (cover3_s _)]
  refine (View.canon_unit_zero hz3 _ _).trans ?_
  rw [View.readAt_eq_ld, View.ld_unit_zero hz3]
  exact read_writes_overlay3 v' f' r3_h w []

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val = 0 :=
  (by decide +kernel : ∀ t : Fin grid3.N, cond3_0 (grid3.coords t) ↔ t.val = 0)

abbrev cond3_1 (i : grid3.Coords) : Prop := k3_cond2 i = 1#1

theorem hcond3_1 : ∀ t : Fin cfg3.N, cond3_1 (grid3.coords t) ↔ t.val = 31 :=
  (by decide +kernel : ∀ t : Fin grid3.N, cond3_1 (grid3.coords t) ↔ t.val = 31)

theorem idleAt3_11 : ∀ t : Fin cfg3.N, t.val ≠ 31 → cfg3.idle 11 (grid3.coords t) = true := by decide +kernel
theorem noFlush3_11 : ∀ t : Fin cfg3.N, t.val ≠ 31 → (cfg3.win 11).flush t = false := by decide +kernel
theorem liveAt3_11 : ∀ t : Fin cfg3.N, t.val = 31 → cfg3.idle 11 (grid3.coords t) = false := by decide +kernel

section Body

variable (c : Dev nD) (E : Set ℕ) (i : grid3.Coords)
  (arg1 arg2 arg3 arg4 : Memref sig .tc .vmem S128x2048 .f32) (arg5 arg6 : Memref sig .tc .vmem S2048x2048 .bf16)
  (arg7 : Memref sig .tc .vmem S1x2048 .f32) (arg8 : Memref sig .tc .vmem S2048x2048 .bf16) (arg9 : Memref sig .tc .vmem S1x2048 .f32)
  (arg10 arg11 : Memref sig .tc .vmem S128x2048 .f32) (arg12 arg13 : Memref sig .tc .vmem S8x2048 .f32)
  (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole)
  (x0 x1 x2 x3 : Vec F S128x2048 .f32) (x4 x5 : Vec F S2048x2048 .bf16) (x6 : Vec F S1x2048 .f32) (x7 : Vec F S2048x2048 .bf16)
  (x8 : Vec F S1x2048 .f32) (xi11 xs : Vec F S8x2048 .f32)

-- Ownership of the nine inputs at `x0 … x8`, then `R`.
abbrev ins3 (R : sProp 𝕄) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ R)

-- The body's triple: the inputs come back as they came and the two row tiles are written; `P` is what the statistics window and the scratch come in at, `Q` what they go out at.
abbrev Triple3 (K : PUnit → sProp 𝕄) (P Q : sProp 𝕄) : Prop :=
  ins3 c arg1 arg2 arg3 arg4 arg5 arg6 arg7 arg8 arg9 x0 x1 x2 x3 x4 x5 x6 x7 x8 iprop((∃ d, owns (c : Thread nD τ) arg10 fullShare d) ∗ (∃ d, owns (c : Thread nD τ) arg11 fullShare d) ∗ P
      ∗ (ins3 c arg1 arg2 arg3 arg4 arg5 arg6 arg7 arg8 arg9 x0 x1 x2 x3 x4 x5 x6 x7 x8 iprop(owns (c : Thread nD τ) arg10 fullShare (out3_9 x0 x2 x4 x5 x6) ∗ owns (c : Thread nD τ) arg11 fullShare (out3_10 x1 x3 x4 x7 x8) ∗ Q) -∗ K ⟨⟩))
    ⊢ wp frame (wpE (defs₀ (F := F)) Variants.none c none) E (cc3_k4_kernel i arg1 harg1 arg2 harg2 arg3 harg3 arg4 harg4 arg5 harg5 arg6 harg6 arg7 harg7 arg8 harg8 arg9 harg9 arg10 harg10 arg11 harg11 arg12 harg12 arg13 harg13) K

variable {arg1 arg2 arg3 arg4 arg5 arg6 arg7 arg8 arg9 arg10 arg11 arg12 arg13} {harg1 harg2 harg3 harg4 harg5 harg6 harg7 harg8 harg9 harg10 harg11 harg12 harg13}

set_option maxHeartbeats 4000000 in
-- The first point: the scratch comes in at anything and is zeroed before the accumulation.
theorem sound_kernel3_A (K : PUnit → sProp 𝕄) (hc0 : cond3_0 i) (hc1 : ¬cond3_1 i) :
    Triple3 c E i arg1 arg2 arg3 arg4 arg5 arg6 arg7 arg8 arg9 arg10 arg11 arg12 arg13 harg1 harg2 harg3 harg4 harg5 harg6 harg7 harg8 harg9 harg10 harg11 harg12 harg13 x0 x1 x2 x3 x4 x5 x6 x7 x8 K iprop(owns (c : Thread nD τ) arg12 fullShare xi11 ∗ ∃ d, owns (c : Thread nD τ) arg13 fullShare d)
      iprop(owns (c : Thread nD τ) arg12 fullShare xi11 ∗ owns (c : Thread nD τ) arg13 fullShare (scr3 x0 x1 x2 x3 x4 x5 x6 x7 x8 (zero3 (F := F)))) := by
  unfold Triple3 ins3
  simp only [cc3_k4_kernel_eq_skeleton]; unfold cc3_k4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨⟨%f11, %hf11, H11⟩, ⟨%ds, %fs, -, HS⟩⟩, Hk⟩
  subst_vars
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap
  iexists _; isplitr
  swap; · iexact HS
  ipureintro
  exact read_zeroed_overlay3 _ _ _ _ _ _
  all_goals (iexists _; isplitr; swap; iassumption; ipureintro; first | exact View.read_writes_eq_canon _ _ _ (cover3_a _) | rfl)

set_option maxHeartbeats 4000000 in
-- A middle point: the scratch steps from what the point before left.
theorem sound_kernel3_B (K : PUnit → sProp 𝕄) (hc0 : ¬cond3_0 i) (hc1 : ¬cond3_1 i) :
    Triple3 c E i arg1 arg2 arg3 arg4 arg5 arg6 arg7 arg8 arg9 arg10 arg11 arg12 arg13 harg1 harg2 harg3 harg4 harg5 harg6 harg7 harg8 harg9 harg10 harg11 harg12 harg13 x0 x1 x2 x3 x4 x5 x6 x7 x8 K iprop(owns (c : Thread nD τ) arg12 fullShare xi11 ∗ owns (c : Thread nD τ) arg13 fullShare xs)
      iprop(owns (c : Thread nD τ) arg12 fullShare xi11 ∗ owns (c : Thread nD τ) arg13 fullShare (scr3 x0 x1 x2 x3 x4 x5 x6 x7 x8 xs)) := by
  unfold Triple3 ins3
  simp only [cc3_k4_kernel_eq_skeleton]; unfold cc3_k4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨⟨%f11, %hf11, H11⟩, ⟨%fs, %hfs, HS⟩⟩, Hk⟩
  subst_vars
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap
  iexists _; isplitr
  swap; · iexact HS
  ipureintro
  exact read_writes_overlay3 _ _ _ _ _
  all_goals (iexists _; isplitr; swap; iassumption; ipureintro; first | exact View.read_writes_eq_canon _ _ _ (cover3_a _) | rfl)

set_option maxHeartbeats 4000000 in
-- The last point: as a middle point, then the scratch is copied into the statistics window.
theorem sound_kernel3_C (K : PUnit → sProp 𝕄) (hc0 : ¬cond3_0 i) (hc1 : cond3_1 i) :
    Triple3 c E i arg1 arg2 arg3 arg4 arg5 arg6 arg7 arg8 arg9 arg10 arg11 arg12 arg13 harg1 harg2 harg3 harg4 harg5 harg6 harg7 harg8 harg9 harg10 harg11 harg12 harg13 x0 x1 x2 x3 x4 x5 x6 x7 x8 K iprop((∃ d, owns (c : Thread nD τ) arg12 fullShare d) ∗ owns (c : Thread nD τ) arg13 fullShare xs)
      iprop(owns (c : Thread nD τ) arg12 fullShare (scr3 x0 x1 x2 x3 x4 x5 x6 x7 x8 xs) ∗ owns (c : Thread nD τ) arg13 fullShare (scr3 x0 x1 x2 x3 x4 x5 x6 x7 x8 xs)) := by
  unfold Triple3 ins3
  simp only [cc3_k4_kernel_eq_skeleton]; unfold cc3_k4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨⟨%d11, %f11, -, H11⟩, ⟨%fs, %hfs, HS⟩⟩, Hk⟩
  subst_vars
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]
  · iexists _; isplitr
    swap; · iexact H11
    ipureintro
    exact read_copy_overlay3 _ _ _ _ _
  iexists _; isplitr
  swap; · iexact HS
  ipureintro
  exact read_writes_overlay3 _ _ _ _ _
  all_goals (iexists _; isplitr; swap; iassumption; ipureintro; first | exact View.read_writes_eq_canon _ _ _ (cover3_a _) | rfl)

end Body

def stepAt3 (c : Dev nD) (t : Fin cfg3.N) (s : Vec F S8x2048 .f32) : Vec F S8x2048 .f32 :=
  scr3 (iblk3 V c 0 t) (iblk3 V c 1 t) (iblk3 V c 2 t) (iblk3 V c 3 t) (iblk3 V c 4 t) (iblk3 V c 5 t) (iblk3 V c 6 t) (iblk3 V c 7 t) (iblk3 V c 8 t) s

def scrAt3 (c : Dev nD) : (n : ℕ) → n < cfg3.N → Vec F S8x2048 .f32
  | 0, hn => stepAt3 V c ⟨0, hn⟩ (zero3 (F := F))
  | n + 1, hn => stepAt3 V c ⟨n + 1, hn⟩ (scrAt3 c n (Nat.lt_of_succ_lt hn))

theorem scrAt3_zero (c : Dev nD) (t : Fin cfg3.N) (h : t.val = 0) :
    scrAt3 V c t.val t.isLt = stepAt3 V c t (zero3 (F := F)) := by
  obtain ⟨n, hn⟩ := t
  cases n with
  | zero => rfl
  | succ n => exact absurd h (Nat.succ_ne_zero n)

theorem scrAt3_pos (c : Dev nD) (t : Fin cfg3.N) (h : t.val ≠ 0) :
    scrAt3 V c t.val t.isLt = stepAt3 V c t (scrAt3 V c (t.val - 1) (Nat.lt_of_le_of_lt (Nat.sub_le _ _) t.isLt)) := by
  obtain ⟨n, hn⟩ := t
  cases n with
  | zero => exact absurd rfl h
  | succ n => rfl

abbrev scM3 : Memref sig .tc .vmem S8x2048 .f32 := Memref.whole cc3_scratch0

theorem rest3_eq (c : Dev nD) :
    (iprop((∃ r, prngReg c r) ∗ Pipeline.scopedRest (Ix := Unit) (Name := ℕ) (U := UR sig nD τ) (Lvl := ℕ) (Val := Elt F) spec3 c) : sProp 𝕄)
      = iprop((∃ r, prngReg c r) ∗ iprop((∃ d, owns (c : Thread nD τ) scM3 fullShare d)) ∗ Pipeline.scopedRestBut (Ix := Unit) (Name := ℕ) (U := UR sig nD τ) (Lvl := ℕ) (Val := Elt F) spec3 c [cc3_scratch0]) := by
  rw [scopedRest3_split]; simp only [scM3, owns_whole]; try rfl

def Phi3 (c : Dev nD) : (n : ℕ) → n ≤ cfg3.N → sProp 𝕄
  | 0, _ => iprop((∃ r, prngReg c r) ∗ Pipeline.scopedRest (Ix := Unit) (Name := ℕ) (U := UR sig nD τ) (Lvl := ℕ) (Val := Elt F) spec3 c)
  | n + 1, hn => iprop(owns (c : Thread nD τ) scM3 fullShare (scrAt3 V c n hn) ∗ Pipeline.scopedRestBut (Ix := Unit) (Name := ℕ) (U := UR sig nD τ) (Lvl := ℕ) (Val := Elt F) spec3 c [cc3_scratch0] ∗ (∃ r, prngReg c r))

theorem Phi3_zero (c : Dev nD) (n : ℕ) (h : n ≤ cfg3.N) (hz : n = 0) :
    Phi3 V c n h = iprop((∃ r, prngReg c r) ∗ Pipeline.scopedRest (Ix := Unit) (Name := ℕ) (U := UR sig nD τ) (Lvl := ℕ) (Val := Elt F) spec3 c) := by
  subst hz; rfl

theorem Phi3_succ (c : Dev nD) (n : ℕ) (hn : n < cfg3.N) :
    Phi3 V c (n + 1) hn = iprop(owns (c : Thread nD τ) scM3 fullShare (scrAt3 V c n hn) ∗ Pipeline.scopedRestBut (Ix := Unit) (Name := ℕ) (U := UR sig nD τ) (Lvl := ℕ) (Val := Elt F) spec3 c [cc3_scratch0] ∗ (∃ r, prngReg c r)) := rfl

theorem Phi3_pos (c : Dev nD) (n : ℕ) (h : n ≤ cfg3.N) (hz : n ≠ 0) :
    Phi3 V c n h = iprop(owns (c : Thread nD τ) scM3 fullShare (scrAt3 V c (n - 1) (by omega)) ∗ Pipeline.scopedRestBut (Ix := Unit) (Name := ℕ) (U := UR sig nD τ) (Lvl := ℕ) (Val := Elt F) spec3 c [cc3_scratch0] ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 2 t) (iblk3 V c 4 t) (iblk3 V c 5 t) (iblk3 V c 6 t)
    | ⟨10, _⟩ => out3_10 (iblk3 V c 1 t) (iblk3 V c 3 t) (iblk3 V c 4 t) (iblk3 V c 7 t) (iblk3 V c 8 t)
    | ⟨11, _⟩ => scrAt3 V c t.val t.isLt
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_9 (c : Dev nD) (t : Fin cfg3.N) : (dat3 V c).after 9 t = out3_9 (iblk3 V c 0 t) (iblk3 V c 2 t) (iblk3 V c 4 t) (iblk3 V c 5 t) (iblk3 V c 6 t) := by dsimp only [dat3]
theorem after3_10 (c : Dev nD) (t : Fin cfg3.N) : (dat3 V c).after 10 t = out3_10 (iblk3 V c 1 t) (iblk3 V c 3 t) (iblk3 V c 4 t) (iblk3 V c 7 t) (iblk3 V c 8 t) := by dsimp only [dat3]
theorem after3_11 (c : Dev nD) (t : Fin cfg3.N) : (dat3 V c).after 11 t = scrAt3 V c t.val t.isLt := by dsimp only [dat3]

-- What the body finds in an input window is the window's block of `V`.
theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) ∧ (∀ d, (dat3 V c).before 3 t d = iblk3 V c 3 t) ∧ (∀ d, (dat3 V c).before 4 t d = iblk3 V c 4 t) ∧ (∀ d, (dat3 V c).before 5 t d = iblk3 V c 5 t) ∧ (∀ d, (dat3 V c).before 6 t d = iblk3 V c 6 t) ∧ (∀ d, (dat3 V c).before 7 t d = iblk3 V c 7 t) ∧ (∀ d, (dat3 V c).before 8 t d = iblk3 V c 8 t) := by
  refine ⟨?_, ?_, ?_, ?_, ?_, ?_, ?_, ?_, ?_⟩ <;>
    exact fun d => ((dat3 V c).before_in_eq_fetched _ rfl (fun _ => rfl) (fun _ _ _ => rfl) (fun _ => rfl) t d).trans rfl

theorem leaves3 (c : Dev nD) (t : Fin cfg3.N) : ∀ w : Fin cfg3.W, w.val < 11 →
    (dat3 V c).leavesExact w t = owns (c : Thread nD τ) ((cfg3.win w).stage (cfg3.slots t w)) fullShare ((dat3 V c).after w t)
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ | ⟨10, _⟩, _ => rfl
  | ⟨_ + 11, _⟩, h => absurd h (Nat.not_lt.2 (Nat.le_add_left _ _))

theorem after3_in (c : Dev nD) (t : Fin cfg3.N) :
    (dat3 V c).after 0 t = iblk3 V c 0 t ∧ (dat3 V c).after 1 t = iblk3 V c 1 t ∧ (dat3 V c).after 2 t = iblk3 V c 2 t ∧ (dat3 V c).after 3 t = iblk3 V c 3 t ∧ (dat3 V c).after 4 t = iblk3 V c 4 t ∧ (dat3 V c).after 5 t = iblk3 V c 5 t ∧ (dat3 V c).after 6 t = iblk3 V c 6 t ∧ (dat3 V c).after 7 t = iblk3 V c 7 t ∧ (dat3 V c).after 8 t = iblk3 V c 8 t :=
  ⟨rfl, rfl, rfl, rfl, rfl, rfl, rfl, rfl, rfl⟩

-- The body at any point: the first, a middle or the last one; that case's triple applies and everything else is framed.
theorem sound_body3 (c : Dev nD) (t : Fin cfg3.N) :
    iprop((dat3 V c).Φ t.castSucc ∗ (dat3 V c).owesAt () t.castSucc
        ∗ bigSep Finset.univ fun w : Fin cfg3.W => iprop(∃ d, owns (c : Thread nD τ) ((cfg3.win w).stage (cfg3.slots t w)) fullShare ((dat3 V c).before w t d)))
      ⊢ wp frame (wpE (defs₀ (F := F)) Variants.none c none) Set.univ (bodyAt3 t) fun _ =>
        iprop((dat3 V c).Φ t.succ ∗ (dat3 V c).owesAt () t.succ ∗ bigSep Finset.univ fun w : Fin cfg3.W => (dat3 V c).leavesExact w t) := by
  unfold bodyAt3
  rw [bigSep_W3, bigSep_W3,
    show (dat3 V c).owesAt () t.succ = (dat3 V c).owesAt () t.castSucc from rfl,
    show (dat3 V c).Φ t.succ = iprop(owns (c : Thread nD τ) scM3 fullShare (scrAt3 V c t.val t.isLt) ∗ Pipeline.scopedRestBut (Ix := Unit) (Name := ℕ) (U := UR sig nD τ) (Lvl := ℕ) (Val := Elt F) spec3 c [cc3_scratch0] ∗ (∃ r, prngReg c r)) from rfl,
    show (dat3 V c).Φ t.castSucc = Phi3 V c t.val (Nat.le_of_lt t.isLt) from rfl]
  simp (disch := decide) only [leaves3 V c t, before3 V c t, after3_in V c t, after3_9, after3_10]
  have hN : t.val < 32 := lt_of_lt_of_eq t.isLt (show cfg3.N = 32 from N_3)
  by_cases h0 : t.val = 0
  · have h1 : t.val ≠ 31 := by omega
    rw [Dat.leavesExact_idle (dat3 V c) 11 t (idleAt3_11 t h1) (noFlush3_11 t h1), scrAt3_zero V c t h0, Phi3_zero V c _ _ h0, rest3_eq]
    unfold stepAt3
    iintro ⟨⟨Hg, ⟨%ds, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel3_A c Set.univ (grid3.coords t) _ _ _ _ _ _ _ _ _ _ _ ((hcond3_0 t).mpr h0) (fun h => h1 ((hcond3_1 t).mp h)))
    unfold ins3
    iframe H0 H1 H2 H3 H4 H5 H6 H7 H8 H11
    isplitl [H9]; · iexists _; iexact H9
    isplitl [H10]; · iexists _; iexact H10
    isplitl [HS]; · iexists _; iexact HS
    iintro ⟨H0, H1, H2, H3, H4, H5, H6, H7, H8, H9, H10, H11, HS⟩
    iframe
    iexists _; iexact H11
  · rw [scrAt3_pos V c t h0, Phi3_pos V c _ _ h0]
    unfold stepAt3
    by_cases h1 : t.val = 31
    · rw [show (dat3 V c).leavesExact 11 t = owns (c : Thread nD τ) (st3_11 t) fullShare ((dat3 V c).after 11 t) from by
        unfold Dat.leavesExact; rw [liveAt3_11 t h1], after3_11, scrAt3_pos V c t h0]
      unfold stepAt3
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (sound_kernel3_C c Set.univ (grid3.coords t) _ _ _ _ _ _ _ _ _ _ _ (fun h => h0 ((hcond3_0 t).mp h)) ((hcond3_1 t).mpr h1))
      unfold ins3
      iframe H0 H1 H2 H3 H4 H5 H6 H7 H8 HS
      isplitl [H9]; · iexists _; iexact H9
      isplitl [H10]; · iexists _; iexact H10
      isplitl [H11]; · iexists _; iexact H11
      iintro ⟨H0, H1, H2, H3, H4, H5, H6, H7, H8, H9, H10, H11, HS⟩
      iframe
    · rw [Dat.leavesExact_idle (dat3 V c) 11 t (idleAt3_11 t h1) (noFlush3_11 t h1)]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (sound_kernel3_B c Set.univ (grid3.coords t) _ _ _ _ _ _ _ _ _ _ _ _ (fun h => h0 ((hcond3_0 t).mp h)) (fun h => h1 ((hcond3_1 t).mp h)))
      unfold ins3
      iframe H0 H1 H2 H3 H4 H5 H6 H7 H8 H11 HS
      isplitl [H9]; · iexists _; iexact H9
      isplitl [H10]; · iexists _; iexact H10
      iintro ⟨H0, H1, H2, H3, H4, H5, H6, H7, H8, H9, H10, H11, HS⟩
      iframe
      iexists _; iexact H11

theorem body_obligation3 (c : Dev nD) : BodyObligation (dat3 (F := F) V c) (defs₀ (F := F)) Variants.none () Set.univ :=
  fun t => sound_body3 V c t

theorem Φ_first3 (c : Dev nD) :
    (iprop((∃ r, prngReg c r) ∗ Pipeline.scopedRest (Ix := Unit) (Name := ℕ) (U := UR sig nD τ) (Lvl := ℕ) (Val := Elt F) spec3 c) : sProp 𝕄) ⊢ (dat3 V c).Φ 0 := by
  rw [show (dat3 V c).Φ 0 = Phi3 V c 0 (Nat.zero_le _) from rfl, Phi3_zero V c 0 _ rfl]
  try exact Idealize.SL.BI.Entails.refl _

theorem Φ_last3 (c : Dev nD) :
    (dat3 V c).Φ (Fin.last cfg3.N) ⊢ (iprop((∃ r, prngReg c r) ∗ Pipeline.scopedRest (Ix := Unit) (Name := ℕ) (U := UR sig nD τ) (Lvl := ℕ) (Val := Elt F) spec3 c) : sProp 𝕄) := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 32 := N_3; omega), rest3_eq]
  iintro ⟨HS, HR, Hg⟩
  isplitl [Hg]; · iexact Hg
  isplitl [HS]; · iexists _; iexact HS
  iexact HR

end Cert.KernelIdeal.Hand

end
-- ==== Proof.KI.Reg4.lean ====
import proofs.«137432_j14851996910240_2_alg».proof.Proof.Gen.KernelIdeal.Launch
import proofs.«137432_j14851996910240_2_alg».proof.Proof.Gen.KernelIdeal.Skeleton
import proofs.«137432_j14851996910240_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S128x2048 := Rect.unit (s := S128x2048) ![0, 0] S128x2048.size inb_S128x2048_S128x2048_0_0
abbrev r4_1 : Rect S1x2048 := Rect.unit (s := S1x2048) ![0, 0] S1x2048.size inb_S1x2048_S1x2048_0_0
abbrev r4_2 : Rect S2048x2048 := Rect.unit (s := S2048x2048) ![0, 0] S2048x2048.size inb_S2048x2048_S2048x2048_0_0

def out4_12 (x0 : Vec F S128x2048 .f32) (x1 : Vec F S128x2048 .f32) (x2 : Vec F S1x2048 .f32) (x3 : Vec F S1x2048 .f32) (x4 : Vec F S1x2048 .f32) (x5 : Vec F S1x2048 .f32) (x6 : Vec F S1x2048 .f32) (x7 : Vec F S1x2048 .f32) (x8 : Vec F S2048x2048 .bf16) (x9 : Vec F S1x2048 .f32) (x10 : Vec F S2048x2048 .bf16) (x11 : Vec F S1x2048 .f32) : Vec F S128x2048 .f32 :=
  View.canon [⟨r4_0, k4_pay1 (k4_pay2 (View.ld x0 r4_0) (View.ld x2 r4_1) (View.ld x3 r4_1) (View.ld x6 r4_1) (View.ld x7 r4_1)) (k4_pay4 (View.ld x0 r4_0) (View.ld x2 r4_1) (View.ld x3 r4_1) (View.ld x6 r4_1) (View.ld x7 r4_1)) (View.ld x8 r4_2) (View.ld x9 r4_1) (View.ld x10 r4_2) (View.ld x11 r4_1)⟩]

def out4_13 (x0 : Vec F S128x2048 .f32) (x1 : Vec F S128x2048 .f32) (x2 : Vec F S1x2048 .f32) (x3 : Vec F S1x2048 .f32) (x4 : Vec F S1x2048 .f32) (x5 : Vec F S1x2048 .f32) (x6 : Vec F S1x2048 .f32) (x7 : Vec F S1x2048 .f32) (x8 : Vec F S2048x2048 .bf16) (x9 : Vec F S1x2048 .f32) (x10 : Vec F S2048x2048 .bf16) (x11 : Vec F S1x2048 .f32) : Vec F S128x2048 .f32 :=
  View.canon [⟨r4_0, k4_pay3 (View.ld x1 r4_0) (View.ld x4 r4_1) (View.ld x5 r4_1) (View.ld x6 r4_1) (View.ld x7 r4_1)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t)
    | ⟨13, _⟩ => out4_13 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_12 (c : Dev nD) (t : Fin cfg4.N) : (dat4 V c).after 12 t = out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) := by dsimp only [dat4]
theorem after4_13 (c : Dev nD) (t : Fin cfg4.N) : (dat4 V c).after 13 t = out4_13 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) := by dsimp only [dat4]

theorem before4_in (c : Dev nD) (t : Fin cfg4.N) (w : Fin cfg4.W) (hw : w.val < 12 := by decide) (d) :
    (dat4 V c).before w t d = (dat4 V c).after w t :=
  match w, hw, d with
  | ⟨0, h⟩, _, d | ⟨1, h⟩, _, d | ⟨2, h⟩, _, d | ⟨3, h⟩, _, d | ⟨4, h⟩, _, d | ⟨5, h⟩, _, d | ⟨6, h⟩, _, d | ⟨7, h⟩, _, d | ⟨8, h⟩, _, d | ⟨9, h⟩, _, d | ⟨10, h⟩, _, d | ⟨11, h⟩, _, d =>
    ((dat4 V c).before_in_eq_fetched ⟨_, h⟩ rfl (fun _ => rfl) (fun _ _ _ => rfl) (fun _ => by dsimp only [dat4, Dat.blockOf, iblk4]) t d).trans
      (by dsimp only [dat4, Dat.fetched, Dat.blockOf, iblk4]; rfl)
  | ⟨n + 12, _⟩, hw, _ => absurd hw (Nat.not_lt.mpr (Nat.le_add_left 12 n))

theorem cover4_out (p : Vec F S128x2048 .f32) (y : S128x2048.Idx) :
    ∃ pc ∈ ([⟨r4_0, p⟩] : List (View.Piece (Elt F) S128x2048 .f32)), y ∈ pc.1.set :=
  View.cover_of_tiled [⟨r4_0, p⟩] S128x2048.size (by rfl) y

set_option maxHeartbeats 1000000 in
theorem sound_kernel4 (c : Dev nD) (E : Set ℕ) (i : grid4.Coords) (arg1 arg2 arg13 arg14 : Memref sig .tc .vmem S128x2048 .f32) (arg3 arg4 arg5 arg6 arg7 arg8 arg10 arg12 : Memref sig .tc .vmem S1x2048 .f32) (arg9 arg11 : Memref sig .tc .vmem S2048x2048 .bf16)
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole)
    (x0 x1 : Vec F S128x2048 .f32) (x2 x3 x4 x5 x6 x7 x9 x11 : Vec F S1x2048 .f32) (x8 x10 : Vec F S2048x2048 .bf16) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ owns c.tc arg12 fullShare x11 ∗ (∃ d, owns c.tc arg13 fullShare d) ∗ (∃ d, owns c.tc arg14 fullShare d)
        ∗ ((owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ owns c.tc arg12 fullShare x11 ∗ owns c.tc arg13 fullShare (out4_12 x0 x1 x2 x3 x4 x5 x6 x7 x8 x9 x10 x11) ∗ owns c.tc arg14 fullShare (out4_13 x0 x1 x2 x3 x4 x5 x6 x7 x8 x9 x10 x11)) -∗ K ⟨⟩))
      ⊢ wp frame (wpE (defs₀ (F := F)) Variants.none c none) E (cc4_k6_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc4_k6_kernel_eq_skeleton]; unfold cc4_k6_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [H12]; swap
  all_goals (iexists _; isplitr; swap; iassumption; ipureintro; first | exact View.read_writes_eq_canon _ _ _ (cover4_out _) | rfl)

theorem body_obligation4 (c : Dev nD) : BodyObligation (dat4 (F := F) V c) (defs₀ (F := F)) Variants.none () Set.univ := fun t => by
  rw [bigSep_W4, bigSep_W4, show (dat4 V c).owesAt () t.succ = (dat4 V c).owesAt () t.castSucc from rfl]
  simp only [before4_in V c t 0, before4_in V c t 1, before4_in V c t 2, before4_in V c t 3, before4_in V c t 4, before4_in V c t 5, before4_in V c t 6, before4_in V c t 7, before4_in V c t 8, before4_in V c t 9, before4_in V c t 10, before4_in V c t 11]
  dsimp only [dat4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel4 c Set.univ _ _ _ _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 9 t) (iblk4 V c 11 t) (iblk4 V c 8 t) (iblk4 V c 10 t) _)
  iframe H0 H1 H2 H3 H4 H5 H6 H7 H8 H9 H10 H11
  isplitl [H12]; · iexists _; iexact H12
  isplitl [H13]; · iexists _; iexact H13
  iintro ⟨H0, H1, H2, H3, H4, H5, H6, H7, H8, H9, H10, H11, H12, H13⟩
  iframe

theorem Φ_first4 (c : Dev nD) : (iprop((∃ r, prngReg c r) ∗ Pipeline.scopedRest (Ix := Unit) (Name := ℕ) (U := UR sig nD τ) (Lvl := ℕ) (Val := Elt F) spec4 c) : sProp 𝕄) ⊢ (dat4 V c).Φ 0 :=
  sep_comm

theorem Φ_last4 (c : Dev nD) : (dat4 V c).Φ (Fin.last cfg4.N) ⊢ (iprop((∃ r, prngReg c r) ∗ Pipeline.scopedRest (Ix := Unit) (Name := ℕ) (U := UR sig nD τ) (Lvl := ℕ) (Val := Elt F) spec4 c) : sProp 𝕄) :=
  sep_comm

end Cert.KernelIdeal.Hand

end
-- ==== Proof.KI.Run.lean ====
import proofs.«137432_j14851996910240_2_alg».proof.Proof.KI.Reg0
import proofs.«137432_j14851996910240_2_alg».proof.Proof.KI.Reg1
import proofs.«137432_j14851996910240_2_alg».proof.Proof.KI.Reg2
import proofs.«137432_j14851996910240_2_alg».proof.Proof.KI.Reg3
import proofs.«137432_j14851996910240_2_alg».proof.Proof.KI.Reg4
import proofs.«137432_j14851996910240_2_alg».proof.Proof.Gen.KernelIdeal.Launch
import proofs.«137432_j14851996910240_2_alg».proof.Proof.Gen.KernelIdeal.Regions
import Idealize.ShloMosaic.Lib.Pipeline.RegionsLoop
import Idealize.ShloMosaic.Lib.Pipeline.FrameSuffix
import Idealize.ShloMosaic.Lib.Pipeline.Cells
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
omit m ρ in
-- the contents after a region: each of its arrays at what its write-backs leave, every other buffer as before
def stepW {p : Fin 5} (dat : (c : Dev nD) → Dat τ (Elt F) Unit ℕ (UR sig nD τ) ℕ (cfgs p) c) (Win : Dev nD → Valuation τ sig (Elt F))
    (c : Dev nD) : Valuation τ sig (Elt F) :=
  Pipeline.withArrays (cfgs p).spec c (Win c) fun w => (dat c).arrAt w (cfgs p).N
omit m ρ in
theorem stepW_arr {p : Fin 5} (ln : Pipeline.LaunchFacts (nD := nD) (τ := τ) cfgs p)
    (dat : (c : Dev nD) → Dat τ (Elt F) Unit ℕ (UR sig nD τ) ℕ (cfgs p) c) (Win : Dev nD → Valuation τ sig (Elt F)) (c : Dev nD) (w : Fin (cfgs p).W) :
    stepW dat Win c (Proc.devRef .tc (Pipeline.arrRef (cfgs p).spec w)) = (dat c).arrAt w (cfgs p).N :=
  Pipeline.withArrays_arr (cfgs p).spec ln.win.arr_inj c _ _ w
omit m ρ in
theorem stepW_of_ne {p : Fin 5} (dat : (c : Dev nD) → Dat τ (Elt F) Unit ℕ (UR sig nD τ) ℕ (cfgs p) c) (Win : Dev nD → Valuation τ sig (Elt F))
    (c : Dev nD) (b : Ref sig .tc) (hb : ∀ w, Pipeline.arrRef (cfgs p).spec w ≠ b) :
    stepW dat Win c (Proc.devRef .tc b) = Win c (Proc.devRef .tc b) :=
  Pipeline.withArrays_of_ne (cfgs p).spec c _ _ b hb
def W2 : Dev nD → Valuation τ sig (Elt F) := stepW (p := 0) (dat0 (V1 m ρ)) (W1 m ρ)
theorem W2_arr (c : Dev nD) (w : Fin cfg0.W) :
    W2 m ρ c (Proc.devRef .tc (Pipeline.arrRef spec0 w)) = (dat0 (V1 m ρ) c).arrAt w cfg0.N := stepW_arr launch0 _ _ c w
theorem W2_of_ne (c : Dev nD) (b : Ref sig .tc) (hb : ∀ w, Pipeline.arrRef spec0 w ≠ b) :
    W2 m ρ c (Proc.devRef .tc b) = W1 m ρ c (Proc.devRef .tc b) := stepW_of_ne _ _ c b hb
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
abbrev V2 : (c : Dev nD) → (b : Ref sig .tc) → Buf (Elt F) ((c : Thread nD τ).loc b) := fun c b => W2 m ρ c b
def W3 : Dev nD → Valuation τ sig (Elt F) := stepW (p := 1) (dat1 (V2 m ρ)) (W2 m ρ)
theorem W3_arr (c : Dev nD) (w : Fin cfg1.W) :
    W3 m ρ c (Proc.devRef .tc (Pipeline.arrRef spec1 w)) = (dat1 (V2 m ρ) c).arrAt w cfg1.N := stepW_arr launch1 _ _ c w
theorem W3_of_ne (c : Dev nD) (b : Ref sig .tc) (hb : ∀ w, Pipeline.arrRef spec1 w ≠ b) :
    W3 m ρ c (Proc.devRef .tc b) = W2 m ρ c (Proc.devRef .tc b) := stepW_of_ne _ _ c b hb
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
abbrev V3 : (c : Dev nD) → (b : Ref sig .tc) → Buf (Elt F) ((c : Thread nD τ).loc b) := fun c b => W3 m ρ c b
def W4 : Dev nD → Valuation τ sig (Elt F) := stepW (p := 2) (dat2 (V3 m ρ)) (W3 m ρ)
theorem W4_arr (c : Dev nD) (w : Fin cfg2.W) :
    W4 m ρ c (Proc.devRef .tc (Pipeline.arrRef spec2 w)) = (dat2 (V3 m ρ) c).arrAt w cfg2.N := stepW_arr launch2 _ _ c w
theorem W4_of_ne (c : Dev nD) (b : Ref sig .tc) (hb : ∀ w, Pipeline.arrRef spec2 w ≠ b) :
    W4 m ρ c (Proc.devRef .tc b) = W3 m ρ c (Proc.devRef .tc b) := stepW_of_ne _ _ c b hb
theorem W4_in (c : Dev nD) (w : Fin cfg2.W) (hin : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hin _).trans (A_eq2 (V3 m ρ) c w))
abbrev V4 : (c : Dev nD) → (b : Ref sig .tc) → Buf (Elt F) ((c : Thread nD τ).loc b) := fun c b => W4 m ρ c b
def W5 : Dev nD → Valuation τ sig (Elt F) := stepW (p := 3) (dat3 (V4 m ρ)) (W4 m ρ)
theorem W5_arr (c : Dev nD) (w : Fin cfg3.W) :
    W5 m ρ c (Proc.devRef .tc (Pipeline.arrRef spec3 w)) = (dat3 (V4 m ρ) c).arrAt w cfg3.N := stepW_arr launch3 _ _ c w
theorem W5_of_ne (c : Dev nD) (b : Ref sig .tc) (hb : ∀ w, Pipeline.arrRef spec3 w ≠ b) :
    W5 m ρ c (Proc.devRef .tc b) = W4 m ρ c (Proc.devRef .tc b) := stepW_of_ne _ _ c b hb
theorem W5_in (c : Dev nD) (w : Fin cfg3.W) (hin : (cfg3.win w).isOut = false) :
    W5 m ρ c (Proc.devRef .tc (Pipeline.arrRef spec3 w)) = W4 m ρ c (Proc.devRef .tc (Pipeline.arrRef spec3 w)) :=
  (W5_arr m ρ c w).trans (((dat3 (V4 m ρ) c).arrAt_in w hin _).trans (A_eq3 (V4 m ρ) c w))
abbrev V5 : (c : Dev nD) → (b : Ref sig .tc) → Buf (Elt F) ((c : Thread nD τ).loc b) := fun c b => W5 m ρ c b
abbrev W6 : Dev nD → Valuation τ sig (Elt F) := fun c => StableHlo.after hostOps4 (W5 m ρ c)
abbrev V6 : (c : Dev nD) → (b : Ref sig .tc) → Buf (Elt F) ((c : Thread nD τ).loc b) := fun c b => W6 m ρ c b
theorem W6_of (c : Dev nD) (r : Ref sig .tc) (h : r ∉ hostOps4_W) :
    W6 m ρ c (Proc.devRef .tc r) = W5 m ρ c (Proc.devRef .tc r) :=
  StableHlo.after_of_writes_sub hostOps4 _ hostOps4_writes h
def W7 : Dev nD → Valuation τ sig (Elt F) := stepW (p := 4) (dat4 (V6 m ρ)) (W6 m ρ)
theorem W7_arr (c : Dev nD) (w : Fin cfg4.W) :
    W7 m ρ c (Proc.devRef .tc (Pipeline.arrRef spec4 w)) = (dat4 (V6 m ρ) c).arrAt w cfg4.N := stepW_arr launch4 _ _ c w
theorem W7_of_ne (c : Dev nD) (b : Ref sig .tc) (hb : ∀ w, Pipeline.arrRef spec4 w ≠ b) :
    W7 m ρ c (Proc.devRef .tc b) = W6 m ρ c (Proc.devRef .tc b) := stepW_of_ne _ _ c b hb
theorem W7_in (c : Dev nD) (w : Fin cfg4.W) (hin : (cfg4.win w).isOut = false) :
    W7 m ρ c (Proc.devRef .tc (Pipeline.arrRef spec4 w)) = W6 m ρ c (Proc.devRef .tc (Pipeline.arrRef spec4 w)) :=
  (W7_arr m ρ c w).trans (((dat4 (V6 m ρ) c).arrAt_in w hin _).trans (A_eq4 (V6 m ρ) c w))
abbrev V7 : (c : Dev nD) → (b : Ref sig .tc) → Buf (Elt F) ((c : Thread nD τ).loc b) := fun c b => W7 m ρ c b
theorem W7_of_untouched (c : Dev nD) (r : Ref sig .tc) (h0 : r ∉ hostOps0_W)
    (hr0 : ∀ w, Pipeline.arrRef spec0 w ≠ r) (hr1 : ∀ w, Pipeline.arrRef spec1 w ≠ r) (hr2 : ∀ w, Pipeline.arrRef spec2 w ≠ r)
    (hr3 : ∀ w, Pipeline.arrRef spec3 w ≠ r) (h4 : r ∉ hostOps4_W) (hr4 : ∀ w, Pipeline.arrRef spec4 w ≠ r) :
    W7 m ρ c (Proc.devRef .tc r) = m ((c : Thread nD τ).loc r) :=
  calc W7 m ρ c (Proc.devRef .tc r)
    _ = W6 m ρ c (Proc.devRef .tc r) := W7_of_ne m ρ c r hr4
    _ = W5 m ρ c (Proc.devRef .tc r) := W6_of m ρ c r h4
    _ = W4 m ρ c (Proc.devRef .tc r) := W5_of_ne m ρ c r hr3
    _ = W3 m ρ c (Proc.devRef .tc r) := W4_of_ne m ρ c r hr2
    _ = W2 m ρ c (Proc.devRef .tc r) := W3_of_ne m ρ c r hr1
    _ = W1 m ρ c (Proc.devRef .tc r) := W2_of_ne m ρ c r hr0
    _ = W0 m ρ c (Proc.devRef .tc r) := W1_of m ρ c r h0
    _ = m ((c : Thread nD τ).loc r) := rfl
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_in m ρ c 0 rfl
    _ = W0 m ρ c (Proc.devRef .tc main_arg0) := W1_of m ρ c main_arg0 (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_in m ρ c 1 rfl
    _ = W0 m ρ c (Proc.devRef .tc main_arg1) := W1_of m ρ c main_arg1 (by decide)
    _ = m ((c : Thread nD τ).loc main_arg1) := rfl
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V6 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)
abbrev toV (W : Dev nD → Valuation τ sig (Elt F)) : (c : Dev nD) → (b : Ref sig .tc) → Buf (Elt F) ((c : Thread nD τ).loc b) :=
  fun c b => W c b
set_option backward.isDefEq.respectTransparency.types false in
-- one region of @main as a segment between the contents at its two boundaries; the five regions are its instances
def mkReg (p : Fin 5) (ln : Pipeline.LaunchFacts (nD := nD) (τ := τ) cfgs p) (Win : Dev nD → Valuation τ sig (Elt F))
    (hbody : ∀ c, BodyObligation (pdats m ρ p c) (defs₀ (F := F)) 𝒱₀ () Set.univ)
    (hA : ∀ c w, (pdats m ρ p c).A w = toV Win c (Pipeline.arrRef (cfgs p).spec w))
    (hfirst : ∀ c, (iprop((∃ r, prngReg c r) ∗ Pipeline.scopedRest (Ix := Unit) (Name := ℕ) (U := UR sig nD τ) (Lvl := ℕ) (Val := Elt F) (cfgs p).spec c) : sProp 𝕄) ⊢ (pdats m ρ p c).Φ 0)
    (hlast : ∀ c, (pdats m ρ p c).Φ (Fin.last (cfgs p).N) ⊢ (iprop((∃ r, prngReg c r) ∗ Pipeline.scopedRest (Ix := Unit) (Name := ℕ) (U := UR sig nD τ) (Lvl := ℕ) (Val := Elt F) (cfgs p).spec c) : sProp 𝕄))
    (hq : ∀ c w, (pdats m ρ p c).q w = fullShare) (howed : ∀ c n, (pdats m ρ p c).owed n = 0)
    (hrec : ∀ c n, (pdats m ρ p c).recorded n = Set.univ) :
    Pipeline.RegionSeg (pcfgs (F := F)) adm (pdats m ρ) () defs₀ 𝒱₀ L lv p where
  win := ln.win.to₀
  block_pos := ln.block_pos
  stage_whole := ln.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (stepW (pdats m ρ p) Win c) ∗ R c)
  X c := iprop(∃ r, prngReg c r)
  Y c := iprop(∃ r, prngReg c r)
  Z c := Pipeline.unscopedRest (Ix := Unit) (Name := ℕ) (U := UR sig nD τ) (Lvl := ℕ) (cfgs p).spec c (toV Win c)
  hentry c := by
    rw [Pipeline.ownSems0_none]
    have hsplit := Pipeline.arrays_of_unscopedBufs (p := p) (pcfgs (F := F)) adm (pdats m ρ) ln.win ln.arr_whole c
      ((pdats m ρ p c).share_full (hq c)) (toV Win c) fun w => hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c 0]; exact Set.mem_univ _)
      iexact HO
    isplitl [Hp]; · iexact Hp
    iexact Hrest
  hin c := by
    have hΦ := hfirst c
    iintro ⟨Hp, -, Hr⟩
    iapply hΦ
    isplitl [Hp]; · iexact Hp
    iexact Hr
  hout c := by
    rw [Pipeline.ownSems0_none]
    have hΦ := hlast c
    iintro HΦ
    ihave H := hΦ $$ HΦ
    icases H with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      ln.win ln.arr_whole c (pdats m ρ) ((pdats m ρ p c).share_full (hq c))
      (toV Win c) (toV (stepW (pdats m ρ p) Win) c) ((pdats m ρ p c).arrAt · (cfgs p).N)
      (fun w => (stepW_arr ln _ _ c w).symm)
      (fun b hb => stepW_of_ne _ _ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO
theorem last_link (c : Dev nD) : iprop(StableHlo.held (c : Thread nD τ) (Pipeline.ucRefs τ sig) (W7 m ρ c) ∗ R c)
    ⊢ iprop(Tₙ m ρ c ∗ ∃ W, owes (c : Thread nD τ) (0 : CellTallies nD τ sig Unit) W) := sep_assoc'
abbrev segs : List (Pipeline.Seg (pcfgs (F := F)) adm (pdats m ρ) () defs₀ 𝒱₀ L lv) :=
  [ .host (hseg hostOps0 hostOps0_sub hostOps0_fresh (W0 m ρ)),
    .region (mkReg m ρ 0 launch0 (W1 m ρ) (body_obligation0 (V1 m ρ)) (A_eq0 (V1 m ρ)) (Φ_first0 (V1 m ρ)) (Φ_last0 (V1 m ρ)) (fun _ _ => rfl) (fun _ _ => rfl) (fun _ _ => rfl)),
    .region (mkReg m ρ 1 launch1 (W2 m ρ) (body_obligation1 (V2 m ρ)) (A_eq1 (V2 m ρ)) (Φ_first1 (V2 m ρ)) (Φ_last1 (V2 m ρ)) (fun _ _ => rfl) (fun _ _ => rfl) (fun _ _ => rfl)),
    .region (mkReg m ρ 2 launch2 (W3 m ρ) (body_obligation2 (V3 m ρ)) (A_eq2 (V3 m ρ)) (Φ_first2 (V3 m ρ)) (Φ_last2 (V3 m ρ)) (fun _ _ => rfl) (fun _ _ => rfl) (fun _ _ => rfl)),
    .region (mkReg m ρ 3 launch3 (W4 m ρ) (body_obligation3 (V4 m ρ)) (A_eq3 (V4 m ρ)) (Φ_first3 (V4 m ρ)) (Φ_last3 (V4 m ρ)) (fun _ _ => rfl) (fun _ _ => rfl) (fun _ _ => rfl)),
    .host (hseg hostOps4 hostOps4_sub hostOps4_fresh (W5 m ρ)),
    .region (mkReg m ρ 4 launch4 (W6 m ρ) (body_obligation4 (V6 m ρ)) (A_eq4 (V6 m ρ)) (Φ_first4 (V6 m ρ)) (Φ_last4 (V6 m ρ)) (fun _ _ => rfl) (fun _ _ => rfl) (fun _ _ => rfl)) ]
theorem main_run (c : Dev nD) : main (F := F) c = Pipeline.Seg.run (segs m ρ) := (main_chain c).trans (by chain_rfl)
set_option backward.isDefEq.respectTransparency.types false in
theorem run_gen {Q : PUnit × MemSt nD τ sig (Elt F) → Prop}
    (hQ : ∀ s : MemSt nD τ sig (Elt F), (∀ c : Dev nD, ∀ b ∈ Pipeline.ucRefs τ sig, s.mem (((c : Thread nD τ)).1, b) = W7 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q' => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := hQ)
abbrev ArgsKept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)
  ∧ mem ((c.tc : Thread nD τ).loc main_arg14) = m ((c.tc : Thread nD τ).loc main_arg14)
  ∧ mem ((c.tc : Thread nD τ).loc main_arg15) = m ((c.tc : Thread nD τ).loc main_arg15)
  ∧ mem ((c.tc : Thread nD τ).loc main_arg16) = m ((c.tc : Thread nD τ).loc main_arg16)
  ∧ mem ((c.tc : Thread nD τ).loc main_arg17) = m ((c.tc : Thread nD τ).loc main_arg17)
  ∧ mem ((c.tc : Thread nD τ).loc main_arg18) = m ((c.tc : Thread nD τ).loc main_arg18)
  ∧ mem ((c.tc : Thread nD τ).loc main_arg19) = m ((c.tc : Thread nD τ).loc main_arg19)
  ∧ mem ((c.tc : Thread nD τ).loc main_arg20) = m ((c.tc : Thread nD τ).loc main_arg20)
  ∧ mem ((c.tc : Thread nD τ).loc main_arg21) = m ((c.tc : Thread nD τ).loc main_arg21)
-- every argument is an input window of region 0 or no region's window, and no host stretch writes it
theorem args_kept {s : MemSt nD τ sig (Elt F)}
    (h : ∀ c : Dev nD, ∀ b ∈ Pipeline.ucRefs τ sig, s.mem (((c : Thread nD τ)).1, b) = W7 m ρ c b) (c : Dev nD) : ArgsKept m s.mem c :=
  ⟨(h c _ (mem_uc main_arg0 (by decide))).trans (W7_main_arg0 m ρ c),
   (h c _ (mem_uc main_arg1 (by decide))).trans (W7_main_arg1 m ρ c),
   (h c _ (mem_uc main_arg2 (by decide))).trans (W7_of_untouched m ρ c main_arg2 (by decide) (by decide) (by decide) (by decide) (by decide) (by decide) (by decide)),
   (h c _ (mem_uc main_arg3 (by decide))).trans (W7_of_untouched m ρ c main_arg3 (by decide) (by decide) (by decide) (by decide) (by decide) (by decide) (by decide)),
   (h c _ (mem_uc main_arg4 (by decide))).trans (W7_of_untouched m ρ c main_arg4 (by decide) (by decide) (by decide) (by decide) (by decide) (by decide) (by decide)),
   (h c _ (mem_uc main_arg5 (by decide))).trans (W7_of_untouched m ρ c main_arg5 (by decide) (by decide) (by decide) (by decide) (by decide) (by decide) (by decide)),
   (h c _ (mem_uc main_arg6 (by decide))).trans (W7_of_untouched m ρ c main_arg6 (by decide) (by decide) (by decide) (by decide) (by decide) (by decide) (by decide)),
   (h c _ (mem_uc main_arg7 (by decide))).trans (W7_of_untouched m ρ c main_arg7 (by decide) (by decide) (by decide) (by decide) (by decide) (by decide) (by decide)),
   (h c _ (mem_uc main_arg8 (by decide))).trans (W7_of_untouched m ρ c main_arg8 (by decide) (by decide) (by decide) (by decide) (by decide) (by decide) (by decide)),
   (h c _ (mem_uc main_arg9 (by decide))).trans (W7_of_untouched m ρ c main_arg9 (by decide) (by decide) (by decide) (by decide) (by decide) (by decide) (by decide)),
   (h c _ (mem_uc main_arg10 (by decide))).trans (W7_of_untouched m ρ c main_arg10 (by decide) (by decide) (by decide) (by decide) (by decide) (by decide) (by decide)),
   (h c _ (mem_uc main_arg11 (by decide))).trans (W7_of_untouched m ρ c main_arg11 (by decide) (by decide) (by decide) (by decide) (by decide) (by decide) (by decide)),
   (h c _ (mem_uc main_arg12 (by decide))).trans (W7_of_untouched m ρ c main_arg12 (by decide) (by decide) (by decide) (by decide) (by decide) (by decide) (by decide)),
   (h c _ (mem_uc main_arg13 (by decide))).trans (W7_of_untouched m ρ c main_arg13 (by decide) (by decide) (by decide) (by decide) (by decide) (by decide) (by decide)),
   (h c _ (mem_uc main_arg14 (by decide))).trans (W7_of_untouched m ρ c main_arg14 (by decide) (by decide) (by decide) (by decide) (by decide) (by decide) (by decide)),
   (h c _ (mem_uc main_arg15 (by decide))).trans (W7_of_untouched m ρ c main_arg15 (by decide) (by decide) (by decide) (by decide) (by decide) (by decide) (by decide)),
   (h c _ (mem_uc main_arg16 (by decide))).trans (W7_of_untouched m ρ c main_arg16 (by decide) (by decide) (by decide) (by decide) (by decide) (by decide) (by decide)),
   (h c _ (mem_uc main_arg17 (by decide))).trans (W7_of_untouched m ρ c main_arg17 (by decide) (by decide) (by decide) (by decide) (by decide) (by decide) (by decide)),
   (h c _ (mem_uc main_arg18 (by decide))).trans (W7_of_untouched m ρ c main_arg18 (by decide) (by decide) (by decide) (by decide) (by decide) (by decide) (by decide)),
   (h c _ (mem_uc main_arg19 (by decide))).trans (W7_of_untouched m ρ c main_arg19 (by decide) (by decide) (by decide) (by decide) (by decide) (by decide) (by decide)),
   (h c _ (mem_uc main_arg20 (by decide))).trans (W7_of_untouched m ρ c main_arg20 (by decide) (by decide) (by decide) (by decide) (by decide) (by decide) (by decide)),
   (h c _ (mem_uc main_arg21 (by decide))).trans (W7_of_untouched m ρ c main_arg21 (by decide) (by decide) (by decide) (by decide) (by decide) (by decide) (by decide))⟩
theorem frame : θ_run defs (onTc (τ := τ) (main (F := F))) ⟨m, fun _ => 0, ρ⟩ (fun r => ∀ c : Dev nD, ArgsKept m r.2.mem c) :=
  run_gen m ρ fun s h c => args_kept m ρ h c
end Cert.KernelIdeal.Hand
end
-- ==== Proof.Spec.lean ====
import Idealize.ShloMosaic.PureOps.Ideal

noncomputable section

namespace Cert.Spec

open Idealize.ShloMosaic
open scoped BigOperators

abbrev Mat (a b : ℕ) : Type := Fin a → Fin b → EReal

abbrev Row (b : ℕ) : Type := Fin b → EReal

def nB : EReal := Ideal.ofBits .f32 0x45800000#32

def eps : EReal := Ideal.ofBits .f32 0x3727C5AC#32

def lin {n : ℕ} (x : Mat n 2048) (W : Mat 2048 2048) (b : Row 2048) : Mat n 2048 :=
  fun r j => (∑ k : Fin 2048, x r k * W j k) + b j

def relu (z : EReal) : EReal := max z 0

def resblock {n : ℕ} (x : Mat n 2048) (W : Mat 2048 2048) (b : Row 2048) : Mat n 2048 :=
  fun r j => x r j + relu (lin x W b r j)

def gate (t : EReal) : EReal := if 0 < t then Ideal.logistic t else 0

def sAsig (a : Mat 4096 2048) (W : Mat 2048 2048) (b : Row 2048) : Mat 4096 2048 :=
  fun r j => Ideal.logistic (resblock a W b r j)

def sTsel (inp : Mat 4096 2048) (W : Mat 2048 2048) (b : Row 2048) : Mat 4096 2048 :=
  fun r j => relu (lin inp W b r j)

def sX0 (inp t asig : Mat 4096 2048) : Mat 4096 2048 :=
  fun r j => (inp r j + inp r j * gate (t r j)) * asig r j
def sExplain (asig t : Mat 4096 2048) : Mat 4096 2048 := fun r j => asig r j + t r j

def sLogits (q k : Mat 4096 2048) : Mat 2048 2048 := fun i j => ∑ r : Fin 4096, q r i * k r j

def rowmax (L : Mat 2048 2048) (i : Fin 2048) : EReal :=
  max ⊥ ((Finset.univ : Finset (Fin 2048)).fold max ⊥ (fun j => L i j))
def softmaxNum (L : Mat 2048 2048) : Mat 2048 2048 := fun i j => Ideal.exp (L i j - rowmax L i)
def softmax (L : Mat 2048 2048) : Mat 2048 2048 :=
  fun i j => Ideal.div (softmaxNum L i j) (∑ j' : Fin 2048, softmaxNum L i j')

def sTimes (z : Mat 4096 2048) (A : Mat 2048 2048) : Mat 4096 2048 := fun r j => ∑ i : Fin 2048, z r i * A i j

def sY (base z : Mat 4096 2048) (A W : Mat 2048 2048) (b : Row 2048) : Mat 4096 2048 :=
  fun r j => base r j + lin (sTimes z A) W b r j

def colSum (y : Mat 4096 2048) : Row 2048 := fun j => ∑ r : Fin 4096, y r j
def colSumSq (y : Mat 4096 2048) : Row 2048 := fun j => ∑ r : Fin 4096, y r j * y r j

def sBN (y : Mat 4096 2048) (mean inv g beta : Row 2048) : Mat 4096 2048 :=
  fun r j => (y r j - mean j) * inv j * g j + beta j

def colMean (y : Mat 4096 2048) : Row 2048 := fun j => Ideal.div (colSum y j) nB

def varK (y : Mat 4096 2048) : Row 2048 :=
  fun j => Ideal.div (colSumSq y j) nB - colMean y j * colMean y j

def varR (y : Mat 4096 2048) : Row 2048 :=
  fun j => Ideal.div (∑ r : Fin 4096, (y r j - colMean y j) * (y r j - colMean y j)) nB

def invStd (var : Row 2048) : Row 2048 := fun j => Ideal.rsqrt (var j + eps)

def bn (var : Row 2048) (y : Mat 4096 2048) (g beta : Row 2048) : Mat 4096 2048 :=
  sBN y (colMean y) (invStd var) g beta

structure Inputs where
  input : Mat 4096 2048
  a : Mat 4096 2048
  rb1W : Mat 2048 2048
  rb1b : Row 2048
  rb2W : Mat 2048 2048
  rb2b : Row 2048
  selW : Mat 2048 2048
  selb : Row 2048
  qW : Mat 2048 2048
  qb : Row 2048
  kW : Mat 2048 2048
  kb : Row 2048
  v1W : Mat 2048 2048
  v1b : Row 2048
  v2W : Mat 2048 2048
  v2b : Row 2048
  bng : Row 2048
  bnbeta : Row 2048
  mlp1W : Mat 2048 2048
  mlp1b : Row 2048
  mlp2W : Mat 2048 2048
  mlp2b : Row 2048

variable (I : Inputs)

def asig : Mat 4096 2048 := sAsig I.a I.rb2W I.rb2b
def tsel : Mat 4096 2048 := sTsel I.input I.selW I.selb
def explain : Mat 4096 2048 := sExplain (asig I) (tsel I)
def xres : Mat 4096 2048 := resblock (sX0 I.input (tsel I) (asig I)) I.rb1W I.rb1b
def q : Mat 4096 2048 := lin (xres I) I.qW I.qb
def kk : Mat 4096 2048 := lin (asig I) I.kW I.kb
def attn : Mat 2048 2048 := softmax (sLogits (q I) (kk I))
def y1 : Mat 4096 2048 := sY (xres I) (q I) (attn I) I.v1W I.v1b
def y2 : Mat 4096 2048 := sY (asig I) (kk I) (attn I) I.v2W I.v2b

def mlp (x1 : Mat 4096 2048) : Mat 4096 2048 :=
  resblock (resblock x1 I.mlp1W I.mlp1b) I.mlp2W I.mlp2b

def xdK : Mat 4096 2048 := mlp I (bn (varK (y1 I)) (y1 I) I.bng I.bnbeta)
def x2K : Mat 4096 2048 := bn (varK (y2 I)) (y2 I) I.bng I.bnbeta

def xdR : Mat 4096 2048 := mlp I (bn (varR (y1 I)) (y1 I) I.bng I.bnbeta)
def x2R : Mat 4096 2048 := bn (varR (y2 I)) (y2 I) I.bng I.bnbeta

def Inputs.Finite (I : Inputs) : Prop :=
  (∀ r j, ∃ z : ℝ, I.input r j = z) ∧ (∀ r j, ∃ z : ℝ, I.a r j = z)
  ∧ (∀ r j, ∃ z : ℝ, I.rb1W r j = z) ∧ (∀ j, ∃ z : ℝ, I.rb1b j = z)
  ∧ (∀ r j, ∃ z : ℝ, I.rb2W r j = z) ∧ (∀ j, ∃ z : ℝ, I.rb2b j = z)
  ∧ (∀ r j, ∃ z : ℝ, I.selW r j = z) ∧ (∀ j, ∃ z : ℝ, I.selb j = z)
  ∧ (∀ r j, ∃ z : ℝ, I.qW r j = z) ∧ (∀ j, ∃ z : ℝ, I.qb j = z)
  ∧ (∀ r j, ∃ z : ℝ, I.kW r j = z) ∧ (∀ j, ∃ z : ℝ, I.kb j = z)
  ∧ (∀ r j, ∃ z : ℝ, I.v1W r j = z) ∧ (∀ j, ∃ z : ℝ, I.v1b j = z)
  ∧ (∀ r j, ∃ z : ℝ, I.v2W r j = z) ∧ (∀ j, ∃ z : ℝ, I.v2b j = z)
  ∧ (∀ j, ∃ z : ℝ, I.bng j = z) ∧ (∀ j, ∃ z : ℝ, I.bnbeta j = z)
  ∧ (∀ r j, ∃ z : ℝ, I.mlp1W r j = z) ∧ (∀ j, ∃ z : ℝ, I.mlp1b j = z)
  ∧ (∀ r j, ∃ z : ℝ, I.mlp2W r j = z) ∧ (∀ j, ∃ z : ℝ, I.mlp2b j = z)

end Cert.Spec

end
-- ==== Proof.Mats.lean ====
import Idealize.ShloMosaic.Lib.ValueIdx
import proofs.«137432_j14851996910240_2_alg».proof.Proof.Spec

noncomputable section

namespace Cert.Spec

open Idealize.ShloMosaic Idealize.ShloMosaic.ValueIdx

def matBD (v : (⟨2, ![4096, 2048]⟩ : Shape).Idx → EReal) : Mat 4096 2048 := fun r j => v (ix2 r j)

def matDD (v : (⟨2, ![2048, 2048]⟩ : Shape).Idx → EReal) : Mat 2048 2048 := fun r j => v (ix2 r j)

def rowD (v : (⟨1, ![2048]⟩ : Shape).Idx → EReal) : Row 2048 := fun j => v (ix1 j)

def row1D (v : (⟨2, ![1, 2048]⟩ : Shape).Idx → EReal) : Row 2048 := fun j => v (ix2 (0 : Fin 1) j)

def arrBD (M : Mat 4096 2048) : (⟨2, ![4096, 2048]⟩ : Shape).Idx → EReal := fun i => M (i 0) (i 1)

theorem arrBD_apply (M : Mat 4096 2048) (r : Fin 4096) (j : Fin 2048) : arrBD M (ix2 r j) = M r j := rfl
theorem matBD_arrBD (M : Mat 4096 2048) : matBD (arrBD M) = M := rfl
theorem arrBD_matBD (v : (⟨2, ![4096, 2048]⟩ : Shape).Idx → EReal) : arrBD (matBD v) = v :=
  funext fun i => (congrArg v (eq_ix2 i)).symm

theorem eq_of_matBD_eq {v w : (⟨2, ![4096, 2048]⟩ : Shape).Idx → EReal} (h : matBD v = matBD w) : v = w := by
  rw [← arrBD_matBD v, ← arrBD_matBD w, h]

end Cert.Spec

end
-- ==== Proof.LibLayoutIx.lean ====
import Idealize.ShloMosaic.Lib.ValueIdx
import Idealize.ShloMosaic.Lib.Pipeline.Value

namespace Cert.LibLayoutIx

open Idealize.ShloMosaic Idealize.ShloMosaic.ValueIdx

variable {α : Type}

-- a coordinate of an axis that is broadcast only when its extent is one
theorem bcast_coord {N : Nat} (n : Fin N) : n.val = if N = 1 then 0 else n.val := by
  have := n.isLt; split <;> omega

theorem broadcastInDim_scalar (t : Shape) (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

theorem broadcastInDim_col {N : Nat} (h : (⟨1, ![N]⟩ : Shape).BroadcastsInDim ⟨2, ![N, 1]⟩ (![0] : Fin 1 → Fin 2))
    (x : (⟨1, ![N]⟩ : Shape).Idx → α) (n : Fin N) (k : Fin 1) :
    broadcastInDim ⟨2, ![N, 1]⟩ (![0] : Fin 1 → Fin 2) h x (ix2 n k) = x (ix1 n) :=
  broadcastInDim_apply _ h x _ (ix1 n) (fun a => match a with | ⟨0, _⟩ => bcast_coord n)

theorem broadcastInDim_row {N : Nat} (h : (⟨1, ![N]⟩ : Shape).BroadcastsInDim ⟨2, ![1, N]⟩ (![1] : Fin 1 → Fin 2))
    (x : (⟨1, ![N]⟩ : Shape).Idx → α) (k : Fin 1) (n : Fin N) :
    broadcastInDim ⟨2, ![1, N]⟩ (![1] : Fin 1 → Fin 2) h x (ix2 k n) = x (ix1 n) :=
  broadcastInDim_apply _ h x _ (ix1 n) (fun a => match a with | ⟨0, _⟩ => bcast_coord n)

theorem broadcastInDim_rows {R N : Nat}
    (h : (⟨2, ![1, N]⟩ : Shape).BroadcastsInDim ⟨2, ![R, N]⟩ (![0, 1] : Fin 2 → Fin 2))
    (x : (⟨2, ![1, N]⟩ : Shape).Idx → α) (r : Fin R) (n : Fin N) :
    broadcastInDim ⟨2, ![R, N]⟩ (![0, 1] : Fin 2 → Fin 2) h x (ix2 r n) = x (ix2 0 n) :=
  broadcastInDim_apply _ h x _ (ix2 0 n) (fun a => match a with
    | ⟨0, _⟩ => rfl
    | ⟨1, _⟩ => bcast_coord n)

theorem broadcastInDim_cols {N C : Nat}
    (h : (⟨2, ![N, 1]⟩ : Shape).BroadcastsInDim ⟨2, ![N, C]⟩ (![0, 1] : Fin 2 → Fin 2))
    (x : (⟨2, ![N, 1]⟩ : Shape).Idx → α) (n : Fin N) (c : Fin C) :
    broadcastInDim ⟨2, ![N, C]⟩ (![0, 1] : Fin 2 → Fin 2) h x (ix2 n c) = x (ix2 n 0) :=
  broadcastInDim_apply _ h x _ (ix2 n 0) (fun a => match a with
    | ⟨0, _⟩ => bcast_coord n
    | ⟨1, _⟩ => rfl)

theorem slice_row_lt {R N k : Nat} (h : (⟨2, ![R, N]⟩ : Shape).Slices ![k, 0] ⟨2, ![1, N]⟩) : k < R := by
  have h0 := h.2 ⟨0, Nat.two_pos⟩
  change k + 1 ≤ R at h0
  omega

theorem extractStridedSlice_row {R N k : Nat} (x : (⟨2, ![R, N]⟩ : Shape).Idx → α)
    (h : (⟨2, ![R, N]⟩ : Shape).Slices ![k, 0] ⟨2, ![1, N]⟩) (z : Fin 1) (n : Fin N) :
    extractStridedSlice ⟨2, ![1, N]⟩ ![k, 0] x h (ix2 z n) = x (ix2 ⟨k, slice_row_lt h⟩ n) :=
  extractStridedSlice_apply _ x h _ _ (fun a => match a with
    | ⟨0, _⟩ => by have hz := z.isLt; show k = k + z.val; omega
    | ⟨1, _⟩ => by show n.val = 0 + n.val; omega)

theorem transpose_10 {N C : Nat} (x : (⟨2, ![N, C]⟩ : Shape).Idx → α)
    (h : (⟨2, ![N, C]⟩ : Shape).Transposes ([1, 0] : List (Fin 2)) ⟨2, ![C, N]⟩) (c : Fin C) (n : Fin N) :
    transpose ⟨2, ![C, N]⟩ ([1, 0] : List (Fin 2)) x h (ix2 c n) = x (ix2 n c) :=
  transpose_apply _ x h _ (ix2 n c) (fun b => match b with
    | ⟨0, _⟩ => rfl
    | ⟨1, _⟩ => rfl)

end Cert.LibLayoutIx
-- ==== Proof.KI.Host.lean ====
import proofs.«137432_j14851996910240_2_alg».proof.Proof.Gen.KernelIdeal.Launch
import proofs.«137432_j14851996910240_2_alg».proof.Proof.Mats
import proofs.«137432_j14851996910240_2_alg».proof.Proof.LibLayoutIx
import Idealize.ShloMosaic.Lib.StableHlo.Run
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Cert.Spec

variable (W : Valuation τ sig (Elt Ideal))

-- a bias re-laid as a one-row matrix is the same row
theorem row1D_cast (x : S1x2048.Idx → EReal) (y : S2048.Idx → EReal) (e : x = shapeCast S1x2048 y shapeCasts_S2048_S1x2048) :
    row1D x = rowD y := by
  funext j; unfold row1D rowD; rw [e]; exact shapeCast_a_1a_apply _ _ _ _

abbrev sums : S8x2048.Idx → EReal := (W (Proc.devRef .tc main_v23_2) : S8x2048.Idx → EReal)

def meanOf (k : Fin 8) : Row 2048 := fun j => Ideal.div (sums W (ix2 k j)) nB

def invOf (k k' : Fin 8) : Row 2048 :=
  fun j => Ideal.rsqrt (Ideal.div (sums W (ix2 k' j)) nB - meanOf W k j * meanOf W k j + eps)

theorem slice_at (k : ℕ) (hk : k < 8) (h : S8x2048.Slices ![k, 0] S1x2048) (j : Fin 2048) :
    extractStridedSlice S1x2048 ![k, 0] (sums W) h (ix2 (0 : Fin 1) j) = sums W (ix2 ⟨k, hk⟩ j) :=
  Cert.LibLayoutIx.extractStridedSlice_row (sums W) h 0 j

theorem splat_at (w : BitVec 32) (i : S1x2048.Idx) :
    broadcastInDim S1x2048 ![] bcast_S_S1x2048 (constant (F := Ideal) S_ .f32 w) i = Ideal.ofBits .f32 w :=
  Cert.LibLayoutIx.broadcastInDim_scalar _ _ _ _ _

-- row k of the column sums divided by the batch size, as the host computes it, and the inverse deviation built from rows k and k'
def meanT (k : ℕ) (h : S8x2048.Slices ![k, 0] S1x2048) : S1x2048.Idx → EReal :=
  Host.divf (extractStridedSlice S1x2048 ![k, 0] (sums W) h) (broadcastInDim S1x2048 ![] bcast_S_S1x2048 (constant (F := Ideal) S_ .f32 0x45800000#32))
def invT (k k' : ℕ) (h : S8x2048.Slices ![k, 0] S1x2048) (h' : S8x2048.Slices ![k', 0] S1x2048) : S1x2048.Idx → EReal :=
  Host.rsqrt (addf (subf (meanT W k' h') (mulf (meanT W k h) (meanT W k h))) (broadcastInDim S1x2048 ![] bcast_S_S1x2048 (constant (F := Ideal) S_ .f32 0x3727C5AC#32)))
theorem meanT_at (k : ℕ) (hk : k < 8) (h : S8x2048.Slices ![k, 0] S1x2048) (j : Fin 2048) :
    meanT W k h (ix2 (0 : Fin 1) j) = meanOf W ⟨k, hk⟩ j := by
  show Ideal.div (extractStridedSlice S1x2048 ![k, 0] (sums W) h (ix2 (0 : Fin 1) j)) (broadcastInDim S1x2048 ![] bcast_S_S1x2048 (constant (F := Ideal) S_ .f32 0x45800000#32) (ix2 (0 : Fin 1) j)) = _
  rw [slice_at W k hk, splat_at]; rfl
theorem invT_at (k k' : ℕ) (hk : k < 8) (hk' : k' < 8) (h : S8x2048.Slices ![k, 0] S1x2048) (h' : S8x2048.Slices ![k', 0] S1x2048) (j : Fin 2048) :
    invT W k k' h h' (ix2 (0 : Fin 1) j) = invOf W ⟨k, hk⟩ ⟨k', hk'⟩ j := by
  show Ideal.rsqrt (meanT W k' h' (ix2 (0 : Fin 1) j) - meanT W k h (ix2 (0 : Fin 1) j) * meanT W k h (ix2 (0 : Fin 1) j)
    + broadcastInDim S1x2048 ![] bcast_S_S1x2048 (constant (F := Ideal) S_ .f32 0x3727C5AC#32) (ix2 (0 : Fin 1) j)) = _
  rw [meanT_at W k' hk', meanT_at W k hk, splat_at]; rfl
theorem host4_v26 : row1D (StableHlo.after (hostOps4 (F := Ideal)) W (Proc.devRef .tc main_v26) : S1x2048.Idx → EReal) = meanOf W 0 := by
  have e : (StableHlo.after (hostOps4 (F := Ideal)) W (Proc.devRef .tc main_v26) : S1x2048.Idx → EReal) = meanT W 0 slices_S8x2048_S1x2048_0_0 := by
    after_results; try rfl
  funext j; unfold row1D; rw [e]; exact meanT_at W 0 (by decide) _ j
theorem host4_v37 : row1D (StableHlo.after (hostOps4 (F := Ideal)) W (Proc.devRef .tc main_v37) : S1x2048.Idx → EReal) = meanOf W 2 := by
  have e : (StableHlo.after (hostOps4 (F := Ideal)) W (Proc.devRef .tc main_v37) : S1x2048.Idx → EReal) = meanT W 2 slices_S8x2048_S1x2048_2_0 := by
    after_results; try rfl
  funext j; unfold row1D; rw [e]; exact meanT_at W 2 (by decide) _ j
theorem host4_v34 : row1D (StableHlo.after (hostOps4 (F := Ideal)) W (Proc.devRef .tc main_v34) : S1x2048.Idx → EReal) = invOf W 0 1 := by
  have e : (StableHlo.after (hostOps4 (F := Ideal)) W (Proc.devRef .tc main_v34) : S1x2048.Idx → EReal)
      = invT W 0 1 slices_S8x2048_S1x2048_0_0 slices_S8x2048_S1x2048_1_0 := by
    after_results; try rfl
  funext j; unfold row1D; rw [e]; exact invT_at W 0 1 (by decide) (by decide) _ _ j
set_option maxHeartbeats 2000000 in
theorem host4_v45 : row1D (StableHlo.after (hostOps4 (F := Ideal)) W (Proc.devRef .tc main_v45) : S1x2048.Idx → EReal) = invOf W 2 3 := by
  have e : (StableHlo.after (hostOps4 (F := Ideal)) W (Proc.devRef .tc main_v45) : S1x2048.Idx → EReal)
      = invT W 2 3 slices_S8x2048_S1x2048_2_0 slices_S8x2048_S1x2048_3_0 := by
    after_results_simp; try rfl
  funext j; unfold row1D; rw [e]; exact invT_at W 2 3 (by decide) (by decide) _ _ j

end Cert.KernelIdeal.Hand

end
-- ==== Proof.KI.Inputs.lean ====
import proofs.«137432_j14851996910240_2_alg».proof.KernelIdeal
import proofs.«137432_j14851996910240_2_alg».proof.Proof.Mats

noncomputable section

namespace Cert.KernelIdeal.Hand

open Idealize.ShloMosaic Idealize.SL.Sem
open Cert.KernelIdeal Cert.Spec

def inputsOf (m : (ℓ : Loc nD τ sig) → Buf (Elt Ideal) ℓ) (c : Dev nD) : Cert.Spec.Inputs :=
  {
    input := matBD (m ((c.tc : Thread nD τ).loc main_arg0))
    a := matBD (m ((c.tc : Thread nD τ).loc main_arg1))
    rb1W := matDD (m ((c.tc : Thread nD τ).loc main_arg2))
    rb1b := rowD (m ((c.tc : Thread nD τ).loc main_arg3))
    rb2W := matDD (m ((c.tc : Thread nD τ).loc main_arg4))
    rb2b := rowD (m ((c.tc : Thread nD τ).loc main_arg5))
    selW := matDD (m ((c.tc : Thread nD τ).loc main_arg6))
    selb := rowD (m ((c.tc : Thread nD τ).loc main_arg7))
    qW := matDD (m ((c.tc : Thread nD τ).loc main_arg8))
    qb := rowD (m ((c.tc : Thread nD τ).loc main_arg9))
    kW := matDD (m ((c.tc : Thread nD τ).loc main_arg10))
    kb := rowD (m ((c.tc : Thread nD τ).loc main_arg11))
    v1W := matDD (m ((c.tc : Thread nD τ).loc main_arg12))
    v1b := rowD (m ((c.tc : Thread nD τ).loc main_arg13))
    v2W := matDD (m ((c.tc : Thread nD τ).loc main_arg14))
    v2b := rowD (m ((c.tc : Thread nD τ).loc main_arg15))
    bng := rowD (m ((c.tc : Thread nD τ).loc main_arg16))
    bnbeta := rowD (m ((c.tc : Thread nD τ).loc main_arg17))
    mlp1W := matDD (m ((c.tc : Thread nD τ).loc main_arg18))
    mlp1b := rowD (m ((c.tc : Thread nD τ).loc main_arg19))
    mlp2W := matDD (m ((c.tc : Thread nD τ).loc main_arg20))
    mlp2b := rowD (m ((c.tc : Thread nD τ).loc main_arg21)) }

end Cert.KernelIdeal.Hand

end
-- ==== Proof.KI.Carry.lean ====
import proofs.«137432_j14851996910240_2_alg».proof.Proof.KI.Run
import proofs.«137432_j14851996910240_2_alg».proof.Proof.KI.Host
import proofs.«137432_j14851996910240_2_alg».proof.Proof.KI.Inputs

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Spec

variable (m : (ℓ : Loc nD τ sig) → Buf (Elt Ideal) ℓ) (ρ : Dev nD → PrngReg) (c : Dev nD)

theorem s1_main_arg0 : matBD (W1 m ρ c (Proc.devRef .tc main_arg0) : S4096x2048.Idx → EReal) = (inputsOf m c).input :=
  congrArg matBD (W1_of m ρ c main_arg0 (by decide))
theorem s1_main_arg1 : matBD (W1 m ρ c (Proc.devRef .tc main_arg1) : S4096x2048.Idx → EReal) = (inputsOf m c).a :=
  congrArg matBD (W1_of m ρ c main_arg1 (by decide))
theorem s1_main_v0 : matDD (W1 m ρ c (Proc.devRef .tc main_v0) : S2048x2048.Idx → EReal) = (inputsOf m c).rb2W :=
  congrArg matDD (by after_results; try rfl)
theorem s1_main_v1 : row1D (W1 m ρ c (Proc.devRef .tc main_v1) : S1x2048.Idx → EReal) = (inputsOf m c).rb2b :=
  row1D_cast _ _ (by after_results; try rfl)
theorem s1_main_v2 : matDD (W1 m ρ c (Proc.devRef .tc main_v2) : S2048x2048.Idx → EReal) = (inputsOf m c).selW :=
  congrArg matDD (by after_results; try rfl)
theorem s1_main_v3 : row1D (W1 m ρ c (Proc.devRef .tc main_v3) : S1x2048.Idx → EReal) = (inputsOf m c).selb :=
  row1D_cast _ _ (by after_results; try rfl)
theorem s1_main_v4 : matDD (W1 m ρ c (Proc.devRef .tc main_v4) : S2048x2048.Idx → EReal) = (inputsOf m c).rb1W :=
  congrArg matDD (by after_results; try rfl)
theorem s1_main_v5 : row1D (W1 m ρ c (Proc.devRef .tc main_v5) : S1x2048.Idx → EReal) = (inputsOf m c).rb1b :=
  row1D_cast _ _ (by after_results; try rfl)
theorem s1_main_v6 : matDD (W1 m ρ c (Proc.devRef .tc main_v6) : S2048x2048.Idx → EReal) = (inputsOf m c).qW :=
  congrArg matDD (by after_results; try rfl)
theorem s1_main_v7 : row1D (W1 m ρ c (Proc.devRef .tc main_v7) : S1x2048.Idx → EReal) = (inputsOf m c).qb :=
  row1D_cast _ _ (by after_results; try rfl)
theorem s1_main_v8 : matDD (W1 m ρ c (Proc.devRef .tc main_v8) : S2048x2048.Idx → EReal) = (inputsOf m c).kW :=
  congrArg matDD (by after_results; try rfl)
theorem s1_main_v9 : row1D (W1 m ρ c (Proc.devRef .tc main_v9) : S1x2048.Idx → EReal) = (inputsOf m c).kb :=
  row1D_cast _ _ (by after_results; try rfl)
theorem s1_main_v10 : matDD (W1 m ρ c (Proc.devRef .tc main_v10) : S2048x2048.Idx → EReal) = (inputsOf m c).v1W :=
  congrArg matDD (by after_results; try rfl)
theorem s1_main_v11 : row1D (W1 m ρ c (Proc.devRef .tc main_v11) : S1x2048.Idx → EReal) = (inputsOf m c).v1b :=
  row1D_cast _ _ (by after_results; try rfl)
theorem s1_main_v12 : matDD (W1 m ρ c (Proc.devRef .tc main_v12) : S2048x2048.Idx → EReal) = (inputsOf m c).v2W :=
  congrArg matDD (by after_results; try rfl)
theorem s1_main_v13 : row1D (W1 m ρ c (Proc.devRef .tc main_v13) : S1x2048.Idx → EReal) = (inputsOf m c).v2b :=
  row1D_cast _ _ (by after_results; try rfl)
theorem s1_main_v14 : matDD (W1 m ρ c (Proc.devRef .tc main_v14) : S2048x2048.Idx → EReal) = (inputsOf m c).mlp1W :=
  congrArg matDD (by after_results; try rfl)
theorem s1_main_v15 : row1D (W1 m ρ c (Proc.devRef .tc main_v15) : S1x2048.Idx → EReal) = (inputsOf m c).mlp1b :=
  row1D_cast _ _ (by after_results; try rfl)
theorem s1_main_v16 : matDD (W1 m ρ c (Proc.devRef .tc main_v16) : S2048x2048.Idx → EReal) = (inputsOf m c).mlp2W :=
  congrArg matDD (by after_results; try rfl)
theorem s1_main_v17 : row1D (W1 m ρ c (Proc.devRef .tc main_v17) : S1x2048.Idx → EReal) = (inputsOf m c).mlp2b :=
  row1D_cast _ _ (by after_results; try rfl)
theorem s1_main_v18 : row1D (W1 m ρ c (Proc.devRef .tc main_v18) : S1x2048.Idx → EReal) = (inputsOf m c).bng :=
  row1D_cast _ _ (by after_results; try rfl)
theorem s1_main_v19 : row1D (W1 m ρ c (Proc.devRef .tc main_v19) : S1x2048.Idx → EReal) = (inputsOf m c).bnbeta :=
  row1D_cast _ _ (by after_results; try rfl)

end Cert.KernelIdeal.Hand

end
-- ==== Proof.KI.OpsAt.lean ====
import proofs.«137432_j14851996910240_2_alg».proof.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal
open Idealize.ShloMosaic Idealize.ShloMosaic.ValueIdx
open scoped BigOperators

variable [Facts₀]
open Facts₀

/-- Into the zero accumulator a product with one contracted axis is the sum over that axis's coordinate `c` of `x (L c) * w (R c)`. -/
theorem matmul_at {sl sr so : Shape} {φ₁ φ₂ : FTy} (d : DotDims sl sr so) (n : ℕ) (hr : d.contr.rank = 1)
    (hs : d.contr.size ⟨0, by omega⟩ = n) (x : FVec Ideal sl φ₁) (w : FVec Ideal sr φ₂) (o : so.Idx)
    (L : Fin n → sl.Idx) (R : Fin n → sr.Idx)
    (hl : ∀ k, d.lhsIdx o k = L (contrEquiv1 d n hr hs k)) (hR : ∀ k, d.rhsIdx o k = R (contrEquiv1 d n hr hs k)) :
    matmul (F := Ideal) d none x w (constant so .f32 0x00000000#32) o = ∑ c : Fin n, x (L c) * w (R c) := by
  simp only [matmul]
  rw [Ideal.matmul_constant_zero_apply]
  exact (Finset.sum_congr rfl fun k _ => by rw [hl, hR]).trans
    (Equiv.sum_comp (contrEquiv1 d n hr hs) fun c => x (L c) * w (R c))

theorem matmul_xWt_at {φ₁ φ₂ : FTy} (x : FVec Ideal S128x2048 φ₁) (w : FVec Ideal S2048x2048 φ₂) (r : Fin 128) (j : Fin 2048) :
    matmul (F := Ideal) dot_S128x2048_S2048x2048_S128x2048_1_1_0_0_n_n none x w (constant S128x2048 .f32 0x00000000#32) (ix2 r j)
      = ∑ k : Fin 2048, x (ix2 r k) * w (ix2 j k) :=
  matmul_at _ 2048 rfl rfl x w _ (ix2 r) (ix2 j)
    (fun _ => Shape.idx_ext₂ (by simp [DotDims.lhsIdx, dot_S128x2048_S2048x2048_S128x2048_1_1_0_0_n_n] <;> rfl)
      (DotDims.lhsIdx_val_of_single _ (cl := 1) rfl _ _))
    (fun _ => Shape.idx_ext₂ (by simp [DotDims.rhsIdx, dot_S128x2048_S2048x2048_S128x2048_1_1_0_0_n_n] <;> rfl)
      (DotDims.rhsIdx_val_of_single _ (cr := 1) rfl _ _))

theorem matmul_plain_at {φ₁ φ₂ : FTy} (z : FVec Ideal S128x2048 φ₁) (A : FVec Ideal S2048x2048 φ₂) (r : Fin 128) (j : Fin 2048) :
    matmul (F := Ideal) dot_S128x2048_S2048x2048_S128x2048_1_0_0_1_n_n none z A (constant S128x2048 .f32 0x00000000#32) (ix2 r j)
      = ∑ i : Fin 2048, z (ix2 r i) * A (ix2 i j) :=
  matmul_at _ 2048 rfl rfl z A _ (ix2 r) (ix2 · j)
    (fun _ => Shape.idx_ext₂ (by simp [DotDims.lhsIdx, dot_S128x2048_S2048x2048_S128x2048_1_0_0_1_n_n] <;> rfl)
      (DotDims.lhsIdx_val_of_single _ (cl := 1) rfl _ _))
    (fun _ => Shape.idx_ext₂ (DotDims.rhsIdx_val_of_single _ (cr := 0) rfl _ _)
      (by simp [DotDims.rhsIdx, dot_S128x2048_S2048x2048_S128x2048_1_0_0_1_n_n] <;> rfl))

theorem matmul_qTk_at {φ₁ φ₂ : FTy} (q : FVec Ideal S128x2048 φ₁) (k : FVec Ideal S128x2048 φ₂) (i : Fin 2048) (j : Fin 2048) :
    matmul (F := Ideal) dot_S128x2048_S128x2048_S2048x2048_0_0_1_1_n_n none q k (constant S2048x2048 .f32 0x00000000#32) (ix2 i j)
      = ∑ r : Fin 128, q (ix2 r i) * k (ix2 r j) :=
  matmul_at _ 128 rfl rfl q k _ (ix2 · i) (ix2 · j)
    (fun _ => Shape.idx_ext₂ (DotDims.lhsIdx_val_of_single _ (cl := 0) rfl _ _)
      (by simp [DotDims.lhsIdx, dot_S128x2048_S128x2048_S2048x2048_0_0_1_1_n_n] <;> rfl))
    (fun _ => Shape.idx_ext₂ (DotDims.rhsIdx_val_of_single _ (cr := 0) rfl _ _)
      (by simp [DotDims.rhsIdx, dot_S128x2048_S128x2048_S2048x2048_0_0_1_1_n_n] <;> rfl))

theorem bias_at {α : Type} (v : S1x2048.Idx → α) (r : Fin 128) (j : Fin 2048) :
    broadcastTo S128x2048 (shapeCast S1x2048 v shapeCasts_S1x2048_S1x2048) broadcasts_S1x2048_S128x2048 (ix2 r j)
      = v (ix2 (0 : Fin 1) j) := by
  rw [shapeCast_self, broadcastTo_1b_ab_apply]

theorem shapeCast_self_at {s : Shape} {α : Type} (v : s.Idx → α) (h : s.ShapeCasts s) (i : s.Idx) : shapeCast s v h i = v i := by
  rw [shapeCast_self]

end Cert.KernelIdeal.Hand

end
-- ==== Proof.KI.Tiles.lean ====
import Mathlib.Algebra.BigOperators.Group.Finset.Basic
import Mathlib.Algebra.BigOperators.Fin
import Mathlib.Data.Fintype.BigOperators

namespace Cert.KernelIdeal.Hand

def tileRow (t : Fin 32) (r : Fin 128) : Fin 4096 := ⟨t.val * 128 + r.val, by omega⟩

@[simp] theorem tileRow_val (t : Fin 32) (r : Fin 128) : (tileRow t r).val = t.val * 128 + r.val := rfl

variable {M : Type} [AddCommMonoid M]

/-- Row `128·t + r` is the image of `(t, r)` under the bijection `Fin 32 × Fin 128 ≃ Fin (32 * 128)`. -/
theorem sum_tiles (f : Fin 4096 → M) : ∑ t : Fin 32, ∑ r : Fin 128, f (tileRow t r) = ∑ x : Fin 4096, f x :=
  (Fintype.sum_prod_type' fun t r => f (tileRow t r)).symm.trans
    (Fintype.sum_equiv (finProdFinEquiv (m := 32) (n := 128)) _ f fun p =>
      congrArg f (Fin.ext (by rw [tileRow_val, finProdFinEquiv_apply_val]; omega)))

/-- A total that starts at `0 + g 0` and adds `g` of each later point is, at the last point, the sum of `g`. -/
theorem acc_last_eq_sum : ∀ {N : ℕ} (acc g : Fin (N + 1) → M),
    acc 0 = 0 + g 0 → (∀ t : Fin N, acc t.succ = acc t.castSucc + g t.succ) → acc (Fin.last N) = ∑ t, g t
  | 0, acc, g, h0, _ => by
    rw [Fin.sum_univ_one, ← zero_add (g 0), ← h0]; rfl
  | N + 1, acc, g, h0, hs => by
    rw [Fin.sum_univ_castSucc, ← acc_last_eq_sum (fun t => acc t.castSucc) (fun t => g t.castSucc) h0
      fun t => by rw [← Fin.succ_castSucc]; exact hs t.castSucc]
    exact hs (Fin.last N)

theorem acc31_eq_sum_rows (f : Fin 4096 → M) (acc : Fin 32 → M)
    (h0 : acc 0 = 0 + ∑ r : Fin 128, f (tileRow 0 r))
    (hs : ∀ (t : ℕ) (h : t + 1 < 32),
      acc ⟨t + 1, h⟩ = acc ⟨t, by omega⟩ + ∑ r : Fin 128, f (tileRow ⟨t + 1, h⟩ r)) :
    acc 31 = ∑ x : Fin 4096, f x :=
  (acc_last_eq_sum (N := 31) acc (fun t => ∑ r : Fin 128, f (tileRow t r)) h0 fun t => hs t.val (by omega)).trans
    (sum_tiles f)

end Cert.KernelIdeal.Hand
-- ==== Proof.KI.Pay0.lean ====
import proofs.«137432_j14851996910240_2_alg».proof.Proof.Gen.KernelIdeal.Skeleton
import proofs.«137432_j14851996910240_2_alg».proof.Proof.KI.OpsAt
import proofs.«137432_j14851996910240_2_alg».proof.Proof.Mats
import proofs.«137432_j14851996910240_2_alg».proof.Proof.KI.Tiles
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

theorem hz : (![0, 0] : Fin 2 → Nat) = fun _ => 0 := funext fun a => by fin_cases a <;> rfl

-- An index at block index (n, 0) times the block's size plus `y` is entry `y` of the 128-row tile `n`.
theorem tile_ext {i : S4096x2048.Idx} {y : S128x2048.Idx} {idx : Fin 2 → ℕ} (n : Fin 32) (hidx : ∀ a, idx a = ![n.val, 0] a)
    (h : ∀ a, (i a : ℕ) = idx a * S128x2048.size a + y a) : i = ix2 (tileRow n (y 0)) (y 1) :=
  Shape.idx_ext₂ (by rw [h 0, hidx 0]; rfl) (by rw [h 1, hidx 1]; show 0 * 2048 + (y 1).val = (y 1).val; omega)

-- Row `i 0` lies in the 128-row tile `i 0 / 128`, and every column in the one block of columns.
theorem tile_mem (i : S4096x2048.Idx) {idx : Fin 2 → ℕ} (hidx : ∀ a, idx a = ![(i 0).val / 128, 0] a) (a : Fin 2) :
    idx a * S128x2048.size a ≤ (i a).val ∧ (i a).val < idx a * S128x2048.size a + S128x2048.size a := by
  have h1 : (i 1).val < 2048 := (i 1).isLt
  rw [hidx a]
  match a with
  | ⟨0, _⟩ => show (i 0).val / 128 * 128 ≤ (i 0).val ∧ (i 0).val < (i 0).val / 128 * 128 + 128; omega
  | ⟨1, _⟩ => show 0 * 2048 ≤ (i 1).val ∧ (i 1).val < 0 * 2048 + 2048; omega

def tileOf {N : ℕ} (hN : N = 32) (i : S4096x2048.Idx) : Fin N :=
  ⟨(i 0).val / 128, (show (i 0).val / 128 < 32 from Nat.div_lt_of_lt_mul (i 0).isLt).trans_eq hN.symm⟩

theorem mem_slice_whole_unit {κ : Kind} (b : Ref sig κ) {off size : Fin b.ty.shape.rank → ℕ} {inb} {i : b.ty.shape.Idx}
    (h : ∀ a, off a ≤ i a ∧ (i a : ℕ) < off a + size a) : i ∈ ((View.whole b).slice (Rect.unit off size inb)).set := by
  rw [View.set_slice_whole]; exact Rect.mem_set_unit.mpr h

abbrev mm0 (x : Vec Ideal S128x2048 .f32) (w : Vec Ideal S2048x2048 .bf16) (j : S128x2048.Idx) : EReal :=
  matmul (F := Ideal) (φ₁ := .bf16) (φ₂ := .bf16) dot_S128x2048_S2048x2048_S128x2048_1_1_0_0_n_n none (truncf .bf16 x bitsLt_bf16_f32) w (constant (F := Ideal) S128x2048 .f32 0x00000000#32) j

theorem sel_ofBool0 {α : Type} (p : Prop) [Decidable p] (a b : α) : Scalar.select (BitVec.ofBool (decide p)) a b = if p then a else b := by
  unfold Scalar.select
  by_cases h : p <;> simp [h]

theorem pay0_2_at (v0 : Vec Ideal S128x2048 .f32) (v2 : Vec Ideal S2048x2048 .bf16) (v5 : Vec Ideal S1x2048 .f32) (p : Fin 128) (q : Fin 2048) :
    k0_pay2 v0 v2 v5 (ix2 p q) = Ideal.logistic (v0 (ix2 p q) + max (mm0 v0 v2 (ix2 p q) + v5 (ix2 (0 : Fin 1) q)) 0) := by
  unfold k0_pay2
  simp only [shapeCast_self]
  show Ideal.logistic (v0 (ix2 p q) + max (mm0 v0 v2 (ix2 p q) + broadcastTo S128x2048 v5 broadcasts_S1x2048_S128x2048 (ix2 p q)) (Ideal.ofBits .f32 0x00000000#32)) = _
  rw [broadcastTo_1b_ab_apply, Ideal.ofBits_zero_f32]

theorem pay0_3_at (v13 : Vec Ideal S128x2048 .f32) (v15 : Vec Ideal S2048x2048 .bf16) (v18 : Vec Ideal S1x2048 .f32) (p : Fin 128) (q : Fin 2048) :
    k0_pay3 v13 v15 v18 (ix2 p q) = max (mm0 v13 v15 (ix2 p q) + v18 (ix2 (0 : Fin 1) q)) 0 := by
  unfold k0_pay3
  simp only [shapeCast_self]
  show max (mm0 v13 v15 (ix2 p q) + broadcastTo S128x2048 v18 broadcasts_S1x2048_S128x2048 (ix2 p q)) (Ideal.ofBits .f32 0x00000000#32) = _
  rw [broadcastTo_1b_ab_apply, Ideal.ofBits_zero_f32]

theorem gate0_at (t : EReal) :
    Scalar.select (FloatOps.cmpf (F := Ideal) (φ := .f32) .ogt t (Ideal.ofBits .f32 0x00000000#32)) (Ideal.logistic t) (Ideal.ofBits .f32 0x00000000#32)
      = if 0 < t then Ideal.logistic t else 0 := by
  rw [Ideal.cmpf_def, Ideal.ofBits_zero_f32]
  show Scalar.select (BitVec.ofBool (decide (0 < t))) _ _ = _
  exact sel_ofBool0 _ _ _

theorem pay0_4_at (v0 : Vec Ideal S128x2048 .f32) (v2 : Vec Ideal S2048x2048 .bf16) (v5 : Vec Ideal S1x2048 .f32)
    (v13 : Vec Ideal S128x2048 .f32) (v15 : Vec Ideal S2048x2048 .bf16) (v18 : Vec Ideal S1x2048 .f32) (j : S128x2048.Idx) :
    k0_pay4 v0 v2 v5 v13 v15 v18 j
      = (v13 j + v13 j * (if 0 < k0_pay3 v13 v15 v18 j then Ideal.logistic (k0_pay3 v13 v15 v18 j) else 0)) * k0_pay2 v0 v2 v5 j := by
  unfold k0_pay4
  show (v13 j + v13 j * Scalar.select (FloatOps.cmpf (F := Ideal) (φ := .f32) .ogt (k0_pay3 v13 v15 v18 j) (Ideal.ofBits .f32 0x00000000#32))
      (Ideal.logistic (k0_pay3 v13 v15 v18 j)) (Ideal.ofBits .f32 0x00000000#32)) * k0_pay2 v0 v2 v5 j = _
  rw [gate0_at]

theorem pay0_5_at (v0 : Vec Ideal S128x2048 .f32) (v2 : Vec Ideal S2048x2048 .bf16) (v5 : Vec Ideal S1x2048 .f32)
    (v13 : Vec Ideal S128x2048 .f32) (v15 : Vec Ideal S2048x2048 .bf16) (v18 : Vec Ideal S1x2048 .f32) (j : S128x2048.Idx) :
    k0_pay5 v0 v2 v5 v13 v15 v18 j = k0_pay2 v0 v2 v5 j + k0_pay3 v13 v15 v18 j := rfl

theorem pay0_6_at (v0 : Vec Ideal S128x2048 .f32) (v2 : Vec Ideal S2048x2048 .bf16) (v5 : Vec Ideal S1x2048 .f32)
    (v13 : Vec Ideal S128x2048 .f32) (v15 : Vec Ideal S2048x2048 .bf16) (v18 : Vec Ideal S1x2048 .f32) (v34 : Vec Ideal S2048x2048 .bf16) (j : S128x2048.Idx) :
    k0_pay6 v0 v2 v5 v13 v15 v18 v34 j = mm0 (k0_pay4 v0 v2 v5 v13 v15 v18) v34 j := by
  unfold k0_pay6
  simp only [shapeCast_self]

theorem pay0_1_at (v31 v36 : FVec Ideal S128x2048 .f32) (v37 : Vec Ideal S1x2048 .f32) (p : Fin 128) (q : Fin 2048) :
    k0_pay1 v31 v36 v37 (ix2 p q) = v31 (ix2 p q) + max (v36 (ix2 p q) + v37 (ix2 (0 : Fin 1) q)) 0 := by
  unfold k0_pay1
  simp only [shapeCast_self]
  show v31 (ix2 p q) + max (v36 (ix2 p q) + broadcastTo S128x2048 v37 broadcasts_S1x2048_S128x2048 (ix2 p q)) (Ideal.ofBits .f32 0x00000000#32) = _
  rw [broadcastTo_1b_ab_apply, Ideal.ofBits_zero_f32]

theorem mm0_at (x : FVec Ideal S128x2048 .f32) (w : Vec Ideal S2048x2048 .bf16) (p : Fin 128) (q : Fin 2048) :
    mm0 x w (ix2 p q) = ∑ k : Fin 2048, x (ix2 p k) * w (ix2 q k) :=
  matmul_xWt_at (φ₁ := .bf16) (φ₂ := .bf16) (truncf .bf16 x bitsLt_bf16_f32) w p q

section Tile
open Cert.Spec

variable (xa xi : Vec Ideal S128x2048 .f32) (A I : (⟨2, ![4096, 2048]⟩ : Shape).Idx → EReal)
  (W2 Ws W1 : (⟨2, ![2048, 2048]⟩ : Shape).Idx → EReal) (b2 bs b1 : (⟨2, ![1, 2048]⟩ : Shape).Idx → EReal)
  (r : Fin 4096) (p : Fin 128)

theorem asig_tile0 (ha : ∀ k, xa (ix2 p k) = A (ix2 r k)) (q : Fin 2048) :
    k0_pay2 xa W2 b2 (ix2 p q) = sAsig (matBD A) (matDD W2) (row1D b2) r q := by
  rw [pay0_2_at, mm0_at]
  simp only [ha]
  rfl

theorem tsel_tile0 (hi : ∀ k, xi (ix2 p k) = I (ix2 r k)) (q : Fin 2048) :
    k0_pay3 xi Ws bs (ix2 p q) = sTsel (matBD I) (matDD Ws) (row1D bs) r q := by
  rw [pay0_3_at, mm0_at]
  simp only [hi]
  rfl

theorem x0_tile0 (ha : ∀ k, xa (ix2 p k) = A (ix2 r k)) (hi : ∀ k, xi (ix2 p k) = I (ix2 r k)) (q : Fin 2048) :
    k0_pay4 xa W2 b2 xi Ws bs (ix2 p q)
      = sX0 (matBD I) (sTsel (matBD I) (matDD Ws) (row1D bs)) (sAsig (matBD A) (matDD W2) (row1D b2)) r q := by
  rw [pay0_4_at, asig_tile0 xa A W2 b2 r p ha q, tsel_tile0 xi I Ws bs r p hi q, hi q]
  rfl

theorem explain_tile0 (ha : ∀ k, xa (ix2 p k) = A (ix2 r k)) (hi : ∀ k, xi (ix2 p k) = I (ix2 r k)) (q : Fin 2048) :
    k0_pay5 xa W2 b2 xi Ws bs (ix2 p q)
      = sExplain (sAsig (matBD A) (matDD W2) (row1D b2)) (sTsel (matBD I) (matDD Ws) (row1D bs)) r q := by
  rw [pay0_5_at, asig_tile0 xa A W2 b2 r p ha q, tsel_tile0 xi I Ws bs r p hi q]
  rfl

theorem x_tile0 (ha : ∀ k, xa (ix2 p k) = A (ix2 r k)) (hi : ∀ k, xi (ix2 p k) = I (ix2 r k)) (q : Fin 2048) :
    k0_pay1 (k0_pay4 xa W2 b2 xi Ws bs) (k0_pay6 xa W2 b2 xi Ws bs W1) b1 (ix2 p q)
      = resblock (sX0 (matBD I) (sTsel (matBD I) (matDD Ws) (row1D bs)) (sAsig (matBD A) (matDD W2) (row1D b2))) (matDD W1) (row1D b1) r q := by
  rw [pay0_1_at, pay0_6_at, mm0_at]
  simp only [x0_tile0 xa xi A I W2 Ws b2 bs r p ha hi]
  rfl

end Tile

end Cert.KernelIdeal.Hand

end
-- ==== Proof.KI.Val0.lean ====
import proofs.«137432_j14851996910240_2_alg».proof.Proof.KI.Reg0
import proofs.«137432_j14851996910240_2_alg».proof.Proof.KI.Pay0
import proofs.«137432_j14851996910240_2_alg».proof.Proof.KI.Tiles
import proofs.«137432_j14851996910240_2_alg».proof.Proof.Mats
import Idealize.ShloMosaic.Lib.Pipeline.Value
import Idealize.ShloMosaic.Lib.ValueIdx

noncomputable section

namespace Cert.KernelIdeal.Hand

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx0 : ∀ (t : Fin cfg0.N) (a : Fin 2),
    (win0_0.index t a = ![t.val, 0] a ∧ win0_1.index t a = ![t.val, 0] a ∧ win0_8.index t a = ![t.val, 0] a
      ∧ win0_9.index t a = ![t.val, 0] a ∧ win0_10.index t a = ![t.val, 0] a)
    ∧ win0_2.index t a = 0 ∧ win0_3.index t a = 0 ∧ win0_4.index t a = 0 ∧ win0_5.index t a = 0
      ∧ win0_6.index t a = 0 ∧ win0_7.index t a = 0 :=
  (by decide +kernel : ∀ t : Fin grid0.N, _)

theorem read0_0 (G : S4096x2048.Idx → EReal) (t : Fin cfg0.N) (y : S128x2048.Idx) :
    ((cfg0.win 0).blk t).view.read (Elt Ideal) G y = G (ix2 (tileRow (Fin.cast N_0 t) (y 0)) (y 1)) :=
  congrArg G (tile_ext _ (fun a => (idx0 t a).1.1) (win0_0.rect_emb_val t y))

theorem read0_1 (G : S4096x2048.Idx → EReal) (t : Fin cfg0.N) (y : S128x2048.Idx) :
    ((cfg0.win 1).blk t).view.read (Elt Ideal) G y = G (ix2 (tileRow (Fin.cast N_0 t) (y 0)) (y 1)) :=
  congrArg G (tile_ext _ (fun a => (idx0 t a).1.2.1) (win0_1.rect_emb_val t y))

theorem read0_8 (G : S4096x2048.Idx → EReal) (t : Fin cfg0.N) (y : S128x2048.Idx) :
    ((cfg0.win 8).blk t).view.read (Elt Ideal) G y = G (ix2 (tileRow (Fin.cast N_0 t) (y 0)) (y 1)) :=
  congrArg G (tile_ext _ (fun a => (idx0 t a).1.2.2.1) (win0_8.rect_emb_val t y))

theorem read0_9 (G : S4096x2048.Idx → EReal) (t : Fin cfg0.N) (y : S128x2048.Idx) :
    ((cfg0.win 9).blk t).view.read (Elt Ideal) G y = G (ix2 (tileRow (Fin.cast N_0 t) (y 0)) (y 1)) :=
  congrArg G (tile_ext _ (fun a => (idx0 t a).1.2.2.2.1) (win0_9.rect_emb_val t y))

theorem read0_10 (G : S4096x2048.Idx → EReal) (t : Fin cfg0.N) (y : S128x2048.Idx) :
    ((cfg0.win 10).blk t).view.read (Elt Ideal) G y = G (ix2 (tileRow (Fin.cast N_0 t) (y 0)) (y 1)) :=
  congrArg G (tile_ext _ (fun a => (idx0 t a).1.2.2.2.2) (win0_10.rect_emb_val t y))

theorem iblk0_2_eq (c : Dev nD) (t : Fin cfg0.N) : iblk0 V c 2 t = (V c main_v0 : S2048x2048.Idx → EReal) :=
  funext fun j => congrArg (V c main_v0) (funext fun a => Fin.ext (win0_2.rect_emb_val_of_index_zero t a (idx0 t a).2.1 j))

theorem iblk0_3_eq (c : Dev nD) (t : Fin cfg0.N) : iblk0 V c 3 t = (V c main_v1 : S1x2048.Idx → EReal) :=
  funext fun j => congrArg (V c main_v1) (funext fun a => Fin.ext (win0_3.rect_emb_val_of_index_zero t a (idx0 t a).2.2.1 j))

theorem iblk0_4_eq (c : Dev nD) (t : Fin cfg0.N) : iblk0 V c 4 t = (V c main_v2 : S2048x2048.Idx → EReal) :=
  funext fun j => congrArg (V c main_v2) (funext fun a => Fin.ext (win0_4.rect_emb_val_of_index_zero t a (idx0 t a).2.2.2.1 j))

theorem iblk0_5_eq (c : Dev nD) (t : Fin cfg0.N) : iblk0 V c 5 t = (V c main_v3 : S1x2048.Idx → EReal) :=
  funext fun j => congrArg (V c main_v3) (funext fun a => Fin.ext (win0_5.rect_emb_val_of_index_zero t a (idx0 t a).2.2.2.2.1 j))

theorem iblk0_6_eq (c : Dev nD) (t : Fin cfg0.N) : iblk0 V c 6 t = (V c main_v4 : S2048x2048.Idx → EReal) :=
  funext fun j => congrArg (V c main_v4) (funext fun a => Fin.ext (win0_6.rect_emb_val_of_index_zero t a (idx0 t a).2.2.2.2.2.1 j))

theorem iblk0_7_eq (c : Dev nD) (t : Fin cfg0.N) : iblk0 V c 7 t = (V c main_v5 : S1x2048.Idx → EReal) :=
  funext fun j => congrArg (V c main_v5) (funext fun a => Fin.ext (win0_7.rect_emb_val_of_index_zero t a (idx0 t a).2.2.2.2.2.2 j))

theorem cover0_8 (i : S4096x2048.Idx) : ∃ t : Fin cfg0.N, (cfg0.win 8).flush t = true ∧ i ∈ ((cfg0.win 8).blk t).view.set :=
  ⟨tileOf N_0 i, flush0_8 _, mem_slice_whole_unit main_v20_0 (tile_mem i fun a => (idx0 (tileOf N_0 i) a).1.2.2.1)⟩

theorem cover0_9 (i : S4096x2048.Idx) : ∃ t : Fin cfg0.N, (cfg0.win 9).flush t = true ∧ i ∈ ((cfg0.win 9).blk t).view.set :=
  ⟨tileOf N_0 i, flush0_9 _, mem_slice_whole_unit main_v20_1 (tile_mem i fun a => (idx0 (tileOf N_0 i) a).1.2.2.2.1)⟩

theorem cover0_10 (i : S4096x2048.Idx) : ∃ t : Fin cfg0.N, (cfg0.win 10).flush t = true ∧ i ∈ ((cfg0.win 10).blk t).view.set :=
  ⟨tileOf N_0 i, flush0_10 _, mem_slice_whole_unit main_v20_2 (tile_mem i fun a => (idx0 (tileOf N_0 i) a).1.2.2.2.2)⟩

theorem val0_x (c : Dev nD) : matBD ((dat0 V c).arrAt 8 cfg0.N) = resblock (sX0 (matBD (V c main_arg0)) (sTsel (matBD (V c main_arg0)) (matDD (V c main_v2)) (row1D (V c main_v3))) (sAsig (matBD (V c main_arg1)) (matDD (V c main_v0)) (row1D (V c main_v1)))) (matDD (V c main_v4)) (row1D (V c main_v5)) := by
  refine (congrArg matBD ((dat0 V c).arrAt_eq_of_cover 8 (arrBD _) (fun t _ => ?_) cover0_8)).trans (matBD_arrBD _)
  show (cfg0.win 8).cut (grid0.coords t) ((dat0 V c).after 8 t) = _
  rw [after0_8]
  unfold out0_8 p0_31 p0_36
  rw [View.canon_unit_zero hz]
  simp only [View.ld_unit_zero (S := S128x2048) hz, View.ld_unit_zero (S := S2048x2048) hz, View.ld_unit_zero (S := S1x2048) hz]
  rw [iblk0_2_eq, iblk0_3_eq, iblk0_4_eq, iblk0_5_eq, iblk0_6_eq, iblk0_7_eq]
  funext j
  rw [eq_ix2 j]
  refine Eq.trans ?_ (read0_8 _ t _).symm
  exact x_tile0 _ _ _ _ _ _ _ _ _ _ _ _ (fun k => read0_1 _ t _) (fun k => read0_0 _ t _) _

theorem val0_asig (c : Dev nD) : matBD ((dat0 V c).arrAt 9 cfg0.N) = sAsig (matBD (V c main_arg1)) (matDD (V c main_v0)) (row1D (V c main_v1)) := by
  refine (congrArg matBD ((dat0 V c).arrAt_eq_of_cover 9 (arrBD _) (fun t _ => ?_) cover0_9)).trans (matBD_arrBD _)
  show (cfg0.win 9).cut (grid0.coords t) ((dat0 V c).after 9 t) = _
  rw [after0_9]
  unfold out0_9 p0_12
  rw [View.canon_unit_zero hz]
  simp only [View.ld_unit_zero (S := S128x2048) hz, View.ld_unit_zero (S := S2048x2048) hz, View.ld_unit_zero (S := S1x2048) hz]
  rw [iblk0_2_eq, iblk0_3_eq]
  funext j
  rw [eq_ix2 j]
  refine Eq.trans ?_ (read0_9 _ t _).symm
  exact asig_tile0 _ _ _ _ _ _ (fun k => read0_1 _ t _) _

theorem val0_explain (c : Dev nD) : matBD ((dat0 V c).arrAt 10 cfg0.N) = sExplain (sAsig (matBD (V c main_arg1)) (matDD (V c main_v0)) (row1D (V c main_v1))) (sTsel (matBD (V c main_arg0)) (matDD (V c main_v2)) (row1D (V c main_v3))) := by
  refine (congrArg matBD ((dat0 V c).arrAt_eq_of_cover 10 (arrBD _) (fun t _ => ?_) cover0_10)).trans (matBD_arrBD _)
  show (cfg0.win 10).cut (grid0.coords t) ((dat0 V c).after 10 t) = _
  rw [after0_10]
  unfold out0_10 p0_32
  rw [View.canon_unit_zero hz]
  simp only [View.ld_unit_zero (S := S128x2048) hz, View.ld_unit_zero (S := S2048x2048) hz, View.ld_unit_zero (S := S1x2048) hz]
  rw [iblk0_2_eq, iblk0_3_eq, iblk0_4_eq, iblk0_5_eq]
  funext j
  rw [eq_ix2 j]
  refine Eq.trans ?_ (read0_10 _ t _).symm
  exact explain_tile0 _ _ _ _ _ _ _ _ _ _ (fun k => read0_1 _ t _) (fun k => read0_0 _ t _) _

end Cert.KernelIdeal.Hand

end
-- ==== Proof.KI.Val1.lean ====
import proofs.«137432_j14851996910240_2_alg».proof.Proof.KI.Reg1
import proofs.«137432_j14851996910240_2_alg».proof.Proof.KI.Pay0
import proofs.«137432_j14851996910240_2_alg».proof.Proof.Mats
import proofs.«137432_j14851996910240_2_alg».proof.Proof.KI.OpsAt
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Cert.Spec
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem idx1 : ∀ (t : Fin cfg1.N) (a : Fin 2),
    (win1_0.index t a = ![t.val, 0] a ∧ win1_1.index t a = ![t.val, 0] a ∧ win1_6.index t a = ![t.val, 0] a
      ∧ win1_7.index t a = ![t.val, 0] a)
    ∧ win1_2.index t a = 0 ∧ win1_3.index t a = 0 ∧ win1_4.index t a = 0 ∧ win1_5.index t a = 0 :=
  (by decide +kernel : ∀ t : Fin grid1.N, _)

theorem read1_0 (G : S4096x2048.Idx → EReal) (t : Fin cfg1.N) (y : S128x2048.Idx) :
    ((cfg1.win 0).blk t).view.read (Elt Ideal) G y = G (ix2 (tileRow (Fin.cast N_1 t) (y 0)) (y 1)) :=
  congrArg G (tile_ext _ (fun a => (idx1 t a).1.1) (win1_0.rect_emb_val t y))

theorem read1_1 (G : S4096x2048.Idx → EReal) (t : Fin cfg1.N) (y : S128x2048.Idx) :
    ((cfg1.win 1).blk t).view.read (Elt Ideal) G y = G (ix2 (tileRow (Fin.cast N_1 t) (y 0)) (y 1)) :=
  congrArg G (tile_ext _ (fun a => (idx1 t a).1.2.1) (win1_1.rect_emb_val t y))

theorem read1_6 (G : S4096x2048.Idx → EReal) (t : Fin cfg1.N) (y : S128x2048.Idx) :
    ((cfg1.win 6).blk t).view.read (Elt Ideal) G y = G (ix2 (tileRow (Fin.cast N_1 t) (y 0)) (y 1)) :=
  congrArg G (tile_ext _ (fun a => (idx1 t a).1.2.2.1) (win1_6.rect_emb_val t y))

theorem read1_7 (G : S4096x2048.Idx → EReal) (t : Fin cfg1.N) (y : S128x2048.Idx) :
    ((cfg1.win 7).blk t).view.read (Elt Ideal) G y = G (ix2 (tileRow (Fin.cast N_1 t) (y 0)) (y 1)) :=
  congrArg G (tile_ext _ (fun a => (idx1 t a).1.2.2.2) (win1_7.rect_emb_val t y))

theorem iblk1_2_eq (c : Dev nD) (t : Fin cfg1.N) : iblk1 V c 2 t = (V c main_v6 : S2048x2048.Idx → EReal) :=
  funext fun j => congrArg (V c main_v6) (funext fun a => Fin.ext (win1_2.rect_emb_val_of_index_zero t a (idx1 t a).2.1 j))

theorem iblk1_3_eq (c : Dev nD) (t : Fin cfg1.N) : iblk1 V c 3 t = (V c main_v7 : S1x2048.Idx → EReal) :=
  funext fun j => congrArg (V c main_v7) (funext fun a => Fin.ext (win1_3.rect_emb_val_of_index_zero t a (idx1 t a).2.2.1 j))

theorem iblk1_4_eq (c : Dev nD) (t : Fin cfg1.N) : iblk1 V c 4 t = (V c main_v8 : S2048x2048.Idx → EReal) :=
  funext fun j => congrArg (V c main_v8) (funext fun a => Fin.ext (win1_4.rect_emb_val_of_index_zero t a (idx1 t a).2.2.2.1 j))

theorem iblk1_5_eq (c : Dev nD) (t : Fin cfg1.N) : iblk1 V c 5 t = (V c main_v9 : S1x2048.Idx → EReal) :=
  funext fun j => congrArg (V c main_v9) (funext fun a => Fin.ext (win1_5.rect_emb_val_of_index_zero t a (idx1 t a).2.2.2.2 j))

theorem cover1_6 (i : S4096x2048.Idx) : ∃ t : Fin cfg1.N, (cfg1.win 6).flush t = true ∧ i ∈ ((cfg1.win 6).blk t).view.set :=
  ⟨tileOf N_1 i, flush1_6 _, mem_slice_whole_unit main_v21_0 (tile_mem i fun a => (idx1 (tileOf N_1 i) a).1.2.2.1)⟩

theorem cover1_7 (i : S4096x2048.Idx) : ∃ t : Fin cfg1.N, (cfg1.win 7).flush t = true ∧ i ∈ ((cfg1.win 7).blk t).view.set :=
  ⟨tileOf N_1 i, flush1_7 _, mem_slice_whole_unit main_v21_1 (tile_mem i fun a => (idx1 (tileOf N_1 i) a).1.2.2.2)⟩

-- A row of the product reads one row of the left operand: row `p` of the tile is row `r` of the array.
theorem lin_tile1 (x : Vec Ideal S128x2048 .f32) (X : S4096x2048.Idx → EReal) (W : Vec Ideal S2048x2048 .bf16) (b : Vec Ideal S1x2048 .f32)
    (r : Fin 4096) (p : Fin 128) (hx : ∀ k, x (ix2 p k) = X (ix2 r k)) (q : Fin 2048) :
    k1_pay1 (F := Ideal) x W b (ix2 p q) = lin (matBD X) (matDD W) (row1D b) r q := by
  unfold k1_pay1
  simp only [shapeCast_self]
  show mm0 x W (ix2 p q) + broadcastTo S128x2048 b broadcasts_S1x2048_S128x2048 (ix2 p q) = _
  rw [mm0_at, broadcastTo_1b_ab_apply]
  simp only [hx]
  rfl

theorem val1_q (c : Dev nD) : matBD ((dat1 V c).arrAt 6 cfg1.N) = lin (matBD (V c main_v20_0)) (matDD (V c main_v6)) (row1D (V c main_v7)) := by
  refine (congrArg matBD ((dat1 V c).arrAt_eq_of_cover 6 (arrBD _) (fun t _ => ?_) cover1_6)).trans (matBD_arrBD _)
  show (cfg1.win 6).cut (grid1.coords t) ((dat1 V c).after 6 t) = _
  rw [after1_6]
  unfold out1_6
  rw [View.canon_unit_zero hz]
  simp only [View.ld_unit_zero (S := S128x2048) hz, View.ld_unit_zero (S := S2048x2048) hz, View.ld_unit_zero (S := S1x2048) hz]
  rw [iblk1_2_eq, iblk1_3_eq]
  funext j
  rw [eq_ix2 j]
  refine Eq.trans ?_ (read1_6 _ t _).symm
  exact lin_tile1 _ _ _ _ _ _ (fun k => read1_0 _ t _) _

theorem val1_k (c : Dev nD) : matBD ((dat1 V c).arrAt 7 cfg1.N) = lin (matBD (V c main_v20_1)) (matDD (V c main_v8)) (row1D (V c main_v9)) := by
  refine (congrArg matBD ((dat1 V c).arrAt_eq_of_cover 7 (arrBD _) (fun t _ => ?_) cover1_7)).trans (matBD_arrBD _)
  show (cfg1.win 7).cut (grid1.coords t) ((dat1 V c).after 7 t) = _
  rw [after1_7]
  unfold out1_7
  rw [View.canon_unit_zero hz]
  simp only [View.ld_unit_zero (S := S128x2048) hz, View.ld_unit_zero (S := S2048x2048) hz, View.ld_unit_zero (S := S1x2048) hz]
  rw [iblk1_4_eq, iblk1_5_eq]
  funext j
  rw [eq_ix2 j]
  refine Eq.trans ?_ (read1_7 _ t _).symm
  exact lin_tile1 _ _ _ _ _ _ (fun k => read1_1 _ t _) _

end Cert.KernelIdeal.Hand

end
-- ==== Proof.KI.OpsAt2.lean ====
import proofs.«137432_j14851996910240_2_alg».proof.KernelIdeal
import proofs.«137432_j14851996910240_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal
open Idealize.ShloMosaic Idealize.ShloMosaic.ValueIdx
open scoped BigOperators

section General

variable [Facts₀]
open Facts₀

theorem ofBits_negInf_f32 : Ideal.ofBits .f32 0xFF800000#32 = ⊥ := by simp [Ideal.ofBits, Ideal.ieee]

/-- The column sums of a block, viewed as one row: the reduced index `j` with row `r` put back is `(r, j)`. -/
theorem colsum_row_at (y : FVec Ideal S128x2048 .f32) (u : Fin 1) (j : Fin 2048) :
    shapeCast S1x2048 (multiReduction (F := Ideal) .add [0] S2048 y 0x00000000#32 reduces_S128x2048_S2048 (.inl rfl) rfl)
        shapeCasts_S2048_S1x2048 (ix2 u j)
      = ∑ r : Fin 128, y (ix2 r j) :=
  (shapeCast_a_1a_apply _ _ u j).trans <|
    (Ideal.multiReduction_add_single y 0x00000000#32 reduces_S128x2048_S2048 (.inl rfl) rfl (ix1 j)).trans
      (Finset.sum_congr rfl fun _ _ => congrArg y (Shape.idx_ext₂ rfl rfl))

section Rows4
variable {α : Type} (a b c d : S1x2048.Idx → α)

/-- Row `k` of four stacked rows is piece `k`, every piece being one row. -/
theorem rows4_at (k : Fin 4) (j : Fin 2048) :
    concatenate S4x2048 0 [⟨S1x2048, a⟩, ⟨S1x2048, b⟩, ⟨S1x2048, c⟩, ⟨S1x2048, d⟩]
        concatenates_S1x2048_S1x2048_S1x2048_S1x2048_S4x2048_d0 (ix2 k j) = ![a, b, c, d] k (ix2 0 j) :=
  concatenate_ofFn_unit_apply (t := S4x2048) (s₁ := S1x2048) 0 ![a, b, c, d]
    concatenates_S1x2048_S1x2048_S1x2048_S1x2048_S4x2048_d0 rfl rfl (ix2 k j) k rfl (ix2 0 j)
    fun e he => match e, he with
      | ⟨0, _⟩, he => absurd rfl he
      | ⟨1, _⟩, _ => rfl

theorem rows4_at_0 (j : Fin 2048) :
    concatenate S4x2048 0 [⟨S1x2048, a⟩, ⟨S1x2048, b⟩, ⟨S1x2048, c⟩, ⟨S1x2048, d⟩]
        concatenates_S1x2048_S1x2048_S1x2048_S1x2048_S4x2048_d0 (ix2 (0 : Fin 4) j) = a (ix2 0 j) := rows4_at a b c d 0 j

theorem rows4_at_1 (j : Fin 2048) :
    concatenate S4x2048 0 [⟨S1x2048, a⟩, ⟨S1x2048, b⟩, ⟨S1x2048, c⟩, ⟨S1x2048, d⟩]
        concatenates_S1x2048_S1x2048_S1x2048_S1x2048_S4x2048_d0 (ix2 (1 : Fin 4) j) = b (ix2 0 j) := rows4_at a b c d 1 j

theorem rows4_at_2 (j : Fin 2048) :
    concatenate S4x2048 0 [⟨S1x2048, a⟩, ⟨S1x2048, b⟩, ⟨S1x2048, c⟩, ⟨S1x2048, d⟩]
        concatenates_S1x2048_S1x2048_S1x2048_S1x2048_S4x2048_d0 (ix2 (2 : Fin 4) j) = c (ix2 0 j) := rows4_at a b c d 2 j

theorem rows4_at_3 (j : Fin 2048) :
    concatenate S4x2048 0 [⟨S1x2048, a⟩, ⟨S1x2048, b⟩, ⟨S1x2048, c⟩, ⟨S1x2048, d⟩]
        concatenates_S1x2048_S1x2048_S1x2048_S1x2048_S4x2048_d0 (ix2 (3 : Fin 4) j) = d (ix2 0 j) := rows4_at a b c d 3 j

end Rows4

/-- A row's maximum from −∞: the reduced index `i` with column `j` put back is `(i, j)`. -/
theorem rowmax_at (v : FVec Ideal S2048x2048 .f32) (i : Fin 2048) :
    multiReduction (F := Ideal) .maximumf [1] S2048 v 0xFF800000#32 reduces_S2048x2048_S2048 (.inl rfl) rfl (ix1 i)
      = (Finset.univ : Finset (Fin 2048)).fold max ⊥ (fun j : Fin 2048 => v (ix2 i j)) := by
  refine (Ideal.multiReduction_maximumf_single v 0xFF800000#32 reduces_S2048x2048_S2048 (.inl rfl) rfl (ix1 i)).trans ?_
  have h0 : (FloatOps.ofBits (F := Ideal) .f32 0xFF800000#32 : EReal) = ⊥ := ofBits_negInf_f32
  have h1 : (v ∘ reduces_S2048x2048_S2048.lift (ix1 i)) = fun j : Fin 2048 => v (ix2 i j) :=
    funext fun _ => congrArg v (Shape.idx_ext₂ rfl rfl)
  rw [h0, h1]
  rfl

theorem rowsum_at (v : FVec Ideal S2048x2048 .f32) (i : Fin 2048) :
    multiReduction (F := Ideal) .add [1] S2048 v 0x00000000#32 reduces_S2048x2048_S2048 (.inl rfl) rfl (ix1 i)
      = ∑ j : Fin 2048, v (ix2 i j) :=
  (Ideal.multiReduction_add_single v 0x00000000#32 reduces_S2048x2048_S2048 (.inl rfl) rfl (ix1 i)).trans
    (Finset.sum_congr rfl fun _ _ => congrArg v (Shape.idx_ext₂ rfl rfl))

/-- A vector viewed as a column and spread over the columns reads, at `(i, j)`, the vector's entry `i`. -/
theorem vec_col_broadcast_at {α : Type} (x : S2048.Idx → α) (i j : Fin 2048) :
    broadcastTo S2048x2048 (shapeCast S2048x1 x shapeCasts_S2048_S2048x1) broadcasts_S2048x1_S2048x2048 (ix2 i j)
      = x (ix1 i) := by
  refine (broadcastTo_apply _ _ (ix2 i j) (ix2 i (0 : Fin 1)) fun ax => ?_).trans
    (shapeCast_apply x _ (ix2 i (0 : Fin 1)) (ix1 i) ?_)
  · match ax with
    | ⟨0, _⟩ =>
      show i.val = if (2048 : ℕ) = 1 then 0 else i.val
      rw [if_neg (by decide)]
    | ⟨1, _⟩ =>
      show (0 : ℕ) = if (1 : ℕ) = 1 then 0 else j.val
      rw [if_pos rfl]
  · rw [Shape.rowMajor_val_two, Shape.rowMajor_val_one]
    exact (Nat.mul_one _).symm

variable {s : Shape}

theorem truncf_bf16_at (x : FVec Ideal s .f32) (h : FTy.bits .bf16 < FTy.bits .f32) (i : s.Idx) :
    (truncf .bf16 x h : FVec Ideal s .bf16) i = x i := rfl

theorem zero_splat_at (i : s.Idx) : (broadcast s (Scalar.ofBits (F := Ideal) .f32 0x00000000#32) : FVec Ideal s .f32) i = (0 : EReal) :=
  Ideal.ofBits_zero_f32

theorem negInf_splat_at (i : s.Idx) : (broadcast s (Scalar.ofBits (F := Ideal) .f32 0xFF800000#32) : FVec Ideal s .f32) i = (⊥ : EReal) :=
  ofBits_negInf_f32

theorem relu_at (x : FVec Ideal s .f32) (i : s.Idx) :
    maximumf x (broadcast s (Scalar.ofBits (F := Ideal) .f32 0x00000000#32)) i = Cert.Spec.relu (x i) := by
  show max (x i) (Ideal.ofBits .f32 0x00000000#32) = max (x i) 0
  rw [Ideal.ofBits_zero_f32]

theorem logistic_at (x : FVec Ideal s .f32) (i : s.Idx) : logistic x i = Ideal.logistic (x i) := rfl

theorem exp_at (x : FVec Ideal s .f32) (i : s.Idx) : exp x i = Ideal.exp (x i) := rfl

end General

end Cert.KernelIdeal.Hand

end
-- ==== Proof.KI.Val2.lean ====
import proofs.«137432_j14851996910240_2_alg».proof.Proof.KI.Reg2
import proofs.«137432_j14851996910240_2_alg».proof.Proof.KI.Pay0
import proofs.«137432_j14851996910240_2_alg».proof.Proof.KI.Tiles
import proofs.«137432_j14851996910240_2_alg».proof.Proof.KI.OpsAt
import proofs.«137432_j14851996910240_2_alg».proof.Proof.KI.OpsAt2
import proofs.«137432_j14851996910240_2_alg».proof.Proof.Mats
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

section Cases
variable (c : Dev nD) (i : grid2.Coords) (arg1 : Memref sig .tc .vmem S128x2048 .f32) (harg1 : arg1.IsWhole) (arg2 : Memref sig .tc .vmem S128x2048 .f32) (harg2 : arg2.IsWhole) (arg3 : Memref sig .tc .vmem S2048x2048 .bf16) (harg3 : arg3.IsWhole) (arg4 : Memref sig .tc .vmem S2048x2048 .f32) (harg4 : arg4.IsWhole)
  (x0 x1 : Vec F S128x2048 .f32) (xs0 : Vec F S2048x2048 .f32)

theorem sout2_B_eq (hc0 : ¬cond2_0 i) (hc1 : ¬cond2_1 i) :
    sout2_B_0 c i arg1 harg1 arg2 harg2 arg3 harg3 arg4 harg4 hc0 hc1 x0 x1 xs0 = k2_pay2 x0 x1 xs0 := by
  unfold sout2_B_0
  rw [View.read_writes_eq_canon _ _ _ (scover2_B_0 c i arg1 harg1 arg2 harg2 arg3 harg3 arg4 harg4 hc0 hc1 x0 x1 xs0)]
  unfold kernelRun2_B
  dsimp only
  rw [View.canon_unit_zero (S := S2048x2048) hz]
  simp only [View.readAt_eq_ld, harg1.read_unread, harg2.read_unread, harg4.read_unread,
    View.ld_unit_zero (S := S128x2048) hz, View.ld_unit_zero (S := S2048x2048) hz]

theorem sout2_C_eq (hc0 : ¬cond2_0 i) (hc1 : cond2_1 i) :
    sout2_C_0 c i arg1 harg1 arg2 harg2 arg3 harg3 arg4 harg4 hc0 hc1 x0 x1 xs0 = k2_pay2 x0 x1 xs0 := by
  unfold sout2_C_0
  rw [View.read_writes_eq_canon _ _ _ (scover2_C_0 c i arg1 harg1 arg2 harg2 arg3 harg3 arg4 harg4 hc0 hc1 x0 x1 xs0)]
  unfold kernelRun2_C
  dsimp only
  sl_unfold_words
  rw [View.canon_unit_zero (S := S2048x2048) hz]
  simp only [View.readAt_eq_ld, harg1.read_unread, harg2.read_unread, harg4.read_unread,
    View.ld_unit_zero (S := S128x2048) hz, View.ld_unit_zero (S := S2048x2048) hz]

theorem out2_C_eq (hc0 : ¬cond2_0 i) (hc1 : cond2_1 i) :
    out2_C_2 c i arg1 harg1 arg2 harg2 arg3 harg3 arg4 harg4 hc0 hc1 x0 x1 xs0 = k2_pay3 (k2_pay2 x0 x1 xs0) := by
  unfold out2_C_2
  rw [View.read_writes_eq_canon _ _ _ (cover2_C_2 c i arg1 harg1 arg2 harg2 arg3 harg3 arg4 harg4 hc0 hc1 x0 x1 xs0)]
  unfold kernelRun2_C
  dsimp only
  sl_unfold_words
  rw [View.canon_unit_zero (S := S2048x2048) hz, View.readCov_unit_zero (S := S2048x2048) _ hz]
  simp only [View.readAt_eq_ld, harg1.read_unread, harg2.read_unread, harg4.read_unread,
    View.ld_unit_zero (S := S128x2048) hz, View.ld_unit_zero (S := S2048x2048) hz]

theorem sout2_A_eq (hc0 : cond2_0 i) (hc1 : ¬cond2_1 i) :
    sout2_A_0 c i arg1 harg1 arg2 harg2 arg3 harg3 arg4 harg4 hc0 hc1 x0 x1 = k2_pay2 x0 x1 (k2_pay1 (F := F)) := by
  unfold sout2_A_0
  rw [View.read_writes_eq_canon _ _ _ (scover2_A_0 c i arg1 harg1 arg2 harg2 arg3 harg3 arg4 harg4 hc0 hc1 x0 x1)]
  unfold kernelRun2_A
  dsimp only
  sl_unfold_words
  rw [View.canon_cons_unit_zero (S := S2048x2048) hz, View.readCov_unit_zero (S := S2048x2048) _ hz]
  simp only [View.readAt_eq_ld, harg1.read_unread, harg2.read_unread,
    View.ld_unit_zero (S := S128x2048) hz]

end Cases

section Chain
variable (V : (c : Dev nD) → (b : Ref sig .tc) → Buf (Elt F) ((c : Thread nD τ).loc b))

def acc2 (c : Dev nD) : (n : ℕ) → n < cfg2.N → Vec F S2048x2048 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩) (acc2 c n (Nat.lt_of_succ_lt h))

theorem outsAt2_snd (c : Dev nD) : ∀ (n : ℕ) (h : n < cfg2.N), (outsAt2 V c n h).2 = acc2 V c n h
  | 0, h => by
    rw [outsAt2_A V c ⟨0, h⟩ (by dsimp only) (by dsimp only; omega)]
    dsimp only
    exact sout2_A_eq ..
  | n + 1, h => by
    have hN : cfg2.N = 32 := N_2
    have h0 : ¬(⟨n + 1, h⟩ : Fin cfg2.N).val % 32 = 0 := by dsimp only; omega
    by_cases h1 : (⟨n + 1, h⟩ : Fin cfg2.N).val % 32 = 31
    · rw [outsAt2_C V c ⟨n + 1, h⟩ h0 h1]
      dsimp only
      rw [sout2_C_eq]
      exact congrArg (k2_pay2 _ _) (outsAt2_snd c n _)
    · rw [outsAt2_B V c ⟨n + 1, h⟩ h0 h1]
      dsimp only
      rw [sout2_B_eq]
      exact congrArg (k2_pay2 _ _) (outsAt2_snd c n _)

theorem lt31 : 31 < cfg2.N := by rw [show cfg2.N = 32 from N_2]; decide

theorem outsAt2_last (c : Dev nD) : (outsAt2 V c 31 lt31).1 = k2_pay3 (acc2 V c 31 lt31) := by
  rw [outsAt2_C V c ⟨31, lt31⟩ (by dsimp only; omega) (by dsimp only)]
  dsimp only
  rw [out2_C_eq]
  exact congrArg (fun x => k2_pay3 (k2_pay2 _ _ x)) (outsAt2_snd V c 30 _)

abbrev result2 (c : Dev nD) : Buf (Elt F) ((c : Thread nD τ).loc main_v22) := k2_pay3 (acc2 V c 31 lt31)

theorem idx2 : ∀ (t : Fin cfg2.N) (a : Fin 2),
    (win2_0.index t a = ![t.val, 0] a ∧ win2_1.index t a = ![t.val, 0] a) ∧ win2_2.index t a = 0 :=
  (by decide +kernel : ∀ t : Fin grid2.N, _)

theorem flushed2_eq (c : Dev nD) (t : Fin cfg2.N) (hf : (cfg2.win 2).flush t = true) :
    (dat2 V c).flushed 2 t = ((cfg2.win 2).blk t).view.read (Elt F) (result2 V c) := by
  have hN : cfg2.N = 32 := N_2
  have h31 : t.val = 31 := by have := (flush2_2 t).mp hf; have := t.isLt; omega
  obtain rfl : t = ⟨31, lt31⟩ := Fin.ext h31
  show (cfg2.win 2).cut (grid2.coords ⟨31, lt31⟩) ((dat2 V c).after 2 ⟨31, lt31⟩) = _
  rw [after2_2]
  show (outsAt2 V c 31 lt31).1 = _
  rw [outsAt2_last]
  exact funext fun j => congrArg (result2 V c)
    (funext fun a => Fin.ext (win2_2.rect_emb_val_of_index_zero _ a (idx2 _ a).2 j).symm)

-- With block index zero on every axis the block is the whole array: every index lies in it.
theorem whole_mem {S : Shape} (i : S.Idx) {idx : Fin S.rank → ℕ} (h : ∀ a, idx a = 0) (a : Fin S.rank) :
    idx a * S.size a ≤ (i a).val ∧ (i a).val < idx a * S.size a + S.size a := by
  rw [h a]; have := (i a).isLt; omega

theorem final2 (c : Dev nD) : (dat2 V c).arrAt 2 cfg2.N = result2 V c :=
  (dat2 V c).arrAt_eq_of_cover 2 (result2 V c) (flushed2_eq V c) fun (i : S2048x2048.Idx) =>
    ⟨⟨31, lt31⟩, (flush2_2 ⟨31, lt31⟩).mpr (by dsimp only),
      mem_slice_whole_unit main_v22 (whole_mem i fun a => (idx2 ⟨31, lt31⟩ a).2)⟩

end Chain

section Softmax

open Cert.Spec Idealize.ShloMosaic.ValueIdx
open scoped BigOperators

def k2RowMax (v : Vec Ideal S2048x2048 .f32) : FVec Ideal S2048 .f32 :=
  maximumf (broadcast S2048 (Scalar.ofBits (F := Ideal) .f32 0xFF800000#32))
    (multiReduction .maximumf [1] S2048 v 0xFF800000#32 reduces_S2048x2048_S2048 (.inl rfl) rfl)

def k2Num (v : Vec Ideal S2048x2048 .f32) : FVec Ideal S2048x2048 .f32 :=
  exp (subf v (broadcastTo S2048x2048 (shapeCast S2048x1 (k2RowMax v) shapeCasts_S2048_S2048x1) broadcasts_S2048x1_S2048x2048))

def k2RowSum (v : Vec Ideal S2048x2048 .f32) : FVec Ideal S2048 .f32 :=
  multiReduction .add [1] S2048 (k2Num v) 0x00000000#32 reduces_S2048x2048_S2048 (.inl rfl) rfl

theorem k2_pay3_eq (v : Vec Ideal S2048x2048 .f32) :
    k2_pay3 (F := Ideal) v
      = truncf .bf16 (divf (k2Num v)
          (broadcastTo S2048x2048 (shapeCast S2048x1 (k2RowSum v) shapeCasts_S2048_S2048x1) broadcasts_S2048x1_S2048x2048))
          bitsLt_bf16_f32 := rfl

theorem k2RowMax_at (v : Vec Ideal S2048x2048 .f32) (i : Fin 2048) : k2RowMax v (ix1 i) = rowmax (matDD v) i := by
  unfold k2RowMax
  rw [maximumf_apply, negInf_splat_at, rowmax_at]
  rfl

theorem k2Num_at (v : Vec Ideal S2048x2048 .f32) (i j : Fin 2048) : k2Num v (ix2 i j) = softmaxNum (matDD v) i j := by
  unfold k2Num
  rw [exp_at, subf_apply, vec_col_broadcast_at, k2RowMax_at]
  rfl

theorem k2RowSum_at (v : Vec Ideal S2048x2048 .f32) (i : Fin 2048) :
    k2RowSum v (ix1 i) = ∑ j' : Fin 2048, softmaxNum (matDD v) i j' := by
  unfold k2RowSum
  rw [rowsum_at]
  exact Finset.sum_congr rfl fun j' _ => k2Num_at v i j'

theorem k2_pay3_at (v : Vec Ideal S2048x2048 .f32) (i j : Fin 2048) :
    k2_pay3 (F := Ideal) v (ix2 i j) = Cert.Spec.softmax (Cert.Spec.matDD v) i j := by
  rw [k2_pay3_eq, truncf_bf16_at, divf_apply, vec_col_broadcast_at, k2Num_at, k2RowSum_at]
  rfl

end Softmax

section AtIdeal

open Cert.Spec Idealize.ShloMosaic.ValueIdx
open scoped BigOperators

variable (V : (c : Dev nD) → (b : Ref sig .tc) → Buf (Elt Ideal) ((c : Thread nD τ).loc b))

theorem pay1_at (y : S2048x2048.Idx) : k2_pay1 (F := Ideal) y = 0 := by
  unfold k2_pay1
  rw [shapeCast_self]
  exact Ideal.ofBits_zero_f32

theorem pay2_at (x0 x1 : Vec Ideal S128x2048 .f32) (xs : Vec Ideal S2048x2048 .f32) (i j : Fin 2048) :
    k2_pay2 x0 x1 xs (ix2 i j) = xs (ix2 i j) + ∑ r : Fin 128, x0 (ix2 r i) * x1 (ix2 r j) := by
  unfold k2_pay2
  simp only [shapeCast_self]
  rw [addf_apply, matmul_qTk_at]
  rfl

theorem read2_0 (G : S4096x2048.Idx → EReal) (t : Fin cfg2.N) (y : S128x2048.Idx) :
    ((cfg2.win 0).blk t).view.read (Elt Ideal) G y = G (ix2 (tileRow (Fin.cast N_2 t) (y 0)) (y 1)) :=
  congrArg G (tile_ext _ (fun a => (idx2 t a).1.1) (win2_0.rect_emb_val t y))

theorem read2_1 (G : S4096x2048.Idx → EReal) (t : Fin cfg2.N) (y : S128x2048.Idx) :
    ((cfg2.win 1).blk t).view.read (Elt Ideal) G y = G (ix2 (tileRow (Fin.cast N_2 t) (y 0)) (y 1)) :=
  congrArg G (tile_ext _ (fun a => (idx2 t a).1.2) (win2_1.rect_emb_val t y))

-- One accumulation step at point `n` adds tile `n`'s 128 products `q r i · k r j` to the entry.
theorem step2_at (c : Dev nD) (n : ℕ) (h : n < cfg2.N) (xs : Vec Ideal S2048x2048 .f32) (i j : Fin 2048) :
    k2_pay2 (iblk2 V c 0 ⟨n, h⟩) (iblk2 V c 1 ⟨n, h⟩) xs (ix2 i j)
      = xs (ix2 i j) + ∑ r : Fin 128, matBD (V c main_v21_0 : S4096x2048.Idx → EReal) (tileRow (Fin.cast N_2 ⟨n, h⟩) r) i
          * matBD (V c main_v21_1 : S4096x2048.Idx → EReal) (tileRow (Fin.cast N_2 ⟨n, h⟩) r) j := by
  rw [pay2_at]
  exact congrArg (_ + ·) (Finset.sum_congr rfl fun r _ => congrArg₂ (· * ·) (read2_0 _ ⟨n, h⟩ _) (read2_1 _ ⟨n, h⟩ _))

theorem acc2_at (c : Dev nD) (i j : Fin 2048) :
    acc2 V c 31 lt31 (ix2 i j)
      = sLogits (matBD (V c main_v21_0 : S4096x2048.Idx → EReal)) (matBD (V c main_v21_1 : S4096x2048.Idx → EReal)) i j :=
  acc31_eq_sum_rows
    (fun x => matBD (V c main_v21_0 : S4096x2048.Idx → EReal) x i * matBD (V c main_v21_1 : S4096x2048.Idx → EReal) x j)
    (fun t => acc2 V c t.val (lt_of_lt_of_eq t.isLt N_2.symm) (ix2 i j))
    ((step2_at V c 0 _ _ i j).trans (congrArg (· + _) (pay1_at _)))
    (fun t h => step2_at V c (t + 1) _ _ i j)

theorem val2_attn (c : Dev nD) :
    matDD ((dat2 V c).arrAt 2 cfg2.N)
      = softmax (sLogits (matBD (V c main_v21_0)) (matBD (V c main_v21_1))) := by
  rw [final2]
  have hacc : matDD (acc2 V c 31 lt31)
      = sLogits (matBD (V c main_v21_0 : S4096x2048.Idx → EReal)) (matBD (V c main_v21_1 : S4096x2048.Idx → EReal)) :=
    funext fun i => funext fun j => acc2_at V c i j
  funext i j
  show k2_pay3 (F := Ideal) (acc2 V c 31 lt31) (ix2 i j) = _
  rw [k2_pay3_at, hacc]

end AtIdeal

end Cert.KernelIdeal.Hand

end
-- ==== Proof.KI.Val3.lean ====
import proofs.«137432_j14851996910240_2_alg».proof.Proof.KI.Reg3
import proofs.«137432_j14851996910240_2_alg».proof.Proof.Mats
import proofs.«137432_j14851996910240_2_alg».proof.Proof.KI.OpsAt
import proofs.«137432_j14851996910240_2_alg».proof.Proof.KI.OpsAt2
import proofs.«137432_j14851996910240_2_alg».proof.Proof.KI.Tiles
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Hand

open Cert.KernelIdeal Cert.KernelIdeal.Gen Cert.Spec
open Idealize.ShloMosaic Idealize.ShloMosaic.TcCoe Idealize.SL.Sem Idealize.ShloMosaic.ValueIdx
open Idealize.ShloMosaic.Pipeline (Dat)
open scoped BigOperators

theorem val3_two_products_at (z : FVec Ideal S128x2048 .f32) (A : FVec Ideal S2048x2048 .bf16) (W : FVec Ideal S2048x2048 .bf16)
    (p : Fin 128) (q : Fin 2048) :
    matmul (F := Ideal) dot_S128x2048_S2048x2048_S128x2048_1_1_0_0_n_n none
        (truncf .bf16 (matmul (F := Ideal) dot_S128x2048_S2048x2048_S128x2048_1_0_0_1_n_n none
          (truncf .bf16 (shapeCast S128x2048 z shapeCasts_S128x2048_S128x2048) bitsLt_bf16_f32)
          (shapeCast S2048x2048 A shapeCasts_S2048x2048_S2048x2048) (constant S128x2048 .f32 0x00000000#32)) bitsLt_bf16_f32)
        (shapeCast S2048x2048 W shapeCasts_S2048x2048_S2048x2048) (constant S128x2048 .f32 0x00000000#32) (ix2 p q)
      = ∑ k : Fin 2048, (∑ i : Fin 2048, z (ix2 p i) * A (ix2 i k)) * W (ix2 q k) :=
  (matmul_xWt_at _ _ p q).trans (Finset.sum_congr rfl fun k _ => congrArg₂ (· * ·)
    ((matmul_plain_at _ _ p k).trans (Finset.sum_congr rfl fun i _ =>
      congrArg₂ (· * ·) (shapeCast_self_at z _ (ix2 p i)) (shapeCast_self_at A _ (ix2 i k))))
    (shapeCast_self_at W _ (ix2 q k)))

theorem val3_pay5_at (v3 : FVec Ideal S2048x2048 .bf16) (v17 : FVec Ideal S128x2048 .f32) (v22 : FVec Ideal S2048x2048 .bf16)
    (v25 : FVec Ideal S1x2048 .f32) (p : Fin 128) (q : Fin 2048) :
    k3_pay5 (F := Ideal) v3 v17 v22 v25 (ix2 p q)
      = (∑ k : Fin 2048, (∑ i : Fin 2048, v17 (ix2 p i) * v3 (ix2 i k)) * v22 (ix2 q k)) + v25 (ix2 (0 : Fin 1) q) := by
  unfold k3_pay5 k3_pay4
  exact congrArg₂ (· + ·) (val3_two_products_at v17 v3 v22 p q) (bias_at v25 p q)

theorem val3_pay6_at (v3 : FVec Ideal S2048x2048 .bf16) (v5 : FVec Ideal S128x2048 .f32) (v10 : FVec Ideal S2048x2048 .bf16)
    (v13 : FVec Ideal S1x2048 .f32) (v29 : FVec Ideal S128x2048 .f32) (p : Fin 128) (q : Fin 2048) :
    k3_pay6 (F := Ideal) v3 v5 v10 v13 v29 (ix2 p q)
      = v29 (ix2 p q) + ((∑ k : Fin 2048, (∑ i : Fin 2048, v5 (ix2 p i) * v3 (ix2 i k)) * v10 (ix2 q k)) + v13 (ix2 (0 : Fin 1) q)) := by
  unfold k3_pay6 k3_pay4
  exact congrArg₂ (· + ·) (shapeCast_self_at v29 _ (ix2 p q))
    (congrArg₂ (· + ·) (val3_two_products_at v5 v3 v10 p q) (bias_at v13 p q))

theorem val3_pay1_at (v28 v32 : FVec Ideal S128x2048 .f32) (p : Fin 128) (q : Fin 2048) :
    k3_pay1 (F := Ideal) v28 (k3_pay7 (F := Ideal) v32) (ix2 p q) = v32 (ix2 p q) + v28 (ix2 p q) := by
  unfold k3_pay1 k3_pay7
  exact congrArg₂ (· + ·) (shapeCast_self_at v32 _ (ix2 p q)) rfl

def stat3 (y1 y2 : FVec Ideal S128x2048 .f32) (j : Fin 2048) : Fin 4 → EReal
  | 0 => ∑ r : Fin 128, y1 (ix2 r j)
  | 1 => ∑ r : Fin 128, y1 (ix2 r j) * y1 (ix2 r j)
  | 2 => ∑ r : Fin 128, y2 (ix2 r j)
  | 3 => ∑ r : Fin 128, y2 (ix2 r j) * y2 (ix2 r j)

theorem val3_pay2_at (v28 v31 v33 : FVec Ideal S128x2048 .f32) (v48 : FVec Ideal S4x2048 .f32) (k : Fin 4) (j : Fin 2048) :
    k3_pay2 (F := Ideal) v28 v31 v33 v48 (ix2 k j) = v48 (ix2 k j) + stat3 v31 (k3_pay1 (F := Ideal) v28 v33) j k := by
  unfold k3_pay2
  refine (shapeCast_self_at _ shapeCasts_S4x2048_S4x2048 (ix2 k j)).trans (congrArg₂ (· + ·) rfl ?_)
  match k with
  | ⟨0, _⟩ => exact (rows4_at_0 _ _ _ _ j).trans (colsum_row_at v31 0 j)
  | ⟨1, _⟩ => exact (rows4_at_1 _ _ _ _ j).trans (colsum_row_at (mulf v31 v31) 0 j)
  | ⟨2, _⟩ => exact (rows4_at_2 _ _ _ _ j).trans (colsum_row_at (k3_pay1 (F := Ideal) v28 v33) 0 j)
  | ⟨3, _⟩ => exact (rows4_at_3 _ _ _ _ j).trans (colsum_row_at (mulf (k3_pay1 (F := Ideal) v28 v33) (k3_pay1 (F := Ideal) v28 v33)) 0 j)

/-- An entry of a window's block sits in the array at the block's offset plus its own index. -/
theorem emb_eq3 {G : Pipeline.Grid} (W : Pipeline.Window sig G) (t : Fin G.N) (y : (W.xblock (G.coords t)).Idx) (k : W.shape.Idx)
    {o : Fin W.shape.rank → ℕ} (ho : ∀ a, W.index t a * W.size a = o a) (h : ∀ a, o a + (y a).val = (k a).val) :
    (W.rect t).emb y = k :=
  funext fun a => Fin.ext ((W.rect_emb_val t y a).trans (ho a ▸ h a))

/-- The blocks' offsets at point `t`: a row tile (windows 0 to 3, 9, 10) starts at row `128 t`, every other block at the origin. -/
theorem off3 : ∀ (t : Fin cfg3.N) (w : Fin cfg3.W) (a : Fin (cfg3.win w).shape.rank),
    (cfg3.win w).index t a * (cfg3.win w).size a = if (w.val < 4 ∨ w.val = 9 ∨ w.val = 10) ∧ a.val = 0 then 128 * t.val else 0 :=
  (by decide +kernel : ∀ t : Fin grid3.N, _)

variable (V : (c : Dev nD) → (b : Ref sig .tc) → Buf (Elt Ideal) ((c : Thread nD τ).loc b))

section
variable (c : Dev nD) (t : Fin cfg3.N)

theorem blk3_4 : (iblk3 V c 4 t : S2048x2048.Idx → EReal) = V c main_v22 :=
  funext fun j => congrArg (V c main_v22) (emb_eq3 win3_4 t j j (off3 t 4) fun _ => Nat.zero_add _)
theorem blk3_5 : (iblk3 V c 5 t : S2048x2048.Idx → EReal) = V c main_v10 :=
  funext fun j => congrArg (V c main_v10) (emb_eq3 win3_5 t j j (off3 t 5) fun _ => Nat.zero_add _)
theorem blk3_6 : (iblk3 V c 6 t : S1x2048.Idx → EReal) = V c main_v11 :=
  funext fun j => congrArg (V c main_v11) (emb_eq3 win3_6 t j j (off3 t 6) fun _ => Nat.zero_add _)
theorem blk3_7 : (iblk3 V c 7 t : S2048x2048.Idx → EReal) = V c main_v12 :=
  funext fun j => congrArg (V c main_v12) (emb_eq3 win3_7 t j j (off3 t 7) fun _ => Nat.zero_add _)
theorem blk3_8 : (iblk3 V c 8 t : S1x2048.Idx → EReal) = V c main_v13 :=
  funext fun j => congrArg (V c main_v13) (emb_eq3 win3_8 t j j (off3 t 8) fun _ => Nat.zero_add _)

variable (p : Fin 128) (r : Fin 4096) (hr : r.val = 128 * t.val + p.val)
include hr

theorem blk3_0 (k : Fin 2048) :
    (iblk3 V c 0 t : S128x2048.Idx → EReal) (ix2 p k) = (V c main_v21_0 : S4096x2048.Idx → EReal) (ix2 r k) :=
  congrArg (V c main_v21_0) (emb_eq3 win3_0 t (ix2 p k) (ix2 r k) (off3 t 0) (Fin.forall_fin_two.2 ⟨hr.symm, Nat.zero_add _⟩))
theorem blk3_1 (k : Fin 2048) :
    (iblk3 V c 1 t : S128x2048.Idx → EReal) (ix2 p k) = (V c main_v21_1 : S4096x2048.Idx → EReal) (ix2 r k) :=
  congrArg (V c main_v21_1) (emb_eq3 win3_1 t (ix2 p k) (ix2 r k) (off3 t 1) (Fin.forall_fin_two.2 ⟨hr.symm, Nat.zero_add _⟩))
theorem blk3_2 (k : Fin 2048) :
    (iblk3 V c 2 t : S128x2048.Idx → EReal) (ix2 p k) = (V c main_v20_0 : S4096x2048.Idx → EReal) (ix2 r k) :=
  congrArg (V c main_v20_0) (emb_eq3 win3_2 t (ix2 p k) (ix2 r k) (off3 t 2) (Fin.forall_fin_two.2 ⟨hr.symm, Nat.zero_add _⟩))
theorem blk3_3 (k : Fin 2048) :
    (iblk3 V c 3 t : S128x2048.Idx → EReal) (ix2 p k) = (V c main_v20_1 : S4096x2048.Idx → EReal) (ix2 r k) :=
  congrArg (V c main_v20_1) (emb_eq3 win3_3 t (ix2 p k) (ix2 r k) (off3 t 3) (Fin.forall_fin_two.2 ⟨hr.symm, Nat.zero_add _⟩))

/-- A row of either product reads one row of its left operand only, and that row is in the tile. -/
theorem y1At3_apply (q : Fin 2048) :
    (y1At3 (iblk3 V c 0 t) (iblk3 V c 2 t) (iblk3 V c 4 t) (iblk3 V c 5 t) (iblk3 V c 6 t)) (ix2 p q) = (sY (matBD (V c main_v20_0)) (matBD (V c main_v21_0)) (matDD (V c main_v22)) (matDD (V c main_v10)) (row1D (V c main_v11))) r q := by
  unfold y1At3
  simp only [View.ld_unit_zero (S := S128x2048) hz3, View.ld_unit_zero (S := S2048x2048) hz3, View.ld_unit_zero (S := S1x2048) hz3, blk3_4 V c t, blk3_5 V c t, blk3_6 V c t]
  refine (val3_pay6_at _ _ _ _ _ p q).trans ?_
  simp only [blk3_0 V c t p r hr, blk3_2 V c t p r hr]
  rfl

theorem y2At3_apply (q : Fin 2048) :
    (y2At3 (iblk3 V c 1 t) (iblk3 V c 3 t) (iblk3 V c 4 t) (iblk3 V c 7 t) (iblk3 V c 8 t)) (ix2 p q) = (sY (matBD (V c main_v20_1)) (matBD (V c main_v21_1)) (matDD (V c main_v22)) (matDD (V c main_v12)) (row1D (V c main_v13))) r q := by
  unfold y2At3 v2At3
  simp only [View.ld_unit_zero (S := S128x2048) hz3, View.ld_unit_zero (S := S2048x2048) hz3, View.ld_unit_zero (S := S1x2048) hz3, blk3_4 V c t, blk3_7 V c t, blk3_8 V c t]
  refine (val3_pay1_at _ _ p q).trans ?_
  rw [val3_pay5_at]
  simp only [blk3_1 V c t p r hr, blk3_3 V c t p r hr]
  rfl

end

theorem covered3_9 (i : S4096x2048.Idx) :
    ∃ t : Fin cfg3.N, (cfg3.win 9).flush t = true ∧ i ∈ ((cfg3.win 9).blk t).view.set := by
  have hi : (i 0).val < 4096 := (i 0).isLt
  obtain ⟨t, ht⟩ : ∃ t : Fin cfg3.N, t.val = (i 0).val / 128 := ⟨⟨_, lt_of_lt_of_eq (by omega : (i 0).val / 128 < 32) N_3.symm⟩, rfl⟩
  obtain ⟨p, hp⟩ : ∃ p : Fin 128, p.val = (i 0).val % 128 := ⟨⟨_, Nat.mod_lt _ (by decide)⟩, rfl⟩
  have he : ((cfg3.win 9).blk t).view.emb (ix2 p (i 1)) = i :=
    emb_eq3 win3_9 t _ _ (off3 t 9) (Fin.forall_fin_two.2 ⟨by show 128 * t.val + p.val = (i 0).val; omega, Nat.zero_add _⟩)
  exact ⟨t, flush3_9 t, he ▸ View.emb_mem_set _ _⟩

theorem val3_y1 (c : Dev nD) : matBD ((dat3 V c).arrAt 9 cfg3.N) = sY (matBD (V c main_v20_0)) (matBD (V c main_v21_0)) (matDD (V c main_v22)) (matDD (V c main_v10)) (row1D (V c main_v11)) := by
  refine (congrArg matBD ((dat3 V c).arrAt_eq_of_cover 9 (arrBD _) (fun t _ => ?_) covered3_9)).trans (matBD_arrBD _)
  show (cfg3.win 9).cut (grid3.coords t) ((dat3 V c).after 9 t) = _
  rw [after3_9]
  unfold out3_9
  rw [View.canon_unit_zero hz3]
  funext j
  obtain ⟨p, q, rfl⟩ : ∃ (p : Fin 128) (q : Fin 2048), j = ix2 p q := ⟨j 0, j 1, eq_ix2 j⟩
  have ht : t.val < 32 := lt_of_lt_of_eq t.isLt N_3
  obtain ⟨r, hr⟩ : ∃ r : Fin 4096, r.val = 128 * t.val + p.val := ⟨⟨_, by omega⟩, rfl⟩
  exact (y1At3_apply V c t p r hr q).trans ((arrBD_apply _ r q).symm.trans (congrArg (arrBD _)
    (emb_eq3 win3_9 t (ix2 p q) (ix2 r q) (off3 t 9) (Fin.forall_fin_two.2 ⟨hr.symm, Nat.zero_add _⟩)).symm))

theorem covered3_10 (i : S4096x2048.Idx) :
    ∃ t : Fin cfg3.N, (cfg3.win 10).flush t = true ∧ i ∈ ((cfg3.win 10).blk t).view.set := by
  have hi : (i 0).val < 4096 := (i 0).isLt
  obtain ⟨t, ht⟩ : ∃ t : Fin cfg3.N, t.val = (i 0).val / 128 := ⟨⟨_, lt_of_lt_of_eq (by omega : (i 0).val / 128 < 32) N_3.symm⟩, rfl⟩
  obtain ⟨p, hp⟩ : ∃ p : Fin 128, p.val = (i 0).val % 128 := ⟨⟨_, Nat.mod_lt _ (by decide)⟩, rfl⟩
  have he : ((cfg3.win 10).blk t).view.emb (ix2 p (i 1)) = i :=
    emb_eq3 win3_10 t _ _ (off3 t 10) (Fin.forall_fin_two.2 ⟨by show 128 * t.val + p.val = (i 0).val; omega, Nat.zero_add _⟩)
  exact ⟨t, flush3_10 t, he ▸ View.emb_mem_set _ _⟩

theorem val3_y2 (c : Dev nD) : matBD ((dat3 V c).arrAt 10 cfg3.N) = sY (matBD (V c main_v20_1)) (matBD (V c main_v21_1)) (matDD (V c main_v22)) (matDD (V c main_v12)) (row1D (V c main_v13)) := by
  refine (congrArg matBD ((dat3 V c).arrAt_eq_of_cover 10 (arrBD _) (fun t _ => ?_) covered3_10)).trans (matBD_arrBD _)
  show (cfg3.win 10).cut (grid3.coords t) ((dat3 V c).after 10 t) = _
  rw [after3_10]
  unfold out3_10
  rw [View.canon_unit_zero hz3]
  funext j
  obtain ⟨p, q, rfl⟩ : ∃ (p : Fin 128) (q : Fin 2048), j = ix2 p q := ⟨j 0, j 1, eq_ix2 j⟩
  have ht : t.val < 32 := lt_of_lt_of_eq t.isLt N_3
  obtain ⟨r, hr⟩ : ∃ r : Fin 4096, r.val = 128 * t.val + p.val := ⟨⟨_, by omega⟩, rfl⟩
  exact (y2At3_apply V c t p r hr q).trans ((arrBD_apply _ r q).symm.trans (congrArg (arrBD _)
    (emb_eq3 win3_10 t (ix2 p q) (ix2 r q) (off3 t 10) (Fin.forall_fin_two.2 ⟨hr.symm, Nat.zero_add _⟩)).symm))
theorem zero3_apply (i : S8x2048.Idx) : (zero3 (F := Ideal) : FVec Ideal S8x2048 .f32) i = (0 : EReal) := by
  unfold zero3 k3_pay3
  exact (shapeCast_self_at _ shapeCasts_S8x2048_S8x2048 i).trans (zero_splat_at i)

abbrev row3 (k : Fin 4) (j : Fin 2048) : S8x2048.Idx := ix2 (⟨k.val, Nat.lt_of_lt_of_le k.isLt (by decide)⟩ : Fin 8) j

theorem scr3_row_at (x0 x1 x2 x3 : FVec Ideal S128x2048 .f32) (x4 x5 : FVec Ideal S2048x2048 .bf16) (x6 : FVec Ideal S1x2048 .f32)
    (x7 : FVec Ideal S2048x2048 .bf16) (x8 : FVec Ideal S1x2048 .f32) (s : FVec Ideal S8x2048 .f32) (k : Fin 4) (j : Fin 2048) :
    (scr3 (F := Ideal) x0 x1 x2 x3 x4 x5 x6 x7 x8 s : FVec Ideal S8x2048 .f32) (row3 k j)
      = s (row3 k j) + stat3 (y1At3 (F := Ideal) x0 x2 x4 x5 x6) (y2At3 (F := Ideal) x1 x3 x4 x7 x8) j k := by
  have he : r3_h.emb (ix2 k j) = row3 k j :=
    Shape.idx_ext₂ (by show 0 + 1 * k.val = k.val; omega) (by show 0 + 1 * j.val = j.val; omega)
  unfold scr3
  rw [← he, Rect.overlay_emb]
  exact val3_pay2_at _ _ _ _ k j

theorem scrAt3_last_row (c : Dev nD) (j : Fin 2048) (k : Fin 4) (f : Fin 4096 → EReal) (hlt : ∀ t : Fin 32, t.val < cfg3.N)
    (hf : ∀ t : Fin 32, stat3 (y1At3 (iblk3 V c 0 ⟨t.val, hlt t⟩) (iblk3 V c 2 ⟨t.val, hlt t⟩) (iblk3 V c 4 ⟨t.val, hlt t⟩) (iblk3 V c 5 ⟨t.val, hlt t⟩) (iblk3 V c 6 ⟨t.val, hlt t⟩)) (y2At3 (iblk3 V c 1 ⟨t.val, hlt t⟩) (iblk3 V c 3 ⟨t.val, hlt t⟩) (iblk3 V c 4 ⟨t.val, hlt t⟩) (iblk3 V c 7 ⟨t.val, hlt t⟩) (iblk3 V c 8 ⟨t.val, hlt t⟩)) j k = ∑ r : Fin 128, f (tileRow t r))
    (h31 : 31 < cfg3.N) :
    (scrAt3 V c 31 h31 : FVec Ideal S8x2048 .f32) (row3 k j) = ∑ x : Fin 4096, f x := by
  refine acc31_eq_sum_rows f (fun t => (scrAt3 V c t.val (hlt t) : FVec Ideal S8x2048 .f32) (row3 k j)) ?_ ?_
  · show (stepAt3 V c ⟨0, hlt 0⟩ (zero3 (F := Ideal)) : FVec Ideal S8x2048 .f32) (row3 k j) = _
    exact (scr3_row_at _ _ _ _ _ _ _ _ _ _ k j).trans (congrArg₂ (· + ·) (zero3_apply _) (hf 0))
  · intro t h
    show (stepAt3 V c ⟨t + 1, hlt ⟨t + 1, h⟩⟩ (scrAt3 V c t (hlt ⟨t, by omega⟩)) : FVec Ideal S8x2048 .f32) (row3 k j) = _
    exact (scr3_row_at _ _ _ _ _ _ _ _ _ _ k j).trans (congrArg₂ (· + ·) rfl (hf ⟨t + 1, h⟩))

theorem covered3_11 (i : S8x2048.Idx) : ∃ t : Fin cfg3.N, (cfg3.win 11).flush t = true ∧ i ∈ ((cfg3.win 11).blk t).view.set := by
  obtain ⟨t, ht⟩ : ∃ t : Fin cfg3.N, t.val = 31 := ⟨⟨31, lt_of_lt_of_eq (by decide) N_3.symm⟩, rfl⟩
  have he : ((cfg3.win 11).blk t).view.emb i = i := emb_eq3 win3_11 t i i (off3 t 11) fun _ => Nat.zero_add _
  exact ⟨t, (flush3_11 t).mpr (by rw [ht]), he ▸ View.emb_mem_set _ _⟩

/-- Window 11's block at the last point is the whole array, so the array ends as the scratch after that point. -/
theorem final3_11 (c : Dev nD) (h31 : 31 < cfg3.N) : (dat3 V c).arrAt 11 cfg3.N = scrAt3 V c 31 h31 := by
  refine (dat3 V c).arrAt_eq_of_cover 11 _ (fun t hf => ?_) covered3_11
  obtain ⟨n, hn⟩ := t
  obtain rfl : n = 31 := by
    have h : n % 32 = 31 := (flush3_11 _).mp hf
    have hn' : n < 32 := lt_of_lt_of_eq hn N_3
    omega
  show (cfg3.win 11).cut (grid3.coords _) ((dat3 V c).after 11 _) = _
  rw [after3_11]
  funext y
  exact congrArg (scrAt3 V c 31 h31) (emb_eq3 win3_11 _ y y (off3 _ 11) fun _ => Nat.zero_add _).symm

theorem val3_stats (c : Dev nD) (j : Fin 2048) :
    ((dat3 V c).arrAt 11 cfg3.N : S8x2048.Idx → Elt Ideal .f32) (ix2 (0 : Fin 8) j) = colSum (sY (matBD (V c main_v20_0)) (matBD (V c main_v21_0)) (matDD (V c main_v22)) (matDD (V c main_v10)) (row1D (V c main_v11))) j
    ∧ ((dat3 V c).arrAt 11 cfg3.N : S8x2048.Idx → Elt Ideal .f32) (ix2 (1 : Fin 8) j) = colSumSq (sY (matBD (V c main_v20_0)) (matBD (V c main_v21_0)) (matDD (V c main_v22)) (matDD (V c main_v10)) (row1D (V c main_v11))) j
    ∧ ((dat3 V c).arrAt 11 cfg3.N : S8x2048.Idx → Elt Ideal .f32) (ix2 (2 : Fin 8) j) = colSum (sY (matBD (V c main_v20_1)) (matBD (V c main_v21_1)) (matDD (V c main_v22)) (matDD (V c main_v12)) (row1D (V c main_v13))) j
    ∧ ((dat3 V c).arrAt 11 cfg3.N : S8x2048.Idx → Elt Ideal .f32) (ix2 (3 : Fin 8) j) = colSumSq (sY (matBD (V c main_v20_1)) (matBD (V c main_v21_1)) (matDD (V c main_v22)) (matDD (V c main_v12)) (row1D (V c main_v13))) j := by
  have hN : cfg3.N = 32 := N_3
  have h31 : 31 < cfg3.N := by omega
  have hlt : ∀ t : Fin 32, t.val < cfg3.N := fun t => by omega
  have hr : ∀ (t : Fin 32) (r : Fin 128), (tileRow t r).val = 128 * (⟨t.val, hlt t⟩ : Fin cfg3.N).val + r.val :=
    fun t r => by show t.val * 128 + r.val = 128 * t.val + r.val; omega
  have h1 := fun (t : Fin 32) (r : Fin 128) => y1At3_apply V c ⟨t.val, hlt t⟩ r (tileRow t r) (hr t r) j
  have h2 := fun (t : Fin 32) (r : Fin 128) => y2At3_apply V c ⟨t.val, hlt t⟩ r (tileRow t r) (hr t r) j
  rw [final3_11 V c h31]
  exact ⟨scrAt3_last_row V c j 0 _ hlt (fun t => Finset.sum_congr rfl fun r _ => h1 t r) h31,
    scrAt3_last_row V c j 1 _ hlt (fun t => Finset.sum_congr rfl fun r _ => congrArg₂ (· * ·) (h1 t r) (h1 t r)) h31,
    scrAt3_last_row V c j 2 _ hlt (fun t => Finset.sum_congr rfl fun r _ => h2 t r) h31,
    scrAt3_last_row V c j 3 _ hlt (fun t => Finset.sum_congr rfl fun r _ => congrArg₂ (· * ·) (h2 t r) (h2 t r)) h31⟩

end Cert.KernelIdeal.Hand

end
-- ==== Proof.KI.Val4.lean ====
import proofs.«137432_j14851996910240_2_alg».proof.Proof.KI.Reg4
import proofs.«137432_j14851996910240_2_alg».proof.Proof.Mats
import proofs.«137432_j14851996910240_2_alg».proof.Proof.KI.OpsAt
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)
open scoped BigOperators

theorem k4_pay2_at (x : Vec Ideal S128x2048 .f32) (mean inv g beta : Vec Ideal S1x2048 .f32) (p : Fin 128) (q : Fin 2048) :
    k4_pay2 x mean inv g beta (ix2 p q)
      = (x (ix2 p q) - mean (ix2 (0 : Fin 1) q)) * inv (ix2 (0 : Fin 1) q) * g (ix2 (0 : Fin 1) q) + beta (ix2 (0 : Fin 1) q) := by
  unfold k4_pay2
  simp only [addf_apply, mulf_apply, subf_apply, shapeCast_self, broadcastTo_1b_ab_apply]

theorem k4_pay4_at (x : Vec Ideal S128x2048 .f32) (mean inv g beta : Vec Ideal S1x2048 .f32) (p : Fin 128) (q : Fin 2048) :
    k4_pay4 x mean inv g beta (ix2 p q) = k4_pay2 x mean inv g beta (ix2 p q) := by
  unfold k4_pay4
  rfl

theorem k4_pay1_at (u : FVec Ideal S128x2048 .f32) (u' : FVec Ideal S128x2048 .bf16) (W1 : Vec Ideal S2048x2048 .bf16)
    (b1 : Vec Ideal S1x2048 .f32) (W2 : Vec Ideal S2048x2048 .bf16) (b2 : Vec Ideal S1x2048 .f32) (p : Fin 128) (q : Fin 2048) :
    k4_pay1 u u' W1 b1 W2 b2 (ix2 p q)
      = (u (ix2 p q) + max ((∑ k : Fin 2048, u' (ix2 p k) * W1 (ix2 q k)) + b1 (ix2 (0 : Fin 1) q)) 0)
        + max ((∑ k : Fin 2048, (u (ix2 p k) + max ((∑ k' : Fin 2048, u' (ix2 p k') * W1 (ix2 k k')) + b1 (ix2 (0 : Fin 1) k)) 0)
            * W2 (ix2 q k)) + b2 (ix2 (0 : Fin 1) q)) 0 := by
  unfold k4_pay1
  simp only [addf_apply, maximumf_apply, broadcast_apply, truncf_apply, shapeCast_self, broadcastTo_1b_ab_apply, matmul_xWt_at]
  rw [show (Scalar.ofBits (F := Ideal) .f32 0x00000000#32) = (0 : EReal) from Ideal.ofBits_zero_f32]

theorem tile4_xd (A0 : Vec Ideal S4096x2048 .f32) (A2 A3 A6 A7 : Vec Ideal S1x2048 .f32) (A8 : Vec Ideal S2048x2048 .bf16)
    (A9 : Vec Ideal S1x2048 .f32) (A10 : Vec Ideal S2048x2048 .bf16) (A11 : Vec Ideal S1x2048 .f32)
    (B0 : Vec Ideal S128x2048 .f32) (r : Fin 4096) (p : Fin 128) (q : Fin 2048)
    (h0 : ∀ k : Fin 2048, B0 (ix2 p k) = A0 (ix2 r k)) :
    k4_pay1 (k4_pay2 B0 A2 A3 A6 A7) (k4_pay4 B0 A2 A3 A6 A7) A8 A9 A10 A11 (ix2 p q)
      = resblock (resblock (sBN (matBD A0) (row1D A2) (row1D A3) (row1D A6) (row1D A7)) (matDD A8) (row1D A9)) (matDD A10) (row1D A11) r q := by
  rw [k4_pay1_at]
  simp only [k4_pay4_at, k4_pay2_at, h0]
  rfl

theorem tile4_x2 (A1 : Vec Ideal S4096x2048 .f32) (A4 A5 A6 A7 : Vec Ideal S1x2048 .f32)
    (B1 : Vec Ideal S128x2048 .f32) (r : Fin 4096) (p : Fin 128) (q : Fin 2048)
    (h1 : B1 (ix2 p q) = A1 (ix2 r q)) :
    k4_pay3 B1 A4 A5 A6 A7 (ix2 p q) = sBN (matBD A1) (row1D A4) (row1D A5) (row1D A6) (row1D A7) r q := by
  refine (k4_pay2_at B1 A4 A5 A6 A7 p q).trans ?_
  rw [h1]
  rfl

/-- An entry of a window's block sits in the array at the block's offset plus its own index. -/
theorem emb_eq4 {G : Pipeline.Grid} (W : Pipeline.Window sig G) (t : Fin G.N) (y : (W.xblock (G.coords t)).Idx) (k : W.shape.Idx)
    {o : Fin W.shape.rank → ℕ} (ho : ∀ a, W.index t a * W.size a = o a) (h : ∀ a, o a + (y a).val = (k a).val) :
    (W.rect t).emb y = k :=
  funext fun a => Fin.ext ((W.rect_emb_val t y a).trans (ho a ▸ h a))

/-- The blocks' offsets at point `t`: a row tile (windows 0, 1, 12, 13) starts at row `128 t`, every other block at the origin. -/
theorem off4 : ∀ (t : Fin cfg4.N) (w : Fin cfg4.W) (a : Fin (cfg4.win w).shape.rank),
    (cfg4.win w).index t a * (cfg4.win w).size a = if (w.val < 2 ∨ 11 < w.val) ∧ a.val = 0 then 128 * t.val else 0 :=
  (by decide +kernel : ∀ t : Fin grid4.N, _)

theorem hz4 : (![0, 0] : Fin 2 → Nat) = fun _ => 0 := funext fun a => by fin_cases a <;> rfl

variable (V : (c : Dev nD) → (b : Ref sig .tc) → Buf (Elt Ideal) ((c : Thread nD τ).loc b))

section
variable (c : Dev nD) (t : Fin cfg4.N)

theorem blk4_2 : (iblk4 V c 2 t : S1x2048.Idx → EReal) = V c main_v26 :=
  funext fun j => congrArg (V c main_v26) (emb_eq4 win4_2 t j j (off4 t 2) fun _ => Nat.zero_add _)
theorem blk4_3 : (iblk4 V c 3 t : S1x2048.Idx → EReal) = V c main_v34 :=
  funext fun j => congrArg (V c main_v34) (emb_eq4 win4_3 t j j (off4 t 3) fun _ => Nat.zero_add _)
theorem blk4_4 : (iblk4 V c 4 t : S1x2048.Idx → EReal) = V c main_v37 :=
  funext fun j => congrArg (V c main_v37) (emb_eq4 win4_4 t j j (off4 t 4) fun _ => Nat.zero_add _)
theorem blk4_5 : (iblk4 V c 5 t : S1x2048.Idx → EReal) = V c main_v45 :=
  funext fun j => congrArg (V c main_v45) (emb_eq4 win4_5 t j j (off4 t 5) fun _ => Nat.zero_add _)
theorem blk4_6 : (iblk4 V c 6 t : S1x2048.Idx → EReal) = V c main_v18 :=
  funext fun j => congrArg (V c main_v18) (emb_eq4 win4_6 t j j (off4 t 6) fun _ => Nat.zero_add _)
theorem blk4_7 : (iblk4 V c 7 t : S1x2048.Idx → EReal) = V c main_v19 :=
  funext fun j => congrArg (V c main_v19) (emb_eq4 win4_7 t j j (off4 t 7) fun _ => Nat.zero_add _)
theorem blk4_8 : (iblk4 V c 8 t : S2048x2048.Idx → EReal) = V c main_v14 :=
  funext fun j => congrArg (V c main_v14) (emb_eq4 win4_8 t j j (off4 t 8) fun _ => Nat.zero_add _)
theorem blk4_9 : (iblk4 V c 9 t : S1x2048.Idx → EReal) = V c main_v15 :=
  funext fun j => congrArg (V c main_v15) (emb_eq4 win4_9 t j j (off4 t 9) fun _ => Nat.zero_add _)
theorem blk4_10 : (iblk4 V c 10 t : S2048x2048.Idx → EReal) = V c main_v16 :=
  funext fun j => congrArg (V c main_v16) (emb_eq4 win4_10 t j j (off4 t 10) fun _ => Nat.zero_add _)
theorem blk4_11 : (iblk4 V c 11 t : S1x2048.Idx → EReal) = V c main_v17 :=
  funext fun j => congrArg (V c main_v17) (emb_eq4 win4_11 t j j (off4 t 11) fun _ => Nat.zero_add _)

variable (p : Fin 128) (r : Fin 4096) (hr : r.val = 128 * t.val + p.val)
include hr

theorem blk4_0 (k : Fin 2048) :
    (iblk4 V c 0 t : S128x2048.Idx → EReal) (ix2 p k) = (V c main_v23_0 : S4096x2048.Idx → EReal) (ix2 r k) :=
  congrArg (V c main_v23_0) (emb_eq4 win4_0 t (ix2 p k) (ix2 r k) (off4 t 0) (Fin.forall_fin_two.2 ⟨hr.symm, Nat.zero_add _⟩))
theorem blk4_1 (k : Fin 2048) :
    (iblk4 V c 1 t : S128x2048.Idx → EReal) (ix2 p k) = (V c main_v23_1 : S4096x2048.Idx → EReal) (ix2 r k) :=
  congrArg (V c main_v23_1) (emb_eq4 win4_1 t (ix2 p k) (ix2 r k) (off4 t 1) (Fin.forall_fin_two.2 ⟨hr.symm, Nat.zero_add _⟩))

end

theorem covered4_12 (i : S4096x2048.Idx) :
    ∃ t : Fin cfg4.N, (cfg4.win 12).flush t = true ∧ i ∈ ((cfg4.win 12).blk t).view.set := by
  have hi : (i 0).val < 4096 := (i 0).isLt
  obtain ⟨t, ht⟩ : ∃ t : Fin cfg4.N, t.val = (i 0).val / 128 := ⟨⟨_, lt_of_lt_of_eq (by omega : (i 0).val / 128 < 32) N_4.symm⟩, rfl⟩
  obtain ⟨p, hp⟩ : ∃ p : Fin 128, p.val = (i 0).val % 128 := ⟨⟨_, Nat.mod_lt _ (by decide)⟩, rfl⟩
  have he : ((cfg4.win 12).blk t).view.emb (ix2 p (i 1)) = i :=
    emb_eq4 win4_12 t _ _ (off4 t 12) (Fin.forall_fin_two.2 ⟨by show 128 * t.val + p.val = (i 0).val; omega, Nat.zero_add _⟩)
  exact ⟨t, flush4_12 t, he ▸ View.emb_mem_set _ _⟩

def xd4 (c : Dev nD) : Mat 4096 2048 :=
  resblock (resblock (sBN (matBD (V c main_v23_0)) (row1D (V c main_v26)) (row1D (V c main_v34)) (row1D (V c main_v18)) (row1D (V c main_v19))) (matDD (V c main_v14)) (row1D (V c main_v15))) (matDD (V c main_v16)) (row1D (V c main_v17))

theorem flushed4_12 (c : Dev nD) (t : Fin cfg4.N) :
    (dat4 V c).flushed 12 t = ((cfg4.win 12).blk t).view.read (Elt Ideal) (arrBD (xd4 V c)) := by
  show (cfg4.win 12).cut (grid4.coords t) ((dat4 V c).after 12 t) = _
  rw [after4_12]
  unfold out4_12
  rw [View.canon_unit_zero hz4]
  simp only [View.ld_unit_zero (S := S128x2048) hz4, View.ld_unit_zero (S := S1x2048) hz4, View.ld_unit_zero (S := S2048x2048) hz4]
  funext j
  obtain ⟨p, q, rfl⟩ : ∃ (p : Fin 128) (q : Fin 2048), j = ix2 p q := ⟨j 0, j 1, eq_ix2 j⟩
  have ht : t.val < 32 := lt_of_lt_of_eq t.isLt N_4
  obtain ⟨r, hr⟩ : ∃ r : Fin 4096, r.val = 128 * t.val + p.val := ⟨⟨_, by omega⟩, rfl⟩
  rw [blk4_2 V c t, blk4_3 V c t, blk4_6 V c t, blk4_7 V c t, blk4_8 V c t, blk4_9 V c t, blk4_10 V c t, blk4_11 V c t]
  refine (tile4_xd _ _ _ _ _ _ _ _ _ (iblk4 V c 0 t) r p q (blk4_0 V c t p r hr)).trans ?_
  show xd4 V c r q = arrBD (xd4 V c) (((cfg4.win 12).blk t).view.emb (ix2 p q))
  rw [show ((cfg4.win 12).blk t).view.emb (ix2 p q) = ix2 r q from
    emb_eq4 win4_12 t _ _ (off4 t 12) (Fin.forall_fin_two.2 ⟨hr.symm, Nat.zero_add _⟩)]
  rfl

theorem val4_xd (c : Dev nD) : matBD ((dat4 V c).arrAt 12 cfg4.N) = resblock (resblock (sBN (matBD (V c main_v23_0)) (row1D (V c main_v26)) (row1D (V c main_v34)) (row1D (V c main_v18)) (row1D (V c main_v19))) (matDD (V c main_v14)) (row1D (V c main_v15))) (matDD (V c main_v16)) (row1D (V c main_v17)) :=
  congrArg matBD ((dat4 V c).arrAt_eq_of_cover 12 (arrBD (xd4 V c)) (fun t _ => flushed4_12 V c t) covered4_12)

theorem covered4_13 (i : S4096x2048.Idx) :
    ∃ t : Fin cfg4.N, (cfg4.win 13).flush t = true ∧ i ∈ ((cfg4.win 13).blk t).view.set := by
  have hi : (i 0).val < 4096 := (i 0).isLt
  obtain ⟨t, ht⟩ : ∃ t : Fin cfg4.N, t.val = (i 0).val / 128 := ⟨⟨_, lt_of_lt_of_eq (by omega : (i 0).val / 128 < 32) N_4.symm⟩, rfl⟩
  obtain ⟨p, hp⟩ : ∃ p : Fin 128, p.val = (i 0).val % 128 := ⟨⟨_, Nat.mod_lt _ (by decide)⟩, rfl⟩
  have he : ((cfg4.win 13).blk t).view.emb (ix2 p (i 1)) = i :=
    emb_eq4 win4_13 t _ _ (off4 t 13) (Fin.forall_fin_two.2 ⟨by show 128 * t.val + p.val = (i 0).val; omega, Nat.zero_add _⟩)
  exact ⟨t, flush4_13 t, he ▸ View.emb_mem_set _ _⟩

theorem val4_x2 (c : Dev nD) : matBD ((dat4 V c).arrAt 13 cfg4.N) = sBN (matBD (V c main_v23_1)) (row1D (V c main_v37)) (row1D (V c main_v45)) (row1D (V c main_v18)) (row1D (V c main_v19)) := by
  refine (congrArg matBD ((dat4 V c).arrAt_eq_of_cover 13 (arrBD _) (fun t _ => ?_) covered4_13)).trans (matBD_arrBD _)
  show (cfg4.win 13).cut (grid4.coords t) ((dat4 V c).after 13 t) = _
  rw [after4_13]
  unfold out4_13
  rw [View.canon_unit_zero hz4]
  simp only [View.ld_unit_zero (S := S128x2048) hz4, View.ld_unit_zero (S := S1x2048) hz4]
  funext j
  obtain ⟨p, q, rfl⟩ : ∃ (p : Fin 128) (q : Fin 2048), j = ix2 p q := ⟨j 0, j 1, eq_ix2 j⟩
  have ht : t.val < 32 := lt_of_lt_of_eq t.isLt N_4
  obtain ⟨r, hr⟩ : ∃ r : Fin 4096, r.val = 128 * t.val + p.val := ⟨⟨_, by omega⟩, rfl⟩
  rw [blk4_4 V c t, blk4_5 V c t, blk4_6 V c t, blk4_7 V c t]
  exact (tile4_x2 _ _ _ _ _ (iblk4 V c 1 t) r p q (blk4_1 V c t p r hr q)).trans ((arrBD_apply _ r q).symm.trans (congrArg (arrBD _)
    (emb_eq4 win4_13 t (ix2 p q) (ix2 r q) (off4 t 13) (Fin.forall_fin_two.2 ⟨hr.symm, Nat.zero_add _⟩)).symm))

end Cert.KernelIdeal.Hand

end
-- ==== Proof.KI.Value.lean ====
import proofs.«137432_j14851996910240_2_alg».proof.Proof.KI.Carry
import proofs.«137432_j14851996910240_2_alg».proof.Proof.KI.Val0
import proofs.«137432_j14851996910240_2_alg».proof.Proof.KI.Val1
import proofs.«137432_j14851996910240_2_alg».proof.Proof.KI.Val2
import proofs.«137432_j14851996910240_2_alg».proof.Proof.KI.Val3
import proofs.«137432_j14851996910240_2_alg».proof.Proof.KI.Val4

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Spec

variable (m : (ℓ : Loc nD τ sig) → Buf (Elt Ideal) ℓ) (ρ : Dev nD → PrngReg) (c : Dev nD)

theorem s2_asig : matBD (W2 m ρ c (Proc.devRef .tc main_v20_1) : S4096x2048.Idx → EReal) = asig (inputsOf m c) :=
  (congrArg matBD (W2_arr m ρ c 9)).trans ((val0_asig (V1 m ρ) c).trans (by
    dsimp only [V1, V2, V3, V4, V6]
    rw [s1_main_arg1, s1_main_v0, s1_main_v1]; rfl))

theorem s2_explain : matBD (W2 m ρ c (Proc.devRef .tc main_v20_2) : S4096x2048.Idx → EReal) = explain (inputsOf m c) :=
  (congrArg matBD (W2_arr m ρ c 10)).trans ((val0_explain (V1 m ρ) c).trans (by
    dsimp only [V1, V2, V3, V4, V6]
    rw [s1_main_arg0, s1_main_arg1, s1_main_v0, s1_main_v1, s1_main_v2, s1_main_v3]; rfl))

theorem s2_x : matBD (W2 m ρ c (Proc.devRef .tc main_v20_0) : S4096x2048.Idx → EReal) = xres (inputsOf m c) :=
  (congrArg matBD (W2_arr m ρ c 8)).trans ((val0_x (V1 m ρ) c).trans (by
    dsimp only [V1, V2, V3, V4, V6]
    rw [s1_main_arg0, s1_main_arg1, s1_main_v0, s1_main_v1, s1_main_v2, s1_main_v3, s1_main_v4, s1_main_v5]; rfl))

theorem s3_q : matBD (W3 m ρ c (Proc.devRef .tc main_v21_0) : S4096x2048.Idx → EReal) = q (inputsOf m c) :=
  (congrArg matBD (W3_arr m ρ c 6)).trans ((val1_q (V2 m ρ) c).trans (by
    dsimp only [V1, V2, V3, V4, V6]
    rw [s2_x, W2_of_ne m ρ c main_v6 (by decide), W2_of_ne m ρ c main_v7 (by decide), s1_main_v6, s1_main_v7]; rfl))

theorem s3_k : matBD (W3 m ρ c (Proc.devRef .tc main_v21_1) : S4096x2048.Idx → EReal) = kk (inputsOf m c) :=
  (congrArg matBD (W3_arr m ρ c 7)).trans ((val1_k (V2 m ρ) c).trans (by
    dsimp only [V1, V2, V3, V4, V6]
    rw [s2_asig, W2_of_ne m ρ c main_v8 (by decide), W2_of_ne m ρ c main_v9 (by decide), s1_main_v8, s1_main_v9]; rfl))

theorem s4_attn : matDD (W4 m ρ c (Proc.devRef .tc main_v22) : S2048x2048.Idx → EReal) = attn (inputsOf m c) :=
  (congrArg matDD (W4_arr m ρ c 2)).trans ((val2_attn (V3 m ρ) c).trans (by
    dsimp only [V1, V2, V3, V4, V6]
    rw [s3_q, s3_k]; rfl))

theorem s4_x : matBD (W4 m ρ c (Proc.devRef .tc main_v20_0) : S4096x2048.Idx → EReal) = xres (inputsOf m c) := by
  rw [W4_of_ne m ρ c main_v20_0 (by decide), W3_in m ρ c 0 rfl]; exact s2_x m ρ c
theorem s4_asig : matBD (W4 m ρ c (Proc.devRef .tc main_v20_1) : S4096x2048.Idx → EReal) = asig (inputsOf m c) := by
  rw [W4_of_ne m ρ c main_v20_1 (by decide), W3_in m ρ c 1 rfl]; exact s2_asig m ρ c
theorem s4_q : matBD (W4 m ρ c (Proc.devRef .tc main_v21_0) : S4096x2048.Idx → EReal) = q (inputsOf m c) := by
  rw [W4_in m ρ c 0 rfl]; exact s3_q m ρ c
theorem s4_k : matBD (W4 m ρ c (Proc.devRef .tc main_v21_1) : S4096x2048.Idx → EReal) = kk (inputsOf m c) := by
  rw [W4_in m ρ c 1 rfl]; exact s3_k m ρ c

theorem y1_entry : sY (matBD (V4 m ρ c main_v20_0)) (matBD (V4 m ρ c main_v21_0)) (matDD (V4 m ρ c main_v22)) (matDD (V4 m ρ c main_v10)) (row1D (V4 m ρ c main_v11))
    = y1 (inputsOf m c) := by
  dsimp only [V1, V2, V3, V4, V6]
  rw [s4_x, s4_q, s4_attn, W4_of_ne m ρ c main_v10 (by decide), W3_of_ne m ρ c main_v10 (by decide), W2_of_ne m ρ c main_v10 (by decide), s1_main_v10, W4_of_ne m ρ c main_v11 (by decide), W3_of_ne m ρ c main_v11 (by decide), W2_of_ne m ρ c main_v11 (by decide), s1_main_v11]; rfl

theorem y2_entry : sY (matBD (V4 m ρ c main_v20_1)) (matBD (V4 m ρ c main_v21_1)) (matDD (V4 m ρ c main_v22)) (matDD (V4 m ρ c main_v12)) (row1D (V4 m ρ c main_v13))
    = y2 (inputsOf m c) := by
  dsimp only [V1, V2, V3, V4, V6]
  rw [s4_asig, s4_k, s4_attn, W4_of_ne m ρ c main_v12 (by decide), W3_of_ne m ρ c main_v12 (by decide), W2_of_ne m ρ c main_v12 (by decide), s1_main_v12, W4_of_ne m ρ c main_v13 (by decide), W3_of_ne m ρ c main_v13 (by decide), W2_of_ne m ρ c main_v13 (by decide), s1_main_v13]; rfl

theorem s5_y1 : matBD (W5 m ρ c (Proc.devRef .tc main_v23_0) : S4096x2048.Idx → EReal) = y1 (inputsOf m c) :=
  (congrArg matBD (W5_arr m ρ c 9)).trans ((val3_y1 (V4 m ρ) c).trans (y1_entry m ρ c))

theorem s5_y2 : matBD (W5 m ρ c (Proc.devRef .tc main_v23_1) : S4096x2048.Idx → EReal) = y2 (inputsOf m c) :=
  (congrArg matBD (W5_arr m ρ c 10)).trans ((val3_y2 (V4 m ρ) c).trans (y2_entry m ρ c))

theorem s5_stats (j : Fin 2048) :
    (W5 m ρ c (Proc.devRef .tc main_v23_2) : S8x2048.Idx → EReal) (ix2 (0 : Fin 8) j) = colSum (y1 (inputsOf m c)) j
    ∧ (W5 m ρ c (Proc.devRef .tc main_v23_2) : S8x2048.Idx → EReal) (ix2 (1 : Fin 8) j) = colSumSq (y1 (inputsOf m c)) j
    ∧ (W5 m ρ c (Proc.devRef .tc main_v23_2) : S8x2048.Idx → EReal) (ix2 (2 : Fin 8) j) = colSum (y2 (inputsOf m c)) j
    ∧ (W5 m ρ c (Proc.devRef .tc main_v23_2) : S8x2048.Idx → EReal) (ix2 (3 : Fin 8) j) = colSumSq (y2 (inputsOf m c)) j := by
  obtain ⟨h0, h1, h2, h3⟩ := val3_stats (V4 m ρ) c j
  rw [y1_entry m ρ c] at h0 h1
  rw [y2_entry m ρ c] at h2 h3
  exact ⟨(congrArg (fun v : S8x2048.Idx → EReal => v (ix2 (0 : Fin 8) j)) (W5_arr m ρ c 11)).trans h0,
    (congrArg (fun v : S8x2048.Idx → EReal => v (ix2 (1 : Fin 8) j)) (W5_arr m ρ c 11)).trans h1,
    (congrArg (fun v : S8x2048.Idx → EReal => v (ix2 (2 : Fin 8) j)) (W5_arr m ρ c 11)).trans h2,
    (congrArg (fun v : S8x2048.Idx → EReal => v (ix2 (3 : Fin 8) j)) (W5_arr m ρ c 11)).trans h3⟩

theorem s6_mean1 : row1D (W6 m ρ c (Proc.devRef .tc main_v26) : S1x2048.Idx → EReal) = colMean (y1 (inputsOf m c)) := by
  rw [show (W6 m ρ c (Proc.devRef .tc main_v26)) = StableHlo.after (hostOps4 (F := Ideal)) (W5 m ρ c) (Proc.devRef .tc main_v26) from rfl, host4_v26]
  funext j; unfold meanOf colMean; dsimp only [sums]; rw [(s5_stats m ρ c j).1]
theorem s6_mean2 : row1D (W6 m ρ c (Proc.devRef .tc main_v37) : S1x2048.Idx → EReal) = colMean (y2 (inputsOf m c)) := by
  rw [show (W6 m ρ c (Proc.devRef .tc main_v37)) = StableHlo.after (hostOps4 (F := Ideal)) (W5 m ρ c) (Proc.devRef .tc main_v37) from rfl, host4_v37]
  funext j; unfold meanOf colMean; dsimp only [sums]; rw [(s5_stats m ρ c j).2.2.1]
theorem s6_inv1 : row1D (W6 m ρ c (Proc.devRef .tc main_v34) : S1x2048.Idx → EReal) = invStd (varK (y1 (inputsOf m c))) := by
  rw [show (W6 m ρ c (Proc.devRef .tc main_v34)) = StableHlo.after (hostOps4 (F := Ideal)) (W5 m ρ c) (Proc.devRef .tc main_v34) from rfl, host4_v34]
  funext j; unfold invOf meanOf invStd varK colMean; dsimp only [sums]; rw [(s5_stats m ρ c j).1, (s5_stats m ρ c j).2.1]
theorem s6_inv2 : row1D (W6 m ρ c (Proc.devRef .tc main_v45) : S1x2048.Idx → EReal) = invStd (varK (y2 (inputsOf m c))) := by
  rw [show (W6 m ρ c (Proc.devRef .tc main_v45)) = StableHlo.after (hostOps4 (F := Ideal)) (W5 m ρ c) (Proc.devRef .tc main_v45) from rfl, host4_v45]
  funext j; unfold invOf meanOf invStd varK colMean; dsimp only [sums]; rw [(s5_stats m ρ c j).2.2.1, (s5_stats m ρ c j).2.2.2]

theorem s6_y1 : matBD (W6 m ρ c (Proc.devRef .tc main_v23_0) : S4096x2048.Idx → EReal) = y1 (inputsOf m c) := by
  rw [W6_of m ρ c main_v23_0 (by decide)]; exact s5_y1 m ρ c
theorem s6_y2 : matBD (W6 m ρ c (Proc.devRef .tc main_v23_1) : S4096x2048.Idx → EReal) = y2 (inputsOf m c) := by
  rw [W6_of m ρ c main_v23_1 (by decide)]; exact s5_y2 m ρ c
theorem s6_g : row1D (W6 m ρ c (Proc.devRef .tc main_v18) : S1x2048.Idx → EReal) = (inputsOf m c).bng := by
  rw [W6_of m ρ c main_v18 (by decide), W5_of_ne m ρ c main_v18 (by decide), W4_of_ne m ρ c main_v18 (by decide), W3_of_ne m ρ c main_v18 (by decide), W2_of_ne m ρ c main_v18 (by decide)]; exact s1_main_v18 m ρ c
theorem s6_beta : row1D (W6 m ρ c (Proc.devRef .tc main_v19) : S1x2048.Idx → EReal) = (inputsOf m c).bnbeta := by
  rw [W6_of m ρ c main_v19 (by decide), W5_of_ne m ρ c main_v19 (by decide), W4_of_ne m ρ c main_v19 (by decide), W3_of_ne m ρ c main_v19 (by decide), W2_of_ne m ρ c main_v19 (by decide)]; exact s1_main_v19 m ρ c
theorem s6_w1 : matDD (W6 m ρ c (Proc.devRef .tc main_v14) : S2048x2048.Idx → EReal) = (inputsOf m c).mlp1W := by
  rw [W6_of m ρ c main_v14 (by decide), W5_of_ne m ρ c main_v14 (by decide), W4_of_ne m ρ c main_v14 (by decide), W3_of_ne m ρ c main_v14 (by decide), W2_of_ne m ρ c main_v14 (by decide)]; exact s1_main_v14 m ρ c
theorem s6_b1 : row1D (W6 m ρ c (Proc.devRef .tc main_v15) : S1x2048.Idx → EReal) = (inputsOf m c).mlp1b := by
  rw [W6_of m ρ c main_v15 (by decide), W5_of_ne m ρ c main_v15 (by decide), W4_of_ne m ρ c main_v15 (by decide), W3_of_ne m ρ c main_v15 (by decide), W2_of_ne m ρ c main_v15 (by decide)]; exact s1_main_v15 m ρ c
theorem s6_w2 : matDD (W6 m ρ c (Proc.devRef .tc main_v16) : S2048x2048.Idx → EReal) = (inputsOf m c).mlp2W := by
  rw [W6_of m ρ c main_v16 (by decide), W5_of_ne m ρ c main_v16 (by decide), W4_of_ne m ρ c main_v16 (by decide), W3_of_ne m ρ c main_v16 (by decide), W2_of_ne m ρ c main_v16 (by decide)]; exact s1_main_v16 m ρ c
theorem s6_b2 : row1D (W6 m ρ c (Proc.devRef .tc main_v17) : S1x2048.Idx → EReal) = (inputsOf m c).mlp2b := by
  rw [W6_of m ρ c main_v17 (by decide), W5_of_ne m ρ c main_v17 (by decide), W4_of_ne m ρ c main_v17 (by decide), W3_of_ne m ρ c main_v17 (by decide), W2_of_ne m ρ c main_v17 (by decide)]; exact s1_main_v17 m ρ c

theorem s7_xd : matBD (W7 m ρ c (Proc.devRef .tc main_v46_0) : S4096x2048.Idx → EReal) = xdK (inputsOf m c) :=
  (congrArg matBD (W7_arr m ρ c 12)).trans ((val4_xd (V6 m ρ) c).trans (by
    dsimp only [V1, V2, V3, V4, V6]
    rw [s6_y1, s6_mean1, s6_inv1, s6_g, s6_beta, s6_w1, s6_b1, s6_w2, s6_b2]; rfl))

theorem s7_x2 : matBD (W7 m ρ c (Proc.devRef .tc main_v46_1) : S4096x2048.Idx → EReal) = x2K (inputsOf m c) :=
  (congrArg matBD (W7_arr m ρ c 13)).trans ((val4_x2 (V6 m ρ) c).trans (by
    dsimp only [V1, V2, V3, V4, V6]
    rw [s6_y2, s6_mean2, s6_inv2, s6_g, s6_beta]; rfl))

theorem s7_explain : matBD (W7 m ρ c (Proc.devRef .tc main_v20_2) : S4096x2048.Idx → EReal) = explain (inputsOf m c) := by
  rw [W7_of_ne m ρ c main_v20_2 (by decide), W6_of m ρ c main_v20_2 (by decide), W5_of_ne m ρ c main_v20_2 (by decide), W4_of_ne m ρ c main_v20_2 (by decide), W3_of_ne m ρ c main_v20_2 (by decide)]; exact s2_explain m ρ c

theorem kernel_run : θ_run defs (onTc (τ := τ) (main (F := Ideal))) ⟨m, fun _ => 0, ρ⟩ (fun r => ∀ c : Dev nD,
      r.2.mem ((c.tc : Thread nD τ).loc main_v46_0) = arrBD (xdK (inputsOf m c))
      ∧ r.2.mem ((c.tc : Thread nD τ).loc main_v46_1) = arrBD (x2K (inputsOf m c))
      ∧ r.2.mem ((c.tc : Thread nD τ).loc main_v20_2) = arrBD (explain (inputsOf m c))
      ∧ ArgsKept m r.2.mem c) :=
  run_gen m ρ fun s h c =>
    ⟨eq_of_matBD_eq (((congrArg matBD (h c _ (mem_uc main_v46_0 (by decide)))).trans (s7_xd m ρ c)).trans (matBD_arrBD _).symm),
     eq_of_matBD_eq (((congrArg matBD (h c _ (mem_uc main_v46_1 (by decide)))).trans (s7_x2 m ρ c)).trans (matBD_arrBD _).symm),
     eq_of_matBD_eq (((congrArg matBD (h c _ (mem_uc main_v20_2 (by decide)))).trans (s7_explain m ρ c)).trans (matBD_arrBD _).symm),
     args_kept m ρ h c⟩

end Cert.KernelIdeal.Hand

end
-- ==== Proof.Ref.Ops.lean ====
import proofs.«137432_j14851996910240_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ActArr (F : FTy → Type) := (⟨S4096x2048, .f32⟩ : BufTy).Contents (Elt F)
abbrev WgtArr (F : FTy → Type) := (⟨S2048x2048, .f32⟩ : BufTy).Contents (Elt F)
abbrev VecArr (F : FTy → Type) := (⟨S2048, .f32⟩ : BufTy).Contents (Elt F)
abbrev RowArr (F : FTy → Type) := (⟨S1x2048, .f32⟩ : BufTy).Contents (Elt F)
abbrev ColArr (F : FTy → Type) := (⟨S2048x1, .f32⟩ : BufTy).Contents (Elt F)
abbrev ActTArr (F : FTy → Type) := (⟨S2048x4096, .f32⟩ : BufTy).Contents (Elt F)
abbrev ScalArr (F : FTy → Type) := (⟨S_, .f32⟩ : BufTy).Contents (Elt F)
abbrev IntArr (F : FTy → Type) := (⟨S_, .i32⟩ : BufTy).Contents (Elt F)
abbrev BitArr (F : FTy → Type) := (⟨S_, .i1⟩ : BufTy).Contents (Elt F)
abbrev MaskArr (F : FTy → Type) := (⟨S4096x2048, .i1⟩ : BufTy).Contents (Elt F)

abbrev ops1 : List (HloOp τ sig (Elt F)) :=
  [ StableHlo.unary main_arg4 main_v0 ((transpose S2048x2048 [1, 0] · transposes_S2048x2048_S2048x2048_1_0) : WgtArr F → WgtArr F),
    StableHlo.binary main_arg1 main_v0 main_v1 ((fun l r => Host.dotGeneral dot_S4096x2048_S2048x2048_S4096x2048_1_0_0_1_n_n none l r) : ActArr F → WgtArr F → ActArr F),
    StableHlo.unary main_arg5 main_v2 (broadcastInDim S1x2048 ![1] bcast_S2048_S1x2048_1 : VecArr F → RowArr F),
    StableHlo.unary main_v2 main_v3 (broadcastInDim S4096x2048 ![0, 1] bcast_S1x2048_S4096x2048_0_1 : RowArr F → ActArr F),
    StableHlo.binary main_v1 main_v3 main_v4 (addf : ActArr F → ActArr F → ActArr F),
    StableHlo.nullary main_call0_cst ((constant S_ .f32 0x00000000#32) : ScalArr F),
    StableHlo.unary main_call0_cst main_call0_v0 ((broadcastInDim S4096x2048 ![] bcast_S_S4096x2048) : ScalArr F → ActArr F),
    StableHlo.binary main_v4 main_call0_v0 main_v5 (maximumf : ActArr F → ActArr F → ActArr F),
    StableHlo.binary main_arg1 main_v5 main_v6 (addf : ActArr F → ActArr F → ActArr F),
    StableHlo.unary main_v6 main_v7 (Host.negf : ActArr F → ActArr F),
    StableHlo.unary main_v7 main_v8 (Host.exp : ActArr F → ActArr F),
    StableHlo.nullary main_cst (constant S_ .f32 0x3F800000#32),
    StableHlo.unary main_cst main_v9 (broadcastInDim S4096x2048 ![] bcast_S_S4096x2048 : ScalArr F → ActArr F),
    StableHlo.binary main_v9 main_v8 main_v10 (addf : ActArr F → ActArr F → ActArr F),
    StableHlo.nullary main_cst_0 (constant S_ .f32 0x3F800000#32),
    StableHlo.unary main_cst_0 main_v11 (broadcastInDim S4096x2048 ![] bcast_S_S4096x2048 : ScalArr F → ActArr F),
    StableHlo.binary main_v11 main_v10 main_v12 (Host.divf : ActArr F → ActArr F → ActArr F) ]

abbrev ops1_W : List (Ref sig .tc) := [main_v0, main_v1, main_v2, main_v3, main_v4, main_call0_cst, main_call0_v0, main_v5, main_v6, main_v7, main_v8, main_cst, main_v9, main_v10, main_cst_0, main_v11, main_v12]

abbrev ops2 : List (HloOp τ sig (Elt F)) :=
  [ StableHlo.unary main_arg6 main_v13 ((transpose S2048x2048 [1, 0] · transposes_S2048x2048_S2048x2048_1_0) : WgtArr F → WgtArr F),
    StableHlo.binary main_arg0 main_v13 main_v14 ((fun l r => Host.dotGeneral dot_S4096x2048_S2048x2048_S4096x2048_1_0_0_1_n_n none l r) : ActArr F → WgtArr F → ActArr F),
    StableHlo.unary main_arg7 main_v15 (broadcastInDim S1x2048 ![1] bcast_S2048_S1x2048_1 : VecArr F → RowArr F),
    StableHlo.unary main_v15 main_v16 (broadcastInDim S4096x2048 ![0, 1] bcast_S1x2048_S4096x2048_0_1 : RowArr F → ActArr F),
    StableHlo.binary main_v14 main_v16 main_v17 (addf : ActArr F → ActArr F → ActArr F),
    StableHlo.nullary main_call1_cst ((constant S_ .f32 0x00000000#32) : ScalArr F),
    StableHlo.unary main_call1_cst main_call1_v0 ((broadcastInDim S4096x2048 ![] bcast_S_S4096x2048) : ScalArr F → ActArr F),
    StableHlo.binary main_v17 main_call1_v0 main_v18 (maximumf : ActArr F → ActArr F → ActArr F) ]

abbrev ops2_W : List (Ref sig .tc) := [main_v13, main_v14, main_v15, main_v16, main_v17, main_call1_cst, main_call1_v0, main_v18]

abbrev ops3 : List (HloOp τ sig (Elt F)) :=
  [ StableHlo.nullary main_cst_1 (constant S_ .f32 0x00000000#32),
    StableHlo.unary main_cst_1 main_v19 (broadcastInDim S4096x2048 ![] bcast_S_S4096x2048 : ScalArr F → ActArr F),
    StableHlo.binary main_v18 main_v19 main_v20 (cmpf .ogt : ActArr F → ActArr F → MaskArr F),
    StableHlo.unary main_v18 main_v21 (Host.negf : ActArr F → ActArr F),
    StableHlo.unary main_v21 main_v22 (Host.exp : ActArr F → ActArr F),
    StableHlo.nullary main_cst_2 (constant S_ .f32 0x3F800000#32),
    StableHlo.unary main_cst_2 main_v23 (broadcastInDim S4096x2048 ![] bcast_S_S4096x2048 : ScalArr F → ActArr F),
    StableHlo.binary main_v23 main_v22 main_v24 (addf : ActArr F → ActArr F → ActArr F),
    StableHlo.nullary main_cst_3 (constant S_ .f32 0x3F800000#32),
    StableHlo.unary main_cst_3 main_v25 (broadcastInDim S4096x2048 ![] bcast_S_S4096x2048 : ScalArr F → ActArr F),
    StableHlo.binary main_v25 main_v24 main_v26 (Host.divf : ActArr F → ActArr F → ActArr F),
    StableHlo.nullary main_cst_4 (constant S_ .f32 0x00000000#32),
    StableHlo.unary main_cst_4 main_call2_v0 (id : ScalArr F → ScalArr F),
    StableHlo.unary main_call2_v0 main_call2_v1 ((broadcastInDim S4096x2048 ![] bcast_S_S4096x2048) : ScalArr F → ActArr F),
    StableHlo.ternary main_v20 main_v26 main_call2_v1 main_v27 (select : MaskArr F → ActArr F → ActArr F → ActArr F),
    StableHlo.binary main_arg0 main_v27 main_v28 (mulf : ActArr F → ActArr F → ActArr F),
    StableHlo.binary main_arg0 main_v28 main_v29 (addf : ActArr F → ActArr F → ActArr F),
    StableHlo.binary main_v29 main_v12 main_v30 (mulf : ActArr F → ActArr F → ActArr F),
    StableHlo.binary main_v12 main_v18 main_v31 (addf : ActArr F → ActArr F → ActArr F) ]

abbrev ops3_W : List (Ref sig .tc) := [main_cst_1, main_v19, main_v20, main_v21, main_v22, main_cst_2, main_v23, main_v24, main_cst_3, main_v25, main_v26, main_cst_4, main_call2_v0, main_call2_v1, main_v27, main_v28, main_v29, main_v30, main_v31]

abbrev ops4 : List (HloOp τ sig (Elt F)) :=
  [ StableHlo.unary main_arg2 main_v32 ((transpose S2048x2048 [1, 0] · transposes_S2048x2048_S2048x2048_1_0) : WgtArr F → WgtArr F),
    StableHlo.binary main_v30 main_v32 main_v33 ((fun l r => Host.dotGeneral dot_S4096x2048_S2048x2048_S4096x2048_1_0_0_1_n_n none l r) : ActArr F → WgtArr F → ActArr F),
    StableHlo.unary main_arg3 main_v34 (broadcastInDim S1x2048 ![1] bcast_S2048_S1x2048_1 : VecArr F → RowArr F),
    StableHlo.unary main_v34 main_v35 (broadcastInDim S4096x2048 ![0, 1] bcast_S1x2048_S4096x2048_0_1 : RowArr F → ActArr F),
    StableHlo.binary main_v33 main_v35 main_v36 (addf : ActArr F → ActArr F → ActArr F),
    StableHlo.nullary main_call3_cst ((constant S_ .f32 0x00000000#32) : ScalArr F),
    StableHlo.unary main_call3_cst main_call3_v0 ((broadcastInDim S4096x2048 ![] bcast_S_S4096x2048) : ScalArr F → ActArr F),
    StableHlo.binary main_v36 main_call3_v0 main_v37 (maximumf : ActArr F → ActArr F → ActArr F),
    StableHlo.binary main_v30 main_v37 main_v38 (addf : ActArr F → ActArr F → ActArr F) ]

abbrev ops4_W : List (Ref sig .tc) := [main_v32, main_v33, main_v34, main_v35, main_v36, main_call3_cst, main_call3_v0, main_v37, main_v38]

abbrev ops5 : List (HloOp τ sig (Elt F)) :=
  [ StableHlo.unary main_arg8 main_v39 ((transpose S2048x2048 [1, 0] · transposes_S2048x2048_S2048x2048_1_0) : WgtArr F → WgtArr F),
    StableHlo.binary main_v38 main_v39 main_v40 ((fun l r => Host.dotGeneral dot_S4096x2048_S2048x2048_S4096x2048_1_0_0_1_n_n none l r) : ActArr F → WgtArr F → ActArr F),
    StableHlo.unary main_arg9 main_v41 (broadcastInDim S1x2048 ![1] bcast_S2048_S1x2048_1 : VecArr F → RowArr F),
    StableHlo.unary main_v41 main_v42 (broadcastInDim S4096x2048 ![0, 1] bcast_S1x2048_S4096x2048_0_1 : RowArr F → ActArr F),
    StableHlo.binary main_v40 main_v42 main_v43 (addf : ActArr F → ActArr F → ActArr F) ]

abbrev ops5_W : List (Ref sig .tc) := [main_v39, main_v40, main_v41, main_v42, main_v43]

abbrev ops6 : List (HloOp τ sig (Elt F)) :=
  [ StableHlo.unary main_arg10 main_v44 ((transpose S2048x2048 [1, 0] · transposes_S2048x2048_S2048x2048_1_0) : WgtArr F → WgtArr F),
    StableHlo.binary main_v12 main_v44 main_v45 ((fun l r => Host.dotGeneral dot_S4096x2048_S2048x2048_S4096x2048_1_0_0_1_n_n none l r) : ActArr F → WgtArr F → ActArr F),
    StableHlo.unary main_arg11 main_v46 (broadcastInDim S1x2048 ![1] bcast_S2048_S1x2048_1 : VecArr F → RowArr F),
    StableHlo.unary main_v46 main_v47 (broadcastInDim S4096x2048 ![0, 1] bcast_S1x2048_S4096x2048_0_1 : RowArr F → ActArr F),
    StableHlo.binary main_v45 main_v47 main_v48 (addf : ActArr F → ActArr F → ActArr F) ]

abbrev ops6_W : List (Ref sig .tc) := [main_v44, main_v45, main_v46, main_v47, main_v48]

abbrev ops7 : List (HloOp τ sig (Elt F)) :=
  [ StableHlo.unary main_v43 main_v49 ((transpose S2048x4096 [1, 0] · transposes_S4096x2048_S2048x4096_1_0) : ActArr F → ActTArr F),
    StableHlo.binary main_v49 main_v48 main_v50 ((fun l r => Host.dotGeneral dot_S2048x4096_S4096x2048_S2048x2048_1_0_0_1_n_n none l r) : ActTArr F → ActArr F → WgtArr F) ]

abbrev ops7_W : List (Ref sig .tc) := [main_v49, main_v50]

abbrev ops8 : List (HloOp τ sig (Elt F)) :=
  [ StableHlo.nullary main_cst_5 (constant S_ .f32 0xFF800000#32),
    StableHlo.binary main_v50 main_cst_5 main_v51 ((fun x v => Host.reduce FloatOps.maximumf x v reducesTo_S2048x2048_S2048_d1 h_S_) : WgtArr F → ScalArr F → VecArr F),
    StableHlo.nullary main_cst_6 (constant S_ .f32 0xFF800000#32) ]

abbrev ops8_W : List (Ref sig .tc) := [main_cst_5, main_v51, main_cst_6]

abbrev ops9 : List (HloOp τ sig (Elt F)) :=
  [ StableHlo.unary main_cst_6 main_v52 (broadcastInDim S2048 ![] bcast_S_S2048 : ScalArr F → VecArr F),
    StableHlo.binary main_v52 main_v51 main_v53 (maximumf : VecArr F → VecArr F → VecArr F) ]

abbrev ops9_W : List (Ref sig .tc) := [main_v52, main_v53]

abbrev ops10 : List (HloOp τ sig (Elt F)) :=
  [ StableHlo.unary main_v53 main_v54 (broadcastInDim S2048x1 ![0] bcast_S2048_S2048x1_0 : VecArr F → ColArr F),
    StableHlo.unary main_v54 main_v55 (broadcastInDim S2048x2048 ![0, 1] bcast_S2048x1_S2048x2048_0_1 : ColArr F → WgtArr F),
    StableHlo.binary main_v50 main_v55 main_v56 (subf : WgtArr F → WgtArr F → WgtArr F),
    StableHlo.unary main_v56 main_v57 (Host.exp : WgtArr F → WgtArr F) ]

abbrev ops10_W : List (Ref sig .tc) := [main_v54, main_v55, main_v56, main_v57]

abbrev ops11 : List (HloOp τ sig (Elt F)) :=
  [ StableHlo.nullary main_cst_7 (constant S_ .f32 0x00000000#32),
    StableHlo.binary main_v57 main_cst_7 main_v58 ((fun x v => Host.reduceAdd x v reducesTo_S2048x2048_S2048_d1 h_S_) : WgtArr F → ScalArr F → VecArr F),
    StableHlo.unary main_v58 main_v59 (broadcastInDim S2048x1 ![0] bcast_S2048_S2048x1_0 : VecArr F → ColArr F),
    StableHlo.unary main_v59 main_v60 (broadcastInDim S2048x2048 ![0, 1] bcast_S2048x1_S2048x2048_0_1 : ColArr F → WgtArr F),
    StableHlo.binary main_v57 main_v60 main_v61 (Host.divf : WgtArr F → WgtArr F → WgtArr F) ]

abbrev ops11_W : List (Ref sig .tc) := [main_cst_7, main_v58, main_v59, main_v60, main_v61]

abbrev ops12 : List (HloOp τ sig (Elt F)) :=
  [ StableHlo.binary main_v43 main_v61 main_v62 ((fun l r => Host.dotGeneral dot_S4096x2048_S2048x2048_S4096x2048_1_0_0_1_n_n none l r) : ActArr F → WgtArr F → ActArr F) ]

abbrev ops12_W : List (Ref sig .tc) := [main_v62]

abbrev ops13 : List (HloOp τ sig (Elt F)) :=
  [ StableHlo.unary main_arg12 main_v63 ((transpose S2048x2048 [1, 0] · transposes_S2048x2048_S2048x2048_1_0) : WgtArr F → WgtArr F),
    StableHlo.binary main_v62 main_v63 main_v64 ((fun l r => Host.dotGeneral dot_S4096x2048_S2048x2048_S4096x2048_1_0_0_1_n_n none l r) : ActArr F → WgtArr F → ActArr F),
    StableHlo.unary main_arg13 main_v65 (broadcastInDim S1x2048 ![1] bcast_S2048_S1x2048_1 : VecArr F → RowArr F),
    StableHlo.unary main_v65 main_v66 (broadcastInDim S4096x2048 ![0, 1] bcast_S1x2048_S4096x2048_0_1 : RowArr F → ActArr F),
    StableHlo.binary main_v64 main_v66 main_v67 (addf : ActArr F → ActArr F → ActArr F) ]

abbrev ops13_W : List (Ref sig .tc) := [main_v63, main_v64, main_v65, main_v66, main_v67]

abbrev ops14 : List (HloOp τ sig (Elt F)) :=
  [ StableHlo.binary main_v48 main_v61 main_v68 ((fun l r => Host.dotGeneral dot_S4096x2048_S2048x2048_S4096x2048_1_0_0_1_n_n none l r) : ActArr F → WgtArr F → ActArr F) ]

abbrev ops14_W : List (Ref sig .tc) := [main_v68]

abbrev ops15 : List (HloOp τ sig (Elt F)) :=
  [ StableHlo.unary main_arg14 main_v69 ((transpose S2048x2048 [1, 0] · transposes_S2048x2048_S2048x2048_1_0) : WgtArr F → WgtArr F),
    StableHlo.binary main_v68 main_v69 main_v70 ((fun l r => Host.dotGeneral dot_S4096x2048_S2048x2048_S4096x2048_1_0_0_1_n_n none l r) : ActArr F → WgtArr F → ActArr F),
    StableHlo.unary main_arg15 main_v71 (broadcastInDim S1x2048 ![1] bcast_S2048_S1x2048_1 : VecArr F → RowArr F),
    StableHlo.unary main_v71 main_v72 (broadcastInDim S4096x2048 ![0, 1] bcast_S1x2048_S4096x2048_0_1 : RowArr F → ActArr F),
    StableHlo.binary main_v70 main_v72 main_v73 (addf : ActArr F → ActArr F → ActArr F) ]

abbrev ops15_W : List (Ref sig .tc) := [main_v69, main_v70, main_v71, main_v72, main_v73]

abbrev ops16 : List (HloOp τ sig (Elt F)) :=
  [ StableHlo.binary main_v38 main_v67 main_v74 (addf : ActArr F → ActArr F → ActArr F) ]

abbrev ops16_W : List (Ref sig .tc) := [main_v74]

abbrev ops17 : List (HloOp τ sig (Elt F)) :=
  [ StableHlo.nullary main_cst_8 (constant S_ .f32 0x00000000#32),
    StableHlo.binary main_v74 main_cst_8 main_v75 ((fun x v => Host.reduceAdd x v reducesTo_S4096x2048_S2048_d0 h_S_) : ActArr F → ScalArr F → VecArr F),
    StableHlo.unary main_v75 main_v76 (broadcastInDim S1x2048 ![1] bcast_S2048_S1x2048_1 : VecArr F → RowArr F),
    StableHlo.nullary main_cst_9 (constant S_ .f32 0x45800000#32),
    StableHlo.unary main_cst_9 main_v77 (broadcastInDim S1x2048 ![] bcast_S_S1x2048 : ScalArr F → RowArr F),
    StableHlo.binary main_v76 main_v77 main_v78 (Host.divf : RowArr F → RowArr F → RowArr F) ]

abbrev ops17_W : List (Ref sig .tc) := [main_cst_8, main_v75, main_v76, main_cst_9, main_v77, main_v78]

abbrev ops18 : List (HloOp τ sig (Elt F)) :=
  [ StableHlo.nullary main_c (constantI S_ 32 0#32),
    StableHlo.nullary main_call4_cst ((constant S_ .f32 0x00000000#32) : ScalArr F),
    StableHlo.binary main_v74 main_call4_cst main_call4_v0 ((fun x v => Host.reduceAdd x v reducesTo_S4096x2048_S2048_d0 h_S_) : ActArr F → ScalArr F → VecArr F),
    StableHlo.unary main_call4_v0 main_call4_v1 ((broadcastInDim S1x2048 ![1] bcast_S2048_S1x2048_1) : VecArr F → RowArr F),
    StableHlo.nullary main_call4_cst_0 ((constant S_ .f32 0x45800000#32) : ScalArr F),
    StableHlo.unary main_call4_cst_0 main_call4_v2 ((broadcastInDim S1x2048 ![] bcast_S_S1x2048) : ScalArr F → RowArr F),
    StableHlo.binary main_call4_v1 main_call4_v2 main_call4_v3 (Host.divf : RowArr F → RowArr F → RowArr F),
    StableHlo.unary main_call4_v3 main_call4_v4 ((broadcastInDim S4096x2048 ![0, 1] bcast_S1x2048_S4096x2048_0_1) : RowArr F → ActArr F),
    StableHlo.binary main_v74 main_call4_v4 main_call4_v5 (subf : ActArr F → ActArr F → ActArr F) ]

abbrev ops18_W : List (Ref sig .tc) := [main_c, main_call4_cst, main_call4_v0, main_call4_v1, main_call4_cst_0, main_call4_v2, main_call4_v3, main_call4_v4, main_call4_v5]

abbrev ops19 : List (HloOp τ sig (Elt F)) :=
  [ StableHlo.binary main_call4_v5 main_call4_v5 main_call4_v6 (mulf : ActArr F → ActArr F → ActArr F),
    StableHlo.unary main_c main_call4_v7 ((sitofp .f32) : IntArr F → ScalArr F),
    StableHlo.nullary main_call4_cst_1 ((constant S_ .f32 0x45800000#32) : ScalArr F),
    StableHlo.binary main_call4_cst_1 main_call4_v7 main_call4_v8 (subf : ScalArr F → ScalArr F → ScalArr F),
    StableHlo.nullary main_call4_cst_2 ((constant S_ .f32 0x00000000#32) : ScalArr F),
    StableHlo.binary main_call4_v6 main_call4_cst_2 main_call4_v9 ((fun x v => Host.reduceAdd x v reducesTo_S4096x2048_S2048_d0 h_S_) : ActArr F → ScalArr F → VecArr F),
    StableHlo.unary main_call4_v9 main_call4_v10 ((broadcastInDim S1x2048 ![1] bcast_S2048_S1x2048_1) : VecArr F → RowArr F),
    StableHlo.unary main_call4_v8 main_call4_v11 ((broadcastInDim S1x2048 ![] bcast_S_S1x2048) : ScalArr F → RowArr F),
    StableHlo.binary main_call4_v10 main_call4_v11 main_call4_v12 (Host.divf : RowArr F → RowArr F → RowArr F),
    StableHlo.nullary main_call4_cst_3 ((constant S_ .f32 0x00000000#32) : ScalArr F),
    StableHlo.binary main_call4_v8 main_call4_cst_3 main_call4_v13 ((cmpf .ogt) : ScalArr F → ScalArr F → BitArr F),
    StableHlo.nullary main_call4_cst_4 ((constant S_ .f32 0x7FC00000#32) : ScalArr F),
    StableHlo.unary main_call4_cst_4 main_call4_call0_v0 (id : ScalArr F → ScalArr F),
    StableHlo.unary main_call4_call0_v0 main_call4_call0_v1 ((broadcastInDim S1x2048 ![] bcast_S_S1x2048) : ScalArr F → RowArr F),
    StableHlo.ternary main_call4_v13 main_call4_v12 main_call4_call0_v1 main_v79 ((fun p a b => select (broadcastInDim S1x2048 ![] bcast_S_S1x2048 p) a b) : BitArr F → RowArr F → RowArr F → RowArr F) ]

abbrev ops19_W : List (Ref sig .tc) := [main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v79]

abbrev ops20 : List (HloOp τ sig (Elt F)) :=
  [ StableHlo.unary main_v78 main_v80 (broadcastInDim S4096x2048 ![0, 1] bcast_S1x2048_S4096x2048_0_1 : RowArr F → ActArr F),
    StableHlo.binary main_v74 main_v80 main_v81 (subf : ActArr F → ActArr F → ActArr F),
    StableHlo.nullary main_cst_10 (constant S_ .f32 0x3727C5AC#32),
    StableHlo.unary main_cst_10 main_v82 (broadcastInDim S1x2048 ![] bcast_S_S1x2048 : ScalArr F → RowArr F),
    StableHlo.binary main_v79 main_v82 main_v83 (addf : RowArr F → RowArr F → RowArr F),
    StableHlo.unary main_v83 main_v84 (Host.rsqrt : RowArr F → RowArr F),
    StableHlo.unary main_v84 main_v85 (broadcastInDim S4096x2048 ![0, 1] bcast_S1x2048_S4096x2048_0_1 : RowArr F → ActArr F),
    StableHlo.binary main_v81 main_v85 main_v86 (mulf : ActArr F → ActArr F → ActArr F),
    StableHlo.unary main_arg16 main_v87 (broadcastInDim S1x2048 ![1] bcast_S2048_S1x2048_1 : VecArr F → RowArr F),
    StableHlo.unary main_v87 main_v88 (broadcastInDim S4096x2048 ![0, 1] bcast_S1x2048_S4096x2048_0_1 : RowArr F → ActArr F),
    StableHlo.binary main_v86 main_v88 main_v89 (mulf : ActArr F → ActArr F → ActArr F),
    StableHlo.unary main_arg17 main_v90 (broadcastInDim S1x2048 ![1] bcast_S2048_S1x2048_1 : VecArr F → RowArr F),
    StableHlo.unary main_v90 main_v91 (broadcastInDim S4096x2048 ![0, 1] bcast_S1x2048_S4096x2048_0_1 : RowArr F → ActArr F),
    StableHlo.binary main_v89 main_v91 main_v92 (addf : ActArr F → ActArr F → ActArr F) ]

abbrev ops20_W : List (Ref sig .tc) := [main_v80, main_v81, main_cst_10, main_v82, main_v83, main_v84, main_v85, main_v86, main_v87, main_v88, main_v89, main_v90, main_v91, main_v92]

abbrev ops21 : List (HloOp τ sig (Elt F)) :=
  [ StableHlo.binary main_v12 main_v73 main_v93 (addf : ActArr F → ActArr F → ActArr F) ]

abbrev ops21_W : List (Ref sig .tc) := [main_v93]

abbrev ops22 : List (HloOp τ sig (Elt F)) :=
  [ StableHlo.nullary main_cst_11 (constant S_ .f32 0x00000000#32),
    StableHlo.binary main_v93 main_cst_11 main_v94 ((fun x v => Host.reduceAdd x v reducesTo_S4096x2048_S2048_d0 h_S_) : ActArr F → ScalArr F → VecArr F),
    StableHlo.unary main_v94 main_v95 (broadcastInDim S1x2048 ![1] bcast_S2048_S1x2048_1 : VecArr F → RowArr F),
    StableHlo.nullary main_cst_12 (constant S_ .f32 0x45800000#32),
    StableHlo.unary main_cst_12 main_v96 (broadcastInDim S1x2048 ![] bcast_S_S1x2048 : ScalArr F → RowArr F),
    StableHlo.binary main_v95 main_v96 main_v97 (Host.divf : RowArr F → RowArr F → RowArr F) ]

abbrev ops22_W : List (Ref sig .tc) := [main_cst_11, main_v94, main_v95, main_cst_12, main_v96, main_v97]

abbrev ops23 : List (HloOp τ sig (Elt F)) :=
  [ StableHlo.nullary main_c_13 (constantI S_ 32 0#32),
    StableHlo.nullary main_call5_cst ((constant S_ .f32 0x00000000#32) : ScalArr F),
    StableHlo.binary main_v93 main_call5_cst main_call5_v0 ((fun x v => Host.reduceAdd x v reducesTo_S4096x2048_S2048_d0 h_S_) : ActArr F → ScalArr F → VecArr F),
    StableHlo.unary main_call5_v0 main_call5_v1 ((broadcastInDim S1x2048 ![1] bcast_S2048_S1x2048_1) : VecArr F → RowArr F),
    StableHlo.nullary main_call5_cst_0 ((constant S_ .f32 0x45800000#32) : ScalArr F),
    StableHlo.unary main_call5_cst_0 main_call5_v2 ((broadcastInDim S1x2048 ![] bcast_S_S1x2048) : ScalArr F → RowArr F),
    StableHlo.binary main_call5_v1 main_call5_v2 main_call5_v3 (Host.divf : RowArr F → RowArr F → RowArr F),
    StableHlo.unary main_call5_v3 main_call5_v4 ((broadcastInDim S4096x2048 ![0, 1] bcast_S1x2048_S4096x2048_0_1) : RowArr F → ActArr F),
    StableHlo.binary main_v93 main_call5_v4 main_call5_v5 (subf : ActArr F → ActArr F → ActArr F) ]

abbrev ops23_W : List (Ref sig .tc) := [main_c_13, main_call5_cst, main_call5_v0, main_call5_v1, main_call5_cst_0, main_call5_v2, main_call5_v3, main_call5_v4, main_call5_v5]

abbrev ops24 : List (HloOp τ sig (Elt F)) :=
  [ StableHlo.binary main_call5_v5 main_call5_v5 main_call5_v6 (mulf : ActArr F → ActArr F → ActArr F),
    StableHlo.unary main_c_13 main_call5_v7 ((sitofp .f32) : IntArr F → ScalArr F),
    StableHlo.nullary main_call5_cst_1 ((constant S_ .f32 0x45800000#32) : ScalArr F),
    StableHlo.binary main_call5_cst_1 main_call5_v7 main_call5_v8 (subf : ScalArr F → ScalArr F → ScalArr F),
    StableHlo.nullary main_call5_cst_2 ((constant S_ .f32 0x00000000#32) : ScalArr F),
    StableHlo.binary main_call5_v6 main_call5_cst_2 main_call5_v9 ((fun x v => Host.reduceAdd x v reducesTo_S4096x2048_S2048_d0 h_S_) : ActArr F → ScalArr F → VecArr F),
    StableHlo.unary main_call5_v9 main_call5_v10 ((broadcastInDim S1x2048 ![1] bcast_S2048_S1x2048_1) : VecArr F → RowArr F),
    StableHlo.unary main_call5_v8 main_call5_v11 ((broadcastInDim S1x2048 ![] bcast_S_S1x2048) : ScalArr F → RowArr F),
    StableHlo.binary main_call5_v10 main_call5_v11 main_call5_v12 (Host.divf : RowArr F → RowArr F → RowArr F),
    StableHlo.nullary main_call5_cst_3 ((constant S_ .f32 0x00000000#32) : ScalArr F),
    StableHlo.binary main_call5_v8 main_call5_cst_3 main_call5_v13 ((cmpf .ogt) : ScalArr F → ScalArr F → BitArr F),
    StableHlo.nullary main_call5_cst_4 ((constant S_ .f32 0x7FC00000#32) : ScalArr F),
    StableHlo.unary main_call5_cst_4 main_call5_call0_v0 (id : ScalArr F → ScalArr F),
    StableHlo.unary main_call5_call0_v0 main_call5_call0_v1 ((broadcastInDim S1x2048 ![] bcast_S_S1x2048) : ScalArr F → RowArr F),
    StableHlo.ternary main_call5_v13 main_call5_v12 main_call5_call0_v1 main_v98 ((fun p a b => select (broadcastInDim S1x2048 ![] bcast_S_S1x2048 p) a b) : BitArr F → RowArr F → RowArr F → RowArr F) ]

abbrev ops24_W : List (Ref sig .tc) := [main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v98]

abbrev ops25 : List (HloOp τ sig (Elt F)) :=
  [ StableHlo.unary main_v97 main_v99 (broadcastInDim S4096x2048 ![0, 1] bcast_S1x2048_S4096x2048_0_1 : RowArr F → ActArr F),
    StableHlo.binary main_v93 main_v99 main_v100 (subf : ActArr F → ActArr F → ActArr F),
    StableHlo.nullary main_cst_14 (constant S_ .f32 0x3727C5AC#32),
    StableHlo.unary main_cst_14 main_v101 (broadcastInDim S1x2048 ![] bcast_S_S1x2048 : ScalArr F → RowArr F),
    StableHlo.binary main_v98 main_v101 main_v102 (addf : RowArr F → RowArr F → RowArr F) ]

abbrev ops25_W : List (Ref sig .tc) := [main_v99, main_v100, main_cst_14, main_v101, main_v102]

abbrev ops26 : List (HloOp τ sig (Elt F)) :=
  [ StableHlo.unary main_v102 main_v103 (Host.rsqrt : RowArr F → RowArr F),
    StableHlo.unary main_v103 main_v104 (broadcastInDim S4096x2048 ![0, 1] bcast_S1x2048_S4096x2048_0_1 : RowArr F → ActArr F),
    StableHlo.binary main_v100 main_v104 main_v105 (mulf : ActArr F → ActArr F → ActArr F),
    StableHlo.unary main_arg16 main_v106 (broadcastInDim S1x2048 ![1] bcast_S2048_S1x2048_1 : VecArr F → RowArr F),
    StableHlo.unary main_v106 main_v107 (broadcastInDim S4096x2048 ![0, 1] bcast_S1x2048_S4096x2048_0_1 : RowArr F → ActArr F),
    StableHlo.binary main_v105 main_v107 main_v108 (mulf : ActArr F → ActArr F → ActArr F),
    StableHlo.unary main_arg17 main_v109 (broadcastInDim S1x2048 ![1] bcast_S2048_S1x2048_1 : VecArr F → RowArr F),
    StableHlo.unary main_v109 main_v110 (broadcastInDim S4096x2048 ![0, 1] bcast_S1x2048_S4096x2048_0_1 : RowArr F → ActArr F),
    StableHlo.binary main_v108 main_v110 main_v111 (addf : ActArr F → ActArr F → ActArr F) ]

abbrev ops26_W : List (Ref sig .tc) := [main_v103, main_v104, main_v105, main_v106, main_v107, main_v108, main_v109, main_v110, main_v111]

abbrev ops27 : List (HloOp τ sig (Elt F)) :=
  [ StableHlo.unary main_arg18 main_v112 ((transpose S2048x2048 [1, 0] · transposes_S2048x2048_S2048x2048_1_0) : WgtArr F → WgtArr F),
    StableHlo.binary main_v92 main_v112 main_v113 ((fun l r => Host.dotGeneral dot_S4096x2048_S2048x2048_S4096x2048_1_0_0_1_n_n none l r) : ActArr F → WgtArr F → ActArr F),
    StableHlo.unary main_arg19 main_v114 (broadcastInDim S1x2048 ![1] bcast_S2048_S1x2048_1 : VecArr F → RowArr F),
    StableHlo.unary main_v114 main_v115 (broadcastInDim S4096x2048 ![0, 1] bcast_S1x2048_S4096x2048_0_1 : RowArr F → ActArr F),
    StableHlo.binary main_v113 main_v115 main_v116 (addf : ActArr F → ActArr F → ActArr F),
    StableHlo.nullary main_call6_cst ((constant S_ .f32 0x00000000#32) : ScalArr F),
    StableHlo.unary main_call6_cst main_call6_v0 ((broadcastInDim S4096x2048 ![] bcast_S_S4096x2048) : ScalArr F → ActArr F),
    StableHlo.binary main_v116 main_call6_v0 main_v117 (maximumf : ActArr F → ActArr F → ActArr F),
    StableHlo.binary main_v92 main_v117 main_v118 (addf : ActArr F → ActArr F → ActArr F) ]

abbrev ops27_W : List (Ref sig .tc) := [main_v112, main_v113, main_v114, main_v115, main_v116, main_call6_cst, main_call6_v0, main_v117, main_v118]

abbrev ops28 : List (HloOp τ sig (Elt F)) :=
  [ StableHlo.unary main_arg20 main_v119 ((transpose S2048x2048 [1, 0] · transposes_S2048x2048_S2048x2048_1_0) : WgtArr F → WgtArr F),
    StableHlo.binary main_v118 main_v119 main_v120 ((fun l r => Host.dotGeneral dot_S4096x2048_S2048x2048_S4096x2048_1_0_0_1_n_n none l r) : ActArr F → WgtArr F → ActArr F),
    StableHlo.unary main_arg21 main_v121 (broadcastInDim S1x2048 ![1] bcast_S2048_S1x2048_1 : VecArr F → RowArr F),
    StableHlo.unary main_v121 main_v122 (broadcastInDim S4096x2048 ![0, 1] bcast_S1x2048_S4096x2048_0_1 : RowArr F → ActArr F),
    StableHlo.binary main_v120 main_v122 main_v123 (addf : ActArr F → ActArr F → ActArr F),
    StableHlo.nullary main_call7_cst ((constant S_ .f32 0x00000000#32) : ScalArr F),
    StableHlo.unary main_call7_cst main_call7_v0 ((broadcastInDim S4096x2048 ![] bcast_S_S4096x2048) : ScalArr F → ActArr F),
    StableHlo.binary main_v123 main_call7_v0 main_v124 (maximumf : ActArr F → ActArr F → ActArr F),
    StableHlo.binary main_v118 main_v124 main_v125 (addf : ActArr F → ActArr F → ActArr F) ]

abbrev ops28_W : List (Ref sig .tc) := [main_v119, main_v120, main_v121, main_v122, main_v123, main_call7_cst, main_call7_v0, main_v124, main_v125]

abbrev stages : List (List (HloOp τ sig (Elt F))) := [ops1, ops2, ops3, ops4, ops5, ops6, ops7, ops8, ops9, ops10, ops11, ops12, ops13, ops14, ops15, ops16, ops17, ops18, ops19, ops20, ops21, ops22, ops23, ops24, ops25, ops26, ops27, ops28]

abbrev stagesW : List (List (Ref sig .tc)) := [ops1_W, ops2_W, ops3_W, ops4_W, ops5_W, ops6_W, ops7_W, ops8_W, ops9_W, ops10_W, ops11_W, ops12_W, ops13_W, ops14_W, ops15_W, ops16_W, ops17_W, ops18_W, ops19_W, ops20_W, ops21_W, ops22_W, ops23_W, ops24_W, ops25_W, ops26_W, ops27_W, ops28_W]

def ops : List (HloOp τ sig (Elt F)) := stages.flatten

def T_main_v12 (a_main_arg1 : ActArr F) (a_main_arg4 : WgtArr F) (a_main_arg5 : VecArr F) : ActArr F :=
  Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf a_main_arg1 (maximumf (addf ((fun l r => Host.dotGeneral dot_S4096x2048_S2048x2048_S4096x2048_1_0_0_1_n_n none l r) a_main_arg1 ((transpose S2048x2048 [1, 0] · transposes_S2048x2048_S2048x2048_1_0) a_main_arg4)) (broadcastInDim S4096x2048 ![0, 1] bcast_S1x2048_S4096x2048_0_1 (broadcastInDim S1x2048 ![1] bcast_S2048_S1x2048_1 a_main_arg5))) (broadcastInDim S4096x2048 ![] bcast_S_S4096x2048 (constant S_ .f32 0x00000000#32)))))))

def T_main_v18 (a_main_arg0 : ActArr F) (a_main_arg6 : WgtArr F) (a_main_arg7 : VecArr F) : ActArr F :=
  maximumf (addf ((fun l r => Host.dotGeneral dot_S4096x2048_S2048x2048_S4096x2048_1_0_0_1_n_n none l r) a_main_arg0 ((transpose S2048x2048 [1, 0] · transposes_S2048x2048_S2048x2048_1_0) a_main_arg6)) (broadcastInDim S4096x2048 ![0, 1] bcast_S1x2048_S4096x2048_0_1 (broadcastInDim S1x2048 ![1] bcast_S2048_S1x2048_1 a_main_arg7))) (broadcastInDim S4096x2048 ![] bcast_S_S4096x2048 (constant S_ .f32 0x00000000#32))

def T_main_v30 (a_main_arg0 : ActArr F) (a_main_v18 : ActArr F) (a_main_v12 : ActArr F) : ActArr F :=
  mulf (addf a_main_arg0 (mulf a_main_arg0 (select ((cmpf .ogt : ActArr F → ActArr F → MaskArr F) a_main_v18 (broadcastInDim S4096x2048 ![] bcast_S_S4096x2048 (constant S_ .f32 0x00000000#32))) (Host.divf (broadcastInDim S4096x2048 ![] bcast_S_S4096x2048 (constant S_ .f32 0x3F800000#32)) (addf (broadcastInDim S4096x2048 ![] bcast_S_S4096x2048 (constant S_ .f32 0x3F800000#32)) (Host.exp (Host.negf a_main_v18)))) (broadcastInDim S4096x2048 ![] bcast_S_S4096x2048 (id (constant S_ .f32 0x00000000#32)))))) a_main_v12

def T_main_v31 (a_main_v12 : ActArr F) (a_main_v18 : ActArr F) : ActArr F :=
  addf a_main_v12 a_main_v18

def T_main_v38 (a_main_v30 : ActArr F) (a_main_arg2 : WgtArr F) (a_main_arg3 : VecArr F) : ActArr F :=
  addf a_main_v30 (maximumf (addf ((fun l r => Host.dotGeneral dot_S4096x2048_S2048x2048_S4096x2048_1_0_0_1_n_n none l r) a_main_v30 ((transpose S2048x2048 [1, 0] · transposes_S2048x2048_S2048x2048_1_0) a_main_arg2)) (broadcastInDim S4096x2048 ![0, 1] bcast_S1x2048_S4096x2048_0_1 (broadcastInDim S1x2048 ![1] bcast_S2048_S1x2048_1 a_main_arg3))) (broadcastInDim S4096x2048 ![] bcast_S_S4096x2048 (constant S_ .f32 0x00000000#32)))

def T_main_v43 (a_main_v38 : ActArr F) (a_main_arg8 : WgtArr F) (a_main_arg9 : VecArr F) : ActArr F :=
  addf ((fun l r => Host.dotGeneral dot_S4096x2048_S2048x2048_S4096x2048_1_0_0_1_n_n none l r) a_main_v38 ((transpose S2048x2048 [1, 0] · transposes_S2048x2048_S2048x2048_1_0) a_main_arg8)) (broadcastInDim S4096x2048 ![0, 1] bcast_S1x2048_S4096x2048_0_1 (broadcastInDim S1x2048 ![1] bcast_S2048_S1x2048_1 a_main_arg9))

def T_main_v48 (a_main_v12 : ActArr F) (a_main_arg10 : WgtArr F) (a_main_arg11 : VecArr F) : ActArr F :=
  addf ((fun l r => Host.dotGeneral dot_S4096x2048_S2048x2048_S4096x2048_1_0_0_1_n_n none l r) a_main_v12 ((transpose S2048x2048 [1, 0] · transposes_S2048x2048_S2048x2048_1_0) a_main_arg10)) (broadcastInDim S4096x2048 ![0, 1] bcast_S1x2048_S4096x2048_0_1 (broadcastInDim S1x2048 ![1] bcast_S2048_S1x2048_1 a_main_arg11))

def T_main_v50 (a_main_v43 : ActArr F) (a_main_v48 : ActArr F) : WgtArr F :=
  (fun l r => Host.dotGeneral dot_S2048x4096_S4096x2048_S2048x2048_1_0_0_1_n_n none l r) ((transpose S2048x4096 [1, 0] · transposes_S4096x2048_S2048x4096_1_0) a_main_v43) a_main_v48

def T_main_v51 (a_main_v50 : WgtArr F) : VecArr F :=
  (fun x v => Host.reduce FloatOps.maximumf x v reducesTo_S2048x2048_S2048_d1 h_S_) a_main_v50 (constant S_ .f32 0xFF800000#32)

def T_main_cst_6 : ScalArr F :=
  constant S_ .f32 0xFF800000#32

def T_main_v53 (a_main_cst_6 : ScalArr F) (a_main_v51 : VecArr F) : VecArr F :=
  maximumf (broadcastInDim S2048 ![] bcast_S_S2048 a_main_cst_6) a_main_v51

def T_main_v57 (a_main_v50 : WgtArr F) (a_main_v53 : VecArr F) : WgtArr F :=
  Host.exp (subf a_main_v50 (broadcastInDim S2048x2048 ![0, 1] bcast_S2048x1_S2048x2048_0_1 (broadcastInDim S2048x1 ![0] bcast_S2048_S2048x1_0 a_main_v53)))

def T_main_v61 (a_main_v57 : WgtArr F) : WgtArr F :=
  Host.divf a_main_v57 (broadcastInDim S2048x2048 ![0, 1] bcast_S2048x1_S2048x2048_0_1 (broadcastInDim S2048x1 ![0] bcast_S2048_S2048x1_0 ((fun x v => Host.reduceAdd x v reducesTo_S2048x2048_S2048_d1 h_S_) a_main_v57 (constant S_ .f32 0x00000000#32))))

def T_main_v62 (a_main_v43 : ActArr F) (a_main_v61 : WgtArr F) : ActArr F :=
  (fun l r => Host.dotGeneral dot_S4096x2048_S2048x2048_S4096x2048_1_0_0_1_n_n none l r) a_main_v43 a_main_v61

def T_main_v67 (a_main_v62 : ActArr F) (a_main_arg12 : WgtArr F) (a_main_arg13 : VecArr F) : ActArr F :=
  addf ((fun l r => Host.dotGeneral dot_S4096x2048_S2048x2048_S4096x2048_1_0_0_1_n_n none l r) a_main_v62 ((transpose S2048x2048 [1, 0] · transposes_S2048x2048_S2048x2048_1_0) a_main_arg12)) (broadcastInDim S4096x2048 ![0, 1] bcast_S1x2048_S4096x2048_0_1 (broadcastInDim S1x2048 ![1] bcast_S2048_S1x2048_1 a_main_arg13))

def T_main_v68 (a_main_v48 : ActArr F) (a_main_v61 : WgtArr F) : ActArr F :=
  (fun l r => Host.dotGeneral dot_S4096x2048_S2048x2048_S4096x2048_1_0_0_1_n_n none l r) a_main_v48 a_main_v61

def T_main_v73 (a_main_v68 : ActArr F) (a_main_arg14 : WgtArr F) (a_main_arg15 : VecArr F) : ActArr F :=
  addf ((fun l r => Host.dotGeneral dot_S4096x2048_S2048x2048_S4096x2048_1_0_0_1_n_n none l r) a_main_v68 ((transpose S2048x2048 [1, 0] · transposes_S2048x2048_S2048x2048_1_0) a_main_arg14)) (broadcastInDim S4096x2048 ![0, 1] bcast_S1x2048_S4096x2048_0_1 (broadcastInDim S1x2048 ![1] bcast_S2048_S1x2048_1 a_main_arg15))

def T_main_v74 (a_main_v38 : ActArr F) (a_main_v67 : ActArr F) : ActArr F :=
  addf a_main_v38 a_main_v67

def T_main_v78 (a_main_v74 : ActArr F) : RowArr F :=
  Host.divf (broadcastInDim S1x2048 ![1] bcast_S2048_S1x2048_1 ((fun x v => Host.reduceAdd x v reducesTo_S4096x2048_S2048_d0 h_S_) a_main_v74 (constant S_ .f32 0x00000000#32))) (broadcastInDim S1x2048 ![] bcast_S_S1x2048 (constant S_ .f32 0x45800000#32))

def T_main_c : IntArr F :=
  constantI S_ 32 0#32

def T_main_call4_v5 (a_main_v74 : ActArr F) : ActArr F :=
  subf a_main_v74 (broadcastInDim S4096x2048 ![0, 1] bcast_S1x2048_S4096x2048_0_1 (Host.divf (broadcastInDim S1x2048 ![1] bcast_S2048_S1x2048_1 ((fun x v => Host.reduceAdd x v reducesTo_S4096x2048_S2048_d0 h_S_) a_main_v74 (constant S_ .f32 0x00000000#32))) (broadcastInDim S1x2048 ![] bcast_S_S1x2048 (constant S_ .f32 0x45800000#32))))

def T_main_v79 (a_main_c : IntArr F) (a_main_call4_v5 : ActArr F) : RowArr F :=
  (fun p a b => select (broadcastInDim S1x2048 ![] bcast_S_S1x2048 p) a b) (((cmpf .ogt) : ScalArr F → ScalArr F → BitArr F) (subf (constant S_ .f32 0x45800000#32) (sitofp .f32 a_main_c)) (constant S_ .f32 0x00000000#32)) (Host.divf (broadcastInDim S1x2048 ![1] bcast_S2048_S1x2048_1 ((fun x v => Host.reduceAdd x v reducesTo_S4096x2048_S2048_d0 h_S_) (mulf a_main_call4_v5 a_main_call4_v5) (constant S_ .f32 0x00000000#32))) (broadcastInDim S1x2048 ![] bcast_S_S1x2048 (subf (constant S_ .f32 0x45800000#32) (sitofp .f32 a_main_c)))) (broadcastInDim S1x2048 ![] bcast_S_S1x2048 (id (constant S_ .f32 0x7FC00000#32)))

def T_main_v92 (a_main_v74 : ActArr F) (a_main_v78 : RowArr F) (a_main_v79 : RowArr F) (a_main_arg16 : VecArr F) (a_main_arg17 : VecArr F) : ActArr F :=
  addf (mulf (mulf (subf a_main_v74 (broadcastInDim S4096x2048 ![0, 1] bcast_S1x2048_S4096x2048_0_1 a_main_v78)) (broadcastInDim S4096x2048 ![0, 1] bcast_S1x2048_S4096x2048_0_1 (Host.rsqrt (addf a_main_v79 (broadcastInDim S1x2048 ![] bcast_S_S1x2048 (constant S_ .f32 0x3727C5AC#32)))))) (broadcastInDim S4096x2048 ![0, 1] bcast_S1x2048_S4096x2048_0_1 (broadcastInDim S1x2048 ![1] bcast_S2048_S1x2048_1 a_main_arg16))) (broadcastInDim S4096x2048 ![0, 1] bcast_S1x2048_S4096x2048_0_1 (broadcastInDim S1x2048 ![1] bcast_S2048_S1x2048_1 a_main_arg17))

def T_main_v93 (a_main_v12 : ActArr F) (a_main_v73 : ActArr F) : ActArr F :=
  addf a_main_v12 a_main_v73

def T_main_v97 (a_main_v93 : ActArr F) : RowArr F :=
  Host.divf (broadcastInDim S1x2048 ![1] bcast_S2048_S1x2048_1 ((fun x v => Host.reduceAdd x v reducesTo_S4096x2048_S2048_d0 h_S_) a_main_v93 (constant S_ .f32 0x00000000#32))) (broadcastInDim S1x2048 ![] bcast_S_S1x2048 (constant S_ .f32 0x45800000#32))

def T_main_c_13 : IntArr F :=
  constantI S_ 32 0#32

def T_main_call5_v5 (a_main_v93 : ActArr F) : ActArr F :=
  subf a_main_v93 (broadcastInDim S4096x2048 ![0, 1] bcast_S1x2048_S4096x2048_0_1 (Host.divf (broadcastInDim S1x2048 ![1] bcast_S2048_S1x2048_1 ((fun x v => Host.reduceAdd x v reducesTo_S4096x2048_S2048_d0 h_S_) a_main_v93 (constant S_ .f32 0x00000000#32))) (broadcastInDim S1x2048 ![] bcast_S_S1x2048 (constant S_ .f32 0x45800000#32))))

def T_main_v98 (a_main_c_13 : IntArr F) (a_main_call5_v5 : ActArr F) : RowArr F :=
  (fun p a b => select (broadcastInDim S1x2048 ![] bcast_S_S1x2048 p) a b) (((cmpf .ogt) : ScalArr F → ScalArr F → BitArr F) (subf (constant S_ .f32 0x45800000#32) (sitofp .f32 a_main_c_13)) (constant S_ .f32 0x00000000#32)) (Host.divf (broadcastInDim S1x2048 ![1] bcast_S2048_S1x2048_1 ((fun x v => Host.reduceAdd x v reducesTo_S4096x2048_S2048_d0 h_S_) (mulf a_main_call5_v5 a_main_call5_v5) (constant S_ .f32 0x00000000#32))) (broadcastInDim S1x2048 ![] bcast_S_S1x2048 (subf (constant S_ .f32 0x45800000#32) (sitofp .f32 a_main_c_13)))) (broadcastInDim S1x2048 ![] bcast_S_S1x2048 (id (constant S_ .f32 0x7FC00000#32)))

def T_main_v100 (a_main_v93 : ActArr F) (a_main_v97 : RowArr F) : ActArr F :=
  subf a_main_v93 (broadcastInDim S4096x2048 ![0, 1] bcast_S1x2048_S4096x2048_0_1 a_main_v97)

def T_main_v102 (a_main_v98 : RowArr F) : RowArr F :=
  addf a_main_v98 (broadcastInDim S1x2048 ![] bcast_S_S1x2048 (constant S_ .f32 0x3727C5AC#32))

def T_main_v111 (a_main_v100 : ActArr F) (a_main_v102 : RowArr F) (a_main_arg16 : VecArr F) (a_main_arg17 : VecArr F) : ActArr F :=
  addf (mulf (mulf a_main_v100 (broadcastInDim S4096x2048 ![0, 1] bcast_S1x2048_S4096x2048_0_1 (Host.rsqrt a_main_v102))) (broadcastInDim S4096x2048 ![0, 1] bcast_S1x2048_S4096x2048_0_1 (broadcastInDim S1x2048 ![1] bcast_S2048_S1x2048_1 a_main_arg16))) (broadcastInDim S4096x2048 ![0, 1] bcast_S1x2048_S4096x2048_0_1 (broadcastInDim S1x2048 ![1] bcast_S2048_S1x2048_1 a_main_arg17))

def T_main_v118 (a_main_v92 : ActArr F) (a_main_arg18 : WgtArr F) (a_main_arg19 : VecArr F) : ActArr F :=
  addf a_main_v92 (maximumf (addf ((fun l r => Host.dotGeneral dot_S4096x2048_S2048x2048_S4096x2048_1_0_0_1_n_n none l r) a_main_v92 ((transpose S2048x2048 [1, 0] · transposes_S2048x2048_S2048x2048_1_0) a_main_arg18)) (broadcastInDim S4096x2048 ![0, 1] bcast_S1x2048_S4096x2048_0_1 (broadcastInDim S1x2048 ![1] bcast_S2048_S1x2048_1 a_main_arg19))) (broadcastInDim S4096x2048 ![] bcast_S_S4096x2048 (constant S_ .f32 0x00000000#32)))

def T_main_v125 (a_main_v118 : ActArr F) (a_main_arg20 : WgtArr F) (a_main_arg21 : VecArr F) : ActArr F :=
  addf a_main_v118 (maximumf (addf ((fun l r => Host.dotGeneral dot_S4096x2048_S2048x2048_S4096x2048_1_0_0_1_n_n none l r) a_main_v118 ((transpose S2048x2048 [1, 0] · transposes_S2048x2048_S2048x2048_1_0) a_main_arg20)) (broadcastInDim S4096x2048 ![0, 1] bcast_S1x2048_S4096x2048_0_1 (broadcastInDim S1x2048 ![1] bcast_S2048_S1x2048_1 a_main_arg21))) (broadcastInDim S4096x2048 ![] bcast_S_S4096x2048 (constant S_ .f32 0x00000000#32)))

def res_main_v12 (V0 : Valuation τ sig (Elt F)) : ActArr F :=
  T_main_v12 (V0 (Proc.devRef .tc main_arg1)) (V0 (Proc.devRef .tc main_arg4)) (V0 (Proc.devRef .tc main_arg5))

def res_main_v18 (V0 : Valuation τ sig (Elt F)) : ActArr F :=
  T_main_v18 (V0 (Proc.devRef .tc main_arg0)) (V0 (Proc.devRef .tc main_arg6)) (V0 (Proc.devRef .tc main_arg7))

def res_main_v30 (V0 : Valuation τ sig (Elt F)) : ActArr F :=
  T_main_v30 (V0 (Proc.devRef .tc main_arg0)) (res_main_v18 V0) (res_main_v12 V0)

def res_main_v31 (V0 : Valuation τ sig (Elt F)) : ActArr F :=
  T_main_v31 (res_main_v12 V0) (res_main_v18 V0)

def res_main_v38 (V0 : Valuation τ sig (Elt F)) : ActArr F :=
  T_main_v38 (res_main_v30 V0) (V0 (Proc.devRef .tc main_arg2)) (V0 (Proc.devRef .tc main_arg3))

def res_main_v43 (V0 : Valuation τ sig (Elt F)) : ActArr F :=
  T_main_v43 (res_main_v38 V0) (V0 (Proc.devRef .tc main_arg8)) (V0 (Proc.devRef .tc main_arg9))

def res_main_v48 (V0 : Valuation τ sig (Elt F)) : ActArr F :=
  T_main_v48 (res_main_v12 V0) (V0 (Proc.devRef .tc main_arg10)) (V0 (Proc.devRef .tc main_arg11))

def res_main_v50 (V0 : Valuation τ sig (Elt F)) : WgtArr F :=
  T_main_v50 (res_main_v43 V0) (res_main_v48 V0)

def res_main_v51 (V0 : Valuation τ sig (Elt F)) : VecArr F :=
  T_main_v51 (res_main_v50 V0)

def res_main_cst_6 (V0 : Valuation τ sig (Elt F)) : ScalArr F :=
  T_main_cst_6

def res_main_v53 (V0 : Valuation τ sig (Elt F)) : VecArr F :=
  T_main_v53 (res_main_cst_6 V0) (res_main_v51 V0)

def res_main_v57 (V0 : Valuation τ sig (Elt F)) : WgtArr F :=
  T_main_v57 (res_main_v50 V0) (res_main_v53 V0)

def res_main_v61 (V0 : Valuation τ sig (Elt F)) : WgtArr F :=
  T_main_v61 (res_main_v57 V0)

def res_main_v62 (V0 : Valuation τ sig (Elt F)) : ActArr F :=
  T_main_v62 (res_main_v43 V0) (res_main_v61 V0)

def res_main_v67 (V0 : Valuation τ sig (Elt F)) : ActArr F :=
  T_main_v67 (res_main_v62 V0) (V0 (Proc.devRef .tc main_arg12)) (V0 (Proc.devRef .tc main_arg13))

def res_main_v68 (V0 : Valuation τ sig (Elt F)) : ActArr F :=
  T_main_v68 (res_main_v48 V0) (res_main_v61 V0)

def res_main_v73 (V0 : Valuation τ sig (Elt F)) : ActArr F :=
  T_main_v73 (res_main_v68 V0) (V0 (Proc.devRef .tc main_arg14)) (V0 (Proc.devRef .tc main_arg15))

def res_main_v74 (V0 : Valuation τ sig (Elt F)) : ActArr F :=
  T_main_v74 (res_main_v38 V0) (res_main_v67 V0)

def res_main_v78 (V0 : Valuation τ sig (Elt F)) : RowArr F :=
  T_main_v78 (res_main_v74 V0)

def res_main_c (V0 : Valuation τ sig (Elt F)) : IntArr F :=
  T_main_c

def res_main_call4_v5 (V0 : Valuation τ sig (Elt F)) : ActArr F :=
  T_main_call4_v5 (res_main_v74 V0)

def res_main_v79 (V0 : Valuation τ sig (Elt F)) : RowArr F :=
  T_main_v79 (res_main_c V0) (res_main_call4_v5 V0)

def res_main_v92 (V0 : Valuation τ sig (Elt F)) : ActArr F :=
  T_main_v92 (res_main_v74 V0) (res_main_v78 V0) (res_main_v79 V0) (V0 (Proc.devRef .tc main_arg16)) (V0 (Proc.devRef .tc main_arg17))

def res_main_v93 (V0 : Valuation τ sig (Elt F)) : ActArr F :=
  T_main_v93 (res_main_v12 V0) (res_main_v73 V0)

def res_main_v97 (V0 : Valuation τ sig (Elt F)) : RowArr F :=
  T_main_v97 (res_main_v93 V0)

def res_main_c_13 (V0 : Valuation τ sig (Elt F)) : IntArr F :=
  T_main_c_13

def res_main_call5_v5 (V0 : Valuation τ sig (Elt F)) : ActArr F :=
  T_main_call5_v5 (res_main_v93 V0)

def res_main_v98 (V0 : Valuation τ sig (Elt F)) : RowArr F :=
  T_main_v98 (res_main_c_13 V0) (res_main_call5_v5 V0)

def res_main_v100 (V0 : Valuation τ sig (Elt F)) : ActArr F :=
  T_main_v100 (res_main_v93 V0) (res_main_v97 V0)

def res_main_v102 (V0 : Valuation τ sig (Elt F)) : RowArr F :=
  T_main_v102 (res_main_v98 V0)

def res_main_v111 (V0 : Valuation τ sig (Elt F)) : ActArr F :=
  T_main_v111 (res_main_v100 V0) (res_main_v102 V0) (V0 (Proc.devRef .tc main_arg16)) (V0 (Proc.devRef .tc main_arg17))

def res_main_v118 (V0 : Valuation τ sig (Elt F)) : ActArr F :=
  T_main_v118 (res_main_v92 V0) (V0 (Proc.devRef .tc main_arg18)) (V0 (Proc.devRef .tc main_arg19))

def res_main_v125 (V0 : Valuation τ sig (Elt F)) : ActArr F :=
  T_main_v125 (res_main_v118 V0) (V0 (Proc.devRef .tc main_arg20)) (V0 (Proc.devRef .tc main_arg21))

end Cert.ReferenceIdeal.Hand

end
-- ==== Proof.Ref.Stages.lean ====
import proofs.«137432_j14851996910240_2_alg».proof.Proof.Mats
import proofs.«137432_j14851996910240_2_alg».proof.Proof.LibLayoutIx
import Idealize.ShloMosaic.Lib.IdealHost
import Idealize.ShloMosaic.Lib.StackMember
import Idealize.ShloMosaic.PureOps.Reduce
import Idealize.ShloMosaic.PureOps.Ideal.Laws

noncomputable section

namespace Cert.ReferenceIdeal.Hand

open Idealize.ShloMosaic Idealize.ShloMosaic.ValueIdx
open Cert.Spec Cert.LibLayoutIx
open scoped BigOperators

abbrev SBD : Shape := ⟨2, ![4096, 2048]⟩
abbrev SDD : Shape := ⟨2, ![2048, 2048]⟩
abbrev SDB : Shape := ⟨2, ![2048, 4096]⟩
abbrev S1D : Shape := ⟨2, ![1, 2048]⟩
abbrev SD1 : Shape := ⟨2, ![2048, 1]⟩
abbrev SD : Shape := ⟨1, ![2048]⟩
abbrev S0 : Shape := ⟨0, ![]⟩

theorem splat_at {s : Shape} (hb : S0.BroadcastsInDim s (![] : Fin 0 → Fin s.rank)) (w : BitVec 32) (i : s.Idx) :
    broadcastInDim s ![] hb (constant (F := Ideal) S0 .f32 w) i = Ideal.ofBits .f32 w :=
  broadcastInDim_scalar s _ hb _ i

theorem bias_at (hb1 : SD.BroadcastsInDim S1D (![1] : Fin 1 → Fin 2)) (hb2 : S1D.BroadcastsInDim SBD (![0, 1] : Fin 2 → Fin 2))
    (b : FVec Ideal SD .f32) (r : Fin 4096) (j : Fin 2048) :
    broadcastInDim SBD ![0, 1] hb2 (broadcastInDim S1D ![1] hb1 b) (ix2 r j) = b (ix1 j) := by
  rw [broadcastInDim_rows, broadcastInDim_row]

theorem relu_at {s : Shape} (hb : S0.BroadcastsInDim s (![] : Fin 0 → Fin s.rank)) (z : FVec Ideal s .f32) (i : s.Idx) :
    maximumf z (broadcastInDim s ![] hb (constant (F := Ideal) S0 .f32 0x00000000#32)) i = relu (z i) := by
  rw [maximumf_apply, splat_at, Ideal.ofBits_zero_f32]; rfl

theorem logistic_at {s : Shape} (hb : S0.BroadcastsInDim s (![] : Fin 0 → Fin s.rank)) (z : FVec Ideal s .f32) (i : s.Idx) :
    Host.divf (broadcastInDim s ![] hb (constant (F := Ideal) S0 .f32 0x3F800000#32))
      (addf (broadcastInDim s ![] hb (constant (F := Ideal) S0 .f32 0x3F800000#32)) (Host.exp (Host.negf z))) i
      = Ideal.logistic (z i) := by
  show Ideal.div (broadcastInDim s ![] hb (constant (F := Ideal) S0 .f32 0x3F800000#32) i)
      (broadcastInDim s ![] hb (constant (F := Ideal) S0 .f32 0x3F800000#32) i + Ideal.exp (-(z i))) = _
  rw [splat_at, Ideal.ofBits_one_f32]; rfl

/-- The reduced index `i` of a reduction over the columns, with column `k` put back, is `(i, k)`. -/
theorem lift1_ix2 {m n : Nat} (h : (⟨2, ![m, n]⟩ : Shape).Reduces [1] (⟨1, ![m]⟩ : Shape)) (i : Fin m)
    (k : Fin ((⟨2, ![m, n]⟩ : Shape).size 1)) : h.lift (ix1 i) k = ix2 i (⟨k.val, k.isLt⟩ : Fin n) := by
  funext c; apply Fin.ext
  fin_cases c <;> rfl

theorem lift0_ix2 {m n : Nat} (h : (⟨2, ![m, n]⟩ : Shape).Reduces [0] (⟨1, ![n]⟩ : Shape)) (j : Fin n)
    (k : Fin ((⟨2, ![m, n]⟩ : Shape).size 0)) : h.lift (ix1 j) k = ix2 (⟨k.val, k.isLt⟩ : Fin m) j := by
  funext c; apply Fin.ext
  fin_cases c <;> rfl

theorem rowSum_at {m n : Nat} (v : FVec Ideal ⟨2, ![m, n]⟩ .f32) (h' : (⟨2, ![m, n]⟩ : Shape).ReducesTo [1] (⟨1, ![m]⟩ : Shape))
    (h : (⟨2, ![m, n]⟩ : Shape).Reduces [1] (⟨1, ![m]⟩ : Shape)) (hu : 0 < S0.numel) (i : Fin m) :
    Host.reduceAdd v (constant (F := Ideal) S0 .f32 0x00000000#32) h' hu (ix1 i) = ∑ k : Fin n, v (ix2 i k) := by
  rw [hostReduceAdd_apply, Ideal.hostReduceAdd_single h' h, constant_apply, Ideal.ofBits_zero_f32, zero_add]
  exact Finset.sum_congr rfl fun k _ => congrArg v (lift1_ix2 h i k)

theorem colSum_at {m n : Nat} (v : FVec Ideal ⟨2, ![m, n]⟩ .f32) (h' : (⟨2, ![m, n]⟩ : Shape).ReducesTo [0] (⟨1, ![n]⟩ : Shape))
    (h : (⟨2, ![m, n]⟩ : Shape).Reduces [0] (⟨1, ![n]⟩ : Shape)) (hu : 0 < S0.numel) (j : Fin n) :
    Host.reduceAdd v (constant (F := Ideal) S0 .f32 0x00000000#32) h' hu (ix1 j) = ∑ k : Fin m, v (ix2 k j) := by
  rw [hostReduceAdd_apply, Ideal.hostReduceAdd_single h' h, constant_apply, Ideal.ofBits_zero_f32, zero_add]
  exact Finset.sum_congr rfl fun k _ => congrArg v (lift0_ix2 h j k)

theorem ofBits_ninf_f32 : Ideal.ofBits .f32 0xFF800000#32 = ⊥ := by simp [Ideal.ofBits, Ideal.ieee]

theorem ofBits_4096_f32 : Ideal.ofBits .f32 0x45800000#32 = ((4096 : ℝ) : EReal) := by
  simp [Ideal.ofBits, Ideal.ieee, -EReal.coe_mul]; norm_num

theorem nB_sub_zero : Ideal.ofBits .f32 0x45800000#32 - (((0#32 : BitVec 32).toInt : ℝ) : EReal) = nB := by
  have h0 : (((0#32 : BitVec 32).toInt : ℝ) : EReal) = 0 := by simp
  rw [h0, sub_zero]; rfl

variable {ht : SDD.Transposes ([1, 0] : List (Fin 2)) SDD} {ht' : SBD.Transposes ([1, 0] : List (Fin 2)) SDB}
  {hb1 : SD.BroadcastsInDim S1D (![1] : Fin 1 → Fin 2)} {hb2 : S1D.BroadcastsInDim SBD (![0, 1] : Fin 2 → Fin 2)}
  {hb0 : S0.BroadcastsInDim SBD (![] : Fin 0 → Fin 2)} {hb01 : S0.BroadcastsInDim S1D (![] : Fin 0 → Fin 2)}
  {hbD : S0.BroadcastsInDim SD (![] : Fin 0 → Fin 1)}
  {hc1 : SD.BroadcastsInDim SD1 (![0] : Fin 1 → Fin 2)} {hc2 : SD1.BroadcastsInDim SDD (![0, 1] : Fin 2 → Fin 2)}
  {hr0 : SBD.ReducesTo [0] SD} {hr1 : SDD.ReducesTo [1] SD} {hu : 0 < S0.numel}
  (x y t : FVec Ideal SBD .f32) (W : FVec Ideal SDD .f32) (b g beta : FVec Ideal SD .f32) (mean var : FVec Ideal S1D .f32)

theorem lin_at (r : Fin 4096) (j : Fin 2048) :
    addf (Host.dotGeneral (DotDims.plain 4096 2048 2048) none x (transpose SDD [1, 0] W ht))
        (broadcastInDim SBD ![0, 1] hb2 (broadcastInDim S1D ![1] hb1 b)) (ix2 r j)
      = lin (matBD x) (matDD W) (rowD b) r j := by
  rw [addf_apply, StackMember.dotGeneral_plain_apply, bias_at]
  simp only [transpose_10]
  rfl

theorem lin_arr :
    matBD (addf (Host.dotGeneral (DotDims.plain 4096 2048 2048) none x (transpose SDD [1, 0] W ht))
        (broadcastInDim SBD ![0, 1] hb2 (broadcastInDim S1D ![1] hb1 b)))
      = lin (matBD x) (matDD W) (rowD b) :=
  funext fun r => funext fun j => lin_at x W b r j

theorem tsel_arr :
    matBD (maximumf (addf (Host.dotGeneral (DotDims.plain 4096 2048 2048) none x (transpose SDD [1, 0] W ht))
          (broadcastInDim SBD ![0, 1] hb2 (broadcastInDim S1D ![1] hb1 b)))
        (broadcastInDim SBD ![] hb0 (constant (F := Ideal) S0 .f32 0x00000000#32)))
      = sTsel (matBD x) (matDD W) (rowD b) := by
  funext r j
  show maximumf _ _ (ix2 r j) = _
  rw [relu_at, lin_at]
  rfl

theorem resblock_arr :
    matBD (addf x (maximumf (addf (Host.dotGeneral (DotDims.plain 4096 2048 2048) none x (transpose SDD [1, 0] W ht))
          (broadcastInDim SBD ![0, 1] hb2 (broadcastInDim S1D ![1] hb1 b)))
        (broadcastInDim SBD ![] hb0 (constant (F := Ideal) S0 .f32 0x00000000#32))))
      = resblock (matBD x) (matDD W) (rowD b) := by
  funext r j
  show addf _ _ (ix2 r j) = _
  rw [addf_apply, relu_at, lin_at]
  rfl

theorem asig_arr :
    matBD (Host.divf (broadcastInDim SBD ![] hb0 (constant (F := Ideal) S0 .f32 0x3F800000#32))
        (addf (broadcastInDim SBD ![] hb0 (constant (F := Ideal) S0 .f32 0x3F800000#32))
          (Host.exp (Host.negf (addf x (maximumf (addf (Host.dotGeneral (DotDims.plain 4096 2048 2048) none x (transpose SDD [1, 0] W ht))
              (broadcastInDim SBD ![0, 1] hb2 (broadcastInDim S1D ![1] hb1 b)))
            (broadcastInDim SBD ![] hb0 (constant (F := Ideal) S0 .f32 0x00000000#32))))))))
      = sAsig (matBD x) (matDD W) (rowD b) := by
  funext r j
  show Host.divf _ _ (ix2 r j) = _
  rw [logistic_at, addf_apply, relu_at, lin_at]
  rfl

/-- The gate is the logistic where the score is positive and zero elsewhere. -/
theorem x0_arr :
    matBD (mulf (addf x (mulf x (select (cmpf .ogt t (broadcastInDim SBD ![] hb0 (constant (F := Ideal) S0 .f32 0x00000000#32)))
        (Host.divf (broadcastInDim SBD ![] hb0 (constant (F := Ideal) S0 .f32 0x3F800000#32))
          (addf (broadcastInDim SBD ![] hb0 (constant (F := Ideal) S0 .f32 0x3F800000#32)) (Host.exp (Host.negf t))))
        (broadcastInDim SBD ![] hb0 (constant (F := Ideal) S0 .f32 0x00000000#32))))) y)
      = sX0 (matBD x) (matBD t) (matBD y) := by
  funext r j
  show mulf _ _ (ix2 r j) = _
  rw [mulf_apply, addf_apply, mulf_apply, select_apply, cmpf_apply, logistic_at, splat_at, Ideal.ofBits_zero_f32]
  show (x (ix2 r j) + x (ix2 r j) * Scalar.select (Ideal.cmp .ogt (t (ix2 r j)) 0) (Ideal.logistic (t (ix2 r j))) 0) * y (ix2 r j)
      = (x (ix2 r j) + x (ix2 r j) * gate (t (ix2 r j))) * y (ix2 r j)
  congr 3
  unfold gate Scalar.select Ideal.cmp
  by_cases h : 0 < t (ix2 r j) <;> simp [h]

theorem explain_arr : matBD (addf x y) = sExplain (matBD x) (matBD y) := rfl

theorem add_arr : matBD (addf x y) = fun r j => matBD x r j + matBD y r j := rfl

theorem logits_arr :
    matDD (Host.dotGeneral (DotDims.plain 2048 4096 2048) none (transpose SDB [1, 0] x ht') y) = sLogits (matBD x) (matBD y) := by
  funext i j
  show Host.dotGeneral _ none _ _ (ix2 i j) = _
  rw [StackMember.dotGeneral_plain_apply]
  simp only [transpose_10]
  rfl

theorem times_arr : matBD (Host.dotGeneral (DotDims.plain 4096 2048 2048) none x W) = sTimes (matBD x) (matDD W) := by
  funext r j
  show Host.dotGeneral _ none _ _ (ix2 r j) = _
  rw [StackMember.dotGeneral_plain_apply]
  rfl

/-- A row's maximum from `−∞`, taken once more against `−∞`. -/
theorem rowmax_arr :
    rowD (maximumf (broadcastInDim SD ![] hbD (constant (F := Ideal) S0 .f32 0xFF800000#32))
        (Host.reduce FloatOps.maximumf W (constant (F := Ideal) S0 .f32 0xFF800000#32) hr1 hu))
      = rowmax (matDD W) := by
  have h : SDD.Reduces [1] SD := by decide
  funext i
  show maximumf _ _ (ix1 i) = _
  rw [maximumf_apply, splat_at, Host.reduce_eq_fold_single FloatOps.maximumf W _ hr1 h hu, constant_apply, ofBits_ninf_f32]
  have hf : (W ∘ h.lift (ix1 i)) = fun k : Fin 2048 => W (ix2 i k) := funext fun k => congrArg W (lift1_ix2 h i k)
  rw [hf]
  rfl

theorem cols_at (i j : Fin 2048) :
    broadcastInDim SDD ![0, 1] hc2 (broadcastInDim SD1 ![0] hc1 b) (ix2 i j) = b (ix1 i) := by
  rw [broadcastInDim_cols, broadcastInDim_col]

theorem expSub_arr :
    matDD (Host.exp (subf W (broadcastInDim SDD ![0, 1] hc2 (broadcastInDim SD1 ![0] hc1 b))))
      = fun i j => Ideal.exp (matDD W i j - rowD b i) := by
  funext i j
  show Ideal.exp (W (ix2 i j) - broadcastInDim SDD ![0, 1] hc2 (broadcastInDim SD1 ![0] hc1 b) (ix2 i j)) = _
  rw [cols_at]
  rfl

theorem divRowSum_arr :
    matDD (Host.divf W (broadcastInDim SDD ![0, 1] hc2 (broadcastInDim SD1 ![0] hc1
        (Host.reduceAdd W (constant (F := Ideal) S0 .f32 0x00000000#32) hr1 hu))))
      = fun i j => Ideal.div (matDD W i j) (∑ j' : Fin 2048, matDD W i j') := by
  funext i j
  show Ideal.div (W (ix2 i j)) (broadcastInDim SDD ![0, 1] hc2 (broadcastInDim (s := SD) SD1 ![0] hc1 _) (ix2 i j)) = _
  rw [cols_at, rowSum_at W hr1 (by decide) hu]
  rfl

/-- A column's mean: its sum over the 4096 rows divided by 4096. -/
theorem colMean_at (j : Fin 2048) :
    Host.divf (broadcastInDim S1D ![1] hb1 (Host.reduceAdd x (constant (F := Ideal) S0 .f32 0x00000000#32) hr0 hu))
        (broadcastInDim S1D ![] hb01 (constant (F := Ideal) S0 .f32 0x45800000#32)) (ix2 (0 : Fin 1) j)
      = colMean (matBD x) j := by
  show Ideal.div (broadcastInDim (s := SD) S1D ![1] hb1 _ (ix2 (0 : Fin 1) j)) (broadcastInDim (s := S0) S1D ![] hb01 _ (ix2 (0 : Fin 1) j)) = _
  rw [broadcastInDim_row, colSum_at x hr0 (by decide) hu, splat_at]
  rfl

theorem colMean_arr :
    row1D (Host.divf (broadcastInDim S1D ![1] hb1 (Host.reduceAdd x (constant (F := Ideal) S0 .f32 0x00000000#32) hr0 hu))
        (broadcastInDim S1D ![] hb01 (constant (F := Ideal) S0 .f32 0x45800000#32)))
      = colMean (matBD x) :=
  funext fun j => colMean_at x j

/-- The variance with no correction: the degrees of freedom `4096 − 0` being positive, the mean of the squares over `4096`. -/
theorem var_arr :
    row1D (select (broadcastInDim S1D ![] hb01
          (cmpf .ogt (subf (constant (F := Ideal) S0 .f32 0x45800000#32) (sitofp .f32 (constantI S0 32 0#32)))
            (constant (F := Ideal) S0 .f32 0x00000000#32)))
        (Host.divf (broadcastInDim S1D ![1] hb1 (Host.reduceAdd (mulf x x) (constant (F := Ideal) S0 .f32 0x00000000#32) hr0 hu))
          (broadcastInDim S1D ![] hb01 (subf (constant (F := Ideal) S0 .f32 0x45800000#32) (sitofp .f32 (constantI S0 32 0#32)))))
        (broadcastInDim S1D ![] hb01 (constant (F := Ideal) S0 .f32 0x7FC00000#32)))
      = fun j => Ideal.div (∑ r : Fin 4096, matBD x r j * matBD x r j) nB := by
  funext j
  show Scalar.select (broadcastInDim (s := S0) S1D ![] hb01 _ (ix2 (0 : Fin 1) j))
      (Ideal.div (broadcastInDim (s := SD) S1D ![1] hb1 _ (ix2 (0 : Fin 1) j)) (broadcastInDim (s := S0) S1D ![] hb01 _ (ix2 (0 : Fin 1) j)))
      (broadcastInDim (s := S0) S1D ![] hb01 _ (ix2 (0 : Fin 1) j)) = _
  rw [broadcastInDim_row, colSum_at (mulf x x) hr0 (by decide) hu]
  rw [broadcastInDim_scalar S1D _ hb01 (cmpf .ogt _ _), broadcastInDim_scalar S1D _ hb01 (subf _ _)]
  have hd : subf (constant (F := Ideal) S0 .f32 0x45800000#32) (sitofp .f32 (constantI S0 32 0#32)) ix0 = nB := nB_sub_zero
  have hp : cmpf .ogt (subf (constant (F := Ideal) S0 .f32 0x45800000#32) (sitofp .f32 (constantI S0 32 0#32)))
      (constant (F := Ideal) S0 .f32 0x00000000#32) ix0 = 1#1 := by
    show Ideal.cmp .ogt (subf (constant (F := Ideal) S0 .f32 0x45800000#32) (sitofp .f32 (constantI S0 32 0#32)) ix0)
      (Ideal.ofBits .f32 0x00000000#32) = 1#1
    rw [hd, Ideal.ofBits_zero_f32]
    have : (0 : EReal) < nB := by
      unfold nB; rw [ofBits_4096_f32]; exact_mod_cast (by norm_num : (0 : ℝ) < 4096)
    simp [Ideal.cmp, this]
  rw [hp, hd]
  rfl

theorem subRow_arr : matBD (subf x (broadcastInDim SBD ![0, 1] hb2 mean)) = fun r j => matBD x r j - row1D mean j := by
  funext r j
  show x (ix2 r j) - broadcastInDim SBD ![0, 1] hb2 mean (ix2 r j) = _
  rw [broadcastInDim_rows]
  rfl

theorem addEps_arr :
    row1D (addf var (broadcastInDim S1D ![] hb01 (constant (F := Ideal) S0 .f32 0x3727C5AC#32))) = fun j => row1D var j + eps := by
  funext j
  show var (ix2 0 j) + broadcastInDim S1D ![] hb01 (constant (F := Ideal) S0 .f32 0x3727C5AC#32) (ix2 0 j) = _
  rw [splat_at]
  rfl

theorem scale_arr :
    matBD (addf (mulf (mulf x (broadcastInDim SBD ![0, 1] hb2 (Host.rsqrt var)))
          (broadcastInDim SBD ![0, 1] hb2 (broadcastInDim S1D ![1] hb1 g)))
        (broadcastInDim SBD ![0, 1] hb2 (broadcastInDim S1D ![1] hb1 beta)))
      = fun r j => matBD x r j * Ideal.rsqrt (row1D var j) * rowD g j + rowD beta j := by
  funext r j
  show x (ix2 r j) * broadcastInDim SBD ![0, 1] hb2 (Host.rsqrt var) (ix2 r j)
        * broadcastInDim SBD ![0, 1] hb2 (broadcastInDim S1D ![1] hb1 g) (ix2 r j)
      + broadcastInDim SBD ![0, 1] hb2 (broadcastInDim S1D ![1] hb1 beta) (ix2 r j) = _
  rw [bias_at, bias_at, broadcastInDim_rows]
  rfl

end Cert.ReferenceIdeal.Hand

end
-- ==== Proof.Ref.Inputs.lean ====
import proofs.«137432_j14851996910240_2_alg».proof.ReferenceIdeal
import proofs.«137432_j14851996910240_2_alg».proof.Proof.Mats
import Idealize.ShloMosaic.Lib.StableHlo.Run

noncomputable section

namespace Cert.ReferenceIdeal.Hand

open Idealize.ShloMosaic Idealize.SL.Sem Idealize.ShloMosaic.StableHlo
open Cert.ReferenceIdeal Cert.Spec

def inputsOf (m : (ℓ : Loc nD τ sig) → Buf (Elt Ideal) ℓ) (c : Dev nD) : Cert.Spec.Inputs :=
  {
    input := matBD (m ((c.tc : Thread nD τ).loc main_arg0))
    a := matBD (m ((c.tc : Thread nD τ).loc main_arg1))
    rb1W := matDD (m ((c.tc : Thread nD τ).loc main_arg2))
    rb1b := rowD (m ((c.tc : Thread nD τ).loc main_arg3))
    rb2W := matDD (m ((c.tc : Thread nD τ).loc main_arg4))
    rb2b := rowD (m ((c.tc : Thread nD τ).loc main_arg5))
    selW := matDD (m ((c.tc : Thread nD τ).loc main_arg6))
    selb := rowD (m ((c.tc : Thread nD τ).loc main_arg7))
    qW := matDD (m ((c.tc : Thread nD τ).loc main_arg8))
    qb := rowD (m ((c.tc : Thread nD τ).loc main_arg9))
    kW := matDD (m ((c.tc : Thread nD τ).loc main_arg10))
    kb := rowD (m ((c.tc : Thread nD τ).loc main_arg11))
    v1W := matDD (m ((c.tc : Thread nD τ).loc main_arg12))
    v1b := rowD (m ((c.tc : Thread nD τ).loc main_arg13))
    v2W := matDD (m ((c.tc : Thread nD τ).loc main_arg14))
    v2b := rowD (m ((c.tc : Thread nD τ).loc main_arg15))
    bng := rowD (m ((c.tc : Thread nD τ).loc main_arg16))
    bnbeta := rowD (m ((c.tc : Thread nD τ).loc main_arg17))
    mlp1W := matDD (m ((c.tc : Thread nD τ).loc main_arg18))
    mlp1b := rowD (m ((c.tc : Thread nD τ).loc main_arg19))
    mlp2W := matDD (m ((c.tc : Thread nD τ).loc main_arg20))
    mlp2b := rowD (m ((c.tc : Thread nD τ).loc main_arg21)) }

end Cert.ReferenceIdeal.Hand

end
-- ==== Proof.Ref.Value1.lean ====
import proofs.«137432_j14851996910240_2_alg».proof.Proof.Ref.Ops
import proofs.«137432_j14851996910240_2_alg».proof.Proof.Ref.Stages
import proofs.«137432_j14851996910240_2_alg».proof.Proof.Ref.Inputs

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Spec
open scoped BigOperators

variable (m : (ℓ : Loc nD τ sig) → Buf (Elt Ideal) ℓ) (c : Dev nD)

theorem res_v12 : matBD (res_main_v12 (launchContents m c)) = asig (inputsOf m c) := asig_arr _ _ _

theorem res_v18 : matBD (res_main_v18 (launchContents m c)) = tsel (inputsOf m c) := tsel_arr _ _ _

/-- A stage's lemma reads the value as a stage of the specification; the earlier values are rewritten by their own lemmas. -/
theorem res_v31 : matBD (res_main_v31 (launchContents m c)) = explain (inputsOf m c) :=
  (explain_arr _ _).trans (by rw [res_v12, res_v18]; rfl)

theorem res_v38 : matBD (res_main_v38 (launchContents m c)) = xres (inputsOf m c) :=
  (resblock_arr _ _ _).trans (by rw [show matBD (res_main_v30 (launchContents m c)) = _ from x0_arr _ _ _, res_v18, res_v12]; rfl)

theorem res_v43 : matBD (res_main_v43 (launchContents m c)) = q (inputsOf m c) := (lin_arr _ _ _).trans (by rw [res_v38]; rfl)

theorem res_v48 : matBD (res_main_v48 (launchContents m c)) = kk (inputsOf m c) := (lin_arr _ _ _).trans (by rw [res_v12]; rfl)

theorem res_v50 : matDD (res_main_v50 (launchContents m c)) = sLogits (q (inputsOf m c)) (kk (inputsOf m c)) :=
  (logits_arr _ _).trans (by rw [res_v43, res_v48])

theorem res_v53 : rowD (res_main_v53 (launchContents m c)) = rowmax (sLogits (q (inputsOf m c)) (kk (inputsOf m c))) := by
  unfold res_main_v53 res_main_cst_6 res_main_v51 T_main_v53 T_main_cst_6 T_main_v51
  exact (rowmax_arr _).trans (by rw [res_v50])

theorem res_v61 : matDD (res_main_v61 (launchContents m c)) = attn (inputsOf m c) :=
  (divRowSum_arr _).trans (by rw [show matDD (res_main_v57 (launchContents m c)) = _ from expSub_arr _ _, res_v50, res_v53]; rfl)

theorem res_v74 : matBD (res_main_v74 (launchContents m c)) = y1 (inputsOf m c) :=
  (add_arr _ _).trans (by
    rw [show matBD (res_main_v67 (launchContents m c)) = _ from lin_arr _ _ _, show matBD (res_main_v62 (launchContents m c)) = _ from times_arr _ _,
      res_v38, res_v43, res_v61]; rfl)

theorem res_v93 : matBD (res_main_v93 (launchContents m c)) = y2 (inputsOf m c) :=
  (add_arr _ _).trans (by
    rw [show matBD (res_main_v73 (launchContents m c)) = _ from lin_arr _ _ _, show matBD (res_main_v68 (launchContents m c)) = _ from times_arr _ _,
      res_v12, res_v48, res_v61]; rfl)

theorem res_v92 : matBD (res_main_v92 (launchContents m c))
    = bn (varR (y1 (inputsOf m c))) (y1 (inputsOf m c)) (inputsOf m c).bng (inputsOf m c).bnbeta :=
  (scale_arr _ _ _ _).trans (by
    rw [subRow_arr, addEps_arr, show row1D (res_main_v78 (launchContents m c)) = _ from colMean_arr _, show row1D (res_main_v79 (launchContents m c)) = _ from var_arr _,
      show matBD (res_main_call4_v5 (launchContents m c)) = _ from subRow_arr _ _, colMean_arr, res_v74]; rfl)

theorem res_v125 : matBD (res_main_v125 (launchContents m c)) = xdR (inputsOf m c) :=
  (resblock_arr _ _ _).trans (by rw [show matBD (res_main_v118 (launchContents m c)) = _ from resblock_arr _ _ _, res_v92]; rfl)

theorem res_v111 : matBD (res_main_v111 (launchContents m c)) = x2R (inputsOf m c) :=
  (scale_arr _ _ _ _).trans (by
    rw [show matBD (res_main_v100 (launchContents m c)) = _ from subRow_arr _ _, show row1D (res_main_v102 (launchContents m c)) = _ from addEps_arr _,
      show row1D (res_main_v98 (launchContents m c)) = _ from var_arr _, show matBD (res_main_call5_v5 (launchContents m c)) = _ from subRow_arr _ _, colMean_arr,
      show row1D (res_main_v97 (launchContents m c)) = _ from colMean_arr _, res_v93]; rfl)

theorem res_main_v125_eq : res_main_v125 (launchContents m c) = arrBD (xdR (inputsOf m c)) :=
  eq_of_matBD_eq (by rw [res_v125, matBD_arrBD])

theorem res_main_v111_eq : res_main_v111 (launchContents m c) = arrBD (x2R (inputsOf m c)) :=
  eq_of_matBD_eq (by rw [res_v111, matBD_arrBD])

theorem res_main_v31_eq : res_main_v31 (launchContents m c) = arrBD (explain (inputsOf m c)) :=
  eq_of_matBD_eq (by rw [res_v31, matBD_arrBD])

end Cert.ReferenceIdeal.Hand

end
-- ==== Proof.Ref.Fold.lean ====
import proofs.«137432_j14851996910240_2_alg».proof.Proof.Ref.Ops
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def afterS : List (List (HloOp τ sig (Elt F))) → Valuation τ sig (Elt F) → Valuation τ sig (Elt F)
  | [], V => V
  | l :: ls, V => afterS ls (after l V)

theorem afterS_flatten (ls : List (List (HloOp τ sig (Elt F)))) (V : Valuation τ sig (Elt F)) :
    afterS ls V = after ls.flatten V := by
  induction ls generalizing V with
  | nil => rfl
  | cons l ls ih => rw [List.flatten_cons, after_append, ← ih]; rfl

def WritesIn : List (List (HloOp τ sig (Elt F))) → List (List (Ref sig .tc)) → Prop
  | [], _ => True
  | _ :: _, [] => False
  | l :: ls, W :: Ws =>
    (l.Forall fun op => op.writes ⊆ (W.map (Proc.devRef (τ := τ) .tc)).toFinset) ∧ WritesIn ls Ws

-- A buffer no stage lists is written by no operation.
theorem afterS_keep : ∀ (ls : List (List (HloOp τ sig (Elt F)))) (Ws : List (List (Ref sig .tc))), WritesIn ls Ws →
    ∀ (V : Valuation τ sig (Elt F)) (r : Ref sig .tc), r ∉ Ws.flatten →
      afterS ls V (Proc.devRef .tc r) = V (Proc.devRef .tc r)
  | [], _, _, _, _, _ => rfl
  | _ :: _, [], h, _, _, _ => h.elim
  | l :: ls, W :: Ws, h, V, r, hr => by
    rw [List.flatten_cons, List.mem_append, not_or] at hr
    show afterS ls (after l V) _ = _
    rw [afterS_keep ls Ws h.2 _ r hr.2, after_of_writes_sub l V h.1 hr.1]

-- A buffer the stages from the K-th on do not list is final after the first K.
theorem afterS_drop : ∀ (ls : List (List (HloOp τ sig (Elt F)))) (Ws : List (List (Ref sig .tc))), WritesIn ls Ws →
    ∀ (K : ℕ) (V : Valuation τ sig (Elt F)) (r : Ref sig .tc), r ∉ (Ws.drop K).flatten →
      afterS ls V (Proc.devRef .tc r) = afterS (ls.take K) V (Proc.devRef .tc r)
  | ls, Ws, h, 0, V, r, hr => by
    rw [List.take_zero]; exact afterS_keep ls Ws h V r (by rwa [List.drop_zero] at hr)
  | [], _, _, _ + 1, _, _, _ => by rw [List.take_nil]
  | _ :: _, [], h, _ + 1, _, _, _ => h.elim
  | l :: ls, W :: Ws, h, K + 1, V, r, hr => by
    rw [List.take_succ_cons]
    show afterS ls (after l V) _ = afterS (ls.take K) (after l V) _
    exact afterS_drop ls Ws h.2 K _ r (by rwa [List.drop_succ_cons] at hr)

theorem afterS_take_succ : ∀ (ls : List (List (HloOp τ sig (Elt F)))) (K : ℕ) (h : K < ls.length) (V : Valuation τ sig (Elt F)),
    afterS (ls.take (K + 1)) V = after (ls[K]'h) (afterS (ls.take K) V)
  | _ :: _, 0, _, _ => rfl
  | l :: ls, K + 1, h, V => by
    rw [List.take_succ_cons, List.take_succ_cons]
    exact afterS_take_succ ls K (Nat.lt_of_succ_lt_succ h) (after l V)

def StageOk (l : List (HloOp τ sig (Elt F))) : Prop :=
  (l.Forall fun op => op.bufs ⊆ tcRefs τ sig) ∧ ∀ op ∈ l, op.fresh = ∅

theorem StageOk.flatten {ls : List (List (HloOp τ sig (Elt F)))} (h : ∀ l ∈ ls, StageOk l) : StageOk ls.flatten :=
  ⟨List.forall_iff_forall_mem.2 fun op ho =>
      let ⟨l, hl, hol⟩ := List.mem_flatten.1 ho; List.forall_iff_forall_mem.1 (h l hl).1 op hol,
    fun op ho => let ⟨l, hl, hol⟩ := List.mem_flatten.1 ho; (h l hl).2 op hol⟩

theorem stages_ok : ∀ l ∈ (stages : List (List (HloOp τ sig (Elt F)))), StageOk l := by
  intro l hl
  repeat (cases hl with
    | head =>
      refine ⟨by simp only [List.Forall, nullary_bufs_sub, unary_bufs_sub, binary_bufs_sub, ternary_bufs_sub, and_self], fun _ h => ?_⟩
      (repeat (cases h with | head => rfl | tail _ h => ?_)); exact nomatch h
    | tail _ hl => ?_)
  exact nomatch hl

theorem stages_writes : WritesIn (stages : List (List (HloOp τ sig (Elt F)))) stagesW := by
  refine ⟨?_, ?_, ?_, ?_, ?_, ?_, ?_, ?_, ?_, ?_, ?_, ?_, ?_, ?_, ?_, ?_, ?_, ?_, ?_, ?_, ?_, ?_, ?_, ?_, ?_, ?_, ?_, ?_, trivial⟩ <;>
    simp only [List.Forall, nullary_writes, unary_writes, binary_writes, ternary_writes, Finset.singleton_subset_iff, List.mem_toFinset] <;>
    (repeat' apply And.intro) <;> exact List.mem_map_of_mem (by decide)

theorem at_of (K : ℕ) {V0 : Valuation τ sig (Elt F)} {r : Ref sig .tc} {v : (Proc.devRef .tc r : DevRef τ sig).ty.Contents (Elt F)}
    (h : afterS stages V0 (Proc.devRef .tc r) = v) (hr : r ∉ (stagesW.drop K).flatten) :
    afterS (stages.take K) V0 (Proc.devRef .tc r) = v :=
  (afterS_drop stages stagesW stages_writes K V0 r hr).symm.trans h

theorem fin_arg (V0 : Valuation τ sig (Elt F)) (r : Ref sig .tc) (hr : r ∉ stagesW.flatten) :
    afterS stages V0 (Proc.devRef .tc r) = V0 (Proc.devRef .tc r) :=
  afterS_keep stages stagesW stages_writes V0 r hr

theorem at_arg (K : ℕ) (V0 : Valuation τ sig (Elt F)) (r : Ref sig .tc) (hr : r ∉ stagesW.flatten) :
    afterS (stages.take K) V0 (Proc.devRef .tc r) = V0 (Proc.devRef .tc r) :=
  at_of K (fin_arg V0 r hr) fun hm =>
    let ⟨l, hl, hx⟩ := List.mem_flatten.1 hm; hr (List.mem_flatten.2 ⟨l, List.mem_of_mem_drop hl, hx⟩)

-- A buffer only stage K + 1 writes ends at that stage's result over what the first K stages leave.
theorem fin_of (K : ℕ) (l : List (HloOp τ sig (Elt F))) (hl : stages[K]? = some l) (V0 : Valuation τ sig (Elt F)) (r : Ref sig .tc)
    (hr : r ∉ (stagesW.drop (K + 1)).flatten) :
    afterS stages V0 (Proc.devRef .tc r) = after l (afterS (stages.take K) V0) (Proc.devRef .tc r) := by
  obtain ⟨h, rfl⟩ := List.getElem?_eq_some_iff.1 hl
  rw [afterS_drop stages stagesW stages_writes (K + 1) V0 r hr, afterS_take_succ stages K h]

variable (V0 : Valuation τ sig (Elt F))

theorem fin_main_v12 : afterS stages V0 (Proc.devRef .tc main_v12) = res_main_v12 V0 := by
  rw [fin_of 0 ops1 rfl V0 main_v12 (by decide)]; simp only [ops1]; after_results_simp
  simp only [at_arg 0 V0 main_arg1 (by decide), at_arg 0 V0 main_arg4 (by decide), at_arg 0 V0 main_arg5 (by decide)]; rfl

theorem fin_main_v18 : afterS stages V0 (Proc.devRef .tc main_v18) = res_main_v18 V0 := by
  rw [fin_of 1 ops2 rfl V0 main_v18 (by decide)]; simp only [ops2]; after_results_simp
  simp only [at_arg 1 V0 main_arg0 (by decide), at_arg 1 V0 main_arg6 (by decide), at_arg 1 V0 main_arg7 (by decide)]; rfl

theorem fin_main_v30 : afterS stages V0 (Proc.devRef .tc main_v30) = res_main_v30 V0 := by
  rw [fin_of 2 ops3 rfl V0 main_v30 (by decide)]; simp only [ops3]; after_results_simp
  simp only [at_arg 2 V0 main_arg0 (by decide), at_of 2 (fin_main_v18 V0) (by decide), at_of 2 (fin_main_v12 V0) (by decide)]; rfl

theorem fin_main_v31 : afterS stages V0 (Proc.devRef .tc main_v31) = res_main_v31 V0 := by
  rw [fin_of 2 ops3 rfl V0 main_v31 (by decide)]; simp only [ops3]; after_results_simp
  simp only [at_of 2 (fin_main_v12 V0) (by decide), at_of 2 (fin_main_v18 V0) (by decide)]; rfl

theorem fin_main_v38 : afterS stages V0 (Proc.devRef .tc main_v38) = res_main_v38 V0 := by
  rw [fin_of 3 ops4 rfl V0 main_v38 (by decide)]; simp only [ops4]; after_results_simp
  simp only [at_of 3 (fin_main_v30 V0) (by decide), at_arg 3 V0 main_arg2 (by decide), at_arg 3 V0 main_arg3 (by decide)]; rfl

theorem fin_main_v43 : afterS stages V0 (Proc.devRef .tc main_v43) = res_main_v43 V0 := by
  rw [fin_of 4 ops5 rfl V0 main_v43 (by decide)]; simp only [ops5]; after_results_simp
  simp only [at_of 4 (fin_main_v38 V0) (by decide), at_arg 4 V0 main_arg8 (by decide), at_arg 4 V0 main_arg9 (by decide)]; rfl

theorem fin_main_v48 : afterS stages V0 (Proc.devRef .tc main_v48) = res_main_v48 V0 := by
  rw [fin_of 5 ops6 rfl V0 main_v48 (by decide)]; simp only [ops6]; after_results_simp
  simp only [at_of 5 (fin_main_v12 V0) (by decide), at_arg 5 V0 main_arg10 (by decide), at_arg 5 V0 main_arg11 (by decide)]; rfl

theorem fin_main_v50 : afterS stages V0 (Proc.devRef .tc main_v50) = res_main_v50 V0 := by
  rw [fin_of 6 ops7 rfl V0 main_v50 (by decide)]; simp only [ops7]; after_results_simp
  simp only [at_of 6 (fin_main_v43 V0) (by decide), at_of 6 (fin_main_v48 V0) (by decide)]; rfl

theorem fin_main_v51 : afterS stages V0 (Proc.devRef .tc main_v51) = res_main_v51 V0 := by
  rw [fin_of 7 ops8 rfl V0 main_v51 (by decide)]; simp only [ops8]; after_results_simp
  simp only [at_of 7 (fin_main_v50 V0) (by decide)]; rfl

theorem fin_main_cst_6 : afterS stages V0 (Proc.devRef .tc main_cst_6) = res_main_cst_6 V0 := by
  rw [fin_of 7 ops8 rfl V0 main_cst_6 (by decide)]; simp only [ops8]; after_results_simp; rfl

theorem fin_main_v53 : afterS stages V0 (Proc.devRef .tc main_v53) = res_main_v53 V0 := by
  rw [fin_of 8 ops9 rfl V0 main_v53 (by decide)]; simp only [ops9]; after_results_simp
  simp only [at_of 8 (fin_main_cst_6 V0) (by decide), at_of 8 (fin_main_v51 V0) (by decide)]; rfl

theorem fin_main_v57 : afterS stages V0 (Proc.devRef .tc main_v57) = res_main_v57 V0 := by
  rw [fin_of 9 ops10 rfl V0 main_v57 (by decide)]; simp only [ops10]; after_results_simp
  simp only [at_of 9 (fin_main_v50 V0) (by decide), at_of 9 (fin_main_v53 V0) (by decide)]; rfl

theorem fin_main_v61 : afterS stages V0 (Proc.devRef .tc main_v61) = res_main_v61 V0 := by
  rw [fin_of 10 ops11 rfl V0 main_v61 (by decide)]; simp only [ops11]; after_results_simp
  simp only [at_of 10 (fin_main_v57 V0) (by decide)]; rfl

theorem fin_main_v62 : afterS stages V0 (Proc.devRef .tc main_v62) = res_main_v62 V0 := by
  rw [fin_of 11 ops12 rfl V0 main_v62 (by decide)]; simp only [ops12]; after_results_simp
  simp only [at_of 11 (fin_main_v43 V0) (by decide), at_of 11 (fin_main_v61 V0) (by decide)]; rfl

theorem fin_main_v67 : afterS stages V0 (Proc.devRef .tc main_v67) = res_main_v67 V0 := by
  rw [fin_of 12 ops13 rfl V0 main_v67 (by decide)]; simp only [ops13]; after_results_simp
  simp only [at_of 12 (fin_main_v62 V0) (by decide), at_arg 12 V0 main_arg12 (by decide), at_arg 12 V0 main_arg13 (by decide)]; rfl

theorem fin_main_v68 : afterS stages V0 (Proc.devRef .tc main_v68) = res_main_v68 V0 := by
  rw [fin_of 13 ops14 rfl V0 main_v68 (by decide)]; simp only [ops14]; after_results_simp
  simp only [at_of 13 (fin_main_v48 V0) (by decide), at_of 13 (fin_main_v61 V0) (by decide)]; rfl

theorem fin_main_v73 : afterS stages V0 (Proc.devRef .tc main_v73) = res_main_v73 V0 := by
  rw [fin_of 14 ops15 rfl V0 main_v73 (by decide)]; simp only [ops15]; after_results_simp
  simp only [at_of 14 (fin_main_v68 V0) (by decide), at_arg 14 V0 main_arg14 (by decide), at_arg 14 V0 main_arg15 (by decide)]; rfl

theorem fin_main_v74 : afterS stages V0 (Proc.devRef .tc main_v74) = res_main_v74 V0 := by
  rw [fin_of 15 ops16 rfl V0 main_v74 (by decide)]; simp only [ops16]; after_results_simp
  simp only [at_of 15 (fin_main_v38 V0) (by decide), at_of 15 (fin_main_v67 V0) (by decide)]; rfl

theorem fin_main_v78 : afterS stages V0 (Proc.devRef .tc main_v78) = res_main_v78 V0 := by
  rw [fin_of 16 ops17 rfl V0 main_v78 (by decide)]; simp only [ops17]; after_results_simp
  simp only [at_of 16 (fin_main_v74 V0) (by decide)]; rfl

theorem fin_main_c : afterS stages V0 (Proc.devRef .tc main_c) = res_main_c V0 := by
  rw [fin_of 17 ops18 rfl V0 main_c (by decide)]; simp only [ops18]; after_results_simp; rfl

theorem fin_main_call4_v5 : afterS stages V0 (Proc.devRef .tc main_call4_v5) = res_main_call4_v5 V0 := by
  rw [fin_of 17 ops18 rfl V0 main_call4_v5 (by decide)]; simp only [ops18]; after_results_simp
  simp only [at_of 17 (fin_main_v74 V0) (by decide)]; rfl

theorem fin_main_v79 : afterS stages V0 (Proc.devRef .tc main_v79) = res_main_v79 V0 := by
  rw [fin_of 18 ops19 rfl V0 main_v79 (by decide)]; simp only [ops19]; after_results_simp
  simp only [at_of 18 (fin_main_c V0) (by decide), at_of 18 (fin_main_call4_v5 V0) (by decide)]; rfl

theorem fin_main_v92 : afterS stages V0 (Proc.devRef .tc main_v92) = res_main_v92 V0 := by
  rw [fin_of 19 ops20 rfl V0 main_v92 (by decide)]; simp only [ops20]; after_results_simp
  simp only [at_of 19 (fin_main_v74 V0) (by decide), at_of 19 (fin_main_v78 V0) (by decide), at_of 19 (fin_main_v79 V0) (by decide), at_arg 19 V0 main_arg16 (by decide), at_arg 19 V0 main_arg17 (by decide)]; rfl

theorem fin_main_v93 : afterS stages V0 (Proc.devRef .tc main_v93) = res_main_v93 V0 := by
  rw [fin_of 20 ops21 rfl V0 main_v93 (by decide)]; simp only [ops21]; after_results_simp
  simp only [at_of 20 (fin_main_v12 V0) (by decide), at_of 20 (fin_main_v73 V0) (by decide)]; rfl

theorem fin_main_v97 : afterS stages V0 (Proc.devRef .tc main_v97) = res_main_v97 V0 := by
  rw [fin_of 21 ops22 rfl V0 main_v97 (by decide)]; simp only [ops22]; after_results_simp
  simp only [at_of 21 (fin_main_v93 V0) (by decide)]; rfl

theorem fin_main_c_13 : afterS stages V0 (Proc.devRef .tc main_c_13) = res_main_c_13 V0 := by
  rw [fin_of 22 ops23 rfl V0 main_c_13 (by decide)]; simp only [ops23]; after_results_simp; rfl

theorem fin_main_call5_v5 : afterS stages V0 (Proc.devRef .tc main_call5_v5) = res_main_call5_v5 V0 := by
  rw [fin_of 22 ops23 rfl V0 main_call5_v5 (by decide)]; simp only [ops23]; after_results_simp
  simp only [at_of 22 (fin_main_v93 V0) (by decide)]; rfl

theorem fin_main_v98 : afterS stages V0 (Proc.devRef .tc main_v98) = res_main_v98 V0 := by
  rw [fin_of 23 ops24 rfl V0 main_v98 (by decide)]; simp only [ops24]; after_results_simp
  simp only [at_of 23 (fin_main_c_13 V0) (by decide), at_of 23 (fin_main_call5_v5 V0) (by decide)]; rfl

theorem fin_main_v100 : afterS stages V0 (Proc.devRef .tc main_v100) = res_main_v100 V0 := by
  rw [fin_of 24 ops25 rfl V0 main_v100 (by decide)]; simp only [ops25]; after_results_simp
  simp only [at_of 24 (fin_main_v93 V0) (by decide), at_of 24 (fin_main_v97 V0) (by decide)]; rfl

theorem fin_main_v102 : afterS stages V0 (Proc.devRef .tc main_v102) = res_main_v102 V0 := by
  rw [fin_of 24 ops25 rfl V0 main_v102 (by decide)]; simp only [ops25]; after_results_simp
  simp only [at_of 24 (fin_main_v98 V0) (by decide)]; rfl

theorem fin_main_v111 : afterS stages V0 (Proc.devRef .tc main_v111) = res_main_v111 V0 := by
  rw [fin_of 25 ops26 rfl V0 main_v111 (by decide)]; simp only [ops26]; after_results_simp
  simp only [at_of 25 (fin_main_v100 V0) (by decide), at_of 25 (fin_main_v102 V0) (by decide), at_arg 25 V0 main_arg16 (by decide), at_arg 25 V0 main_arg17 (by decide)]; rfl

theorem fin_main_v118 : afterS stages V0 (Proc.devRef .tc main_v118) = res_main_v118 V0 := by
  rw [fin_of 26 ops27 rfl V0 main_v118 (by decide)]; simp only [ops27]; after_results_simp
  simp only [at_of 26 (fin_main_v92 V0) (by decide), at_arg 26 V0 main_arg18 (by decide), at_arg 26 V0 main_arg19 (by decide)]; rfl

theorem fin_main_v125 : afterS stages V0 (Proc.devRef .tc main_v125) = res_main_v125 V0 := by
  rw [fin_of 27 ops28 rfl V0 main_v125 (by decide)]; simp only [ops28]; after_results_simp
  simp only [at_of 27 (fin_main_v118 V0) (by decide), at_arg 27 V0 main_arg20 (by decide), at_arg 27 V0 main_arg21 (by decide)]; rfl

end Cert.ReferenceIdeal.Hand

end
-- ==== Proof.Ref.Run.lean ====
import proofs.«137432_j14851996910240_2_alg».proof.Proof.Ref.Fold

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def win0 : List (HloOp τ sig (Elt F)) := (stages.take 8).flatten
def win1 : List (HloOp τ sig (Elt F)) := ((stages.drop 8).take 17).flatten
def win2 : List (HloOp τ sig (Elt F)) := ((stages.drop 8).drop 17).flatten

theorem ops_wins : (ops : List (HloOp τ sig (Elt F))) = win0 ++ (win1 ++ win2) := by
  have h : (win1 ++ win2 : List (HloOp τ sig (Elt F))) = (stages.drop 8).flatten := by
    unfold win1 win2; rw [← List.flatten_append, List.take_append_drop]
  rw [h]; unfold win0 ops; rw [← List.flatten_append, List.take_append_drop]

theorem win0_eq (c : Dev nD) : main_part0 (F := F) c = seq win0 := by
  simp only [main_part0, fn_relu.body, fn_where.body, bind_assoc, pure_bind]
  rfl

theorem win1_eq (c : Dev nD) : main_part1 (F := F) c = seq win1 := by
  simp only [main_part1, fn_var.body, fn_where_0.body, bind_assoc, pure_bind]
  rfl

theorem win2_eq (c : Dev nD) : main_part2 (F := F) c = seq win2 := by
  simp only [main_part2, fn_relu.body, bind_assoc, pure_bind]
  rfl

theorem main_eq (c : Dev nD) : main (F := F) c = seq ops := by
  rw [ops_wins, seq_append win0 (win1 ++ win2), seq_append win1 win2, ← win0_eq c, ← win1_eq c, ← win2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_ok : StageOk (ops : List (HloOp τ sig (Elt F))) := StageOk.flatten stages_ok

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_ok.1) m ρ (fun _ => ops_ok.2)

theorem after_ops (V0 : Valuation τ sig (Elt F)) : after ops V0 = afterS stages V0 :=
  (afterS_flatten stages V0).symm

theorem run_res (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v125) = res_main_v125 (launchContents m c)
      ∧ r.2.mem ((c.tc : Thread nD τ).loc main_v111) = res_main_v111 (launchContents m c)
      ∧ r.2.mem ((c.tc : Thread nD τ).loc main_v31) = res_main_v31 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    have A (b : Ref sig .tc) {v} (hv : afterS stages (launchContents m c) (Proc.devRef .tc b) = v) :
        r.2.mem ((c.tc : Thread nD τ).loc b) = v := (h c b).trans ((congrFun (after_ops _) _).trans hv)
    have B (b : Ref sig .tc) (hb : b ∉ stagesW.flatten) : r.2.mem ((c.tc : Thread nD τ).loc b) = m ((c.tc : Thread nD τ).loc b) :=
      A b (fin_arg _ b hb)
    ⟨A _ (fin_main_v125 _), A _ (fin_main_v111 _), A _ (fin_main_v31 _), B main_arg0 (by decide), B main_arg1 (by decide), B main_arg2 (by decide), B main_arg3 (by decide), B main_arg4 (by decide), B main_arg5 (by decide), B main_arg6 (by decide), B main_arg7 (by decide), B main_arg8 (by decide), B main_arg9 (by decide), B main_arg10 (by decide), B main_arg11 (by decide), B main_arg12 (by decide), B main_arg13 (by decide), B main_arg14 (by decide), B main_arg15 (by decide), B main_arg16 (by decide), B main_arg17 (by decide), B main_arg18 (by decide), B main_arg19 (by decide), B main_arg20 (by decide), B main_arg21 (by decide)⟩)
    (run_main m ρ)

end Cert.ReferenceIdeal.Hand

end
-- ==== Proof.Ref.Value.lean ====
import proofs.«137432_j14851996910240_2_alg».proof.Proof.Ref.Value1
import proofs.«137432_j14851996910240_2_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v125) = arrBD (xdR (inputsOf m c))
      ∧ r.2.mem ((c.tc : Thread nD τ).loc main_v111) = arrBD (x2R (inputsOf m c))
      ∧ r.2.mem ((c.tc : Thread nD τ).loc main_v31) = arrBD (explain (inputsOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run (defs (F := Ideal)) _ _).mono (fun r h c => by
    obtain ⟨h1, h2, h3, hrest⟩ := h c
    exact ⟨h1.trans (res_main_v125_eq m c), h2.trans (res_main_v111_eq m c), h3.trans (res_main_v31_eq m c), hrest⟩)
    (run_res (F := Ideal) m ρ)

end Cert.ReferenceIdeal.Hand

end
-- ==== Proof.SpecLaw.lean ====
import proofs.«137432_j14851996910240_2_alg».proof.Proof.Spec
import Mathlib.Data.EReal.Inv
import Mathlib.Data.Finset.Fold
import Mathlib.Algebra.BigOperators.Group.Finset.Basic
import Mathlib.Algebra.BigOperators.Ring.Finset
import Mathlib.Algebra.Order.BigOperators.Group.Finset
import Mathlib.Analysis.Complex.Exponential
import Mathlib.Tactic.Ring
import Mathlib.Tactic.FieldSimp
import Mathlib.Tactic.NormNum

noncomputable section

namespace Cert.Spec

open Idealize.ShloMosaic
open scoped BigOperators

def IsReal (x : EReal) : Prop := ∃ z : ℝ, x = z

def IsPos (x : EReal) : Prop := ∃ z : ℝ, 0 < z ∧ x = z

def MatReal {a b : ℕ} (M : Mat a b) : Prop := ∀ r j, IsReal (M r j)

def RowReal {b : ℕ} (v : Row b) : Prop := ∀ j, IsReal (v j)

theorem coe_sum {ι : Type} (s : Finset ι) (g : ι → ℝ) :
    ∑ i ∈ s, (g i : EReal) = ((∑ i ∈ s, g i : ℝ) : EReal) := by
  classical
  refine Finset.induction_on s ?_ ?_
  · rw [Finset.sum_empty, Finset.sum_empty]; rfl
  · intro a s ha ih
    rw [Finset.sum_insert ha, Finset.sum_insert ha, ih, EReal.coe_add]

namespace IsReal

theorem zero : IsReal 0 := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem sum {ι : Type} (s : Finset ι) (f : ι → EReal) (h : ∀ i ∈ s, IsReal (f i)) :
    IsReal (∑ i ∈ s, f i) :=
  Finset.sum_induction f IsReal (fun _ _ => add) zero h

end IsReal

theorem isReal_relu {x : EReal} (hx : IsReal x) : IsReal (relu x) := by
  unfold relu
  rcases max_choice x 0 with h | h <;> rw [h]
  · exact hx
  · exact IsReal.zero

theorem isReal_logistic {x : EReal} (hx : IsReal x) : IsReal (Ideal.logistic x) := by
  obtain ⟨a, rfl⟩ := hx; exact ⟨_, Ideal.logistic_coe a⟩

theorem isReal_gate {t : EReal} (ht : IsReal t) : IsReal (gate t) := by
  unfold gate
  split
  · exact isReal_logistic ht
  · exact IsReal.zero

theorem matReal_lin {n : ℕ} {x : Mat n 2048} {W : Mat 2048 2048} {b : Row 2048}
    (hx : MatReal x) (hW : MatReal W) (hb : RowReal b) : MatReal (lin x W b) := by
  intro r j
  show IsReal ((∑ k : Fin 2048, x r k * W j k) + b j)
  exact (IsReal.sum _ _ fun k _ => (hx r k).mul (hW j k)).add (hb j)

theorem matReal_resblock {n : ℕ} {x : Mat n 2048} {W : Mat 2048 2048} {b : Row 2048}
    (hx : MatReal x) (hW : MatReal W) (hb : RowReal b) : MatReal (resblock x W b) := by
  intro r j
  show IsReal (x r j + relu (lin x W b r j))
  exact (hx r j).add (isReal_relu (matReal_lin hx hW hb r j))

theorem matReal_sAsig {a : Mat 4096 2048} {W : Mat 2048 2048} {b : Row 2048}
    (ha : MatReal a) (hW : MatReal W) (hb : RowReal b) : MatReal (sAsig a W b) := by
  intro r j
  show IsReal (Ideal.logistic (resblock a W b r j))
  exact isReal_logistic (matReal_resblock ha hW hb r j)

theorem matReal_sTsel {inp : Mat 4096 2048} {W : Mat 2048 2048} {b : Row 2048}
    (hi : MatReal inp) (hW : MatReal W) (hb : RowReal b) : MatReal (sTsel inp W b) := by
  intro r j
  show IsReal (relu (lin inp W b r j))
  exact isReal_relu (matReal_lin hi hW hb r j)

theorem matReal_sX0 {inp t asig : Mat 4096 2048}
    (hi : MatReal inp) (ht : MatReal t) (ha : MatReal asig) : MatReal (sX0 inp t asig) := by
  intro r j
  show IsReal ((inp r j + inp r j * gate (t r j)) * asig r j)
  exact ((hi r j).add ((hi r j).mul (isReal_gate (ht r j)))).mul (ha r j)

theorem matReal_sLogits {q k : Mat 4096 2048} (hq : MatReal q) (hk : MatReal k) : MatReal (sLogits q k) := by
  intro i j
  show IsReal (∑ r : Fin 4096, q r i * k r j)
  exact IsReal.sum _ _ fun r _ => (hq r i).mul (hk r j)

theorem fold_max_bot_or_real {ι : Type} (s : Finset ι) (f : ι → EReal) (h : ∀ i ∈ s, IsReal (f i)) :
    s.fold max ⊥ f = ⊥ ∨ IsReal (s.fold max ⊥ f) := by
  classical
  revert h
  refine Finset.induction_on s ?_ ?_
  · intro _; left; exact Finset.fold_empty
  · intro a s ha ih h
    rw [Finset.fold_insert ha]
    rcases max_choice (f a) (s.fold max ⊥ f) with e | e <;> rw [e]
    · right; exact h a (Finset.mem_insert_self a s)
    · exact ih fun i hi => h i (Finset.mem_insert_of_mem hi)

theorem isReal_rowmax {L : Mat 2048 2048} (hL : MatReal L) (i : Fin 2048) : IsReal (rowmax L i) := by
  unfold rowmax
  have hlt : (⊥ : EReal) < (Finset.univ : Finset (Fin 2048)).fold max ⊥ (fun j => L i j) := by
    rw [Finset.lt_fold_max]
    right
    refine ⟨0, Finset.mem_univ _, ?_⟩
    obtain ⟨z, hz⟩ := hL i 0
    rw [hz]; exact EReal.bot_lt_coe z
  rw [max_eq_right bot_le]
  rcases fold_max_bot_or_real Finset.univ (fun j => L i j) (fun j _ => hL i j) with e | e
  · rw [e] at hlt; exact absurd hlt (lt_irrefl _)
  · exact e

theorem isPos_softmaxNum {L : Mat 2048 2048} (hL : MatReal L) (i j : Fin 2048) : IsPos (softmaxNum L i j) := by
  obtain ⟨a, ha⟩ := hL i j
  obtain ⟨m, hm⟩ := isReal_rowmax hL i
  refine ⟨Real.exp (a - m), Real.exp_pos _, ?_⟩
  show Ideal.exp (L i j - rowmax L i) = _
  rw [ha, hm, ← EReal.coe_sub, Ideal.exp_coe]

theorem matReal_softmax {L : Mat 2048 2048} (hL : MatReal L) : MatReal (softmax L) := by
  intro i j
  choose g hg0 hg using fun j' => isPos_softmaxNum hL i j'
  have hsum : (∑ j' : Fin 2048, softmaxNum L i j') = ((∑ j' : Fin 2048, g j' : ℝ) : EReal) := by
    rw [← coe_sum]; exact Finset.sum_congr rfl fun j' _ => hg j'
  have hpos : (0 : ℝ) < ∑ j' : Fin 2048, g j' := Finset.sum_pos (fun j' _ => hg0 j') Finset.univ_nonempty
  show IsReal (Ideal.div (softmaxNum L i j) (∑ j' : Fin 2048, softmaxNum L i j'))
  rw [hsum, Ideal.div_coe hpos.ne', hg j]
  exact ⟨_, (EReal.coe_mul _ _).symm⟩

theorem matReal_sTimes {z : Mat 4096 2048} {A : Mat 2048 2048} (hz : MatReal z) (hA : MatReal A) :
    MatReal (sTimes z A) := by
  intro r j
  show IsReal (∑ i : Fin 2048, z r i * A i j)
  exact IsReal.sum _ _ fun i _ => (hz r i).mul (hA i j)

theorem matReal_sY {base z : Mat 4096 2048} {A W : Mat 2048 2048} {b : Row 2048}
    (hbase : MatReal base) (hz : MatReal z) (hA : MatReal A) (hW : MatReal W) (hb : RowReal b) :
    MatReal (sY base z A W b) := by
  intro r j
  show IsReal (base r j + lin (sTimes z A) W b r j)
  exact (hbase r j).add (matReal_lin (matReal_sTimes hz hA) hW hb r j)

theorem matReal_y (I : Inputs) (h : I.Finite) : MatReal (y1 I) ∧ MatReal (y2 I) := by
  obtain ⟨hinput, ha, hrb1W, hrb1b, hrb2W, hrb2b, hselW, hselb, hqW, hqb, hkW, hkb, hv1W, hv1b, hv2W, hv2b,
    -, -, -, -, -, -⟩ := h
  have hasig : MatReal (asig I) := matReal_sAsig ha hrb2W hrb2b
  have htsel : MatReal (tsel I) := matReal_sTsel hinput hselW hselb
  have hxres : MatReal (xres I) := matReal_resblock (matReal_sX0 hinput htsel hasig) hrb1W hrb1b
  have hq : MatReal (q I) := matReal_lin hxres hqW hqb
  have hk : MatReal (kk I) := matReal_lin hasig hkW hkb
  have hattn : MatReal (attn I) := matReal_softmax (matReal_sLogits hq hk)
  exact ⟨matReal_sY hxres hq hattn hv1W hv1b, matReal_sY hasig hk hattn hv2W hv2b⟩

theorem nB_eq : nB = ((4096 : ℝ) : EReal) := by
  simp [nB, Ideal.ofBits, Ideal.ieee, -EReal.coe_mul]; norm_num

theorem real_var_identity {ι : Type} (s : Finset ι) (w : ι → ℝ) (N : ℝ) (hN : N ≠ 0) (hc : (s.card : ℝ) = N) :
    (∑ i ∈ s, w i * w i) * (1 / N) - (∑ i ∈ s, w i) * (1 / N) * ((∑ i ∈ s, w i) * (1 / N))
      = (∑ i ∈ s, (w i - (∑ i ∈ s, w i) * (1 / N)) * (w i - (∑ i ∈ s, w i) * (1 / N))) * (1 / N) := by
  have key : ∀ m : ℝ, ∑ i ∈ s, (w i - m) * (w i - m)
      = (∑ i ∈ s, w i * w i) - 2 * m * (∑ i ∈ s, w i) + N * (m * m) := by
    intro m
    have e : ∀ i ∈ s, (w i - m) * (w i - m) = w i * w i - 2 * m * w i + m * m := fun i _ => by ring
    rw [Finset.sum_congr rfl e, Finset.sum_add_distrib, Finset.sum_sub_distrib, ← Finset.mul_sum,
      Finset.sum_const, nsmul_eq_mul, hc]
  rw [key]
  field_simp
  ring

theorem varK_eq_varR {y : Mat 4096 2048} (hy : MatReal y) : varK y = varR y := by
  funext j
  choose w hw using fun r => hy r j
  have h4 : (4096 : ℝ) ≠ 0 := by norm_num
  have hS : colSum y j = ((∑ r : Fin 4096, w r : ℝ) : EReal) := by
    show (∑ r : Fin 4096, y r j) = _
    rw [← coe_sum]; exact Finset.sum_congr rfl fun r _ => hw r
  have hQ : colSumSq y j = ((∑ r : Fin 4096, w r * w r : ℝ) : EReal) := by
    show (∑ r : Fin 4096, y r j * y r j) = _
    rw [← coe_sum]; exact Finset.sum_congr rfl fun r _ => by rw [hw r, EReal.coe_mul]
  have hM : colMean y j = (((∑ r : Fin 4096, w r) * (1 / 4096) : ℝ) : EReal) := by
    show Ideal.div (colSum y j) nB = _
    rw [hS, nB_eq, Ideal.div_coe h4, ← EReal.coe_mul]
  have hD : (∑ r : Fin 4096, (y r j - colMean y j) * (y r j - colMean y j))
      = ((∑ r : Fin 4096, (w r - (∑ r : Fin 4096, w r) * (1 / 4096))
            * (w r - (∑ r : Fin 4096, w r) * (1 / 4096)) : ℝ) : EReal) := by
    rw [← coe_sum]
    exact Finset.sum_congr rfl fun r _ => by rw [hw r, hM, ← EReal.coe_sub, ← EReal.coe_mul]
  have hc : (((Finset.univ : Finset (Fin 4096)).card : ℕ) : ℝ) = 4096 := by
    rw [Finset.card_univ, Fintype.card_fin]; norm_num
  show Ideal.div (colSumSq y j) nB - colMean y j * colMean y j
     = Ideal.div (∑ r : Fin 4096, (y r j - colMean y j) * (y r j - colMean y j)) nB
  rw [hD, hQ, hM, nB_eq, Ideal.div_coe h4, Ideal.div_coe h4, ← EReal.coe_mul, ← EReal.coe_mul, ← EReal.coe_mul,
    ← EReal.coe_sub]
  exact congrArg _ (real_var_identity Finset.univ w 4096 h4 hc)

theorem xdK_eq_xdR (I : Inputs) (h : I.Finite) : xdK I = xdR I := by
  unfold xdK xdR
  rw [varK_eq_varR (matReal_y I h).1]

theorem x2K_eq_x2R (I : Inputs) (h : I.Finite) : x2K I = x2R I := by
  unfold x2K x2R
  rw [varK_eq_varR (matReal_y I h).2]

end Cert.Spec

end
-- ==== Proof.Pre.lean ====
import proofs.«137432_j14851996910240_2_alg».proof.Defs
import proofs.«137432_j14851996910240_2_alg».proof.Proof.KI.Inputs
import Idealize.ShloMosaic.Lib.ReduceAll
import Idealize.ShloMosaic.Lib.ValueIdx

noncomputable section

namespace Cert.KernelIdeal.Hand

open Idealize.ShloMosaic Idealize.SL.Sem Idealize.ShloMosaic.ValueIdx
open Cert.KernelIdeal Cert.Spec

instance : Subsingleton Cert.Pre_finite_inputs.S_.Idx := ⟨fun a b => funext fun d => d.elim0⟩

theorem real_of_abs_lt_top (x : EReal)
    (h : Ideal.cmp .olt (max x (-x)) (Ideal.ofBits .f32 0x7F800000#32) = 1#1) : ∃ z : ℝ, x = z := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

theorem entries_real {s : Shape} {axes : List (Fin s.rank)} (x : FVec Ideal s .f32)
    (bc : Cert.Pre_finite_inputs.S_.BroadcastsInDim s (![] : Fin 0 → Fin s.rank))
    (init : IVec Cert.Pre_finite_inputs.S_ 1) (hr : s.ReducesTo axes Cert.Pre_finite_inputs.S_) (hu : 0 < Cert.Pre_finite_inputs.S_.numel)
    (e : Host.reduce IntOp.andi
          (cmpf .olt (Host.absf x) (broadcastInDim s ![] bc (constant Cert.Pre_finite_inputs.S_ .f32 0x7F800000#32))) init hr hu ix0 = 1#1)
    (i : s.Idx) : ∃ z : ℝ, x i = z :=
  real_of_abs_lt_top (x i) (Host.reduce_andi_all _ init hr hu ix0 e i)

theorem finite_of_pre [hP : Cert.Pre_finite_inputs.Facts] (m : (ℓ : Loc nD τ sig) → Buf (Elt Ideal) ℓ)
    (h : Cert.Pre_KernelIdeal m) (c : Dev nD) : (inputsOf m c).Finite := by
  have e := congrFun (h c) ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6, Idealize.ShloMosaic.andi] at e
  simp only [IntOp.andi_eq_one] at e
  obtain ⟨⟨⟨⟨⟨⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩, e17⟩, e18⟩, e19⟩, e20⟩, e21⟩ := e
  exact ⟨fun r j => entries_real _ _ _ _ _ e0 (ix2 r j),
    fun r j => entries_real _ _ _ _ _ e1 (ix2 r j),
    fun r j => entries_real _ _ _ _ _ e2 (ix2 r j),
    fun j => entries_real _ _ _ _ _ e3 (ix1 j),
    fun r j => entries_real _ _ _ _ _ e4 (ix2 r j),
    fun j => entries_real _ _ _ _ _ e5 (ix1 j),
    fun r j => entries_real _ _ _ _ _ e6 (ix2 r j),
    fun j => entries_real _ _ _ _ _ e7 (ix1 j),
    fun r j => entries_real _ _ _ _ _ e8 (ix2 r j),
    fun j => entries_real _ _ _ _ _ e9 (ix1 j),
    fun r j => entries_real _ _ _ _ _ e10 (ix2 r j),
    fun j => entries_real _ _ _ _ _ e11 (ix1 j),
    fun r j => entries_real _ _ _ _ _ e12 (ix2 r j),
    fun j => entries_real _ _ _ _ _ e13 (ix1 j),
    fun r j => entries_real _ _ _ _ _ e14 (ix2 r j),
    fun j => entries_real _ _ _ _ _ e15 (ix1 j),
    fun j => entries_real _ _ _ _ _ e16 (ix1 j),
    fun j => entries_real _ _ _ _ _ e17 (ix1 j),
    fun r j => entries_real _ _ _ _ _ e18 (ix2 r j),
    fun j => entries_real _ _ _ _ _ e19 (ix1 j),
    fun r j => entries_real _ _ _ _ _ e20 (ix2 r j),
    fun j => entries_real _ _ _ _ _ e21 (ix1 j)⟩

end Cert.KernelIdeal.Hand

end
-- ==== Proof.lean ====
import proofs.«137432_j14851996910240_2_alg».proof.Defs
import proofs.«137432_j14851996910240_2_alg».proof.Proof.Gen.Kernel
import proofs.«137432_j14851996910240_2_alg».proof.Proof.Gen.KernelIdeal
import proofs.«137432_j14851996910240_2_alg».proof.Proof.Gen.ReferenceIdeal
import proofs.«137432_j14851996910240_2_alg».proof.Proof.Gen.Pre_finite_inputs
import proofs.«137432_j14851996910240_2_alg».proof.Proof.K.Run
import proofs.«137432_j14851996910240_2_alg».proof.Proof.KI.Value
import proofs.«137432_j14851996910240_2_alg».proof.Proof.Ref.Value
import proofs.«137432_j14851996910240_2_alg».proof.Proof.SpecLaw
import proofs.«137432_j14851996910240_2_alg».proof.Proof.Pre
import Idealize.ShloMosaic.Adequacy
import Idealize.ShloMosaic.Init

noncomputable section

namespace Cert.Proof

open Idealize.ShloMosaic Idealize.SL.Sem
open Cert.Spec

theorem frame_k : Cert.frame_Kernel :=
  fun m ρ _ => Cert.Kernel.Hand.frame m ρ

theorem frame_ki : Cert.frame_KernelIdeal :=
  fun m ρ _ => Cert.KernelIdeal.Hand.frame m ρ

theorem frame_ri : Cert.frame_ReferenceIdeal :=
  fun m ρ _ => (θ_run Cert.ReferenceIdeal.defs _ _).mono (fun _ h c => (h c).2.2.2) (Cert.ReferenceIdeal.Hand.run m ρ)

-- the kernel's variance is mean of squares minus squared mean, the reference's mean of squared deviations: equal on the reals the precondition gives
theorem algebraic : Cert.algebraic_KernelIdeal_ReferenceIdeal := by
  intro m ρ m' ρ' hpre hagree
  refine ⟨fun c => arrBD (xdK (Cert.KernelIdeal.Hand.inputsOf m c)), fun c => arrBD (x2K (Cert.KernelIdeal.Hand.inputsOf m c)),
    fun c => arrBD (explain (Cert.KernelIdeal.Hand.inputsOf m c)), Cert.KernelIdeal.Hand.kernel_run m ρ, ?_⟩
  refine (θ_run Cert.ReferenceIdeal.defs _ _).mono (fun r h c => ?_) (Cert.ReferenceIdeal.Hand.run m' ρ')
  obtain ⟨a0, a1, a2, a3, a4, a5, a6, a7, a8, a9, a10, a11, a12, a13, a14, a15, a16, a17, a18, a19, a20, a21⟩ := hagree c
  have hI : Cert.ReferenceIdeal.Hand.inputsOf m' c = Cert.KernelIdeal.Hand.inputsOf m c := by
    unfold Cert.ReferenceIdeal.Hand.inputsOf Cert.KernelIdeal.Hand.inputsOf
    rw [a0, a1, a2, a3, a4, a5, a6, a7, a8, a9, a10, a11, a12, a13, a14, a15, a16, a17, a18, a19, a20, a21]
  have hfin := Cert.KernelIdeal.Hand.finite_of_pre m hpre c
  obtain ⟨r0, r1, r2, rest⟩ := h c
  refine ⟨?_, ?_, ?_, rest⟩
  · rw [r0, hI]; exact congrArg arrBD (xdK_eq_xdR _ hfin).symm
  · rw [r1, hI]; exact congrArg arrBD (x2K_eq_x2R _ hfin).symm
  · rw [r2, hI]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
